-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v176)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v176) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x16x16 : Shape := ⟨4, ![64, 256, 16, 16]⟩
abbrev S512x256x4x4 : Shape := ⟨4, ![512, 256, 4, 4]⟩
abbrev S256 : Shape := ⟨1, ![256]⟩
abbrev S_ : Shape := ⟨0, ![]⟩

class Facts : Prop where
  bcast_S_S64x256x16x16 : S_.BroadcastsInDim S64x256x16x16 (![] : Fin 0 → Fin S64x256x16x16.rank)
  reducesTo_S64x256x16x16_S_d0_1_2_3 : S64x256x16x16.ReducesTo [0, 1, 2, 3] S_
  h_S_ : 0 < S_.numel
  bcast_S_S512x256x4x4 : S_.BroadcastsInDim S512x256x4x4 (![] : Fin 0 → Fin S512x256x4x4.rank)
  reducesTo_S512x256x4x4_S_d0_1_2_3 : S512x256x4x4.ReducesTo [0, 1, 2, 3] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S64x256x16x16 .f32) (main_arg1 : FVec F S512x256x4x4 .f32) (main_arg2 : FVec F S512x256x4x4 .f32) (main_arg3 : FVec F S256 .f32) (main_arg4 : FVec F S256 .f32) : IVec S_ 1 :=
  let main_v0 : FVec F S64x256x16x16 .f32 := Host.absf main_arg0
  let main_cst : FVec F S_ .f32 := constant S_ .f32 0x7F800000#32
  let main_v1 : FVec F S64x256x16x16 .f32 := broadcastInDim S64x256x16x16 ![] bcast_S_S64x256x16x16 main_cst
  let main_v2 : IVec S64x256x16x16 1 := cmpf .olt main_v0 main_v1
  let main_c : IVec S_ 1 := constantI S_ 1 1#1
  let main_v3 : IVec S_ 1 := (fun x v => Host.reduce IntOp.andi x v reducesTo_S64x256x16x16_S_d0_1_2_3 h_S_) main_v2 main_c
  let main_v4 : FVec F S512x256x4x4 .f32 := Host.absf main_arg1
  let main_cst_0 : FVec F S_ .f32 := constant S_ .f32 0x7F800000#32
  let main_v5 : FVec F S512x256x4x4 .f32 := broadcastInDim S512x256x4x4 ![] bcast_S_S512x256x4x4 main_cst_0
  let main_v6 : IVec S512x256x4x4 1 := cmpf .olt main_v4 main_v5
  let main_c_1 : IVec S_ 1 := constantI S_ 1 1#1
  let main_v7 : IVec S_ 1 := (fun x v => Host.reduce IntOp.andi x v reducesTo_S512x256x4x4_S_d0_1_2_3 h_S_) main_v6 main_c_1
  let main_v8 : IVec S_ 1 := andi main_v3 main_v7
  let main_v9 : FVec F S512x256x4x4 .f32 := Host.absf main_arg2
  let main_cst_2 : FVec F S_ .f32 := constant S_ .f32 0x7F800000#32
  let main_v10 : FVec F S512x256x4x4 .f32 := broadcastInDim S512x256x4x4 ![] bcast_S_S512x256x4x4 main_cst_2
  let main_v11 : IVec S512x256x4x4 1 := cmpf .olt main_v9 main_v10
  let main_c_3 : IVec S_ 1 := constantI S_ 1 1#1
  let main_v12 : IVec S_ 1 := (fun x v => Host.reduce IntOp.andi x v reducesTo_S512x256x4x4_S_d0_1_2_3 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_v13 main_v16
-- ==== Kernel.lean ====
abbrev S64x256x16x16 : Shape := ⟨4, ![64, 256, 16, 16]⟩
abbrev S512x256x4x4 : Shape := ⟨4, ![512, 256, 4, 4]⟩
abbrev S256 : Shape := ⟨1, ![256]⟩
abbrev S64x16x16x256 : Shape := ⟨4, ![64, 16, 16, 256]⟩
abbrev S_ : Shape := ⟨0, ![]⟩
abbrev S64x18x18x256 : Shape := ⟨4, ![64, 18, 18, 256]⟩
abbrev S64x9x2x9x2x256 : Shape := ⟨6, ![64, 9, 2, 9, 2, 256]⟩
abbrev S64x9x9x2x2x256 : Shape := ⟨6, ![64, 9, 9, 2, 2, 256]⟩
abbrev S64x9x9x1024 : Shape := ⟨4, ![64, 9, 9, 1024]⟩
abbrev S4x4x256x512 : Shape := ⟨4, ![4, 4, 256, 512]⟩
abbrev S2x2x2x2x256x512 : Shape := ⟨6, ![2, 2, 2, 2, 256, 512]⟩
abbrev S4096x512 : Shape := ⟨2, ![4096, 512]⟩
abbrev S512x256x1x1 : Shape := ⟨4, ![512, 256, 1, 1]⟩
abbrev S512x256 : Shape := ⟨2, ![512, 256]⟩
abbrev S256x512 : Shape := ⟨2, ![256, 512]⟩
abbrev S256x2048 : Shape := ⟨2, ![256, 2048]⟩
abbrev S1x256x2048 : Shape := ⟨3, ![1, 256, 2048]⟩
abbrev S4x256x2048 : Shape := ⟨3, ![4, 256, 2048]⟩
abbrev S8 : Shape := ⟨1, ![8]⟩
abbrev S8x1 : Shape := ⟨2, ![8, 1]⟩
abbrev S1x8 : Shape := ⟨2, ![1, 8]⟩
abbrev S1x256 : Shape := ⟨2, ![1, 256]⟩
abbrev S8x8 : Shape := ⟨2, ![8, 8]⟩
abbrev S64x1 : Shape := ⟨2, ![64, 1]⟩
abbrev S64x256 : Shape := ⟨2, ![64, 256]⟩
abbrev S1x64x256 : Shape := ⟨3, ![1, 64, 256]⟩
abbrev S4x64x256 : Shape := ⟨3, ![4, 64, 256]⟩
abbrev S64x256x256 : Shape := ⟨3, ![64, 256, 256]⟩
abbrev S64x256x1 : Shape := ⟨3, ![64, 256, 1]⟩
abbrev S8x9x9x1024 : Shape := ⟨4, ![8, 9, 9, 1024]⟩
abbrev S8x256x256 : Shape := ⟨3, ![8, 256, 256]⟩
abbrev S8x256x1 : Shape := ⟨3, ![8, 256, 1]⟩
abbrev S8x10x10x512 : Shape := ⟨4, ![8, 10, 10, 512]⟩
abbrev S8x8x8x1024 : Shape := ⟨4, ![8, 8, 8, 1024]⟩
abbrev S512x1024 : Shape := ⟨2, ![512, 1024]⟩
abbrev S512x4096 : Shape := ⟨2, ![512, 4096]⟩
abbrev S512x512 : Shape := ⟨2, ![512, 512]⟩
abbrev S8x8x8x512 : Shape := ⟨4, ![8, 8, 8, 512]⟩
abbrev S8x8x10x512 : Shape := ⟨4, ![8, 8, 10, 512]⟩
abbrev S512x2048 : Shape := ⟨2, ![512, 2048]⟩
abbrev S256x64 : Shape := ⟨2, ![256, 64]⟩
abbrev S256x256 : Shape := ⟨2, ![256, 256]⟩
abbrev S1x256x256 : Shape := ⟨3, ![1, 256, 256]⟩
abbrev S256x1 : Shape := ⟨2, ![256, 1]⟩
abbrev S1x256x1 : Shape := ⟨3, ![1, 256, 1]⟩
abbrev S64x512x256 : Shape := ⟨3, ![64, 512, 256]⟩
abbrev S8x512x256 : Shape := ⟨3, ![8, 512, 256]⟩
abbrev S64x512x16x16 : Shape := ⟨4, ![64, 512, 16, 16]⟩

abbrev nBuf : Space → Nat
  | .hbm => 212
  | .vmem => 20
  | .smem => 0
  | _ => 0

abbrev hbmTy0_0 (i : Nat) : BufTy := match i % 128 with
  | 0 => ⟨S64x256x16x16, .f32⟩
  | 1 => ⟨S512x256x4x4, .f32⟩
  | 2 => ⟨S512x256x4x4, .f32⟩
  | 3 => ⟨S256, .f32⟩
  | 4 => ⟨S256, .f32⟩
  | 5 => ⟨S64x16x16x256, .f32⟩
  | 6 => ⟨S_, .i32⟩
  | 7 => ⟨S_, .f32⟩
  | 8 => ⟨S64x18x18x256, .f32⟩
  | 9 => ⟨S64x9x2x9x2x256, .f32⟩
  | 10 => ⟨S64x9x9x2x2x256, .f32⟩
  | 11 => ⟨S64x9x9x1024, .f32⟩
  | 12 => ⟨S64x9x9x1024, .bf16⟩
  | 13 => ⟨S4x4x256x512, .f32⟩
  | 14 => ⟨S2x2x2x2x256x512, .f32⟩
  | 15 => ⟨S2x2x2x2x256x512, .f32⟩
  | 16 => ⟨S4096x512, .f32⟩
  | 17 => ⟨S4096x512, .bf16⟩
  | 18 => ⟨S512x256x1x1, .f32⟩
  | 19 => ⟨S512x256, .f32⟩
  | 20 => ⟨S256x512, .f32⟩
  | 21 => ⟨S512x256x1x1, .f32⟩
  | 22 => ⟨S512x256, .f32⟩
  | 23 => ⟨S256x512, .f32⟩
  | 24 => ⟨S512x256x1x1, .f32⟩
  | 25 => ⟨S512x256, .f32⟩
  | 26 => ⟨S256x512, .f32⟩
  | 27 => ⟨S512x256x1x1, .f32⟩
  | 28 => ⟨S512x256, .f32⟩
  | 29 => ⟨S256x512, .f32⟩
  | 30 => ⟨S256x2048, .f32⟩
  | 31 => ⟨S512x256x1x1, .f32⟩
  | 32 => ⟨S512x256, .f32⟩
  | 33 => ⟨S256x512, .f32⟩
  | 34 => ⟨S512x256x1x1, .f32⟩
  | 35 => ⟨S512x256, .f32⟩
  | 36 => ⟨S256x512, .f32⟩
  | 37 => ⟨S512x256x1x1, .f32⟩
  | 38 => ⟨S512x256, .f32⟩
  | 39 => ⟨S256x512, .f32⟩
  | 40 => ⟨S512x256x1x1, .f32⟩
  | 41 => ⟨S512x256, .f32⟩
  | 42 => ⟨S256x512, .f32⟩
  | 43 => ⟨S256x2048, .f32⟩
  | 44 => ⟨S512x256x1x1, .f32⟩
  | 45 => ⟨S512x256, .f32⟩
  | 46 => ⟨S256x512, .f32⟩
  | 47 => ⟨S512x256x1x1, .f32⟩
  | 48 => ⟨S512x256, .f32⟩
  | 49 => ⟨S256x512, .f32⟩
  | 50 => ⟨S512x256x1x1, .f32⟩
  | 51 => ⟨S512x256, .f32⟩
  | 52 => ⟨S256x512, .f32⟩
  | 53 => ⟨S512x256x1x1, .f32⟩
  | 54 => ⟨S512x256, .f32⟩
  | 55 => ⟨S256x512, .f32⟩
  | 56 => ⟨S256x2048, .f32⟩
  | 57 => ⟨S512x256x1x1, .f32⟩
  | 58 => ⟨S512x256, .f32⟩
  | 59 => ⟨S256x512, .f32⟩
  | 60 => ⟨S512x256x1x1, .f32⟩
  | 61 => ⟨S512x256, .f32⟩
  | 62 => ⟨S256x512, .f32⟩
  | 63 => ⟨S512x256x1x1, .f32⟩
  | 64 => ⟨S512x256, .f32⟩
  | 65 => ⟨S256x512, .f32⟩
  | 66 => ⟨S512x256x1x1, .f32⟩
  | 67 => ⟨S512x256, .f32⟩
  | 68 => ⟨S256x512, .f32⟩
  | 69 => ⟨S256x2048, .f32⟩
  | 70 => ⟨S1x256x2048, .f32⟩
  | 71 => ⟨S1x256x2048, .f32⟩
  | 72 => ⟨S1x256x2048, .f32⟩
  | 73 => ⟨S1x256x2048, .f32⟩
  | 74 => ⟨S4x256x2048, .f32⟩
  | 75 => ⟨S4x256x2048, .bf16⟩
  | 76 => ⟨S8, .i32⟩
  | 77 => ⟨S8x1, .i32⟩
  | 78 => ⟨S8, .i32⟩
  | 79 => ⟨S1x8, .i32⟩
  | 80 => ⟨S256, .i32⟩
  | 81 => ⟨S1x256, .i32⟩
  | 82 => ⟨S_, .i32⟩
  | 83 => ⟨S8x1, .i32⟩
  | 84 => ⟨S8x1, .i32⟩
  | 85 => ⟨S_, .i32⟩
  | 86 => ⟨S8x1, .i32⟩
  | 87 => ⟨S8x1, .i32⟩
  | 88 => ⟨S_, .i32⟩
  | 89 => ⟨S8x1, .i32⟩
  | 90 => ⟨S8x1, .i32⟩
  | 91 => ⟨S_, .i32⟩
  | 92 => ⟨S1x8, .i32⟩
  | 93 => ⟨S1x8, .i32⟩
  | 94 => ⟨S_, .i32⟩
  | 95 => ⟨S1x8, .i32⟩
  | 96 => ⟨S1x8, .i32⟩
  | 97 => ⟨S8x8, .i32⟩
  | 98 => ⟨S8x8, .i32⟩
  | 99 => ⟨S8x8, .i32⟩
  | 100 => ⟨S64x1, .i32⟩
  | 101 => ⟨S64x256, .i32⟩
  | 102 => ⟨S64x256, .i32⟩
  | 103 => ⟨S64x256, .i1⟩
  | 104 => ⟨S64x256, .bf16⟩
  | 105 => ⟨S_, .i32⟩
  | 106 => ⟨S8x1, .i32⟩
  | 107 => ⟨S8x1, .i32⟩
  | 108 => ⟨S_, .i32⟩
  | 109 => ⟨S8x1, .i32⟩
  | 110 => ⟨S8x1, .i32⟩
  | 111 => ⟨S_, .i32⟩
  | 112 => ⟨S8x1, .i32⟩
  | 113 => ⟨S8x1, .i32⟩
  | 114 => ⟨S_, .i32⟩
  | 115 => ⟨S1x8, .i32⟩
  | 116 => ⟨S1x8, .i32⟩
  | 117 => ⟨S_, .i32⟩
  | 118 => ⟨S1x8, .i32⟩
  | 119 => ⟨S1x8, .i32⟩
  | 120 => ⟨S8x8, .i32⟩
  | 121 => ⟨S8x8, .i32⟩
  | 122 => ⟨S8x8, .i32⟩
  | 123 => ⟨S64x1, .i32⟩
  | 124 => ⟨S64x256, .i32⟩
  | 125 => ⟨S64x256, .i32⟩
  | 126 => ⟨S64x256, .i1⟩
  | 127 => ⟨S64x256, .bf16⟩
  | _ => ⟨S64x256x16x16, .f32⟩

abbrev hbmTy0_1 (i : Nat) : BufTy := match i % 128 with
  | 0 => ⟨S_, .i32⟩
  | 1 => ⟨S8x1, .i32⟩
  | 2 => ⟨S8x1, .i32⟩
  | 3 => ⟨S_, .i32⟩
  | 4 => ⟨S8x1, .i32⟩
  | 5 => ⟨S8x1, .i32⟩
  | 6 => ⟨S_, .i32⟩
  | 7 => ⟨S8x1, .i32⟩
  | 8 => ⟨S8x1, .i32⟩
  | 9 => ⟨S_, .i32⟩
  | 10 => ⟨S1x8, .i32⟩
  | 11 => ⟨S1x8, .i32⟩
  | 12 => ⟨S_, .i32⟩
  | 13 => ⟨S1x8, .i32⟩
  | 14 => ⟨S1x8, .i32⟩
  | 15 => ⟨S8x8, .i32⟩
  | 16 => ⟨S8x8, .i32⟩
  | 17 => ⟨S8x8, .i32⟩
  | 18 => ⟨S64x1, .i32⟩
  | 19 => ⟨S64x256, .i32⟩
  | 20 => ⟨S64x256, .i32⟩
  | 21 => ⟨S64x256, .i1⟩
  | 22 => ⟨S64x256, .bf16⟩
  | 23 => ⟨S_, .i32⟩
  | 24 => ⟨S8x1, .i32⟩
  | 25 => ⟨S8x1, .i32⟩
  | 26 => ⟨S_, .i32⟩
  | 27 => ⟨S8x1, .i32⟩
  | 28 => ⟨S8x1, .i32⟩
  | 29 => ⟨S_, .i32⟩
  | 30 => ⟨S8x1, .i32⟩
  | 31 => ⟨S8x1, .i32⟩
  | 32 => ⟨S_, .i32⟩
  | 33 => ⟨S1x8, .i32⟩
  | 34 => ⟨S1x8, .i32⟩
  | 35 => ⟨S_, .i32⟩
  | 36 => ⟨S1x8, .i32⟩
  | 37 => ⟨S1x8, .i32⟩
  | 38 => ⟨S8x8, .i32⟩
  | 39 => ⟨S8x8, .i32⟩
  | 40 => ⟨S8x8, .i32⟩
  | 41 => ⟨S64x1, .i32⟩
  | 42 => ⟨S64x256, .i32⟩
  | 43 => ⟨S64x256, .i32⟩
  | 44 => ⟨S64x256, .i1⟩
  | 45 => ⟨S64x256, .bf16⟩
  | 46 => ⟨S1x64x256, .bf16⟩
  | 47 => ⟨S1x64x256, .bf16⟩
  | 48 => ⟨S1x64x256, .bf16⟩
  | 49 => ⟨S1x64x256, .bf16⟩
  | 50 => ⟨S4x64x256, .bf16⟩
  | 51 => ⟨S64x256x256, .bf16⟩
  | 52 => ⟨S64x256x1, .f32⟩
  | 53 => ⟨S64x256x1, .f32⟩
  | 54 => ⟨S64x256, .f32⟩
  | 55 => ⟨S_, .f32⟩
  | 56 => ⟨S256, .f32⟩
  | 57 => ⟨S64x256, .f32⟩
  | 58 => ⟨S_, .f32⟩
  | 59 => ⟨S256, .f32⟩
  | 60 => ⟨S_, .f32⟩
  | 61 => ⟨S256, .f32⟩
  | 62 => ⟨S256, .f32⟩
  | 63 => ⟨S_, .f32⟩
  | 64 => ⟨S256, .f32⟩
  | 65 => ⟨S256, .f32⟩
  | 66 => ⟨S256, .f32⟩
  | 67 => ⟨S256, .f32⟩
  | 68 => ⟨S_, .f32⟩
  | 69 => ⟨S256, .f32⟩
  | 70 => ⟨S256, .f32⟩
  | 71 => ⟨S_, .f32⟩
  | 72 => ⟨S256, .f32⟩
  | 73 => ⟨S256, .f32⟩
  | 74 => ⟨S256, .f32⟩
  | 75 => ⟨S256, .f32⟩
  | 76 => ⟨S256x1, .f32⟩
  | 77 => ⟨S256, .f32⟩
  | 78 => ⟨S256, .f32⟩
  | 79 => ⟨S256, .f32⟩
  | 80 => ⟨S256x1, .f32⟩
  | 81 => ⟨S64x256x256, .f32⟩
  | 82 => ⟨S64x512x256, .f32⟩
  | 83 => ⟨S64x512x16x16, .f32⟩
  | _ => ⟨S64x256x16x16, .f32⟩

abbrev hbmTy (i : Nat) : BufTy := match i / 128 with
  | 0 => hbmTy0_0 i
  | 1 => hbmTy0_1 i
  | _ => ⟨S64x256x16x16, .f32⟩

abbrev bufTy : (tb : Table) → Fin (tcTables nBuf tb) → BufTy
  | .hbm, ⟨i, _⟩ => hbmTy i
  | .local _ .vmem, ⟨0, _⟩ => ⟨S8x9x9x1024, .bf16⟩
  | .local _ .vmem, ⟨1, _⟩ => ⟨S8x9x9x1024, .bf16⟩
  | .local _ .vmem, ⟨2, _⟩ => ⟨S4096x512, .bf16⟩
  | .local _ .vmem, ⟨3, _⟩ => ⟨S4x256x2048, .bf16⟩
  | .local _ .vmem, ⟨4, _⟩ => ⟨S4x64x256, .bf16⟩
  | .local _ .vmem, ⟨5, _⟩ => ⟨S8x256x256, .bf16⟩
  | .local _ .vmem, ⟨6, _⟩ => ⟨S8x256x256, .bf16⟩
  | .local _ .vmem, ⟨7, _⟩ => ⟨S8x256x1, .f32⟩
  | .local _ .vmem, ⟨8, _⟩ => ⟨S8x256x1, .f32⟩
  | .local _ .vmem, ⟨9, _⟩ => ⟨S8x256x1, .f32⟩
  | .local _ .vmem, ⟨10, _⟩ => ⟨S8x256x1, .f32⟩
  | .local _ .vmem, ⟨11, _⟩ => ⟨S8x10x10x512, .bf16⟩
  | .local _ .vmem, ⟨12, _⟩ => ⟨S8x256x256, .f32⟩
  | .local _ .vmem, ⟨13, _⟩ => ⟨S8x256x256, .f32⟩
  | .local _ .vmem, ⟨14, _⟩ => ⟨S8x256x256, .bf16⟩
  | .local _ .vmem, ⟨15, _⟩ => ⟨S8x256x256, .bf16⟩
  | .local _ .vmem, ⟨16, _⟩ => ⟨S256x1, .f32⟩
  | .local _ .vmem, ⟨17, _⟩ => ⟨S256x1, .f32⟩
  | .local _ .vmem, ⟨18, _⟩ => ⟨S8x512x256, .f32⟩
  | .local _ .vmem, ⟨19, _⟩ => ⟨S8x512x256, .f32⟩
  | _, _ => ⟨S64x256x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_c_0 : Ref sig .tc := ⟨.hbm, 82, rfl⟩
abbrev main_v75 : Ref sig .tc := ⟨.hbm, 83, rfl⟩
abbrev main_v76 : Ref sig .tc := ⟨.hbm, 84, rfl⟩
abbrev main_c_1 : Ref sig .tc := ⟨.hbm, 85, rfl⟩
abbrev main_v77 : Ref sig .tc := ⟨.hbm, 86, rfl⟩
abbrev main_v78 : Ref sig .tc := ⟨.hbm, 87, rfl⟩
abbrev main_c_2 : Ref sig .tc := ⟨.hbm, 88, rfl⟩
abbrev main_v79 : Ref sig .tc := ⟨.hbm, 89, rfl⟩
abbrev main_v80 : Ref sig .tc := ⟨.hbm, 90, rfl⟩
abbrev main_c_3 : Ref sig .tc := ⟨.hbm, 91, rfl⟩
abbrev main_v81 : Ref sig .tc := ⟨.hbm, 92, rfl⟩
abbrev main_v82 : Ref sig .tc := ⟨.hbm, 93, rfl⟩
abbrev main_c_4 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_c_5 : Ref sig .tc := ⟨.hbm, 105, rfl⟩
abbrev main_v93 : Ref sig .tc := ⟨.hbm, 106, rfl⟩
abbrev main_v94 : Ref sig .tc := ⟨.hbm, 107, rfl⟩
abbrev main_c_6 : Ref sig .tc := ⟨.hbm, 108, rfl⟩
abbrev main_v95 : Ref sig .tc := ⟨.hbm, 109, rfl⟩
abbrev main_v96 : Ref sig .tc := ⟨.hbm, 110, rfl⟩
abbrev main_c_7 : Ref sig .tc := ⟨.hbm, 111, rfl⟩
abbrev main_v97 : Ref sig .tc := ⟨.hbm, 112, rfl⟩
abbrev main_v98 : Ref sig .tc := ⟨.hbm, 113, rfl⟩
abbrev main_c_8 : Ref sig .tc := ⟨.hbm, 114, rfl⟩
abbrev main_v99 : Ref sig .tc := ⟨.hbm, 115, rfl⟩
abbrev main_v100 : Ref sig .tc := ⟨.hbm, 116, rfl⟩
abbrev main_c_9 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_c_10 : Ref sig .tc := ⟨.hbm, 128, rfl⟩
abbrev main_v111 : Ref sig .tc := ⟨.hbm, 129, rfl⟩
abbrev main_v112 : Ref sig .tc := ⟨.hbm, 130, rfl⟩
abbrev main_c_11 : Ref sig .tc := ⟨.hbm, 131, rfl⟩
abbrev main_v113 : Ref sig .tc := ⟨.hbm, 132, rfl⟩
abbrev main_v114 : Ref sig .tc := ⟨.hbm, 133, rfl⟩
abbrev main_c_12 : Ref sig .tc := ⟨.hbm, 134, rfl⟩
abbrev main_v115 : Ref sig .tc := ⟨.hbm, 135, rfl⟩
abbrev main_v116 : Ref sig .tc := ⟨.hbm, 136, rfl⟩
abbrev main_c_13 : Ref sig .tc := ⟨.hbm, 137, rfl⟩
abbrev main_v117 : Ref sig .tc := ⟨.hbm, 138, rfl⟩
abbrev main_v118 : Ref sig .tc := ⟨.hbm, 139, rfl⟩
abbrev main_c_14 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_c_15 : Ref sig .tc := ⟨.hbm, 151, rfl⟩
abbrev main_v129 : Ref sig .tc := ⟨.hbm, 152, rfl⟩
abbrev main_v130 : Ref sig .tc := ⟨.hbm, 153, rfl⟩
abbrev main_c_16 : Ref sig .tc := ⟨.hbm, 154, rfl⟩
abbrev main_v131 : Ref sig .tc := ⟨.hbm, 155, rfl⟩
abbrev main_v132 : Ref sig .tc := ⟨.hbm, 156, rfl⟩
abbrev main_c_17 : Ref sig .tc := ⟨.hbm, 157, rfl⟩
abbrev main_v133 : Ref sig .tc := ⟨.hbm, 158, rfl⟩
abbrev main_v134 : Ref sig .tc := ⟨.hbm, 159, rfl⟩
abbrev main_c_18 : Ref sig .tc := ⟨.hbm, 160, rfl⟩
abbrev main_v135 : Ref sig .tc := ⟨.hbm, 161, rfl⟩
abbrev main_v136 : Ref sig .tc := ⟨.hbm, 162, rfl⟩
abbrev main_c_19 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152_0 : Ref sig .tc := ⟨.hbm, 179, rfl⟩
abbrev main_v152_1 : Ref sig .tc := ⟨.hbm, 180, rfl⟩
abbrev main_v152_2 : Ref sig .tc := ⟨.hbm, 181, rfl⟩
abbrev main_v153 : Ref sig .tc := ⟨.hbm, 182, rfl⟩
abbrev main_cst : Ref sig .tc := ⟨.hbm, 183, rfl⟩
abbrev main_v154 : Ref sig .tc := ⟨.hbm, 184, rfl⟩
abbrev main_v155 : Ref sig .tc := ⟨.hbm, 185, rfl⟩
abbrev main_cst_20 : Ref sig .tc := ⟨.hbm, 186, rfl⟩
abbrev main_v156 : Ref sig .tc := ⟨.hbm, 187, rfl⟩
abbrev main_cst_21 : Ref sig .tc := ⟨.hbm, 188, rfl⟩
abbrev main_v157 : Ref sig .tc := ⟨.hbm, 189, rfl⟩
abbrev main_v158 : Ref sig .tc := ⟨.hbm, 190, rfl⟩
abbrev main_cst_22 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_cst_23 : Ref sig .tc := ⟨.hbm, 196, rfl⟩
abbrev main_v163 : Ref sig .tc := ⟨.hbm, 197, rfl⟩
abbrev main_v164 : Ref sig .tc := ⟨.hbm, 198, rfl⟩
abbrev main_cst_24 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x9x9x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x64x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8x256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x256x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8x512x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  transposes_S64x256x16x16_S64x16x16x256_0_2_3_1 : S64x256x16x16.Transposes [0, 2, 3, 1] S64x16x16x256
  pads_S64x16x16x256_S64x18x18x256_000_110_110_000 : S64x16x16x256.Pads (![0, 1, 1, 0] : Fin 4 → Nat) ![0, 1, 1, 0] ![0, 0, 0, 0] S64x18x18x256
  h_S_ : 0 < S_.numel
  shapeCasts_S64x18x18x256_S64x9x2x9x2x256 : S64x18x18x256.ShapeCasts S64x9x2x9x2x256
  transposes_S64x9x2x9x2x256_S64x9x9x2x2x256_0_1_3_2_4_5 : S64x9x2x9x2x256.Transposes [0, 1, 3, 2, 4, 5] S64x9x9x2x2x256
  shapeCasts_S64x9x9x2x2x256_S64x9x9x1024 : S64x9x9x2x2x256.ShapeCasts S64x9x9x1024
  bitsLt_bf16_f32 : FTy.bits .bf16 < FTy.bits .f32
  transposes_S512x256x4x4_S4x4x256x512_2_3_1_0 : S512x256x4x4.Transposes [2, 3, 1, 0] S4x4x256x512
  shapeCasts_S4x4x256x512_S2x2x2x2x256x512 : S4x4x256x512.ShapeCasts S2x2x2x2x256x512
  transposes_S2x2x2x2x256x512_S2x2x2x2x256x512_0_2_1_3_4_5 : S2x2x2x2x256x512.Transposes [0, 2, 1, 3, 4, 5] S2x2x2x2x256x512
  shapeCasts_S2x2x2x2x256x512_S4096x512 : S2x2x2x2x256x512.ShapeCasts S4096x512
  slices_S512x256x4x4_S512x256x1x1_0_0_3_3 : S512x256x4x4.Slices ![0, 0, 3, 3] S512x256x1x1
  shapeCasts_S512x256x1x1_S512x256 : S512x256x1x1.ShapeCasts S512x256
  transposes_S512x256_S256x512_1_0 : S512x256.Transposes [1, 0] S256x512
  slices_S512x256x4x4_S512x256x1x1_0_0_3_1 : S512x256x4x4.Slices ![0, 0, 3, 1] S512x256x1x1
  slices_S512x256x4x4_S512x256x1x1_0_0_1_3 : S512x256x4x4.Slices ![0, 0, 1, 3] S512x256x1x1
  slices_S512x256x4x4_S512x256x1x1_0_0_1_1 : S512x256x4x4.Slices ![0, 0, 1, 1] S512x256x1x1
  concatenates_S256x512_S256x512_S256x512_S256x512_S256x2048_d1 : Shape.Concatenates [S256x512, S256x512, S256x512, S256x512] S256x2048 1
  slices_S512x256x4x4_S512x256x1x1_0_0_3_2 : S512x256x4x4.Slices ![0, 0, 3, 2] S512x256x1x1
  slices_S512x256x4x4_S512x256x1x1_0_0_3_0 : S512x256x4x4.Slices ![0, 0, 3, 0] S512x256x1x1
  slices_S512x256x4x4_S512x256x1x1_0_0_1_2 : S512x256x4x4.Slices ![0, 0, 1, 2] S512x256x1x1
  slices_S512x256x4x4_S512x256x1x1_0_0_1_0 : S512x256x4x4.Slices ![0, 0, 1, 0] S512x256x1x1
  slices_S512x256x4x4_S512x256x1x1_0_0_2_3 : S512x256x4x4.Slices ![0, 0, 2, 3] S512x256x1x1
  slices_S512x256x4x4_S512x256x1x1_0_0_2_1 : S512x256x4x4.Slices ![0, 0, 2, 1] S512x256x1x1
  slices_S512x256x4x4_S512x256x1x1_0_0_0_3 : S512x256x4x4.Slices ![0, 0, 0, 3] S512x256x1x1
  slices_S512x256x4x4_S512x256x1x1_0_0_0_1 : S512x256x4x4.Slices ![0, 0, 0, 1] S512x256x1x1
  slices_S512x256x4x4_S512x256x1x1_0_0_2_2 : S512x256x4x4.Slices ![0, 0, 2, 2] S512x256x1x1
  slices_S512x256x4x4_S512x256x1x1_0_0_2_0 : S512x256x4x4.Slices ![0, 0, 2, 0] S512x256x1x1
  slices_S512x256x4x4_S512x256x1x1_0_0_0_2 : S512x256x4x4.Slices ![0, 0, 0, 2] S512x256x1x1
  slices_S512x256x4x4_S512x256x1x1_0_0_0_0 : S512x256x4x4.Slices ![0, 0, 0, 0] S512x256x1x1
  bcast_S256x2048_S1x256x2048_1_2 : S256x2048.BroadcastsInDim S1x256x2048 (![1, 2] : Fin 2 → Fin S1x256x2048.rank)
  concatenates_S1x256x2048_S1x256x2048_S1x256x2048_S1x256x2048_S4x256x2048_d0 : Shape.Concatenates [S1x256x2048, S1x256x2048, S1x256x2048, S1x256x2048] S4x256x2048 0
  bcast_S8_S8x1_0 : S8.BroadcastsInDim S8x1 (![0] : Fin 1 → Fin S8x1.rank)
  bcast_S8_S1x8_1 : S8.BroadcastsInDim S1x8 (![1] : Fin 1 → Fin S1x8.rank)
  bcast_S256_S1x256_1 : S256.BroadcastsInDim S1x256 (![1] : Fin 1 → Fin S1x256.rank)
  bcast_S_S8x1 : S_.BroadcastsInDim S8x1 (![] : Fin 0 → Fin S8x1.rank)
  bcast_S_S1x8 : S_.BroadcastsInDim S1x8 (![] : Fin 0 → Fin S1x8.rank)
  bcast_S8x1_S8x8_0_1 : S8x1.BroadcastsInDim S8x8 (![0, 1] : Fin 2 → Fin S8x8.rank)
  bcast_S1x8_S8x8_0_1 : S1x8.BroadcastsInDim S8x8 (![0, 1] : Fin 2 → Fin S8x8.rank)
  shapeCasts_S8x8_S64x1 : S8x8.ShapeCasts S64x1
  bcast_S64x1_S64x256_0_1 : S64x1.BroadcastsInDim S64x256 (![0, 1] : Fin 2 → Fin S64x256.rank)
  bcast_S1x256_S64x256_0_1 : S1x256.BroadcastsInDim S64x256 (![0, 1] : Fin 2 → Fin S64x256.rank)
  bcast_S64x256_S1x64x256_1_2 : S64x256.BroadcastsInDim S1x64x256 (![1, 2] : Fin 2 → Fin S1x64x256.rank)
  concatenates_S1x64x256_S1x64x256_S1x64x256_S1x64x256_S4x64x256_d0 : Shape.Concatenates [S1x64x256, S1x64x256, S1x64x256, S1x64x256] S4x64x256 0
  inb_S8x9x9x1024_S8x9x9x1024_0_0_0_0 : ∀ a, (![0, 0, 0, 0] : Fin 4 → Nat) a + S8x9x9x1024.size a ≤ S8x9x9x1024.size a
  h_S8x9x9x1024 : 0 < S8x9x9x1024.numel
  shapeCasts_S8x9x9x1024_S8x9x9x1024 : S8x9x9x1024.ShapeCasts S8x9x9x1024
  slices_S8x9x9x1024_o0_0_0_0_S8x8x8x1024 : S8x9x9x1024.Slices ![0, 0, 0, 0] S8x8x8x1024
  shapeCasts_S8x8x8x1024_S512x1024 : S8x8x8x1024.ShapeCasts S512x1024
  slices_S8x9x9x1024_o0_0_1_0_S8x8x8x1024 : S8x9x9x1024.Slices ![0, 0, 1, 0] S8x8x8x1024
  slices_S8x9x9x1024_o0_1_0_0_S8x8x8x1024 : S8x9x9x1024.Slices ![0, 1, 0, 0] S8x8x8x1024
  slices_S8x9x9x1024_o0_1_1_0_S8x8x8x1024 : S8x9x9x1024.Slices ![0, 1, 1, 0] S8x8x8x1024
  concatenates_S512x1024_S512x1024_S512x1024_S512x1024_S512x4096_d1 : Shape.Concatenates [S512x1024, S512x1024, S512x1024, S512x1024] S512x4096 1
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S8x10x10x512_S8x10x10x512_0_0_0_0 : ∀ a, (![0, 0, 0, 0] : Fin 4 → Nat) a + S8x10x10x512.size a ≤ S8x10x10x512.size a
  h_S8x10x10x512 : 0 < S8x10x10x512.numel
  shapeCasts_S8x10x10x512_S8x10x10x512 : S8x10x10x512.ShapeCasts S8x10x10x512
  packedbf16_S8x10x10x512_S8x10x10x512_0_0_0_0 : (Rect.unit (s := S8x10x10x512) ![0, 0, 0, 0] S8x10x10x512.size inb_S8x10x10x512_S8x10x10x512_0_0_0_0).PackedRows (EltTy.packing .bf16)
  shapeCasts_S512x512_S8x8x8x512 : S512x512.ShapeCasts S8x8x8x512
  inb_S8x10x10x512_S8x8x8x512_0_1_1_0 : ∀ a, (![0, 1, 1, 0] : Fin 4 → Nat) a + S8x8x8x512.size a ≤ S8x10x10x512.size a
  h_S8x8x8x512 : 0 < S8x8x8x512.numel
  shapeCasts_S8x8x8x512_S8x8x8x512 : S8x8x8x512.ShapeCasts S8x8x8x512
  inb_S8x10x10x512_S8x8x10x512_0_1_0_0 : ∀ a, (![0, 1, 0, 0] : Fin 4 → Nat) a + S8x8x10x512.size a ≤ S8x10x10x512.size a
  h_S8x8x10x512 : 0 < S8x8x10x512.numel
  slices_S8x8x10x512_S8x8x8x512_0_0_1_0 : S8x8x10x512.Slices ![0, 0, 1, 0] S8x8x8x512
  packedbf16_S8x10x10x512_S8x8x10x512_0_1_0_0 : (Rect.unit (s := S8x10x10x512) ![0, 1, 0, 0] S8x8x10x512.size inb_S8x10x10x512_S8x8x10x512_0_1_0_0).PackedRows (EltTy.packing .bf16)
  inb_S8x10x10x512_S8x8x8x512_0_0_0_0 : ∀ a, (![0, 0, 0, 0] : Fin 4 → Nat) a + S8x8x8x512.size a ≤ S8x10x10x512.size a
  shapeCasts_S8x8x8x512_S512x512 : S8x8x8x512.ShapeCasts S512x512
  inb_S8x10x10x512_S8x8x8x512_0_0_1_0 : ∀ a, (![0, 0, 1, 0] : Fin 4 → Nat) a + S8x8x8x512.size a ≤ S8x10x10x512.size a
  inb_S8x10x10x512_S8x8x8x512_0_0_2_0 : ∀ a, (![0, 0, 2, 0] : Fin 4 → Nat) a + S8x8x8x512.size a ≤ S8x10x10x512.size a
  inb_S8x10x10x512_S8x8x8x512_0_1_0_0 : ∀ a, (![0, 1, 0, 0] : Fin 4 → Nat) a + S8x8x8x512.size a ≤ S8x10x10x512.size a
  inb_S8x10x10x512_S8x8x8x512_0_1_2_0 : ∀ a, (![0, 1, 2, 0] : Fin 4 → Nat) a + S8x8x8x512.size a ≤ S8x10x10x512.size a
  inb_S8x10x10x512_S8x8x8x512_0_2_0_0 : ∀ a, (![0, 2, 0, 0] : Fin 4 → Nat) a + S8x8x8x512.size a ≤ S8x10x10x512.size a
  inb_S8x10x10x512_S8x8x8x512_0_2_1_0 : ∀ a, (![0, 2, 1, 0] : Fin 4 → Nat) a + S8x8x8x512.size a ≤ S8x10x10x512.size a
  inb_S8x10x10x512_S8x8x8x512_0_2_2_0 : ∀ a, (![0, 2, 2, 0] : Fin 4 → Nat) a + S8x8x8x512.size a ≤ S8x10x10x512.size a
  concatenates_S512x512_S512x512_S512x512_S512x512_S512x2048_d1 : Shape.Concatenates [S512x512, S512x512, S512x512, S512x512] S512x2048 1
  inb_S4x256x2048_S1x256x2048_0_0_0 : ∀ a, (![0, 0, 0] : Fin 3 → Nat) a + S1x256x2048.size a ≤ S4x256x2048.size a
  h_S1x256x2048 : 0 < S1x256x2048.numel
  shapeCasts_S1x256x2048_S256x2048 : S1x256x2048.ShapeCasts S256x2048
  inb_S4x256x2048_S1x256x2048_1_0_0 : ∀ a, (![1, 0, 0] : Fin 3 → Nat) a + S1x256x2048.size a ≤ S4x256x2048.size a
  inb_S4x256x2048_S1x256x2048_2_0_0 : ∀ a, (![2, 0, 0] : Fin 3 → Nat) a + S1x256x2048.size a ≤ S4x256x2048.size a
  inb_S4x256x2048_S1x256x2048_3_0_0 : ∀ a, (![3, 0, 0] : Fin 3 → Nat) a + S1x256x2048.size a ≤ S4x256x2048.size a
  slices_S256x512_o0_0_S256x64 : S256x512.Slices ![0, 0] S256x64
  inb_S4x64x256_S1x64x256_0_0_0 : ∀ a, (![0, 0, 0] : Fin 3 → Nat) a + S1x64x256.size a ≤ S4x64x256.size a
  h_S1x64x256 : 0 < S1x64x256.numel
  shapeCasts_S1x64x256_S64x256 : S1x64x256.ShapeCasts S64x256
  inb_S4x64x256_S1x64x256_1_0_0 : ∀ a, (![1, 0, 0] : Fin 3 → Nat) a + S1x64x256.size a ≤ S4x64x256.size a
  inb_S4x64x256_S1x64x256_2_0_0 : ∀ a, (![2, 0, 0] : Fin 3 → Nat) a + S1x64x256.size a ≤ S4x64x256.size a
  inb_S4x64x256_S1x64x256_3_0_0 : ∀ a, (![3, 0, 0] : Fin 3 → Nat) a + S1x64x256.size a ≤ S4x64x256.size a
  inb_S8x256x256_S1x256x256_0_0_0 : ∀ a, (![0, 0, 0] : Fin 3 → Nat) a + S1x256x256.size a ≤ S8x256x256.size a
  h_S1x256x256 : 0 < S1x256x256.numel
  shapeCasts_S1x256x256_S256x256 : S1x256x256.ShapeCasts S256x256
  shapeCasts_S256x256_S1x256x256 : S256x256.ShapeCasts S1x256x256
  packedbf16_S8x256x256_S1x256x256_0_0_0 : (Rect.unit (s := S8x256x256) ![0, 0, 0] S1x256x256.size inb_S8x256x256_S1x256x256_0_0_0).PackedRows (EltTy.packing .bf16)
  reduces_S256x256_S256 : S256x256.Reduces [1] S256
  shapeCasts_S256_S256x1 : S256.ShapeCasts S256x1
  inb_S8x256x1_S1x256x1_0_0_0 : ∀ a, (![0, 0, 0] : Fin 3 → Nat) a + S1x256x1.size a ≤ S8x256x1.size a
  h_S1x256x1 : 0 < S1x256x1.numel
  shapeCasts_S1x256x1_S256x1 : S1x256x1.ShapeCasts S256x1
  shapeCasts_S256x1_S1x256x1 : S256x1.ShapeCasts S1x256x1
  slices_S256x512_o0_64_S256x64 : S256x512.Slices ![0, 64] S256x64
  inb_S8x256x256_S1x256x256_1_0_0 : ∀ a, (![1, 0, 0] : Fin 3 → Nat) a + S1x256x256.size a ≤ S8x256x256.size a
  packedbf16_S8x256x256_S1x256x256_1_0_0 : (Rect.unit (s := S8x256x256) ![1, 0, 0] S1x256x256.size inb_S8x256x256_S1x256x256_1_0_0).PackedRows (EltTy.packing .bf16)
  inb_S8x256x1_S1x256x1_1_0_0 : ∀ a, (![1, 0, 0] : Fin 3 → Nat) a + S1x256x1.size a ≤ S8x256x1.size a
  slices_S256x512_o0_128_S256x64 : S256x512.Slices ![0, 128] S256x64
  inb_S8x256x256_S1x256x256_2_0_0 : ∀ a, (![2, 0, 0] : Fin 3 → Nat) a + S1x256x256.size a ≤ S8x256x256.size a
  packedbf16_S8x256x256_S1x256x256_2_0_0 : (Rect.unit (s := S8x256x256) ![2, 0, 0] S1x256x256.size inb_S8x256x256_S1x256x256_2_0_0).PackedRows (EltTy.packing .bf16)
  inb_S8x256x1_S1x256x1_2_0_0 : ∀ a, (![2, 0, 0] : Fin 3 → Nat) a + S1x256x1.size a ≤ S8x256x1.size a
  slices_S256x512_o0_192_S256x64 : S256x512.Slices ![0, 192] S256x64
  inb_S8x256x256_S1x256x256_3_0_0 : ∀ a, (![3, 0, 0] : Fin 3 → Nat) a + S1x256x256.size a ≤ S8x256x256.size a
  packedbf16_S8x256x256_S1x256x256_3_0_0 : (Rect.unit (s := S8x256x256) ![3, 0, 0] S1x256x256.size inb_S8x256x256_S1x256x256_3_0_0).PackedRows (EltTy.packing .bf16)
  inb_S8x256x1_S1x256x1_3_0_0 : ∀ a, (![3, 0, 0] : Fin 3 → Nat) a + S1x256x1.size a ≤ S8x256x1.size a
  slices_S256x512_o0_256_S256x64 : S256x512.Slices ![0, 256] S256x64
  inb_S8x256x256_S1x256x256_4_0_0 : ∀ a, (![4, 0, 0] : Fin 3 → Nat) a + S1x256x256.size a ≤ S8x256x256.size a
  packedbf16_S8x256x256_S1x256x256_4_0_0 : (Rect.unit (s := S8x256x256) ![4, 0, 0] S1x256x256.size inb_S8x256x256_S1x256x256_4_0_0).PackedRows (EltTy.packing .bf16)
  inb_S8x256x1_S1x256x1_4_0_0 : ∀ a, (![4, 0, 0] : Fin 3 → Nat) a + S1x256x1.size a ≤ S8x256x1.size a
  slices_S256x512_o0_320_S256x64 : S256x512.Slices ![0, 320] S256x64
  inb_S8x256x256_S1x256x256_5_0_0 : ∀ a, (![5, 0, 0] : Fin 3 → Nat) a + S1x256x256.size a ≤ S8x256x256.size a
  packedbf16_S8x256x256_S1x256x256_5_0_0 : (Rect.unit (s := S8x256x256) ![5, 0, 0] S1x256x256.size inb_S8x256x256_S1x256x256_5_0_0).PackedRows (EltTy.packing .bf16)
  inb_S8x256x1_S1x256x1_5_0_0 : ∀ a, (![5, 0, 0] : Fin 3 → Nat) a + S1x256x1.size a ≤ S8x256x1.size a
  slices_S256x512_o0_384_S256x64 : S256x512.Slices ![0, 384] S256x64
  inb_S8x256x256_S1x256x256_6_0_0 : ∀ a, (![6, 0, 0] : Fin 3 → Nat) a + S1x256x256.size a ≤ S8x256x256.size a
  packedbf16_S8x256x256_S1x256x256_6_0_0 : (Rect.unit (s := S8x256x256) ![6, 0, 0] S1x256x256.size inb_S8x256x256_S1x256x256_6_0_0).PackedRows (EltTy.packing .bf16)
  inb_S8x256x1_S1x256x1_6_0_0 : ∀ a, (![6, 0, 0] : Fin 3 → Nat) a + S1x256x1.size a ≤ S8x256x1.size a
  slices_S256x512_o0_448_S256x64 : S256x512.Slices ![0, 448] S256x64
  inb_S8x256x256_S1x256x256_7_0_0 : ∀ a, (![7, 0, 0] : Fin 3 → Nat) a + S1x256x256.size a ≤ S8x256x256.size a
  packedbf16_S8x256x256_S1x256x256_7_0_0 : (Rect.unit (s := S8x256x256) ![7, 0, 0] S1x256x256.size inb_S8x256x256_S1x256x256_7_0_0).PackedRows (EltTy.packing .bf16)
  inb_S8x256x1_S1x256x1_7_0_0 : ∀ a, (![7, 0, 0] : Fin 3 → Nat) a + S1x256x1.size a ≤ S8x256x1.size a
  shapeCasts_S64x256x1_S64x256 : S64x256x1.ShapeCasts S64x256
  reducesTo_S64x256_S256_d0 : S64x256.ReducesTo [0] S256
  bcast_S_S256 : S_.BroadcastsInDim S256 (![] : Fin 0 → Fin S256.rank)
  shapeCasts_S64x256x16x16_S64x256x256 : S64x256x16x16.ShapeCasts S64x256x256
  inb_S8x256x256_S8x256x256_0_0_0 : ∀ a, (![0, 0, 0] : Fin 3 → Nat) a + S8x256x256.size a ≤ S8x256x256.size a
  h_S8x256x256 : 0 < S8x256x256.numel
  shapeCasts_S8x256x256_S8x256x256 : S8x256x256.ShapeCasts S8x256x256
  inb_S8x512x256_S8x256x256_0_0_0 : ∀ a, (![0, 0, 0] : Fin 3 → Nat) a + S8x256x256.size a ≤ S8x512x256.size a
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S1x256x1_S8x256x256 : S1x256x1.Broadcasts S8x256x256
  inb_S8x512x256_S8x256x256_0_256_0 : ∀ a, (![0, 256, 0] : Fin 3 → Nat) a + S8x256x256.size a ≤ S8x512x256.size a
  shapeCasts_S64x512x256_S64x512x16x16 : S64x512x256.ShapeCasts S64x512x16x16
  dot_S512x4096_S4096x512_S512x512_1_0_0_1_n_n_wf : DotDims.WF S512x4096 S4096x512 S512x512 [1] [0] [0] [1] [] []
  dot_S256x2048_S512x2048_S256x512_1_1_0_0_n_n_wf : DotDims.WF S256x2048 S512x2048 S256x512 [1] [1] [0] [0] [] []
  dot_S256x64_S64x256_S256x256_1_0_0_1_n_n_wf : DotDims.WF S256x64 S64x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x9x9x1024.size a ≤ S64x9x9x1024.size a
  hwx0_0 : ∀ i : grid0.Coords, EltTy.bits .bf16 = 32 ∨ (Rect.block (s := S64x9x9x1024) S8x9x9x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .bf16 = 32 ∨ (Rect.block (s := S4096x512) S4096x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x256x2048.size a ≤ S4x256x2048.size a
  hwx0_2 : ∀ i : grid0.Coords, EltTy.bits .bf16 = 32 ∨ (Rect.block (s := S4x256x2048) S4x256x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x64x256.size a ≤ S4x64x256.size a
  hwx0_3 : ∀ i : grid0.Coords, EltTy.bits .bf16 = 32 ∨ (Rect.block (s := S4x64x256) S4x64x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x256x256.size a ≤ S64x256x256.size a
  hwx0_4 : ∀ i : grid0.Coords, EltTy.bits .bf16 = 32 ∨ (Rect.block (s := S64x256x256) S8x256x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x256x1.size a ≤ S64x256x1.size a
  hwx0_5 : ∀ i : grid0.Coords, EltTy.bits .f32 = 32 ∨ (Rect.block (s := S64x256x1) S8x256x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x256x1.size a ≤ S64x256x1.size a
  hwx0_6 : ∀ i : grid0.Coords, EltTy.bits .f32 = 32 ∨ (Rect.block (s := S64x256x1) S8x256x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x256x256.size a ≤ S64x256x256.size a
  hwx1_0 : ∀ i : grid1.Coords, EltTy.bits .f32 = 32 ∨ (Rect.block (s := S64x256x256) S8x256x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x256x256.size a ≤ S64x256x256.size a
  hwx1_1 : ∀ i : grid1.Coords, EltTy.bits .bf16 = 32 ∨ (Rect.block (s := S64x256x256) S8x256x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S256x1.size a
  hwx1_2 : ∀ i : grid1.Coords, EltTy.bits .f32 = 32 ∨ (Rect.block (s := S256x1) S256x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x1.size a ≤ S256x1.size a
  hwx1_3 : ∀ i : grid1.Coords, EltTy.bits .f32 = 32 ∨ (Rect.block (s := S256x1) S256x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x512x256.size a ≤ S64x512x256.size a
  hwx1_4 : ∀ i : grid1.Coords, EltTy.bits .f32 = 32 ∨ (Rect.block (s := S64x512x256) S8x512x256.size (cc1_transform_4 i) (hinb1_4 i)).WholeWords (EltTy.packing .f32)

variable [Facts₀]

def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf
def dot_S256x2048_S512x2048_S256x512_1_1_0_0_n_n : DotDims S256x2048 S512x2048 S256x512 where
  lhsContracting := [1]
  rhsContracting := [1]
  lhsNonContracting := [0]
  rhsNonContracting := [0]
  lhsBatch := []
  rhsBatch := []
  wf := dot_S256x2048_S512x2048_S256x512_1_1_0_0_n_n_wf
def dot_S256x64_S64x256_S256x256_1_0_0_1_n_n : DotDims S256x64 S64x256 S256x256 where
  lhsContracting := [1]
  rhsContracting := [0]
  lhsNonContracting := [0]
  rhsNonContracting := [1]
  lhsBatch := []
  rhsBatch := []
  wf := dot_S256x64_S64x256_S256x256_1_0_0_1_n_n_wf

abbrev win0_0 : Pipeline.Window sig grid0 :=
  Pipeline.Window.ofSpec (Memref.whole main_v5) S8x9x9x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v68) S4x256x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v151) S4x64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v152_0) S8x256x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v152_1) S8x256x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v152_2) S8x256x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v174) S8x256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v152_0) S8x256x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v169) S256x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v173) S256x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v175) S8x512x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S64x256x16x16 : Shape := ⟨4, ![64, 256, 16, 16]⟩
abbrev S512x256x4x4 : Shape := ⟨4, ![512, 256, 4, 4]⟩
abbrev S256 : Shape := ⟨1, ![256]⟩
abbrev S64x16x16x256 : Shape := ⟨4, ![64, 16, 16, 256]⟩
abbrev S_ : Shape := ⟨0, ![]⟩
abbrev S64x18x18x256 : Shape := ⟨4, ![64, 18, 18, 256]⟩
abbrev S64x9x2x9x2x256 : Shape := ⟨6, ![64, 9, 2, 9, 2, 256]⟩
abbrev S64x9x9x2x2x256 : Shape := ⟨6, ![64, 9, 9, 2, 2, 256]⟩
abbrev S64x9x9x1024 : Shape := ⟨4, ![64, 9, 9, 1024]⟩
abbrev S4x4x256x512 : Shape := ⟨4, ![4, 4, 256, 512]⟩
abbrev S2x2x2x2x256x512 : Shape := ⟨6, ![2, 2, 2, 2, 256, 512]⟩
abbrev S4x1024x512 : Shape := ⟨3, ![4, 1024, 512]⟩
abbrev S512x256x1x1 : Shape := ⟨4, ![512, 256, 1, 1]⟩
abbrev S512x256 : Shape := ⟨2, ![512, 256]⟩
abbrev S256x512 : Shape := ⟨2, ![256, 512]⟩
abbrev S1x256x512 : Shape := ⟨3, ![1, 256, 512]⟩
abbrev S4x256x512 : Shape := ⟨3, ![4, 256, 512]⟩
abbrev S1x4x256x512 : Shape := ⟨4, ![1, 4, 256, 512]⟩
abbrev S8 : Shape := ⟨1, ![8]⟩
abbrev S8x1 : Shape := ⟨2, ![8, 1]⟩
abbrev S1x8 : Shape := ⟨2, ![1, 8]⟩
abbrev S1x256 : Shape := ⟨2, ![1, 256]⟩
abbrev S8x8 : Shape := ⟨2, ![8, 8]⟩
abbrev S64x1 : Shape := ⟨2, ![64, 1]⟩
abbrev S64x256 : Shape := ⟨2, ![64, 256]⟩
abbrev S1x64x256 : Shape := ⟨3, ![1, 64, 256]⟩
abbrev S4x64x256 : Shape := ⟨3, ![4, 64, 256]⟩
abbrev S64x256x256 : Shape := ⟨3, ![64, 256, 256]⟩
abbrev S64x256x1 : Shape := ⟨3, ![64, 256, 1]⟩
abbrev S1x9x9x1024 : Shape := ⟨4, ![1, 9, 9, 1024]⟩
abbrev S1x256x256 : Shape := ⟨3, ![1, 256, 256]⟩
abbrev S1x256x1 : Shape := ⟨3, ![1, 256, 1]⟩
abbrev S10x10x512 : Shape := ⟨3, ![10, 10, 512]⟩
abbrev S1x8x8x1024 : Shape := ⟨4, ![1, 8, 8, 1024]⟩
abbrev S8x8x1024 : Shape := ⟨3, ![8, 8, 1024]⟩
abbrev S64x1024 : Shape := ⟨2, ![64, 1024]⟩
abbrev S1x1024x512 : Shape := ⟨3, ![1, 1024, 512]⟩
abbrev S1024x512 : Shape := ⟨2, ![1024, 512]⟩
abbrev S64x512 : Shape := ⟨2, ![64, 512]⟩
abbrev S8x8x512 : Shape := ⟨3, ![8, 8, 512]⟩
abbrev S1x1x256x512 : Shape := ⟨4, ![1, 1, 256, 512]⟩
abbrev S256x64 : Shape := ⟨2, ![256, 64]⟩
abbrev S256x256 : Shape := ⟨2, ![256, 256]⟩
abbrev S256x1 : Shape := ⟨2, ![256, 1]⟩
abbrev S64x512x256 : Shape := ⟨3, ![64, 512, 256]⟩
abbrev S1x512x256 : Shape := ⟨3, ![1, 512, 256]⟩
abbrev S64x512x16x16 : Shape := ⟨4, ![64, 512, 16, 16]⟩

abbrev nBuf : Space → Nat
  | .hbm => 225
  | .vmem => 20
  | .smem => 0
  | _ => 0

abbrev hbmTy0_0 (i : Nat) : BufTy := match i % 128 with
  | 0 => ⟨S64x256x16x16, .f32⟩
  | 1 => ⟨S512x256x4x4, .f32⟩
  | 2 => ⟨S512x256x4x4, .f32⟩
  | 3 => ⟨S256, .f32⟩
  | 4 => ⟨S256, .f32⟩
  | 5 => ⟨S64x16x16x256, .f32⟩
  | 6 => ⟨S_, .i32⟩
  | 7 => ⟨S_, .f32⟩
  | 8 => ⟨S64x18x18x256, .f32⟩
  | 9 => ⟨S64x9x2x9x2x256, .f32⟩
  | 10 => ⟨S64x9x9x2x2x256, .f32⟩
  | 11 => ⟨S64x9x9x1024, .f32⟩
  | 12 => ⟨S4x4x256x512, .f32⟩
  | 13 => ⟨S2x2x2x2x256x512, .f32⟩
  | 14 => ⟨S2x2x2x2x256x512, .f32⟩
  | 15 => ⟨S4x1024x512, .f32⟩
  | 16 => ⟨S512x256x1x1, .f32⟩
  | 17 => ⟨S512x256, .f32⟩
  | 18 => ⟨S256x512, .f32⟩
  | 19 => ⟨S512x256x1x1, .f32⟩
  | 20 => ⟨S512x256, .f32⟩
  | 21 => ⟨S256x512, .f32⟩
  | 22 => ⟨S512x256x1x1, .f32⟩
  | 23 => ⟨S512x256, .f32⟩
  | 24 => ⟨S256x512, .f32⟩
  | 25 => ⟨S512x256x1x1, .f32⟩
  | 26 => ⟨S512x256, .f32⟩
  | 27 => ⟨S256x512, .f32⟩
  | 28 => ⟨S1x256x512, .f32⟩
  | 29 => ⟨S1x256x512, .f32⟩
  | 30 => ⟨S1x256x512, .f32⟩
  | 31 => ⟨S1x256x512, .f32⟩
  | 32 => ⟨S4x256x512, .f32⟩
  | 33 => ⟨S512x256x1x1, .f32⟩
  | 34 => ⟨S512x256, .f32⟩
  | 35 => ⟨S256x512, .f32⟩
  | 36 => ⟨S512x256x1x1, .f32⟩
  | 37 => ⟨S512x256, .f32⟩
  | 38 => ⟨S256x512, .f32⟩
  | 39 => ⟨S512x256x1x1, .f32⟩
  | 40 => ⟨S512x256, .f32⟩
  | 41 => ⟨S256x512, .f32⟩
  | 42 => ⟨S512x256x1x1, .f32⟩
  | 43 => ⟨S512x256, .f32⟩
  | 44 => ⟨S256x512, .f32⟩
  | 45 => ⟨S1x256x512, .f32⟩
  | 46 => ⟨S1x256x512, .f32⟩
  | 47 => ⟨S1x256x512, .f32⟩
  | 48 => ⟨S1x256x512, .f32⟩
  | 49 => ⟨S4x256x512, .f32⟩
  | 50 => ⟨S512x256x1x1, .f32⟩
  | 51 => ⟨S512x256, .f32⟩
  | 52 => ⟨S256x512, .f32⟩
  | 53 => ⟨S512x256x1x1, .f32⟩
  | 54 => ⟨S512x256, .f32⟩
  | 55 => ⟨S256x512, .f32⟩
  | 56 => ⟨S512x256x1x1, .f32⟩
  | 57 => ⟨S512x256, .f32⟩
  | 58 => ⟨S256x512, .f32⟩
  | 59 => ⟨S512x256x1x1, .f32⟩
  | 60 => ⟨S512x256, .f32⟩
  | 61 => ⟨S256x512, .f32⟩
  | 62 => ⟨S1x256x512, .f32⟩
  | 63 => ⟨S1x256x512, .f32⟩
  | 64 => ⟨S1x256x512, .f32⟩
  | 65 => ⟨S1x256x512, .f32⟩
  | 66 => ⟨S4x256x512, .f32⟩
  | 67 => ⟨S512x256x1x1, .f32⟩
  | 68 => ⟨S512x256, .f32⟩
  | 69 => ⟨S256x512, .f32⟩
  | 70 => ⟨S512x256x1x1, .f32⟩
  | 71 => ⟨S512x256, .f32⟩
  | 72 => ⟨S256x512, .f32⟩
  | 73 => ⟨S512x256x1x1, .f32⟩
  | 74 => ⟨S512x256, .f32⟩
  | 75 => ⟨S256x512, .f32⟩
  | 76 => ⟨S512x256x1x1, .f32⟩
  | 77 => ⟨S512x256, .f32⟩
  | 78 => ⟨S256x512, .f32⟩
  | 79 => ⟨S1x256x512, .f32⟩
  | 80 => ⟨S1x256x512, .f32⟩
  | 81 => ⟨S1x256x512, .f32⟩
  | 82 => ⟨S1x256x512, .f32⟩
  | 83 => ⟨S4x256x512, .f32⟩
  | 84 => ⟨S1x4x256x512, .f32⟩
  | 85 => ⟨S1x4x256x512, .f32⟩
  | 86 => ⟨S1x4x256x512, .f32⟩
  | 87 => ⟨S1x4x256x512, .f32⟩
  | 88 => ⟨S4x4x256x512, .f32⟩
  | 89 => ⟨S8, .i32⟩
  | 90 => ⟨S8x1, .i32⟩
  | 91 => ⟨S8, .i32⟩
  | 92 => ⟨S1x8, .i32⟩
  | 93 => ⟨S256, .i32⟩
  | 94 => ⟨S1x256, .i32⟩
  | 95 => ⟨S_, .i32⟩
  | 96 => ⟨S8x1, .i32⟩
  | 97 => ⟨S8x1, .i32⟩
  | 98 => ⟨S_, .i32⟩
  | 99 => ⟨S8x1, .i32⟩
  | 100 => ⟨S8x1, .i32⟩
  | 101 => ⟨S_, .i32⟩
  | 102 => ⟨S8x1, .i32⟩
  | 103 => ⟨S8x1, .i32⟩
  | 104 => ⟨S_, .i32⟩
  | 105 => ⟨S1x8, .i32⟩
  | 106 => ⟨S1x8, .i32⟩
  | 107 => ⟨S_, .i32⟩
  | 108 => ⟨S1x8, .i32⟩
  | 109 => ⟨S1x8, .i32⟩
  | 110 => ⟨S8x8, .i32⟩
  | 111 => ⟨S8x8, .i32⟩
  | 112 => ⟨S8x8, .i32⟩
  | 113 => ⟨S64x1, .i32⟩
  | 114 => ⟨S64x256, .i32⟩
  | 115 => ⟨S64x256, .i32⟩
  | 116 => ⟨S64x256, .i1⟩
  | 117 => ⟨S64x256, .f32⟩
  | 118 => ⟨S_, .i32⟩
  | 119 => ⟨S8x1, .i32⟩
  | 120 => ⟨S8x1, .i32⟩
  | 121 => ⟨S_, .i32⟩
  | 122 => ⟨S8x1, .i32⟩
  | 123 => ⟨S8x1, .i32⟩
  | 124 => ⟨S_, .i32⟩
  | 125 => ⟨S8x1, .i32⟩
  | 126 => ⟨S8x1, .i32⟩
  | 127 => ⟨S_, .i32⟩
  | _ => ⟨S64x256x16x16, .f32⟩

abbrev hbmTy0_1 (i : Nat) : BufTy := match i % 128 with
  | 0 => ⟨S1x8, .i32⟩
  | 1 => ⟨S1x8, .i32⟩
  | 2 => ⟨S_, .i32⟩
  | 3 => ⟨S1x8, .i32⟩
  | 4 => ⟨S1x8, .i32⟩
  | 5 => ⟨S8x8, .i32⟩
  | 6 => ⟨S8x8, .i32⟩
  | 7 => ⟨S8x8, .i32⟩
  | 8 => ⟨S64x1, .i32⟩
  | 9 => ⟨S64x256, .i32⟩
  | 10 => ⟨S64x256, .i32⟩
  | 11 => ⟨S64x256, .i1⟩
  | 12 => ⟨S64x256, .f32⟩
  | 13 => ⟨S_, .i32⟩
  | 14 => ⟨S8x1, .i32⟩
  | 15 => ⟨S8x1, .i32⟩
  | 16 => ⟨S_, .i32⟩
  | 17 => ⟨S8x1, .i32⟩
  | 18 => ⟨S8x1, .i32⟩
  | 19 => ⟨S_, .i32⟩
  | 20 => ⟨S8x1, .i32⟩
  | 21 => ⟨S8x1, .i32⟩
  | 22 => ⟨S_, .i32⟩
  | 23 => ⟨S1x8, .i32⟩
  | 24 => ⟨S1x8, .i32⟩
  | 25 => ⟨S_, .i32⟩
  | 26 => ⟨S1x8, .i32⟩
  | 27 => ⟨S1x8, .i32⟩
  | 28 => ⟨S8x8, .i32⟩
  | 29 => ⟨S8x8, .i32⟩
  | 30 => ⟨S8x8, .i32⟩
  | 31 => ⟨S64x1, .i32⟩
  | 32 => ⟨S64x256, .i32⟩
  | 33 => ⟨S64x256, .i32⟩
  | 34 => ⟨S64x256, .i1⟩
  | 35 => ⟨S64x256, .f32⟩
  | 36 => ⟨S_, .i32⟩
  | 37 => ⟨S8x1, .i32⟩
  | 38 => ⟨S8x1, .i32⟩
  | 39 => ⟨S_, .i32⟩
  | 40 => ⟨S8x1, .i32⟩
  | 41 => ⟨S8x1, .i32⟩
  | 42 => ⟨S_, .i32⟩
  | 43 => ⟨S8x1, .i32⟩
  | 44 => ⟨S8x1, .i32⟩
  | 45 => ⟨S_, .i32⟩
  | 46 => ⟨S1x8, .i32⟩
  | 47 => ⟨S1x8, .i32⟩
  | 48 => ⟨S_, .i32⟩
  | 49 => ⟨S1x8, .i32⟩
  | 50 => ⟨S1x8, .i32⟩
  | 51 => ⟨S8x8, .i32⟩
  | 52 => ⟨S8x8, .i32⟩
  | 53 => ⟨S8x8, .i32⟩
  | 54 => ⟨S64x1, .i32⟩
  | 55 => ⟨S64x256, .i32⟩
  | 56 => ⟨S64x256, .i32⟩
  | 57 => ⟨S64x256, .i1⟩
  | 58 => ⟨S64x256, .f32⟩
  | 59 => ⟨S1x64x256, .f32⟩
  | 60 => ⟨S1x64x256, .f32⟩
  | 61 => ⟨S1x64x256, .f32⟩
  | 62 => ⟨S1x64x256, .f32⟩
  | 63 => ⟨S4x64x256, .f32⟩
  | 64 => ⟨S64x256x256, .f32⟩
  | 65 => ⟨S64x256x1, .f32⟩
  | 66 => ⟨S64x256x1, .f32⟩
  | 67 => ⟨S64x256, .f32⟩
  | 68 => ⟨S_, .f32⟩
  | 69 => ⟨S256, .f32⟩
  | 70 => ⟨S64x256, .f32⟩
  | 71 => ⟨S_, .f32⟩
  | 72 => ⟨S256, .f32⟩
  | 73 => ⟨S_, .f32⟩
  | 74 => ⟨S256, .f32⟩
  | 75 => ⟨S256, .f32⟩
  | 76 => ⟨S_, .f32⟩
  | 77 => ⟨S256, .f32⟩
  | 78 => ⟨S256, .f32⟩
  | 79 => ⟨S256, .f32⟩
  | 80 => ⟨S256, .f32⟩
  | 81 => ⟨S_, .f32⟩
  | 82 => ⟨S256, .f32⟩
  | 83 => ⟨S256, .f32⟩
  | 84 => ⟨S_, .f32⟩
  | 85 => ⟨S256, .f32⟩
  | 86 => ⟨S256, .f32⟩
  | 87 => ⟨S256, .f32⟩
  | 88 => ⟨S256, .f32⟩
  | 89 => ⟨S256x1, .f32⟩
  | 90 => ⟨S256, .f32⟩
  | 91 => ⟨S256, .f32⟩
  | 92 => ⟨S256, .f32⟩
  | 93 => ⟨S256x1, .f32⟩
  | 94 => ⟨S64x256x256, .f32⟩
  | 95 => ⟨S64x512x256, .f32⟩
  | 96 => ⟨S64x512x16x16, .f32⟩
  | _ => ⟨S64x256x16x16, .f32⟩

abbrev hbmTy (i : Nat) : BufTy := match i / 128 with
  | 0 => hbmTy0_0 i
  | 1 => hbmTy0_1 i
  | _ => ⟨S64x256x16x16, .f32⟩

abbrev bufTy : (tb : Table) → Fin (tcTables nBuf tb) → BufTy
  | .hbm, ⟨i, _⟩ => hbmTy i
  | .local _ .vmem, ⟨0, _⟩ => ⟨S1x9x9x1024, .f32⟩
  | .local _ .vmem, ⟨1, _⟩ => ⟨S1x9x9x1024, .f32⟩
  | .local _ .vmem, ⟨2, _⟩ => ⟨S4x1024x512, .f32⟩
  | .local _ .vmem, ⟨3, _⟩ => ⟨S4x4x256x512, .f32⟩
  | .local _ .vmem, ⟨4, _⟩ => ⟨S4x64x256, .f32⟩
  | .local _ .vmem, ⟨5, _⟩ => ⟨S1x256x256, .f32⟩
  | .local _ .vmem, ⟨6, _⟩ => ⟨S1x256x256, .f32⟩
  | .local _ .vmem, ⟨7, _⟩ => ⟨S1x256x1, .f32⟩
  | .local _ .vmem, ⟨8, _⟩ => ⟨S1x256x1, .f32⟩
  | .local _ .vmem, ⟨9, _⟩ => ⟨S1x256x1, .f32⟩
  | .local _ .vmem, ⟨10, _⟩ => ⟨S1x256x1, .f32⟩
  | .local _ .vmem, ⟨11, _⟩ => ⟨S10x10x512, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S256x1, .f32⟩
  | .local _ .vmem, ⟨17, _⟩ => ⟨S256x1, .f32⟩
  | .local _ .vmem, ⟨18, _⟩ => ⟨S1x512x256, .f32⟩
  | .local _ .vmem, ⟨19, _⟩ => ⟨S1x512x256, .f32⟩
  | _, _ => ⟨S64x256x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_c_0 : Ref sig .tc := ⟨.hbm, 95, rfl⟩
abbrev main_v88 : Ref sig .tc := ⟨.hbm, 96, rfl⟩
abbrev main_v89 : Ref sig .tc := ⟨.hbm, 97, rfl⟩
abbrev main_c_1 : Ref sig .tc := ⟨.hbm, 98, rfl⟩
abbrev main_v90 : Ref sig .tc := ⟨.hbm, 99, rfl⟩
abbrev main_v91 : Ref sig .tc := ⟨.hbm, 100, rfl⟩
abbrev main_c_2 : Ref sig .tc := ⟨.hbm, 101, rfl⟩
abbrev main_v92 : Ref sig .tc := ⟨.hbm, 102, rfl⟩
abbrev main_v93 : Ref sig .tc := ⟨.hbm, 103, rfl⟩
abbrev main_c_3 : Ref sig .tc := ⟨.hbm, 104, rfl⟩
abbrev main_v94 : Ref sig .tc := ⟨.hbm, 105, rfl⟩
abbrev main_v95 : Ref sig .tc := ⟨.hbm, 106, rfl⟩
abbrev main_c_4 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_c_5 : Ref sig .tc := ⟨.hbm, 118, rfl⟩
abbrev main_v106 : Ref sig .tc := ⟨.hbm, 119, rfl⟩
abbrev main_v107 : Ref sig .tc := ⟨.hbm, 120, rfl⟩
abbrev main_c_6 : Ref sig .tc := ⟨.hbm, 121, rfl⟩
abbrev main_v108 : Ref sig .tc := ⟨.hbm, 122, rfl⟩
abbrev main_v109 : Ref sig .tc := ⟨.hbm, 123, rfl⟩
abbrev main_c_7 : Ref sig .tc := ⟨.hbm, 124, rfl⟩
abbrev main_v110 : Ref sig .tc := ⟨.hbm, 125, rfl⟩
abbrev main_v111 : Ref sig .tc := ⟨.hbm, 126, rfl⟩
abbrev main_c_8 : Ref sig .tc := ⟨.hbm, 127, rfl⟩
abbrev main_v112 : Ref sig .tc := ⟨.hbm, 128, rfl⟩
abbrev main_v113 : Ref sig .tc := ⟨.hbm, 129, rfl⟩
abbrev main_c_9 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_c_10 : Ref sig .tc := ⟨.hbm, 141, rfl⟩
abbrev main_v124 : Ref sig .tc := ⟨.hbm, 142, rfl⟩
abbrev main_v125 : Ref sig .tc := ⟨.hbm, 143, rfl⟩
abbrev main_c_11 : Ref sig .tc := ⟨.hbm, 144, rfl⟩
abbrev main_v126 : Ref sig .tc := ⟨.hbm, 145, rfl⟩
abbrev main_v127 : Ref sig .tc := ⟨.hbm, 146, rfl⟩
abbrev main_c_12 : Ref sig .tc := ⟨.hbm, 147, rfl⟩
abbrev main_v128 : Ref sig .tc := ⟨.hbm, 148, rfl⟩
abbrev main_v129 : Ref sig .tc := ⟨.hbm, 149, rfl⟩
abbrev main_c_13 : Ref sig .tc := ⟨.hbm, 150, rfl⟩
abbrev main_v130 : Ref sig .tc := ⟨.hbm, 151, rfl⟩
abbrev main_v131 : Ref sig .tc := ⟨.hbm, 152, rfl⟩
abbrev main_c_14 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_c_15 : Ref sig .tc := ⟨.hbm, 164, rfl⟩
abbrev main_v142 : Ref sig .tc := ⟨.hbm, 165, rfl⟩
abbrev main_v143 : Ref sig .tc := ⟨.hbm, 166, rfl⟩
abbrev main_c_16 : Ref sig .tc := ⟨.hbm, 167, rfl⟩
abbrev main_v144 : Ref sig .tc := ⟨.hbm, 168, rfl⟩
abbrev main_v145 : Ref sig .tc := ⟨.hbm, 169, rfl⟩
abbrev main_c_17 : Ref sig .tc := ⟨.hbm, 170, rfl⟩
abbrev main_v146 : Ref sig .tc := ⟨.hbm, 171, rfl⟩
abbrev main_v147 : Ref sig .tc := ⟨.hbm, 172, rfl⟩
abbrev main_c_18 : Ref sig .tc := ⟨.hbm, 173, rfl⟩
abbrev main_v148 : Ref sig .tc := ⟨.hbm, 174, rfl⟩
abbrev main_v149 : Ref sig .tc := ⟨.hbm, 175, rfl⟩
abbrev main_c_19 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_v165_0 : Ref sig .tc := ⟨.hbm, 192, rfl⟩
abbrev main_v165_1 : Ref sig .tc := ⟨.hbm, 193, rfl⟩
abbrev main_v165_2 : Ref sig .tc := ⟨.hbm, 194, rfl⟩
abbrev main_v166 : Ref sig .tc := ⟨.hbm, 195, rfl⟩
abbrev main_cst : Ref sig .tc := ⟨.hbm, 196, rfl⟩
abbrev main_v167 : Ref sig .tc := ⟨.hbm, 197, rfl⟩
abbrev main_v168 : Ref sig .tc := ⟨.hbm, 198, rfl⟩
abbrev main_cst_20 : Ref sig .tc := ⟨.hbm, 199, rfl⟩
abbrev main_v169 : Ref sig .tc := ⟨.hbm, 200, rfl⟩
abbrev main_cst_21 : Ref sig .tc := ⟨.hbm, 201, rfl⟩
abbrev main_v170 : Ref sig .tc := ⟨.hbm, 202, rfl⟩
abbrev main_v171 : Ref sig .tc := ⟨.hbm, 203, rfl⟩
abbrev main_cst_22 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_cst_23 : Ref sig .tc := ⟨.hbm, 209, rfl⟩
abbrev main_v176 : Ref sig .tc := ⟨.hbm, 210, rfl⟩
abbrev main_v177 : Ref sig .tc := ⟨.hbm, 211, rfl⟩
abbrev main_cst_24 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_v189 : Ref sig .tc := ⟨.hbm, 224, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x9x9x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x4x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x512x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  transposes_S64x256x16x16_S64x16x16x256_0_2_3_1 : S64x256x16x16.Transposes [0, 2, 3, 1] S64x16x16x256
  pads_S64x16x16x256_S64x18x18x256_000_110_110_000 : S64x16x16x256.Pads (![0, 1, 1, 0] : Fin 4 → Nat) ![0, 1, 1, 0] ![0, 0, 0, 0] S64x18x18x256
  h_S_ : 0 < S_.numel
  shapeCasts_S64x18x18x256_S64x9x2x9x2x256 : S64x18x18x256.ShapeCasts S64x9x2x9x2x256
  transposes_S64x9x2x9x2x256_S64x9x9x2x2x256_0_1_3_2_4_5 : S64x9x2x9x2x256.Transposes [0, 1, 3, 2, 4, 5] S64x9x9x2x2x256
  shapeCasts_S64x9x9x2x2x256_S64x9x9x1024 : S64x9x9x2x2x256.ShapeCasts S64x9x9x1024
  transposes_S512x256x4x4_S4x4x256x512_2_3_1_0 : S512x256x4x4.Transposes [2, 3, 1, 0] S4x4x256x512
  shapeCasts_S4x4x256x512_S2x2x2x2x256x512 : S4x4x256x512.ShapeCasts S2x2x2x2x256x512
  transposes_S2x2x2x2x256x512_S2x2x2x2x256x512_0_2_1_3_4_5 : S2x2x2x2x256x512.Transposes [0, 2, 1, 3, 4, 5] S2x2x2x2x256x512
  shapeCasts_S2x2x2x2x256x512_S4x1024x512 : S2x2x2x2x256x512.ShapeCasts S4x1024x512
  slices_S512x256x4x4_S512x256x1x1_0_0_3_3 : S512x256x4x4.Slices ![0, 0, 3, 3] S512x256x1x1
  shapeCasts_S512x256x1x1_S512x256 : S512x256x1x1.ShapeCasts S512x256
  transposes_S512x256_S256x512_1_0 : S512x256.Transposes [1, 0] S256x512
  slices_S512x256x4x4_S512x256x1x1_0_0_3_1 : S512x256x4x4.Slices ![0, 0, 3, 1] S512x256x1x1
  slices_S512x256x4x4_S512x256x1x1_0_0_1_3 : S512x256x4x4.Slices ![0, 0, 1, 3] S512x256x1x1
  slices_S512x256x4x4_S512x256x1x1_0_0_1_1 : S512x256x4x4.Slices ![0, 0, 1, 1] S512x256x1x1
  bcast_S256x512_S1x256x512_1_2 : S256x512.BroadcastsInDim S1x256x512 (![1, 2] : Fin 2 → Fin S1x256x512.rank)
  concatenates_S1x256x512_S1x256x512_S1x256x512_S1x256x512_S4x256x512_d0 : Shape.Concatenates [S1x256x512, S1x256x512, S1x256x512, S1x256x512] S4x256x512 0
  slices_S512x256x4x4_S512x256x1x1_0_0_3_2 : S512x256x4x4.Slices ![0, 0, 3, 2] S512x256x1x1
  slices_S512x256x4x4_S512x256x1x1_0_0_3_0 : S512x256x4x4.Slices ![0, 0, 3, 0] S512x256x1x1
  slices_S512x256x4x4_S512x256x1x1_0_0_1_2 : S512x256x4x4.Slices ![0, 0, 1, 2] S512x256x1x1
  slices_S512x256x4x4_S512x256x1x1_0_0_1_0 : S512x256x4x4.Slices ![0, 0, 1, 0] S512x256x1x1
  slices_S512x256x4x4_S512x256x1x1_0_0_2_3 : S512x256x4x4.Slices ![0, 0, 2, 3] S512x256x1x1
  slices_S512x256x4x4_S512x256x1x1_0_0_2_1 : S512x256x4x4.Slices ![0, 0, 2, 1] S512x256x1x1
  slices_S512x256x4x4_S512x256x1x1_0_0_0_3 : S512x256x4x4.Slices ![0, 0, 0, 3] S512x256x1x1
  slices_S512x256x4x4_S512x256x1x1_0_0_0_1 : S512x256x4x4.Slices ![0, 0, 0, 1] S512x256x1x1
  slices_S512x256x4x4_S512x256x1x1_0_0_2_2 : S512x256x4x4.Slices ![0, 0, 2, 2] S512x256x1x1
  slices_S512x256x4x4_S512x256x1x1_0_0_2_0 : S512x256x4x4.Slices ![0, 0, 2, 0] S512x256x1x1
  slices_S512x256x4x4_S512x256x1x1_0_0_0_2 : S512x256x4x4.Slices ![0, 0, 0, 2] S512x256x1x1
  slices_S512x256x4x4_S512x256x1x1_0_0_0_0 : S512x256x4x4.Slices ![0, 0, 0, 0] S512x256x1x1
  bcast_S4x256x512_S1x4x256x512_1_2_3 : S4x256x512.BroadcastsInDim S1x4x256x512 (![1, 2, 3] : Fin 3 → Fin S1x4x256x512.rank)
  concatenates_S1x4x256x512_S1x4x256x512_S1x4x256x512_S1x4x256x512_S4x4x256x512_d0 : Shape.Concatenates [S1x4x256x512, S1x4x256x512, S1x4x256x512, S1x4x256x512] S4x4x256x512 0
  bcast_S8_S8x1_0 : S8.BroadcastsInDim S8x1 (![0] : Fin 1 → Fin S8x1.rank)
  bcast_S8_S1x8_1 : S8.BroadcastsInDim S1x8 (![1] : Fin 1 → Fin S1x8.rank)
  bcast_S256_S1x256_1 : S256.BroadcastsInDim S1x256 (![1] : Fin 1 → Fin S1x256.rank)
  bcast_S_S8x1 : S_.BroadcastsInDim S8x1 (![] : Fin 0 → Fin S8x1.rank)
  bcast_S_S1x8 : S_.BroadcastsInDim S1x8 (![] : Fin 0 → Fin S1x8.rank)
  bcast_S8x1_S8x8_0_1 : S8x1.BroadcastsInDim S8x8 (![0, 1] : Fin 2 → Fin S8x8.rank)
  bcast_S1x8_S8x8_0_1 : S1x8.BroadcastsInDim S8x8 (![0, 1] : Fin 2 → Fin S8x8.rank)
  shapeCasts_S8x8_S64x1 : S8x8.ShapeCasts S64x1
  bcast_S64x1_S64x256_0_1 : S64x1.BroadcastsInDim S64x256 (![0, 1] : Fin 2 → Fin S64x256.rank)
  bcast_S1x256_S64x256_0_1 : S1x256.BroadcastsInDim S64x256 (![0, 1] : Fin 2 → Fin S64x256.rank)
  bcast_S64x256_S1x64x256_1_2 : S64x256.BroadcastsInDim S1x64x256 (![1, 2] : Fin 2 → Fin S1x64x256.rank)
  concatenates_S1x64x256_S1x64x256_S1x64x256_S1x64x256_S4x64x256_d0 : Shape.Concatenates [S1x64x256, S1x64x256, S1x64x256, S1x64x256] S4x64x256 0
  inb_S1x9x9x1024_S1x8x8x1024_0_0_0_0 : ∀ a, (![0, 0, 0, 0] : Fin 4 → Nat) a + S1x8x8x1024.size a ≤ S1x9x9x1024.size a
  h_S1x8x8x1024 : 0 < S1x8x8x1024.numel
  shapeCasts_S1x8x8x1024_S8x8x1024 : S1x8x8x1024.ShapeCasts S8x8x1024
  shapeCasts_S8x8x1024_S64x1024 : S8x8x1024.ShapeCasts S64x1024
  inb_S4x1024x512_S1x1024x512_0_0_0 : ∀ a, (![0, 0, 0] : Fin 3 → Nat) a + S1x1024x512.size a ≤ S4x1024x512.size a
  h_S1x1024x512 : 0 < S1x1024x512.numel
  shapeCasts_S1x1024x512_S1024x512 : S1x1024x512.ShapeCasts S1024x512
  inb_S1x9x9x1024_S1x8x8x1024_0_0_1_0 : ∀ a, (![0, 0, 1, 0] : Fin 4 → Nat) a + S1x8x8x1024.size a ≤ S1x9x9x1024.size a
  inb_S4x1024x512_S1x1024x512_1_0_0 : ∀ a, (![1, 0, 0] : Fin 3 → Nat) a + S1x1024x512.size a ≤ S4x1024x512.size a
  inb_S1x9x9x1024_S1x8x8x1024_0_1_0_0 : ∀ a, (![0, 1, 0, 0] : Fin 4 → Nat) a + S1x8x8x1024.size a ≤ S1x9x9x1024.size a
  inb_S4x1024x512_S1x1024x512_2_0_0 : ∀ a, (![2, 0, 0] : Fin 3 → Nat) a + S1x1024x512.size a ≤ S4x1024x512.size a
  inb_S1x9x9x1024_S1x8x8x1024_0_1_1_0 : ∀ a, (![0, 1, 1, 0] : Fin 4 → Nat) a + S1x8x8x1024.size a ≤ S1x9x9x1024.size a
  inb_S4x1024x512_S1x1024x512_3_0_0 : ∀ a, (![3, 0, 0] : Fin 3 → Nat) a + S1x1024x512.size a ≤ S4x1024x512.size a
  inb_S10x10x512_S10x10x512_0_0_0 : ∀ a, (![0, 0, 0] : Fin 3 → Nat) a + S10x10x512.size a ≤ S10x10x512.size a
  h_S10x10x512 : 0 < S10x10x512.numel
  shapeCasts_S10x10x512_S10x10x512 : S10x10x512.ShapeCasts S10x10x512
  shapeCasts_S64x512_S8x8x512 : S64x512.ShapeCasts S8x8x512
  inb_S10x10x512_S8x8x512_1_1_0 : ∀ a, (![1, 1, 0] : Fin 3 → Nat) a + S8x8x512.size a ≤ S10x10x512.size a
  h_S8x8x512 : 0 < S8x8x512.numel
  shapeCasts_S8x8x512_S8x8x512 : S8x8x512.ShapeCasts S8x8x512
  inb_S10x10x512_S8x8x512_0_0_0 : ∀ a, (![0, 0, 0] : Fin 3 → Nat) a + S8x8x512.size a ≤ S10x10x512.size a
  shapeCasts_S8x8x512_S64x512 : S8x8x512.ShapeCasts S64x512
  inb_S10x10x512_S8x8x512_0_1_0 : ∀ a, (![0, 1, 0] : Fin 3 → Nat) a + S8x8x512.size a ≤ S10x10x512.size a
  inb_S10x10x512_S8x8x512_0_2_0 : ∀ a, (![0, 2, 0] : Fin 3 → Nat) a + S8x8x512.size a ≤ S10x10x512.size a
  inb_S10x10x512_S8x8x512_1_0_0 : ∀ a, (![1, 0, 0] : Fin 3 → Nat) a + S8x8x512.size a ≤ S10x10x512.size a
  inb_S10x10x512_S8x8x512_1_2_0 : ∀ a, (![1, 2, 0] : Fin 3 → Nat) a + S8x8x512.size a ≤ S10x10x512.size a
  inb_S10x10x512_S8x8x512_2_0_0 : ∀ a, (![2, 0, 0] : Fin 3 → Nat) a + S8x8x512.size a ≤ S10x10x512.size a
  inb_S10x10x512_S8x8x512_2_1_0 : ∀ a, (![2, 1, 0] : Fin 3 → Nat) a + S8x8x512.size a ≤ S10x10x512.size a
  inb_S10x10x512_S8x8x512_2_2_0 : ∀ a, (![2, 2, 0] : Fin 3 → Nat) a + S8x8x512.size a ≤ S10x10x512.size a
  inb_S4x4x256x512_S1x1x256x512_0_0_0_0 : ∀ a, (![0, 0, 0, 0] : Fin 4 → Nat) a + S1x1x256x512.size a ≤ S4x4x256x512.size a
  h_S1x1x256x512 : 0 < S1x1x256x512.numel
  shapeCasts_S1x1x256x512_S256x512 : S1x1x256x512.ShapeCasts S256x512
  inb_S4x4x256x512_S1x1x256x512_0_1_0_0 : ∀ a, (![0, 1, 0, 0] : Fin 4 → Nat) a + S1x1x256x512.size a ≤ S4x4x256x512.size a
  inb_S4x4x256x512_S1x1x256x512_0_2_0_0 : ∀ a, (![0, 2, 0, 0] : Fin 4 → Nat) a + S1x1x256x512.size a ≤ S4x4x256x512.size a
  inb_S4x4x256x512_S1x1x256x512_0_3_0_0 : ∀ a, (![0, 3, 0, 0] : Fin 4 → Nat) a + S1x1x256x512.size a ≤ S4x4x256x512.size a
  inb_S4x64x256_S1x64x256_0_0_0 : ∀ a, (![0, 0, 0] : Fin 3 → Nat) a + S1x64x256.size a ≤ S4x64x256.size a
  h_S1x64x256 : 0 < S1x64x256.numel
  shapeCasts_S1x64x256_S64x256 : S1x64x256.ShapeCasts S64x256
  inb_S4x4x256x512_S1x1x256x512_1_0_0_0 : ∀ a, (![1, 0, 0, 0] : Fin 4 → Nat) a + S1x1x256x512.size a ≤ S4x4x256x512.size a
  inb_S4x4x256x512_S1x1x256x512_1_1_0_0 : ∀ a, (![1, 1, 0, 0] : Fin 4 → Nat) a + S1x1x256x512.size a ≤ S4x4x256x512.size a
  inb_S4x4x256x512_S1x1x256x512_1_2_0_0 : ∀ a, (![1, 2, 0, 0] : Fin 4 → Nat) a + S1x1x256x512.size a ≤ S4x4x256x512.size a
  inb_S4x4x256x512_S1x1x256x512_1_3_0_0 : ∀ a, (![1, 3, 0, 0] : Fin 4 → Nat) a + S1x1x256x512.size a ≤ S4x4x256x512.size a
  inb_S4x64x256_S1x64x256_1_0_0 : ∀ a, (![1, 0, 0] : Fin 3 → Nat) a + S1x64x256.size a ≤ S4x64x256.size a
  inb_S4x4x256x512_S1x1x256x512_2_0_0_0 : ∀ a, (![2, 0, 0, 0] : Fin 4 → Nat) a + S1x1x256x512.size a ≤ S4x4x256x512.size a
  inb_S4x4x256x512_S1x1x256x512_2_1_0_0 : ∀ a, (![2, 1, 0, 0] : Fin 4 → Nat) a + S1x1x256x512.size a ≤ S4x4x256x512.size a
  inb_S4x4x256x512_S1x1x256x512_2_2_0_0 : ∀ a, (![2, 2, 0, 0] : Fin 4 → Nat) a + S1x1x256x512.size a ≤ S4x4x256x512.size a
  inb_S4x4x256x512_S1x1x256x512_2_3_0_0 : ∀ a, (![2, 3, 0, 0] : Fin 4 → Nat) a + S1x1x256x512.size a ≤ S4x4x256x512.size a
  inb_S4x64x256_S1x64x256_2_0_0 : ∀ a, (![2, 0, 0] : Fin 3 → Nat) a + S1x64x256.size a ≤ S4x64x256.size a
  inb_S4x4x256x512_S1x1x256x512_3_0_0_0 : ∀ a, (![3, 0, 0, 0] : Fin 4 → Nat) a + S1x1x256x512.size a ≤ S4x4x256x512.size a
  inb_S4x4x256x512_S1x1x256x512_3_1_0_0 : ∀ a, (![3, 1, 0, 0] : Fin 4 → Nat) a + S1x1x256x512.size a ≤ S4x4x256x512.size a
  inb_S4x4x256x512_S1x1x256x512_3_2_0_0 : ∀ a, (![3, 2, 0, 0] : Fin 4 → Nat) a + S1x1x256x512.size a ≤ S4x4x256x512.size a
  inb_S4x4x256x512_S1x1x256x512_3_3_0_0 : ∀ a, (![3, 3, 0, 0] : Fin 4 → Nat) a + S1x1x256x512.size a ≤ S4x4x256x512.size a
  inb_S4x64x256_S1x64x256_3_0_0 : ∀ a, (![3, 0, 0] : Fin 3 → Nat) a + S1x64x256.size a ≤ S4x64x256.size a
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  reduces_S256x256_S256 : S256x256.Reduces [1] S256
  shapeCasts_S256_S256x1 : S256.ShapeCasts S256x1
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S1x256x1 : S256x1.ShapeCasts S1x256x1
  shapeCasts_S64x256x1_S64x256 : S64x256x1.ShapeCasts S64x256
  reducesTo_S64x256_S256_d0 : S64x256.ReducesTo [0] S256
  bcast_S_S256 : S_.BroadcastsInDim S256 (![] : Fin 0 → Fin S256.rank)
  shapeCasts_S64x256x16x16_S64x256x256 : S64x256x16x16.ShapeCasts S64x256x256
  inb_S1x512x256_S1x256x256_0_0_0 : ∀ a, (![0, 0, 0] : Fin 3 → Nat) a + S1x256x256.size a ≤ S1x512x256.size a
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x256 : S256x1.Broadcasts S256x256
  inb_S1x512x256_S1x256x256_0_256_0 : ∀ a, (![0, 256, 0] : Fin 3 → Nat) a + S1x256x256.size a ≤ S1x512x256.size a
  shapeCasts_S64x512x256_S64x512x16x16 : S64x512x256.ShapeCasts S64x512x16x16
  dot_S64x1024_S1024x512_S64x512_1_0_0_1_n_n_wf : DotDims.WF S64x1024 S1024x512 S64x512 [1] [0] [0] [1] [] []
  dot_S256x512_S64x512_S256x64_1_1_0_0_n_n_wf : DotDims.WF S256x512 S64x512 S256x64 [1] [1] [0] [0] [] []
  dot_S256x64_S64x256_S256x256_1_0_0_1_n_n_wf : DotDims.WF S256x64 S64x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x9x9x1024.size a ≤ S64x9x9x1024.size a
  hwx0_0 : ∀ i : grid0.Coords, EltTy.bits .f32 = 32 ∨ (Rect.block (s := S64x9x9x1024) S1x9x9x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x1024x512.size a ≤ S4x1024x512.size a
  hwx0_1 : ∀ i : grid0.Coords, EltTy.bits .f32 = 32 ∨ (Rect.block (s := S4x1024x512) S4x1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x4x256x512.size a ≤ S4x4x256x512.size a
  hwx0_2 : ∀ i : grid0.Coords, EltTy.bits .f32 = 32 ∨ (Rect.block (s := S4x4x256x512) S4x4x256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x64x256.size a ≤ S4x64x256.size a
  hwx0_3 : ∀ i : grid0.Coords, EltTy.bits .f32 = 32 ∨ (Rect.block (s := S4x64x256) S4x64x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x256.size a ≤ S64x256x256.size a
  hwx0_4 : ∀ i : grid0.Coords, EltTy.bits .f32 = 32 ∨ (Rect.block (s := S64x256x256) S1x256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1.size a ≤ S64x256x1.size a
  hwx0_5 : ∀ i : grid0.Coords, EltTy.bits .f32 = 32 ∨ (Rect.block (s := S64x256x1) S1x256x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x1.size a ≤ S64x256x1.size a
  hwx0_6 : ∀ i : grid0.Coords, EltTy.bits .f32 = 32 ∨ (Rect.block (s := S64x256x1) S1x256x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x256.size a ≤ S64x256x256.size a
  hwx1_0 : ∀ i : grid1.Coords, EltTy.bits .f32 = 32 ∨ (Rect.block (s := S64x256x256) S1x256x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x256.size a ≤ S64x256x256.size a
  hwx1_1 : ∀ i : grid1.Coords, EltTy.bits .f32 = 32 ∨ (Rect.block (s := S64x256x256) S1x256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S256x1.size a
  hwx1_2 : ∀ i : grid1.Coords, EltTy.bits .f32 = 32 ∨ (Rect.block (s := S256x1) S256x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x1.size a ≤ S256x1.size a
  hwx1_3 : ∀ i : grid1.Coords, EltTy.bits .f32 = 32 ∨ (Rect.block (s := S256x1) S256x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x256.size a ≤ S64x512x256.size a
  hwx1_4 : ∀ i : grid1.Coords, EltTy.bits .f32 = 32 ∨ (Rect.block (s := S64x512x256) S1x512x256.size (cc1_transform_4 i) (hinb1_4 i)).WholeWords (EltTy.packing .f32)

variable [Facts₀]

def dot_S64x1024_S1024x512_S64x512_1_0_0_1_n_n : DotDims S64x1024 S1024x512 S64x512 where
  lhsContracting := [1]
  rhsContracting := [0]
  lhsNonContracting := [0]
  rhsNonContracting := [1]
  lhsBatch := []
  rhsBatch := []
  wf := dot_S64x1024_S1024x512_S64x512_1_0_0_1_n_n_wf
def dot_S256x512_S64x512_S256x64_1_1_0_0_n_n : DotDims S256x512 S64x512 S256x64 where
  lhsContracting := [1]
  rhsContracting := [1]
  lhsNonContracting := [0]
  rhsNonContracting := [0]
  lhsBatch := []
  rhsBatch := []
  wf := dot_S256x512_S64x512_S256x64_1_1_0_0_n_n_wf
def dot_S256x64_S64x256_S256x256_1_0_0_1_n_n : DotDims S256x64 S64x256 S256x256 where
  lhsContracting := [1]
  rhsContracting := [0]
  lhsNonContracting := [0]
  rhsNonContracting := [1]
  lhsBatch := []
  rhsBatch := []
  wf := dot_S256x64_S64x256_S256x256_1_0_0_1_n_n_wf

abbrev win0_0 : Pipeline.Window sig grid0 :=
  Pipeline.Window.ofSpec (Memref.whole main_v4) S1x9x9x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S4x1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v81) S4x4x256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v164) S4x64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v165_0) S1x256x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v165_1) S1x256x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v165_2) S1x256x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v187) S1x256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v165_0) S1x256x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v182) S256x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v186) S256x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v188) S1x512x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== Proof.KI.Shared.lean ====
import proofs.«125054_g2000703033488327_pallasbulk_1155_2_alg».proof.Proof.Gen.KernelIdeal.Launch
import proofs.«125054_g2000703033488327_pallasbulk_1155_2_alg».proof.Proof.Gen.KernelIdeal.Skeleton
import proofs.«125054_g2000703033488327_pallasbulk_1155_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev ms0_0 (t : Fin cfg0.N) : Memref sig .tc .vmem S8x9x9x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x256x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x64x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x256x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x256x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x256x1 .f32 := win0_6.stage (cfg0.slots t 6)
abbrev hs0_6 (t : Fin cfg0.N) : (ms0_6 t).IsWhole := hstage0_6 ((cfg0.slots t 6).cast nbuf0_6)

abbrev scM0 : Memref sig .tc .vmem S8x10x10x512 .bf16 := Memref.whole cc0_scratch0

def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA rest0; rw [scopedRest0_eq]; simp only [scM0, owns_whole]; try rfl

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev ms1_0 (t : Fin cfg1.N) : Memref sig .tc .vmem S8x256x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x256x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S8x512x256 .f32 := win1_4.stage (cfg1.slots t 4)
abbrev hs1_4 (t : Fin cfg1.N) : (ms1_4 t).IsWhole := hstage1_4 ((cfg1.slots t 4).cast nbuf1_4)

end Cert.KernelIdeal.Hand

end
-- ==== Proof.KI.Run0.lean ====
import proofs.«125054_g2000703033488327_pallasbulk_1155_2_alg».proof.Proof.KI.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in

noncomputable def kernelRun0 (c : Dev nD) (i : grid0.Coords) (arg1 : Memref sig .tc .vmem S8x9x9x1024 .bf16) (harg1 : arg1.IsWhole) (arg2 : Memref sig .tc .vmem S4096x512 .bf16) (harg2 : arg2.IsWhole) (arg3 : Memref sig .tc .vmem S4x256x2048 .bf16) (harg3 : arg3.IsWhole) (arg4 : Memref sig .tc .vmem S4x64x256 .bf16) (harg4 : arg4.IsWhole) (arg5 : Memref sig .tc .vmem S8x256x256 .bf16) (harg5 : arg5.IsWhole) (arg6 : Memref sig .tc .vmem S8x256x1 .f32) (harg6 : arg6.IsWhole) (arg7 : Memref sig .tc .vmem S8x256x1 .f32) (harg7 : arg7.IsWhole) (arg8 : Memref sig .tc .vmem S8x10x10x512 .bf16) (harg8 : arg8.IsWhole)
    (x0 : Vec F S8x9x9x1024 .bf16) (x1 : Vec F S4096x512 .bf16) (x2 : Vec F S4x256x2048 .bf16) (x3 : Vec F S4x64x256 .bf16) :
    Σ' (L4 : List (View.Piece (Elt F) S8x256x256 .bf16)) (L5 : List (View.Piece (Elt F) S8x256x1 .f32)),
      { L6 : List (View.Piece (Elt F) S8x256x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ d, owns (c : Thread nD τ) arg8 fullShare d)) -∗ K ⟨⟩))
          ⊢ wp frame (wpE (defs₀ (F := F)) Variants.none c none) E (cc0__core_kernel i arg1 harg1 arg2 harg2 arg3 harg3 arg4 harg4 arg5 harg5 arg6 harg6 arg7 harg7 arg8 harg8) K } := by
  refine ⟨?_, ?_, ?_, fun E K => ?run⟩
  case run =>
    simp only [cc0__core_kernel_eq_skeleton]; unfold cc0__core_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d8, %f8, -, H8⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    isplitl [H5]
    · iexists _; iexact H5
    isplitl [H6]
    · iexists _; iexact H6
    iexists _, _; isplitr
    swap; · iexact H8
    ipureintro; rfl

end Cert.KernelIdeal.Hand

end
-- ==== Proof.KI.Run1.lean ====
import proofs.«125054_g2000703033488327_pallasbulk_1155_2_alg».proof.Proof.KI.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in

noncomputable def kernelRun1 (c : Dev nD) (i : grid1.Coords) (arg1 : Memref sig .tc .vmem S8x256x256 .f32) (harg1 : arg1.IsWhole) (arg2 : Memref sig .tc .vmem S8x256x256 .bf16) (harg2 : arg2.IsWhole) (arg3 : Memref sig .tc .vmem S256x1 .f32) (harg3 : arg3.IsWhole) (arg4 : Memref sig .tc .vmem S256x1 .f32) (harg4 : arg4.IsWhole) (arg5 : Memref sig .tc .vmem S8x512x256 .f32) (harg5 : arg5.IsWhole)
    (x0 : Vec F S8x256x256 .f32) (x1 : Vec F S8x256x256 .bf16) (x2 : Vec F S256x1 .f32) (x3 : Vec F S256x1 .f32) :
      { L4 : List (View.Piece (Elt F) S8x512x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)) -∗ K ⟨⟩))
          ⊢ wp frame (wpE (defs₀ (F := F)) Variants.none c none) E (cc1__bn_concat_kernel i arg1 harg1 arg2 harg2 arg3 harg3 arg4 harg4 arg5 harg5) K } := by
  refine ⟨?_, fun E K => ?run⟩
  case run =>
    simp only [cc1__bn_concat_kernel_eq_skeleton]; unfold cc1__bn_concat_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.KernelIdeal.Hand

end
-- ==== Proof.KI.Halves.lean ====
import proofs.«125054_g2000703033488327_pallasbulk_1155_2_alg».proof.Proof.KI.Run0
import proofs.«125054_g2000703033488327_pallasbulk_1155_2_alg».proof.Proof.KI.Run1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev VO0_4 : View sig .tc .vmem S8x256x256 .bf16 := (Memref.whole cc0_stg4_0 : Memref sig .tc .vmem S8x256x256 .bf16).view

theorem cover0_4 (c : Dev nD) (t : Fin cfg0.N) (x0 : Vec F S8x9x9x1024 .bf16) (x1 : Vec F S4096x512 .bf16) (x2 : Vec F S4x256x2048 .bf16) (x3 : Vec F S4x64x256 .bf16) (y : S8x256x256.Idx) :
    ∃ pc ∈ (kernelRun0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) x0 x1 x2 x3).1, y ∈ pc.1.set :=
  View.cover_of_tiledL (kernelRun0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) x0 x1 x2 x3).1 S1x256x256.size (by sl_kernel_rfl) y

def out0_4 (c : Dev nD) (t : Fin cfg0.N) (x0 : Vec F S8x9x9x1024 .bf16) (x1 : Vec F S4096x512 .bf16) (x2 : Vec F S4x256x2048 .bf16) (x3 : Vec F S4x64x256 .bf16) : Vec F S8x256x256 .bf16 :=
  VO0_4.read (Elt F) (VO0_4.writes (Elt F) VO0_4.junk (kernelRun0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) x0 x1 x2 x3).1)

abbrev VO0_5 : View sig .tc .vmem S8x256x1 .f32 := (Memref.whole cc0_stg5_0 : Memref sig .tc .vmem S8x256x1 .f32).view

theorem cover0_5 (c : Dev nD) (t : Fin cfg0.N) (x0 : Vec F S8x9x9x1024 .bf16) (x1 : Vec F S4096x512 .bf16) (x2 : Vec F S4x256x2048 .bf16) (x3 : Vec F S4x64x256 .bf16) (y : S8x256x1.Idx) :
    ∃ pc ∈ (kernelRun0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) x0 x1 x2 x3).2.1, y ∈ pc.1.set :=
  View.cover_of_tiledL (kernelRun0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) x0 x1 x2 x3).2.1 S1x256x1.size (by sl_kernel_rfl) y

def out0_5 (c : Dev nD) (t : Fin cfg0.N) (x0 : Vec F S8x9x9x1024 .bf16) (x1 : Vec F S4096x512 .bf16) (x2 : Vec F S4x256x2048 .bf16) (x3 : Vec F S4x64x256 .bf16) : Vec F S8x256x1 .f32 :=
  VO0_5.read (Elt F) (VO0_5.writes (Elt F) VO0_5.junk (kernelRun0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) x0 x1 x2 x3).2.1)

abbrev VO0_6 : View sig .tc .vmem S8x256x1 .f32 := (Memref.whole cc0_stg6_0 : Memref sig .tc .vmem S8x256x1 .f32).view

theorem cover0_6 (c : Dev nD) (t : Fin cfg0.N) (x0 : Vec F S8x9x9x1024 .bf16) (x1 : Vec F S4096x512 .bf16) (x2 : Vec F S4x256x2048 .bf16) (x3 : Vec F S4x64x256 .bf16) (y : S8x256x1.Idx) :
    ∃ pc ∈ (kernelRun0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) x0 x1 x2 x3).2.2.1, y ∈ pc.1.set :=
  View.cover_of_tiledL (kernelRun0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) x0 x1 x2 x3).2.2.1 S1x256x1.size (by sl_kernel_rfl) y

def out0_6 (c : Dev nD) (t : Fin cfg0.N) (x0 : Vec F S8x9x9x1024 .bf16) (x1 : Vec F S4096x512 .bf16) (x2 : Vec F S4x256x2048 .bf16) (x3 : Vec F S4x64x256 .bf16) : Vec F S8x256x1 .f32 :=
  VO0_6.read (Elt F) (VO0_6.writes (Elt F) VO0_6.junk (kernelRun0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) x0 x1 x2 x3).2.2.1)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 c t (iblk0 V c 0 t) (iblk0 V c 1 t) (iblk0 V c 2 t) (iblk0 V c 3 t)
    | ⟨5, _⟩ => out0_5 c t (iblk0 V c 0 t) (iblk0 V c 1 t) (iblk0 V c 2 t) (iblk0 V c 3 t)
    | ⟨6, _⟩ => out0_6 c t (iblk0 V c 0 t) (iblk0 V c 1 t) (iblk0 V c 2 t) (iblk0 V c 3 t)
  Φ _ := Pipeline.ΦA spec0 c
  q _ := fullShare
  owed _ := 0

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 c t (iblk0 V c 0 t) (iblk0 V c 1 t) (iblk0 V c 2 t) (iblk0 V c 3 t) := by dsimp only [dat0]
theorem after0_5 (c : Dev nD) (t : Fin cfg0.N) : (dat0 V c).after 5 t = out0_5 c t (iblk0 V c 0 t) (iblk0 V c 1 t) (iblk0 V c 2 t) (iblk0 V c 3 t) := by dsimp only [dat0]
theorem after0_6 (c : Dev nD) (t : Fin cfg0.N) : (dat0 V c).after 6 t = out0_6 c t (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  rw [show (dat0 V c).Φ t.castSucc = Pipeline.ΦA spec0 c from rfl, PhiA0_eq]
  unfold out0_4 out0_5 out0_6
  iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0 c (grid0.coords t) _ _ _ _ _ _ _ _ _ _ _ _ _ _ _ _ (iblk0 V c 0 t) (iblk0 V c 1 t) (iblk0 V c 2 t) (iblk0 V c 3 t)).2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS]; · iexact HS
  iintro ⟨H0, H1, H2, H3, ⟨%e4, H4⟩, ⟨%e5, H5⟩, ⟨%e6, H6⟩, HS⟩
  isplitl [HS Hrest Hg]
  · isplitl [HS Hrest]
    · isplitl [HS]; · iexact HS
      iexact Hrest
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover0_4 c t _ _ _ _)
  isplitl [H5]
  · unfold owns; iexists _; isplitr
    swap; · iexact H5
    ipureintro; exact View.read_writes_of_cover _ _ _ _ _ (cover0_5 c t _ _ _ _)
  unfold owns; iexists _; isplitr
  swap; · iexact H6
  ipureintro; exact View.read_writes_of_cover _ _ _ _ _ (cover0_6 c t _ _ _ _)

theorem body_obligation0 (c : Dev nD) : BodyObligation (dat0 (F := F) V c) (defs₀ (F := F)) Variants.none () Set.univ := fun t => by
  rw [bigSep_W0, bigSep_W0]
  exact sound_body0 V c t

abbrev VO1_4 : View sig .tc .vmem S8x512x256 .f32 := (Memref.whole cc1_stg4_0 : Memref sig .tc .vmem S8x512x256 .f32).view

theorem cover1_4 (c : Dev nD) (t : Fin cfg1.N) (x0 : Vec F S8x256x256 .f32) (x1 : Vec F S8x256x256 .bf16) (x2 : Vec F S256x1 .f32) (x3 : Vec F S256x1 .f32) (y : S8x512x256.Idx) :
    ∃ pc ∈ (kernelRun1 (F := F) c (grid1.coords t) (ms1_0 t) (hs1_0 t) (ms1_1 t) (hs1_1 t) (ms1_2 t) (hs1_2 t) (ms1_3 t) (hs1_3 t) (ms1_4 t) (hs1_4 t) x0 x1 x2 x3).1, y ∈ pc.1.set :=
  View.cover_of_tiledL (kernelRun1 (F := F) c (grid1.coords t) (ms1_0 t) (hs1_0 t) (ms1_1 t) (hs1_1 t) (ms1_2 t) (hs1_2 t) (ms1_3 t) (hs1_3 t) (ms1_4 t) (hs1_4 t) x0 x1 x2 x3).1 S8x256x256.size (by sl_kernel_rfl) y

def out1_4 (c : Dev nD) (t : Fin cfg1.N) (x0 : Vec F S8x256x256 .f32) (x1 : Vec F S8x256x256 .bf16) (x2 : Vec F S256x1 .f32) (x3 : Vec F S256x1 .f32) : Vec F S8x512x256 .f32 :=
  VO1_4.read (Elt F) (VO1_4.writes (Elt F) VO1_4.junk (kernelRun1 (F := F) c (grid1.coords t) (ms1_0 t) (hs1_0 t) (ms1_1 t) (hs1_1 t) (ms1_2 t) (hs1_2 t) (ms1_3 t) (hs1_3 t) (ms1_4 t) (hs1_4 t) x0 x1 x2 x3).1)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 c t (iblk1 V c 0 t) (iblk1 V c 1 t) (iblk1 V c 2 t) (iblk1 V c 3 t)
  Φ _ := Pipeline.ΦA spec1 c
  q _ := fullShare
  owed _ := 0

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 c t (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  unfold out1_4
  iintro ⟨HΦ, Ho, ⟨%d0, H0⟩, ⟨%d1, H1⟩, ⟨%d2, H2⟩, ⟨%d3, H3⟩, ⟨%d4, H4⟩⟩
  iapply ((kernelRun1 c (grid1.coords t) _ _ _ _ _ _ _ _ _ _ (iblk1 V c 0 t) (iblk1 V c 1 t) (iblk1 V c 2 t) (iblk1 V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover1_4 c t _ _ _ _)

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Fold.lean ====
import proofs.«125054_g2000703033488327_pallasbulk_1155_2_alg».proof.Proof.KI.Halves
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

abbrev main_part0_ops0_W : List (Ref sig .tc) := [main_v0, main_c]
abbrev main_part0_ops1_W : List (Ref sig .tc) := [main_call0_v0, main_v1]
abbrev main_part0_ops2_W : List (Ref sig .tc) := [main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58]
abbrev main_part1_ops0_W : List (Ref sig .tc) := [main_v59, main_v60, main_v61, main_v62, main_v63, main_v64, main_v65, main_v66, main_v67, main_v68, main_v69, main_v70, main_v71, main_v72, main_v73, main_v74, main_c_0, main_v75, main_v76, main_c_1, main_v77, main_v78, main_c_2, main_v79, main_v80, main_c_3, main_v81, main_v82, main_c_4, main_v83, main_v84, main_v85, main_v86, main_v87, main_v88, main_v89, main_v90, main_v91, main_v92, main_c_5, main_v93, main_v94, main_c_6, main_v95, main_v96, main_c_7, main_v97, main_v98, main_c_8, main_v99, main_v100, main_c_9, main_v101, main_v102, main_v103, main_v104, main_v105, main_v106, main_v107, main_v108]
abbrev main_part2_ops0_W : List (Ref sig .tc) := [main_v109, main_v110, main_c_10, main_v111, main_v112, main_c_11, main_v113, main_v114, main_c_12, main_v115, main_v116, main_c_13, main_v117, main_v118, main_c_14, main_v119, main_v120, main_v121, main_v122, main_v123, main_v124, main_v125, main_v126, main_v127, main_v128, main_c_15, main_v129, main_v130, main_c_16, main_v131, main_v132, main_c_17, main_v133, main_v134, main_c_18, main_v135, main_v136, main_c_19, main_v137, main_v138, main_v139, main_v140, main_v141, main_v142, main_v143, main_v144, main_v145, main_v146, main_v147, main_v148, main_v149, main_v150, main_v151]
abbrev main_part2_ops1_W : List (Ref sig .tc) := [main_v153, main_cst, main_v154, main_v155, main_cst_20, main_v156]
abbrev main_part3_ops0_W : List (Ref sig .tc) := [main_cst_21, main_v157, main_v158, main_cst_22, main_v159, main_v160, main_v161, main_v162, main_cst_23, main_v163, main_v164, main_cst_24, main_v165, main_v166, main_v167, main_v168, main_v169, main_v170, main_v171, main_v172, main_v173, main_v174]
abbrev main_part3_ops1_W : List (Ref sig .tc) := [main_v176]

abbrev Writes (ops : List (HloOp τ sig (Elt F))) (W : List (Ref sig .tc)) : Prop :=
  ops.Forall fun op => op.writes ⊆ (W.map (Proc.devRef (τ := τ) .tc)).toFinset

theorem writes_all :
    Writes (F := F) main_part0_ops0 main_part0_ops0_W
    ∧ Writes (F := F) main_part0_ops1 main_part0_ops1_W
    ∧ Writes (F := F) main_part0_ops2 main_part0_ops2_W
    ∧ Writes (F := F) main_part1_ops0 main_part1_ops0_W
    ∧ Writes (F := F) main_part2_ops0 main_part2_ops0_W
    ∧ Writes (F := F) main_part2_ops1 main_part2_ops1_W
    ∧ Writes (F := F) main_part3_ops0 main_part3_ops0_W
    ∧ Writes (F := F) main_part3_ops1 main_part3_ops1_W := by
  refine ⟨?_, ?_, ?_, ?_, ?_, ?_, ?_, ?_⟩ <;>
  · simp only [List.Forall]
    repeat' apply And.intro
    all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

abbrev NoFresh (ops : List (HloOp τ sig (Elt F))) : Prop := ops.Forall fun op => op.fresh = ∅

theorem fresh_all :
    NoFresh (F := F) main_part0_ops0 ∧ NoFresh (F := F) main_part0_ops1 ∧ NoFresh (F := F) main_part0_ops2 ∧ NoFresh (F := F) main_part1_ops0 ∧ NoFresh (F := F) main_part2_ops0 ∧ NoFresh (F := F) main_part2_ops1 ∧ NoFresh (F := F) main_part3_ops0 ∧ NoFresh (F := F) main_part3_ops1 := by
  refine ⟨?_, ?_, ?_, ?_, ?_, ?_, ?_, ?_⟩ <;> (simp only [List.Forall]; repeat' constructor)

abbrev W0 : Dev nD → Valuation τ sig (Elt F) := fun c b => (s₀ m ρ).mem ((c : Dev nD), b)
abbrev W1 : Dev nD → Valuation τ sig (Elt F) := fun c => StableHlo.after main_part0_ops0 (W0 m ρ c)
abbrev W2 : Dev nD → Valuation τ sig (Elt F) := fun c => StableHlo.after main_part0_ops1 (W1 m ρ c)
abbrev W3 : Dev nD → Valuation τ sig (Elt F) := fun c => StableHlo.after main_part0_ops2 (W2 m ρ c)
abbrev W4 : Dev nD → Valuation τ sig (Elt F) := fun c => StableHlo.after main_part1_ops0 (W3 m ρ c)
abbrev W5 : Dev nD → Valuation τ sig (Elt F) := fun c => StableHlo.after main_part2_ops0 (W4 m ρ c)
abbrev Ventry0 : (c : Dev nD) → (b : Ref sig .tc) → Buf (Elt F) ((c : Thread nD τ).loc b) := fun c b => W5 m ρ c b
def W6 (c : Dev nD) : Valuation τ sig (Elt F) :=
  Pipeline.withArrays spec0 c (W5 m ρ c) fun w => (dat0 (Ventry0 m ρ) c).arrAt w cfg0.N
abbrev V6 : (c : Dev nD) → (b : Ref sig .tc) → Buf (Elt F) ((c : Thread nD τ).loc b) := fun c b => W6 m ρ c b
abbrev W7 : Dev nD → Valuation τ sig (Elt F) := fun c => StableHlo.after main_part2_ops1 (W6 m ρ c)
abbrev W8 : Dev nD → Valuation τ sig (Elt F) := fun c => StableHlo.after main_part3_ops0 (W7 m ρ c)
abbrev Ventry1 : (c : Dev nD) → (b : Ref sig .tc) → Buf (Elt F) ((c : Thread nD τ).loc b) := fun c b => W8 m ρ c b
def W9 (c : Dev nD) : Valuation τ sig (Elt F) :=
  Pipeline.withArrays spec1 c (W8 m ρ c) fun w => (dat1 (Ventry1 m ρ) c).arrAt w cfg1.N
abbrev V9 : (c : Dev nD) → (b : Ref sig .tc) → Buf (Elt F) ((c : Thread nD τ).loc b) := fun c b => W9 m ρ c b
abbrev W10 : Dev nD → Valuation τ sig (Elt F) := fun c => StableHlo.after main_part3_ops1 (W9 m ρ c)

theorem W1_of (c : Dev nD) (r : Ref sig .tc) (h : r ∉ main_part0_ops0_W) :
    W1 m ρ c (Proc.devRef .tc r) = W0 m ρ c (Proc.devRef .tc r) :=
  StableHlo.after_of_writes_sub main_part0_ops0 _ (writes_all (F := F)).1 h
theorem W2_of (c : Dev nD) (r : Ref sig .tc) (h : r ∉ main_part0_ops1_W) :
    W2 m ρ c (Proc.devRef .tc r) = W1 m ρ c (Proc.devRef .tc r) :=
  StableHlo.after_of_writes_sub main_part0_ops1 _ (writes_all (F := F)).2.1 h
theorem W3_of (c : Dev nD) (r : Ref sig .tc) (h : r ∉ main_part0_ops2_W) :
    W3 m ρ c (Proc.devRef .tc r) = W2 m ρ c (Proc.devRef .tc r) :=
  StableHlo.after_of_writes_sub main_part0_ops2 _ (writes_all (F := F)).2.2.1 h
theorem W4_of (c : Dev nD) (r : Ref sig .tc) (h : r ∉ main_part1_ops0_W) :
    W4 m ρ c (Proc.devRef .tc r) = W3 m ρ c (Proc.devRef .tc r) :=
  StableHlo.after_of_writes_sub main_part1_ops0 _ (writes_all (F := F)).2.2.2.1 h
theorem W5_of (c : Dev nD) (r : Ref sig .tc) (h : r ∉ main_part2_ops0_W) :
    W5 m ρ c (Proc.devRef .tc r) = W4 m ρ c (Proc.devRef .tc r) :=
  StableHlo.after_of_writes_sub main_part2_ops0 _ (writes_all (F := F)).2.2.2.2.1 h

theorem Wexit0_arr (c : Dev nD) (w : Fin cfg0.W) :
    W6 m ρ c (Proc.devRef .tc (Pipeline.arrRef spec0 w)) = (dat0 (Ventry0 m ρ) c).arrAt w cfg0.N := by
  unfold W6; exact Pipeline.withArrays_arr spec0 launch0.win.arr_inj c _ _ w
theorem Wexit0_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
theorem hF0 (c : Dev nD) (w : Fin cfg0.W) : (dat0 (Ventry0 m ρ) c).arrAt w cfg0.N = V6 m ρ c (Pipeline.arrRef spec0 w) :=
  (Wexit0_arr m ρ c w).symm
theorem hrest0 (c : Dev nD) : ∀ b, b ∉ Finset.univ.image (Pipeline.arrRef spec0) → V6 m ρ c b = Ventry0 m ρ c b :=
  fun b hb => Wexit0_of_ne m ρ c b fun w e => hb (Finset.mem_image.mpr ⟨w, Finset.mem_univ _, e⟩)
theorem Wexit1_arr (c : Dev nD) (w : Fin cfg1.W) :
    W9 m ρ c (Proc.devRef .tc (Pipeline.arrRef spec1 w)) = (dat1 (Ventry1 m ρ) c).arrAt w cfg1.N := by
  unfold W9; exact Pipeline.withArrays_arr spec1 launch1.win.arr_inj c _ _ w
theorem Wexit1_of_ne (c : Dev nD) (b : Ref sig .tc) (hb : ∀ w, Pipeline.arrRef spec1 w ≠ b) :
    W9 m ρ c (Proc.devRef .tc b) = W8 m ρ c (Proc.devRef .tc b) := by
  unfold W9; exact Pipeline.withArrays_of_ne spec1 c _ _ b hb
theorem hF1 (c : Dev nD) (w : Fin cfg1.W) : (dat1 (Ventry1 m ρ) c).arrAt w cfg1.N = V9 m ρ c (Pipeline.arrRef spec1 w) :=
  (Wexit1_arr m ρ c w).symm
theorem hrest1 (c : Dev nD) : ∀ b, b ∉ Finset.univ.image (Pipeline.arrRef spec1) → V9 m ρ c b = Ventry1 m ρ c b :=
  fun b hb => Wexit1_of_ne m ρ c b fun w e => hb (Finset.mem_image.mpr ⟨w, Finset.mem_univ _, e⟩)

abbrev argRefs : List (Ref sig .tc) := [main_arg0, main_arg1, main_arg2, main_arg3, main_arg4]

-- no stretch writes an argument and no region has one among its arrays, so the fold walks back to the launch memory
theorem W10_arg (c : Dev nD) {r : Ref sig .tc} (hr : r ∈ argRefs) :
    W10 m ρ c (Proc.devRef .tc r) = m ((c : Thread nD τ).loc r) := by
  have h : r ∉ main_part3_ops1_W ∧ (∀ w, Pipeline.arrRef spec1 w ≠ r) ∧ r ∉ main_part3_ops0_W ∧ r ∉ main_part2_ops1_W
      ∧ (∀ w, Pipeline.arrRef spec0 w ≠ r) ∧ r ∉ main_part2_ops0_W ∧ r ∉ main_part1_ops0_W ∧ r ∉ main_part0_ops2_W
      ∧ r ∉ main_part0_ops1_W ∧ r ∉ main_part0_ops0_W := by
    revert r; decide
  obtain ⟨h9, h8, h7, h6, h5, h4, h3, h2, h1, h0⟩ := h
  calc W10 m ρ c (Proc.devRef .tc r)
    _ = W9 m ρ c (Proc.devRef .tc r) := StableHlo.after_of_writes_sub main_part3_ops1 _ (writes_all (F := F)).2.2.2.2.2.2.2 h9
    _ = W8 m ρ c (Proc.devRef .tc r) := Wexit1_of_ne m ρ c r h8
    _ = W7 m ρ c (Proc.devRef .tc r) := StableHlo.after_of_writes_sub main_part3_ops0 _ (writes_all (F := F)).2.2.2.2.2.2.1 h7
    _ = W6 m ρ c (Proc.devRef .tc r) := StableHlo.after_of_writes_sub main_part2_ops1 _ (writes_all (F := F)).2.2.2.2.2.1 h6
    _ = W5 m ρ c (Proc.devRef .tc r) := Wexit0_of_ne m ρ c r h5
    _ = W4 m ρ c (Proc.devRef .tc r) := W5_of m ρ c r h4
    _ = W3 m ρ c (Proc.devRef .tc r) := W4_of m ρ c r h3
    _ = W2 m ρ c (Proc.devRef .tc r) := W3_of m ρ c r h2
    _ = W1 m ρ c (Proc.devRef .tc r) := W2_of m ρ c r h1
    _ = W0 m ρ c (Proc.devRef .tc r) := W1_of m ρ c r h0
    _ = m ((c : Thread nD τ).loc r) := rfl

end Cert.KernelIdeal.Hand

end
-- ==== Proof.KI.Run.lean ====
import proofs.«125054_g2000703033488327_pallasbulk_1155_2_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (Ventry0 m ρ) c
  | ⟨1, _⟩ => fun c => dat1 (Ventry1 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W10 m ρ c) ∗ ∃ r, prngReg c r)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ventry0 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (Ventry0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Ventry0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Ventry0 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ventry1 m ρ) c).loose
  hwaits := Pipeline.hwaits_of_owed_zero _ _ _ _ L lv 1 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec1 c (Ventry1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Ventry1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Ventry1 m ρ c) (V9 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg main_part0_ops0 main_part0_ops0_sub (fresh_all (F := F)).1 (W0 m ρ)),
    .host (hseg main_part0_ops1 main_part0_ops1_sub (fresh_all (F := F)).2.1 (W1 m ρ)),
    .host (hseg main_part0_ops2 main_part0_ops2_sub (fresh_all (F := F)).2.2.1 (W2 m ρ)),
    .host (hseg main_part1_ops0 main_part1_ops0_sub (fresh_all (F := F)).2.2.2.1 (W3 m ρ)),
    .host (hseg main_part2_ops0 main_part2_ops0_sub (fresh_all (F := F)).2.2.2.2.1 (W4 m ρ)),
    .region (reg0 m ρ),
    .host (hseg main_part2_ops1 main_part2_ops1_sub (fresh_all (F := F)).2.2.2.2.2.1 (W6 m ρ)),
    .host (hseg main_part3_ops0 main_part3_ops0_sub (fresh_all (F := F)).2.2.2.2.2.2.1 (W7 m ρ)),
    .region (reg1 m ρ),
    .host (hseg main_part3_ops1 main_part3_ops1_sub (fresh_all (F := F)).2.2.2.2.2.2.2 (W9 m ρ)) ]

theorem main_run (c : Dev nD) : main (F := F) c = Pipeline.Seg.run (segs m ρ) := (main_chain_windows c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W10 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun _ h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W10_arg m ρ c (by decide)),
     (h c _ (mem_uc main_arg1 (by decide))).trans (W10_arg m ρ c (by decide)),
     (h c _ (mem_uc main_arg2 (by decide))).trans (W10_arg m ρ c (by decide)),
     (h c _ (mem_uc main_arg3 (by decide))).trans (W10_arg m ρ c (by decide)),
     (h c _ (mem_uc main_arg4 (by decide))).trans (W10_arg m ρ c (by decide))⟩) (run_all m ρ)

end Cert.KernelIdeal.Hand

end
-- ==== Proof.KI.Bits.lean ====
import proofs.«125054_g2000703033488327_pallasbulk_1155_2_alg».proof.Defs
import proofs.«125054_g2000703033488327_pallasbulk_1155_2_alg».proof.Proof.Gen.Kernel
import proofs.«125054_g2000703033488327_pallasbulk_1155_2_alg».proof.Proof.Gen.Pre_finite_inputs
import proofs.«125054_g2000703033488327_pallasbulk_1155_2_alg».proof.Proof.KI.Run

noncomputable section

namespace Cert.Kernel.Hand

open Idealize.ShloMosaic Idealize.ShloMosaic.Tactic Idealize.SL.Sem

variable {F : FTy → Type} [FloatOps F]

-- the word-level program and its idealization are one text: the same bodies' table and the same @main, by unfolding
theorem defs_eq : Cert.Kernel.defs (F := F) = Cert.KernelIdeal.defs (F := F) := by sl_kernel_rfl
theorem main_eq : Cert.Kernel.main (F := F) = Cert.KernelIdeal.main (F := F) := by sl_kernel_rfl

-- so the frame proved for the idealization at any float instance is the word-level program's frame
theorem frame : Cert.frame_Kernel (hKernel := Cert.Kernel.Gen.facts) (hPre_finite_inputs := Cert.Pre_finite_inputs.Gen.facts) :=
  fun m ρ _ => Eq.mpr (congrArg₂ (fun d p => θ_run d (onTc (τ := Cert.KernelIdeal.τ) p) _ _) defs_eq main_eq)
    (Cert.KernelIdeal.Hand.frame (F := Bits) m ρ)

end Cert.Kernel.Hand

end
-- ==== Proof.RI.RunHost.lean ====
import proofs.«125054_g2000703033488327_pallasbulk_1155_2_alg».proof.Proof.Gen.ReferenceIdeal.Launch
import proofs.«125054_g2000703033488327_pallasbulk_1155_2_alg».proof.Proof.Gen.ReferenceIdeal.Skeleton
import proofs.«125054_g2000703033488327_pallasbulk_1155_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev argRefs : List (Ref sig .tc) := [main_arg0, main_arg1, main_arg2, main_arg3, main_arg4]

abbrev NoFresh (ops : List (HloOp τ sig (Elt F))) : Prop := ops.Forall fun op => op.fresh = ∅

theorem fresh_all :
    NoFresh (F := F) main_part0_ops0 ∧ NoFresh (F := F) main_part0_ops1 ∧ NoFresh (F := F) main_part0_ops2 ∧ NoFresh (F := F) main_part1_ops0 ∧ NoFresh (F := F) main_part2_ops0 ∧ NoFresh (F := F) main_part3_ops0 ∧ NoFresh (F := F) main_part3_ops1 ∧ NoFresh (F := F) main_part3_ops2 := by
  refine ⟨?_, ?_, ?_, ?_, ?_, ?_, ?_, ?_⟩ <;> (simp only [List.Forall]; repeat' constructor)

abbrev Keeps (ops : List (HloOp τ sig (Elt F))) : Prop :=
  ∀ r ∈ argRefs, ∀ W : Valuation τ sig (Elt F), StableHlo.after ops W (Proc.devRef .tc r) = W (Proc.devRef .tc r)

theorem keeps_all :
    Keeps (F := F) main_part0_ops0 ∧ Keeps (F := F) main_part0_ops1 ∧ Keeps (F := F) main_part0_ops2 ∧ Keeps (F := F) main_part1_ops0 ∧ Keeps (F := F) main_part2_ops0 ∧ Keeps (F := F) main_part3_ops0 ∧ Keeps (F := F) main_part3_ops1 ∧ Keeps (F := F) main_part3_ops2 := by
  refine ⟨?_, ?_, ?_, ?_, ?_, ?_, ?_, ?_⟩ <;>
  · intro r hr W
    refine StableHlo.after_of_forall_not_mem (b := Proc.devRef .tc r) _ _ (List.forall_iff_forall_mem.mp ?_)
    simp only [main_part0_ops0, main_part0_ops1, main_part0_ops2, main_part1_ops0, main_part2_ops0, main_part3_ops0, main_part3_ops1, main_part3_ops2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    simp only [argRefs, List.mem_cons, List.mem_singleton, List.not_mem_nil, or_false] at hr
    rcases hr with rfl | rfl | rfl | rfl | rfl <;> (repeat' apply And.intro) <;> exact StableHlo.devRef_ne_of_ne (by decide)

end Cert.ReferenceIdeal.Hand

end
-- ==== Proof.RI.Shared.lean ====
import proofs.«125054_g2000703033488327_pallasbulk_1155_2_alg».proof.Proof.Gen.ReferenceIdeal.Launch
import proofs.«125054_g2000703033488327_pallasbulk_1155_2_alg».proof.Proof.Gen.ReferenceIdeal.Skeleton
import proofs.«125054_g2000703033488327_pallasbulk_1155_2_alg».proof.Proof.Gen.ReferenceIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

end Blocks

abbrev ms0_0 (t : Fin cfg0.N) : Memref sig .tc .vmem S1x9x9x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x4x256x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x64x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x1 .f32 := win0_6.stage (cfg0.slots t 6)
abbrev hs0_6 (t : Fin cfg0.N) : (ms0_6 t).IsWhole := hstage0_6 ((cfg0.slots t 6).cast nbuf0_6)

abbrev ms1_0 (t : Fin cfg1.N) : Memref sig .tc .vmem S1x256x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512x256 .f32 := win1_4.stage (cfg1.slots t 4)
abbrev hs1_4 (t : Fin cfg1.N) : (ms1_4 t).IsWhole := hstage1_4 ((cfg1.slots t 4).cast nbuf1_4)

abbrev scM0 : Memref sig .tc .vmem S10x10x512 .f32 := Memref.whole cc0_scratch0

def otherStaging0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f))

theorem PhiA0_eq (c : Dev nD) :
    (Pipeline.ΦA spec0 c : sProp 𝕄)
      = iprop(iprop((∃ d, owns (c : Thread nD τ) scM0 fullShare d) ∗ otherStaging0 (F := F) c) ∗ (∃ r, prngReg c r)) := by
  unfold Pipeline.ΦA otherStaging0; rw [scopedRest0_eq]; simp only [scM0, owns_whole]; try rfl

end Cert.ReferenceIdeal.Hand

end
-- ==== Proof.RI.Run0.lean ====
import proofs.«125054_g2000703033488327_pallasbulk_1155_2_alg».proof.Proof.RI.Shared

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

set_option maxHeartbeats 4000000 in

noncomputable def kernelRun0 (c : Dev nD) (i : grid0.Coords) (arg1 : Memref sig .tc .vmem S1x9x9x1024 .f32) (harg1 : arg1.IsWhole) (arg2 : Memref sig .tc .vmem S4x1024x512 .f32) (harg2 : arg2.IsWhole) (arg3 : Memref sig .tc .vmem S4x4x256x512 .f32) (harg3 : arg3.IsWhole) (arg4 : Memref sig .tc .vmem S4x64x256 .f32) (harg4 : arg4.IsWhole) (arg5 : Memref sig .tc .vmem S1x256x256 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S10x10x512 .f32) (harg8 : arg8.IsWhole)
    (x0 : Vec F S1x9x9x1024 .f32) (x1 : Vec F S4x1024x512 .f32) (x2 : Vec F S4x4x256x512 .f32) (x3 : Vec F S4x64x256 .f32) :
    Σ' (L4 : List (View.Piece (Elt F) S1x256x256 .f32)) (L5 : List (View.Piece (Elt F) S1x256x1 .f32)), { L6 : List (View.Piece (Elt F) S1x256x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ d, owns (c : Thread nD τ) arg8 fullShare d)) -∗ K ⟨⟩))
          ⊢ wp frame (wpE (defs₀ (F := F)) Variants.none c none) E (cc0__unet_core_kernel i arg1 harg1 arg2 harg2 arg3 harg3 arg4 harg4 arg5 harg5 arg6 harg6 arg7 harg7 arg8 harg8) K } := by
  refine ⟨?_, ?_, ?_, fun E K => ?run⟩
  case run =>
    simp only [cc0__unet_core_kernel_eq_skeleton]; unfold cc0__unet_core_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds, %fs, -, HS⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    iexists _; iexists _; isplitr
    swap; · iexact HS
    ipureintro; rfl

end Cert.ReferenceIdeal.Hand

end
-- ==== Proof.RI.Run1.lean ====
import proofs.«125054_g2000703033488327_pallasbulk_1155_2_alg».proof.Proof.RI.Shared

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

set_option maxHeartbeats 1000000 in

noncomputable def kernelRun1 (c : Dev nD) (i : grid1.Coords) (arg1 : Memref sig .tc .vmem S1x256x256 .f32) (harg1 : arg1.IsWhole) (arg2 : Memref sig .tc .vmem S1x256x256 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x512x256 .f32) (harg5 : arg5.IsWhole)
    (x0 : Vec F S1x256x256 .f32) (x1 : Vec F S1x256x256 .f32) (x2 : Vec F S256x1 .f32) (x3 : Vec F S256x1 .f32) :
    { L4 : List (View.Piece (Elt F) S1x512x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)) -∗ K ⟨⟩))
          ⊢ wp frame (wpE (defs₀ (F := F)) Variants.none c none) E (cc1__bn_concat_kernel i arg1 harg1 arg2 harg2 arg3 harg3 arg4 harg4 arg5 harg5) K } := by
  refine ⟨?_, fun E K => ?run⟩
  case run =>
    simp only [cc1__bn_concat_kernel_eq_skeleton]; unfold cc1__bn_concat_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.ReferenceIdeal.Hand

end
-- ==== Proof.RI.Halves.lean ====
import proofs.«125054_g2000703033488327_pallasbulk_1155_2_alg».proof.Proof.RI.Run0
import proofs.«125054_g2000703033488327_pallasbulk_1155_2_alg».proof.Proof.RI.Run1

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

abbrev VO0_4 : View sig .tc .vmem S1x256x256 .f32 := (Memref.whole cc0_stg4_0 : Memref sig .tc .vmem S1x256x256 .f32).view
abbrev VO0_5 : View sig .tc .vmem S1x256x1 .f32 := (Memref.whole cc0_stg5_0 : Memref sig .tc .vmem S1x256x1 .f32).view
abbrev VO0_6 : View sig .tc .vmem S1x256x1 .f32 := (Memref.whole cc0_stg6_0 : Memref sig .tc .vmem S1x256x1 .f32).view
abbrev VO1_4 : View sig .tc .vmem S1x512x256 .f32 := (Memref.whole cc1_stg4_0 : Memref sig .tc .vmem S1x512x256 .f32).view

def out0_4 (c : Dev nD) (t : Fin cfg0.N) (x0 : Vec F S1x9x9x1024 .f32) (x1 : Vec F S4x1024x512 .f32) (x2 : Vec F S4x4x256x512 .f32) (x3 : Vec F S4x64x256 .f32) : Vec F S1x256x256 .f32 :=
  VO0_4.read (Elt F) (VO0_4.writes (Elt F) VO0_4.junk (kernelRun0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) x0 x1 x2 x3).1)

theorem cover0_4 (c : Dev nD) (t : Fin cfg0.N) (x0 : Vec F S1x9x9x1024 .f32) (x1 : Vec F S4x1024x512 .f32) (x2 : Vec F S4x4x256x512 .f32) (x3 : Vec F S4x64x256 .f32) (y : S1x256x256.Idx) :
    ∃ pc ∈ (kernelRun0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) x0 x1 x2 x3).1, y ∈ pc.1.set :=
  View.cover_of_tiledL (kernelRun0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) x0 x1 x2 x3).1 S1x256x256.size (by sl_kernel_rfl) y

def out0_5 (c : Dev nD) (t : Fin cfg0.N) (x0 : Vec F S1x9x9x1024 .f32) (x1 : Vec F S4x1024x512 .f32) (x2 : Vec F S4x4x256x512 .f32) (x3 : Vec F S4x64x256 .f32) : Vec F S1x256x1 .f32 :=
  VO0_5.read (Elt F) (VO0_5.writes (Elt F) VO0_5.junk (kernelRun0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) x0 x1 x2 x3).2.1)

theorem cover0_5 (c : Dev nD) (t : Fin cfg0.N) (x0 : Vec F S1x9x9x1024 .f32) (x1 : Vec F S4x1024x512 .f32) (x2 : Vec F S4x4x256x512 .f32) (x3 : Vec F S4x64x256 .f32) (y : S1x256x1.Idx) :
    ∃ pc ∈ (kernelRun0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) x0 x1 x2 x3).2.1, y ∈ pc.1.set :=
  View.cover_of_tiledL (kernelRun0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) x0 x1 x2 x3).2.1 S1x256x1.size (by sl_kernel_rfl) y

def out0_6 (c : Dev nD) (t : Fin cfg0.N) (x0 : Vec F S1x9x9x1024 .f32) (x1 : Vec F S4x1024x512 .f32) (x2 : Vec F S4x4x256x512 .f32) (x3 : Vec F S4x64x256 .f32) : Vec F S1x256x1 .f32 :=
  VO0_6.read (Elt F) (VO0_6.writes (Elt F) VO0_6.junk (kernelRun0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) x0 x1 x2 x3).2.2.1)

theorem cover0_6 (c : Dev nD) (t : Fin cfg0.N) (x0 : Vec F S1x9x9x1024 .f32) (x1 : Vec F S4x1024x512 .f32) (x2 : Vec F S4x4x256x512 .f32) (x3 : Vec F S4x64x256 .f32) (y : S1x256x1.Idx) :
    ∃ pc ∈ (kernelRun0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) x0 x1 x2 x3).2.2.1, y ∈ pc.1.set :=
  View.cover_of_tiledL (kernelRun0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) x0 x1 x2 x3).2.2.1 S1x256x1.size (by sl_kernel_rfl) y

def out1_4 (c : Dev nD) (t : Fin cfg1.N) (x0 : Vec F S1x256x256 .f32) (x1 : Vec F S1x256x256 .f32) (x2 : Vec F S256x1 .f32) (x3 : Vec F S256x1 .f32) : Vec F S1x512x256 .f32 :=
  VO1_4.read (Elt F) (VO1_4.writes (Elt F) VO1_4.junk (kernelRun1 c (grid1.coords t) (ms1_0 t) (hs1_0 t) (ms1_1 t) (hs1_1 t) (ms1_2 t) (hs1_2 t) (ms1_3 t) (hs1_3 t) (ms1_4 t) (hs1_4 t) x0 x1 x2 x3).1)

theorem cover1_4 (c : Dev nD) (t : Fin cfg1.N) (x0 : Vec F S1x256x256 .f32) (x1 : Vec F S1x256x256 .f32) (x2 : Vec F S256x1 .f32) (x3 : Vec F S256x1 .f32) (y : S1x512x256.Idx) :
    ∃ pc ∈ (kernelRun1 c (grid1.coords t) (ms1_0 t) (hs1_0 t) (ms1_1 t) (hs1_1 t) (ms1_2 t) (hs1_2 t) (ms1_3 t) (hs1_3 t) (ms1_4 t) (hs1_4 t) x0 x1 x2 x3).1, y ∈ pc.1.set :=
  View.cover_of_tiledL (kernelRun1 c (grid1.coords t) (ms1_0 t) (hs1_0 t) (ms1_1 t) (hs1_1 t) (ms1_2 t) (hs1_2 t) (ms1_3 t) (hs1_3 t) (ms1_4 t) (hs1_4 t) x0 x1 x2 x3).1 S1x256x256.size (by sl_kernel_rfl) y

section Halves

variable (V : (c : Dev nD) → (b : Ref sig .tc) → Buf (Elt F) ((c : Thread nD τ).loc b))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 c t (iblk0 V c 0 t) (iblk0 V c 1 t) (iblk0 V c 2 t) (iblk0 V c 3 t)
    | ⟨5, _⟩ => out0_5 c t (iblk0 V c 0 t) (iblk0 V c 1 t) (iblk0 V c 2 t) (iblk0 V c 3 t)
    | ⟨6, _⟩ => out0_6 c t (iblk0 V c 0 t) (iblk0 V c 1 t) (iblk0 V c 2 t) (iblk0 V c 3 t)
  Φ _ := Pipeline.ΦA spec0 c
  q _ := fullShare
  owed _ := 0

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 c t (iblk0 V c 0 t) (iblk0 V c 1 t) (iblk0 V c 2 t) (iblk0 V c 3 t) := by dsimp only [dat0]
theorem after0_5 (c : Dev nD) (t : Fin cfg0.N) : (dat0 V c).after 5 t = out0_5 c t (iblk0 V c 0 t) (iblk0 V c 1 t) (iblk0 V c 2 t) (iblk0 V c 3 t) := by dsimp only [dat0]
theorem after0_6 (c : Dev nD) (t : Fin cfg0.N) : (dat0 V c).after 6 t = out0_6 c t (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t))

set_option maxHeartbeats 2000000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  rw [show (dat0 V c).Φ t.castSucc = Pipeline.ΦA spec0 c from rfl, PhiA0_eq]
  unfold out0_4 out0_5 out0_6
  iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0 c (grid0.coords t) _ _ _ _ _ _ _ _ _ _ _ _ _ _ _ _ (iblk0 V c 0 t) (iblk0 V c 1 t) (iblk0 V c 2 t) (iblk0 V c 3 t)).2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS]; · iexact HS
  iintro ⟨H0, H1, H2, H3, ⟨%e4, H4⟩, ⟨%e5, H5⟩, ⟨%e6, H6⟩, HS⟩
  isplitl [HS Hrest Hg]
  · isplitl [HS Hrest]
    · isplitl [HS]; · iexact HS
      iexact Hrest
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover0_4 c t _ _ _ _)
  isplitl [H5]
  · unfold owns; iexists _; isplitr
    swap; · iexact H5
    ipureintro; exact View.read_writes_of_cover _ _ _ _ _ (cover0_5 c t _ _ _ _)
  unfold owns; iexists _; isplitr
  swap; · iexact H6
  ipureintro; exact View.read_writes_of_cover _ _ _ _ _ (cover0_6 c t _ _ _ _)

theorem body_obligation0 (c : Dev nD) : BodyObligation (dat0 (F := F) V c) (defs₀ (F := F)) Variants.none () Set.univ := fun t => by
  rw [bigSep_W0, bigSep_W0]
  exact sound_body0 V c t

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 c t (iblk1 V c 0 t) (iblk1 V c 1 t) (iblk1 V c 2 t) (iblk1 V c 3 t)
  Φ _ := Pipeline.ΦA spec1 c
  q _ := fullShare
  owed _ := 0

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 c t (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 2000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  unfold out1_4
  iintro ⟨HΦ, Ho, ⟨%d0, H0⟩, ⟨%d1, H1⟩, ⟨%d2, H2⟩, ⟨%d3, H3⟩, ⟨%d4, H4⟩⟩
  iapply ((kernelRun1 c (grid1.coords t) _ _ _ _ _ _ _ _ _ _ (iblk1 V c 0 t) (iblk1 V c 1 t) (iblk1 V c 2 t) (iblk1 V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover1_4 c t _ _ _ _)

theorem body_obligation1 (c : Dev nD) : BodyObligation (dat1 (F := F) V c) (defs₀ (F := F)) Variants.none () Set.univ := fun t => by
  rw [bigSep_W1, bigSep_W1]
  exact sound_body1 V c t

end Halves

end Cert.ReferenceIdeal.Hand

end
-- ==== Proof.RI.Run.lean ====
import proofs.«125054_g2000703033488327_pallasbulk_1155_2_alg».proof.Proof.Gen.ReferenceIdeal.Launch
import proofs.«125054_g2000703033488327_pallasbulk_1155_2_alg».proof.Proof.Gen.ReferenceIdeal.Skeleton
import proofs.«125054_g2000703033488327_pallasbulk_1155_2_alg».proof.Proof.Gen.ReferenceIdeal.Points
import proofs.«125054_g2000703033488327_pallasbulk_1155_2_alg».proof.Proof.RI.RunHost
import proofs.«125054_g2000703033488327_pallasbulk_1155_2_alg».proof.Proof.RI.Halves
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after main_part0_ops0 (W0 m ρ c)

abbrev W2 : Dev nD → Valuation τ sig (Elt F) := fun c => StableHlo.after main_part0_ops1 (W1 m ρ c)

abbrev W3 : Dev nD → Valuation τ sig (Elt F) := fun c => StableHlo.after main_part0_ops2 (W2 m ρ c)

abbrev W4 : Dev nD → Valuation τ sig (Elt F) := fun c => StableHlo.after main_part1_ops0 (W3 m ρ c)

abbrev W5 : Dev nD → Valuation τ sig (Elt F) := fun c => StableHlo.after main_part2_ops0 (W4 m ρ c)

abbrev W6 : Dev nD → Valuation τ sig (Elt F) := fun c => StableHlo.after main_part3_ops0 (W5 m ρ c)

abbrev V6 : (c : Dev nD) → (b : Ref sig .tc) → Buf (Elt F) ((c : Thread nD τ).loc b) := fun c b => W6 m ρ c b

abbrev Ventry0 : (c : Dev nD) → (b : Ref sig .tc) → Buf (Elt F) ((c : Thread nD τ).loc b) := V6 m ρ

def W7 (c : Dev nD) : Valuation τ sig (Elt F) :=
  Pipeline.withArrays spec0 c (W6 m ρ c) fun w => (dat0 (Ventry0 m ρ) c).arrAt w cfg0.N
theorem Wexit0_arr (c : Dev nD) (w : Fin cfg0.W) :
    W7 m ρ c (Proc.devRef .tc (Pipeline.arrRef spec0 w)) = (dat0 (Ventry0 m ρ) c).arrAt w cfg0.N := by
  unfold W7; exact Pipeline.withArrays_arr spec0 launch0.win.arr_inj c _ _ w
theorem Wexit0_of_ne (c : Dev nD) (b : Ref sig .tc) (hb : ∀ w, Pipeline.arrRef spec0 w ≠ b) :
    W7 m ρ c (Proc.devRef .tc b) = W6 m ρ c (Proc.devRef .tc b) := by
  unfold W7; exact Pipeline.withArrays_of_ne spec0 c _ _ b hb

abbrev V7 : (c : Dev nD) → (b : Ref sig .tc) → Buf (Elt F) ((c : Thread nD τ).loc b) := fun c b => W7 m ρ c b

theorem hF0 (c : Dev nD) (w : Fin cfg0.W) : (dat0 (Ventry0 m ρ) c).arrAt w cfg0.N = V7 m ρ c (Pipeline.arrRef spec0 w) :=
  (Wexit0_arr m ρ c w).symm
theorem hrest0 (c : Dev nD) : ∀ b, b ∉ Finset.univ.image (Pipeline.arrRef spec0) → V7 m ρ c b = V6 m ρ c b :=
  fun b hb => Wexit0_of_ne m ρ c b fun w e => hb (Finset.mem_image.mpr ⟨w, Finset.mem_univ _, e⟩)

abbrev W8 : Dev nD → Valuation τ sig (Elt F) := fun c => StableHlo.after main_part3_ops1 (W7 m ρ c)

abbrev V8 : (c : Dev nD) → (b : Ref sig .tc) → Buf (Elt F) ((c : Thread nD τ).loc b) := fun c b => W8 m ρ c b

abbrev Ventry1 : (c : Dev nD) → (b : Ref sig .tc) → Buf (Elt F) ((c : Thread nD τ).loc b) := V8 m ρ

def W9 (c : Dev nD) : Valuation τ sig (Elt F) :=
  Pipeline.withArrays spec1 c (W8 m ρ c) fun w => (dat1 (Ventry1 m ρ) c).arrAt w cfg1.N
theorem Wexit1_arr (c : Dev nD) (w : Fin cfg1.W) :
    W9 m ρ c (Proc.devRef .tc (Pipeline.arrRef spec1 w)) = (dat1 (Ventry1 m ρ) c).arrAt w cfg1.N := by
  unfold W9; exact Pipeline.withArrays_arr spec1 launch1.win.arr_inj c _ _ w
theorem Wexit1_of_ne (c : Dev nD) (b : Ref sig .tc) (hb : ∀ w, Pipeline.arrRef spec1 w ≠ b) :
    W9 m ρ c (Proc.devRef .tc b) = W8 m ρ c (Proc.devRef .tc b) := by
  unfold W9; exact Pipeline.withArrays_of_ne spec1 c _ _ b hb

abbrev V9 : (c : Dev nD) → (b : Ref sig .tc) → Buf (Elt F) ((c : Thread nD τ).loc b) := fun c b => W9 m ρ c b
theorem hF1 (c : Dev nD) (w : Fin cfg1.W) : (dat1 (Ventry1 m ρ) c).arrAt w cfg1.N = V9 m ρ c (Pipeline.arrRef spec1 w) :=
  (Wexit1_arr m ρ c w).symm
theorem hrest1 (c : Dev nD) : ∀ b, b ∉ Finset.univ.image (Pipeline.arrRef spec1) → V9 m ρ c b = V8 m ρ c b :=
  fun b hb => Wexit1_of_ne m ρ c b fun w e => hb (Finset.mem_image.mpr ⟨w, Finset.mem_univ _, e⟩)

abbrev W10 : Dev nD → Valuation τ sig (Elt F) := fun c => StableHlo.after main_part3_ops2 (W9 m ρ c)

-- no host operation writes an argument and no window of either region lies on one, so the fold walks back to the launch memory
theorem W10_arg (c : Dev nD) {r : Ref sig .tc} (hr : r ∈ argRefs) :
    W10 m ρ c (Proc.devRef .tc r) = m ((c : Thread nD τ).loc r) := by
  have h : (∀ w, Pipeline.arrRef spec0 w ≠ r) ∧ ∀ w, Pipeline.arrRef spec1 w ≠ r := by revert r; decide
  obtain ⟨h0, h1⟩ := h
  exact
    calc W10 m ρ c (Proc.devRef .tc r)
      _ = W9 m ρ c (Proc.devRef .tc r) := (keeps_all (F := F)).2.2.2.2.2.2.2 r hr _
      _ = W8 m ρ c (Proc.devRef .tc r) := Wexit1_of_ne m ρ c r h1
      _ = W7 m ρ c (Proc.devRef .tc r) := (keeps_all (F := F)).2.2.2.2.2.2.1 r hr _
      _ = W6 m ρ c (Proc.devRef .tc r) := Wexit0_of_ne m ρ c r h0
      _ = W5 m ρ c (Proc.devRef .tc r) := (keeps_all (F := F)).2.2.2.2.2.1 r hr _
      _ = W4 m ρ c (Proc.devRef .tc r) := (keeps_all (F := F)).2.2.2.2.1 r hr _
      _ = W3 m ρ c (Proc.devRef .tc r) := (keeps_all (F := F)).2.2.2.1 r hr _
      _ = W2 m ρ c (Proc.devRef .tc r) := (keeps_all (F := F)).2.2.1 r hr _
      _ = W1 m ρ c (Proc.devRef .tc r) := (keeps_all (F := F)).2.1 r hr _
      _ = W0 m ρ c (Proc.devRef .tc r) := (keeps_all (F := F)).1 r hr _
      _ = m ((c : Thread nD τ).loc r) := rfl

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (Ventry0 m ρ) c
  | ⟨1, _⟩ => fun c => dat1 (Ventry1 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W10 m ρ c) ∗ ∃ r, prngReg c r)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ventry0 m ρ) c).loose
  hwaits := Pipeline.hwaits_of_owed_zero _ _ _ _ L lv 0 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec0 c (Ventry0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Ventry0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Ventry0 m ρ c) (V7 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ventry1 m ρ) c).loose
  hwaits := Pipeline.hwaits_of_owed_zero _ _ _ _ L lv 1 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec1 c (Ventry1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Ventry1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Ventry1 m ρ c) (V9 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg main_part0_ops0 main_part0_ops0_sub (fresh_all (F := F)).1 (W0 m ρ)),
    .host (hseg main_part0_ops1 main_part0_ops1_sub (fresh_all (F := F)).2.1 (W1 m ρ)),
    .host (hseg main_part0_ops2 main_part0_ops2_sub (fresh_all (F := F)).2.2.1 (W2 m ρ)),
    .host (hseg main_part1_ops0 main_part1_ops0_sub (fresh_all (F := F)).2.2.2.1 (W3 m ρ)),
    .host (hseg main_part2_ops0 main_part2_ops0_sub (fresh_all (F := F)).2.2.2.2.1 (W4 m ρ)),
    .host (hseg main_part3_ops0 main_part3_ops0_sub (fresh_all (F := F)).2.2.2.2.2.1 (W5 m ρ)),
    .region (reg0 m ρ),
    .host (hseg main_part3_ops1 main_part3_ops1_sub (fresh_all (F := F)).2.2.2.2.2.2.1 (W7 m ρ)),
    .region (reg1 m ρ),
    .host (hseg main_part3_ops2 main_part3_ops2_sub (fresh_all (F := F)).2.2.2.2.2.2.2 (W9 m ρ)) ]

theorem main_run (c : Dev nD) : main (F := F) c = Pipeline.Seg.run (segs m ρ) := (main_chain_windows c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W10 m ρ c) ∗ R c) ⊢ _
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun _ h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := F)) _ _).mono (fun r h c =>
    ⟨(h c _ (mem_uc main_arg0 (by decide))).trans (W10_arg m ρ c (by decide)),
     (h c _ (mem_uc main_arg1 (by decide))).trans (W10_arg m ρ c (by decide)),
     (h c _ (mem_uc main_arg2 (by decide))).trans (W10_arg m ρ c (by decide)),
     (h c _ (mem_uc main_arg3 (by decide))).trans (W10_arg m ρ c (by decide)),
     (h c _ (mem_uc main_arg4 (by decide))).trans (W10_arg m ρ c (by decide))⟩) (run_all m ρ)

end Cert.ReferenceIdeal.Hand

end
-- ==== Proof.Val.Spec.lean ====
import Idealize.ShloMosaic.PureOps.Ideal

noncomputable section

open scoped BigOperators

namespace Cert.Spec

open Idealize.ShloMosaic

def slope : EReal := FloatOps.ofBits (F := Ideal) .f32 0x3E4CCCCD#32

def lrelu (x : EReal) : EReal :=
  Scalar.select (FloatOps.cmpf (F := Ideal) (φ := .f32) .ogt x (0 : EReal)) x (slope * x)

def conv (xs : Fin 9 → Fin 9 → Fin 1024 → EReal) (wd : Fin 4 → Fin 1024 → Fin 512 → EReal)
    (a b : Fin 8) (i : Fin 512) : EReal :=
  max (∑ t : Fin 4, ∑ k : Fin 1024,
      lrelu (xs ⟨a.val + t.val / 2, by have := a.isLt; have := t.isLt; omega⟩
                ⟨b.val + t.val % 2, by have := b.isLt; have := t.isLt; omega⟩ k) * wd t k i) 0

def framed (y : Fin 8 → Fin 8 → Fin 512 → EReal) (r s : Fin 10) (i : Fin 512) : EReal :=
  if h : 1 ≤ r.val ∧ r.val ≤ 8 ∧ 1 ≤ s.val ∧ s.val ≤ 8 then
    y ⟨r.val - 1, by omega⟩ ⟨s.val - 1, by omega⟩ i
  else 0

def phase (wu : Fin 4 → Fin 4 → Fin 256 → Fin 512 → EReal) (yp : Fin 10 → Fin 10 → Fin 512 → EReal)
    (ph : Fin 4) (o : Fin 256) (a b : Fin 8) : EReal :=
  ∑ t : Fin 4, ∑ i : Fin 512,
    wu ph t o i * yp ⟨a.val + ph.val / 2 + t.val / 2, by have := a.isLt; have := ph.isLt; have := t.isLt; omega⟩
                     ⟨b.val + ph.val % 2 + t.val % 2, by have := b.isLt; have := ph.isLt; have := t.isLt; omega⟩ i

def placed (pm : Fin 4 → Fin 64 → Fin 256 → EReal) (zph : Fin 4 → Fin 256 → Fin 8 → Fin 8 → EReal)
    (o l : Fin 256) : EReal :=
  ∑ ph : Fin 4, ∑ col : Fin 64,
    zph ph o ⟨col.val / 8, by have := col.isLt; omega⟩ ⟨col.val % 8, Nat.mod_lt _ (by decide)⟩ * pm ph col l

def coreZ (xs : Fin 9 → Fin 9 → Fin 1024 → EReal) (wd : Fin 4 → Fin 1024 → Fin 512 → EReal)
    (wu : Fin 4 → Fin 4 → Fin 256 → Fin 512 → EReal) (pm : Fin 4 → Fin 64 → Fin 256 → EReal)
    (o l : Fin 256) : EReal :=
  placed pm (phase wu (framed (conv xs wd))) o l

def coreSum (xs : Fin 9 → Fin 9 → Fin 1024 → EReal) (wd : Fin 4 → Fin 1024 → Fin 512 → EReal)
    (wu : Fin 4 → Fin 4 → Fin 256 → Fin 512 → EReal) (pm : Fin 4 → Fin 64 → Fin 256 → EReal)
    (o : Fin 256) : EReal :=
  ∑ l : Fin 256, coreZ xs wd wu pm o l

def coreSsq (xs : Fin 9 → Fin 9 → Fin 1024 → EReal) (wd : Fin 4 → Fin 1024 → Fin 512 → EReal)
    (wu : Fin 4 → Fin 4 → Fin 256 → Fin 512 → EReal) (pm : Fin 4 → Fin 64 → Fin 256 → EReal)
    (o : Fin 256) : EReal :=
  ∑ l : Fin 256, coreZ xs wd wu pm o l * coreZ xs wd wu pm o l

def joined (x : Fin 256 → Fin 256 → EReal) (z : Fin 256 → Fin 256 → EReal) (scale shift : Fin 256 → EReal)
    (c : Fin 512) (l : Fin 256) : EReal :=
  if h : c.val < 256 then x ⟨c.val, h⟩ l
  else z ⟨c.val - 256, by have := c.isLt; omega⟩ l * scale ⟨c.val - 256, by have := c.isLt; omega⟩
        + shift ⟨c.val - 256, by have := c.isLt; omega⟩

end Cert.Spec

end
-- ==== Proof.Val.KerBlock.lean ====
import proofs.«125054_g2000703033488327_pallasbulk_1155_2_alg».proof.Proof.Gen.KernelIdeal.Skeleton
import Idealize.ShloMosaic.Lib.Pipeline.FrameBody

noncomputable section

namespace Cert.Val.Ker

open Cert.KernelIdeal Cert.KernelIdeal.Gen Idealize.ShloMosaic

variable {F : FTy → Type} [FloatOps F]

abbrev rCells : Rect S8x9x9x1024 := Rect.unit (s := S8x9x9x1024) ![0, 0, 0, 0] S8x9x9x1024.size inb_S8x9x9x1024_S8x9x9x1024_0_0_0_0

abbrev rDown : Rect S4096x512 := Rect.unit (s := S4096x512) ![0, 0] S4096x512.size inb_S4096x512_S4096x512_0_0

abbrev rScr : Rect S8x10x10x512 := Rect.unit (s := S8x10x10x512) ![0, 0, 0, 0] S8x10x10x512.size inb_S8x10x10x512_S8x10x10x512_0_0_0_0

abbrev rMid : Rect S8x10x10x512 := Rect.unit (s := S8x10x10x512) ![0, 1, 0, 0] S8x8x10x512.size inb_S8x10x10x512_S8x8x10x512_0_1_0_0

abbrev rWin00 : Rect S8x10x10x512 := Rect.unit (s := S8x10x10x512) ![0, 0, 0, 0] S8x8x8x512.size inb_S8x10x10x512_S8x8x8x512_0_0_0_0

abbrev rWin01 : Rect S8x10x10x512 := Rect.unit (s := S8x10x10x512) ![0, 0, 1, 0] S8x8x8x512.size inb_S8x10x10x512_S8x8x8x512_0_0_1_0

abbrev rWin02 : Rect S8x10x10x512 := Rect.unit (s := S8x10x10x512) ![0, 0, 2, 0] S8x8x8x512.size inb_S8x10x10x512_S8x8x8x512_0_0_2_0

abbrev rWin10 : Rect S8x10x10x512 := Rect.unit (s := S8x10x10x512) ![0, 1, 0, 0] S8x8x8x512.size inb_S8x10x10x512_S8x8x8x512_0_1_0_0

abbrev rWin11 : Rect S8x10x10x512 := Rect.unit (s := S8x10x10x512) ![0, 1, 1, 0] S8x8x8x512.size inb_S8x10x10x512_S8x8x8x512_0_1_1_0

abbrev rWin12 : Rect S8x10x10x512 := Rect.unit (s := S8x10x10x512) ![0, 1, 2, 0] S8x8x8x512.size inb_S8x10x10x512_S8x8x8x512_0_1_2_0

abbrev rWin20 : Rect S8x10x10x512 := Rect.unit (s := S8x10x10x512) ![0, 2, 0, 0] S8x8x8x512.size inb_S8x10x10x512_S8x8x8x512_0_2_0_0

abbrev rWin21 : Rect S8x10x10x512 := Rect.unit (s := S8x10x10x512) ![0, 2, 1, 0] S8x8x8x512.size inb_S8x10x10x512_S8x8x8x512_0_2_1_0

abbrev rWin22 : Rect S8x10x10x512 := Rect.unit (s := S8x10x10x512) ![0, 2, 2, 0] S8x8x8x512.size inb_S8x10x10x512_S8x8x8x512_0_2_2_0

abbrev rUp0 : Rect S4x256x2048 := Rect.unit (s := S4x256x2048) ![0, 0, 0] S1x256x2048.size inb_S4x256x2048_S1x256x2048_0_0_0

abbrev rPl0 : Rect S4x64x256 := Rect.unit (s := S4x64x256) ![0, 0, 0] S1x64x256.size inb_S4x64x256_S1x64x256_0_0_0

abbrev rUp1 : Rect S4x256x2048 := Rect.unit (s := S4x256x2048) ![1, 0, 0] S1x256x2048.size inb_S4x256x2048_S1x256x2048_1_0_0

abbrev rPl1 : Rect S4x64x256 := Rect.unit (s := S4x64x256) ![1, 0, 0] S1x64x256.size inb_S4x64x256_S1x64x256_1_0_0

abbrev rUp2 : Rect S4x256x2048 := Rect.unit (s := S4x256x2048) ![2, 0, 0] S1x256x2048.size inb_S4x256x2048_S1x256x2048_2_0_0

abbrev rPl2 : Rect S4x64x256 := Rect.unit (s := S4x64x256) ![2, 0, 0] S1x64x256.size inb_S4x64x256_S1x64x256_2_0_0

abbrev rUp3 : Rect S4x256x2048 := Rect.unit (s := S4x256x2048) ![3, 0, 0] S1x256x2048.size inb_S4x256x2048_S1x256x2048_3_0_0

abbrev rPl3 : Rect S4x64x256 := Rect.unit (s := S4x64x256) ![3, 0, 0] S1x64x256.size inb_S4x64x256_S1x64x256_3_0_0

abbrev rZ0 : Rect S8x256x256 := Rect.unit (s := S8x256x256) ![0, 0, 0] S1x256x256.size inb_S8x256x256_S1x256x256_0_0_0

abbrev rS0 : Rect S8x256x1 := Rect.unit (s := S8x256x1) ![0, 0, 0] S1x256x1.size inb_S8x256x1_S1x256x1_0_0_0

abbrev rZ1 : Rect S8x256x256 := Rect.unit (s := S8x256x256) ![1, 0, 0] S1x256x256.size inb_S8x256x256_S1x256x256_1_0_0

abbrev rS1 : Rect S8x256x1 := Rect.unit (s := S8x256x1) ![1, 0, 0] S1x256x1.size inb_S8x256x1_S1x256x1_1_0_0

abbrev rZ2 : Rect S8x256x256 := Rect.unit (s := S8x256x256) ![2, 0, 0] S1x256x256.size inb_S8x256x256_S1x256x256_2_0_0

abbrev rS2 : Rect S8x256x1 := Rect.unit (s := S8x256x1) ![2, 0, 0] S1x256x1.size inb_S8x256x1_S1x256x1_2_0_0

abbrev rZ3 : Rect S8x256x256 := Rect.unit (s := S8x256x256) ![3, 0, 0] S1x256x256.size inb_S8x256x256_S1x256x256_3_0_0

abbrev rS3 : Rect S8x256x1 := Rect.unit (s := S8x256x1) ![3, 0, 0] S1x256x1.size inb_S8x256x1_S1x256x1_3_0_0

abbrev rZ4 : Rect S8x256x256 := Rect.unit (s := S8x256x256) ![4, 0, 0] S1x256x256.size inb_S8x256x256_S1x256x256_4_0_0

abbrev rS4 : Rect S8x256x1 := Rect.unit (s := S8x256x1) ![4, 0, 0] S1x256x1.size inb_S8x256x1_S1x256x1_4_0_0

abbrev rZ5 : Rect S8x256x256 := Rect.unit (s := S8x256x256) ![5, 0, 0] S1x256x256.size inb_S8x256x256_S1x256x256_5_0_0

abbrev rS5 : Rect S8x256x1 := Rect.unit (s := S8x256x1) ![5, 0, 0] S1x256x1.size inb_S8x256x1_S1x256x1_5_0_0

abbrev rZ6 : Rect S8x256x256 := Rect.unit (s := S8x256x256) ![6, 0, 0] S1x256x256.size inb_S8x256x256_S1x256x256_6_0_0

abbrev rS6 : Rect S8x256x1 := Rect.unit (s := S8x256x1) ![6, 0, 0] S1x256x1.size inb_S8x256x1_S1x256x1_6_0_0

abbrev rZ7 : Rect S8x256x256 := Rect.unit (s := S8x256x256) ![7, 0, 0] S1x256x256.size inb_S8x256x256_S1x256x256_7_0_0

abbrev rS7 : Rect S8x256x1 := Rect.unit (s := S8x256x1) ![7, 0, 0] S1x256x1.size inb_S8x256x1_S1x256x1_7_0_0

def scrZero : Vec F S8x10x10x512 .bf16 :=
  View.canon [⟨rScr, k0_pay2 (F := F)⟩]

def scr (x0 : Vec F S8x9x9x1024 .bf16) (x1 : Vec F S4096x512 .bf16) : Vec F S8x10x10x512 .bf16 :=
  View.canon [⟨rMid, updateSlice (View.ld (scrZero (F := F)) rMid) (k0_pay3 (View.ld x0 rCells) (View.ld x1 rDown)) ![0, 0, 1, 0] slices_S8x8x10x512_S8x8x8x512_0_0_1_0⟩,
    ⟨rScr, k0_pay2 (F := F)⟩]

section Windows
variable (x0 : Vec F S8x9x9x1024 .bf16) (x1 : Vec F S4096x512 .bf16)

def w00 : FVec F S512x512 .bf16 := k0_pay4 (View.ld (scr x0 x1) rWin00)

def l01 : Vec F S8x8x8x512 .bf16 := View.ld (scr x0 x1) rWin01

def l02 : Vec F S8x8x8x512 .bf16 := View.ld (scr x0 x1) rWin02

def l10 : Vec F S8x8x8x512 .bf16 := View.ld (scr x0 x1) rWin10

def l11 : Vec F S8x8x8x512 .bf16 := View.ld (scr x0 x1) rWin11

def l12 : Vec F S8x8x8x512 .bf16 := View.ld (scr x0 x1) rWin12

def w10 : FVec F S512x512 .bf16 := k0_pay6 (l10 x0 x1)

def w11 : FVec F S512x512 .bf16 := k0_pay7 (l11 x0 x1)

def w12 : FVec F S512x512 .bf16 := k0_pay8 (l12 x0 x1)

def w20 : FVec F S512x512 .bf16 := k0_pay9 (View.ld (scr x0 x1) rWin20)

def w21 : FVec F S512x512 .bf16 := k0_pay10 (View.ld (scr x0 x1) rWin21)

def w22 : FVec F S512x512 .bf16 := k0_pay11 (View.ld (scr x0 x1) rWin22)

end Windows

section Phases
variable (x0 : Vec F S8x9x9x1024 .bf16) (x1 : Vec F S4096x512 .bf16) (x2 : Vec F S4x256x2048 .bf16)

def ph0 : FVec F S256x512 .bf16 :=
  k0_pay12 (w00 x0 x1) (l01 x0 x1) (l10 x0 x1) (l11 x0 x1) (View.ld x2 rUp0)

def cat1 : FVec F S512x2048 .bf16 :=
  k0_pay13 (l01 x0 x1) (l02 x0 x1) (l11 x0 x1) (l12 x0 x1)

def ph1 : FVec F S256x512 .bf16 := k0_pay14 (cat1 x0 x1) (View.ld x2 rUp1)

def ph2 : FVec F S256x512 .bf16 :=
  k0_pay15 (w10 x0 x1) (w11 x0 x1) (w20 x0 x1) (w21 x0 x1) (View.ld x2 rUp2)

def ph3 : FVec F S256x512 .bf16 :=
  k0_pay16 (w11 x0 x1) (w12 x0 x1) (w21 x0 x1) (w22 x0 x1) (View.ld x2 rUp3)

end Phases

section Images
variable (x0 : Vec F S8x9x9x1024 .bf16) (x1 : Vec F S4096x512 .bf16) (x2 : Vec F S4x256x2048 .bf16)
  (x3 : Vec F S4x64x256 .bf16)

def zc0 : FVec F S256x256 .f32 :=
  k0_pay17 (w10 x0 x1) (w11 x0 x1) (w12 x0 x1) (w20 x0 x1) (w21 x0 x1) (w22 x0 x1) (ph0 x0 x1 x2) (cat1 x0 x1)
    (View.ld x2 rUp1) (View.ld x2 rUp2) (View.ld x2 rUp3) (View.ld x3 rPl0) (View.ld x3 rPl1) (View.ld x3 rPl2) (View.ld x3 rPl3)

def zb0 : FVec F S256x256 .bf16 :=
  k0_pay18 (w10 x0 x1) (w11 x0 x1) (w12 x0 x1) (w20 x0 x1) (w21 x0 x1) (w22 x0 x1) (ph0 x0 x1 x2) (cat1 x0 x1)
    (View.ld x2 rUp1) (View.ld x2 rUp2) (View.ld x2 rUp3) (View.ld x3 rPl0) (View.ld x3 rPl1) (View.ld x3 rPl2) (View.ld x3 rPl3)

def zp1 : FVec F S256x256 .f32 :=
  k0_pay22 (ph0 x0 x1 x2) (ph1 x0 x1 x2) (ph2 x0 x1 x2) (View.ld x3 rPl0) (View.ld x3 rPl1) (View.ld x3 rPl2)

def zp2 : FVec F S256x256 .f32 :=
  k0_pay29 (ph0 x0 x1 x2) (ph1 x0 x1 x2) (ph2 x0 x1 x2) (View.ld x3 rPl0) (View.ld x3 rPl1) (View.ld x3 rPl2)

def zp3 : FVec F S256x256 .f32 :=
  k0_pay35 (ph0 x0 x1 x2) (ph1 x0 x1 x2) (View.ld x3 rPl0) (View.ld x3 rPl1)

def zp4 : FVec F S256x256 .f32 :=
  k0_pay42 (ph0 x0 x1 x2) (ph1 x0 x1 x2) (View.ld x3 rPl0) (View.ld x3 rPl1)

def zp5a : FVec F S256x256 .f32 := k0_pay48 (ph0 x0 x1 x2) (View.ld x3 rPl0)

def zp5b : FVec F S256x256 .f32 := k0_pay49 (ph1 x0 x1 x2) (View.ld x3 rPl1)

def zp6 : FVec F S256x256 .f32 := k0_pay54 (ph0 x0 x1 x2) (View.ld x3 rPl0)

def zp7 : FVec F S256x256 .f32 := k0_pay60 (ph0 x0 x1 x2) (View.ld x3 rPl0)

end Images

section Outputs
variable (x0 : Vec F S8x9x9x1024 .bf16) (x1 : Vec F S4096x512 .bf16) (x2 : Vec F S4x256x2048 .bf16)
  (x3 : Vec F S4x64x256 .bf16)

def blockZ : Vec F S8x256x256 .bf16 :=
  View.canon [
    ⟨rZ7, k0_pay62 (ph1 x0 x1 x2) (ph2 x0 x1 x2) (ph3 x0 x1 x2) (zp7 x0 x1 x2 x3) (View.ld x3 rPl1) (View.ld x3 rPl2) (View.ld x3 rPl3)⟩,
    ⟨rZ6, k0_pay57 (ph2 x0 x1 x2) (ph3 x0 x1 x2) (zp6 x0 x1 x2 x3) (k0_pay55 (ph1 x0 x1 x2)) (View.ld x3 rPl1) (View.ld x3 rPl2) (View.ld x3 rPl3)⟩,
    ⟨rZ5, k0_pay51 (ph2 x0 x1 x2) (ph3 x0 x1 x2) (zp5a x0 x1 x2 x3) (zp5b x0 x1 x2 x3) (View.ld x3 rPl2) (View.ld x3 rPl3)⟩,
    ⟨rZ4, k0_pay45 (ph3 x0 x1 x2) (zp4 x0 x1 x2 x3) (k0_pay43 (ph2 x0 x1 x2)) (View.ld x3 rPl2) (View.ld x3 rPl3)⟩,
    ⟨rZ3, k0_pay39 (ph3 x0 x1 x2) (zp3 x0 x1 x2 x3) (k0_pay36 (ph2 x0 x1 x2)) (k0_pay37 (View.ld x3 rPl2)) (constant S256x256 .f32 0x00000000#32) (View.ld x3 rPl3)⟩,
    ⟨rZ2, k0_pay32 (zp2 x0 x1 x2 x3) (k0_pay30 (ph3 x0 x1 x2)) (View.ld x3 rPl3)⟩,
    ⟨rZ1, k0_pay26 (zp1 x0 x1 x2 x3) (k0_pay23 (ph3 x0 x1 x2)) (k0_pay24 (View.ld x3 rPl3))⟩,
    ⟨rZ0, k0_pay19 (zb0 x0 x1 x2 x3)⟩]

def blockSum : Vec F S8x256x1 .f32 :=
  View.canon [
    ⟨rS7, k0_pay63 (ph1 x0 x1 x2) (ph2 x0 x1 x2) (ph3 x0 x1 x2) (zp7 x0 x1 x2 x3) (View.ld x3 rPl1) (View.ld x3 rPl2) (View.ld x3 rPl3)⟩,
    ⟨rS6, k0_pay58 (ph2 x0 x1 x2) (ph3 x0 x1 x2) (zp6 x0 x1 x2 x3) (k0_pay55 (ph1 x0 x1 x2)) (View.ld x3 rPl1) (View.ld x3 rPl2) (View.ld x3 rPl3)⟩,
    ⟨rS5, k0_pay52 (ph2 x0 x1 x2) (ph3 x0 x1 x2) (zp5a x0 x1 x2 x3) (zp5b x0 x1 x2 x3) (View.ld x3 rPl2) (View.ld x3 rPl3)⟩,
    ⟨rS4, k0_pay46 (ph3 x0 x1 x2) (zp4 x0 x1 x2 x3) (k0_pay43 (ph2 x0 x1 x2)) (View.ld x3 rPl2) (View.ld x3 rPl3)⟩,
    ⟨rS3, k0_pay40 (ph3 x0 x1 x2) (zp3 x0 x1 x2 x3) (k0_pay36 (ph2 x0 x1 x2)) (k0_pay37 (View.ld x3 rPl2)) (constant S256x256 .f32 0x00000000#32) (View.ld x3 rPl3)⟩,
    ⟨rS2, k0_pay33 (zp2 x0 x1 x2 x3) (k0_pay30 (ph3 x0 x1 x2)) (View.ld x3 rPl3)⟩,
    ⟨rS1, k0_pay27 (zp1 x0 x1 x2 x3) (k0_pay23 (ph3 x0 x1 x2)) (k0_pay24 (View.ld x3 rPl3))⟩,
    ⟨rS0, k0_pay20 (zc0 x0 x1 x2 x3)⟩]

def blockSsq : Vec F S8x256x1 .f32 :=
  View.canon [
    ⟨rS7, k0_pay1 (k0_pay64 (ph1 x0 x1 x2) (ph2 x0 x1 x2) (ph3 x0 x1 x2) (zp7 x0 x1 x2 x3) (View.ld x3 rPl1) (View.ld x3 rPl2) (View.ld x3 rPl3))⟩,
    ⟨rS6, k0_pay59 (ph2 x0 x1 x2) (ph3 x0 x1 x2) (zp6 x0 x1 x2 x3) (k0_pay55 (ph1 x0 x1 x2)) (View.ld x3 rPl1) (View.ld x3 rPl2) (View.ld x3 rPl3)⟩,
    ⟨rS5, k0_pay53 (ph2 x0 x1 x2) (ph3 x0 x1 x2) (zp5a x0 x1 x2 x3) (zp5b x0 x1 x2 x3) (View.ld x3 rPl2) (View.ld x3 rPl3)⟩,
    ⟨rS4, k0_pay47 (ph3 x0 x1 x2) (zp4 x0 x1 x2 x3) (k0_pay43 (ph2 x0 x1 x2)) (View.ld x3 rPl2) (View.ld x3 rPl3)⟩,
    ⟨rS3, k0_pay41 (ph3 x0 x1 x2) (zp3 x0 x1 x2 x3) (k0_pay36 (ph2 x0 x1 x2)) (k0_pay37 (View.ld x3 rPl2)) (constant S256x256 .f32 0x00000000#32) (View.ld x3 rPl3)⟩,
    ⟨rS2, k0_pay34 (zp2 x0 x1 x2 x3) (k0_pay30 (ph3 x0 x1 x2)) (View.ld x3 rPl3)⟩,
    ⟨rS1, k0_pay28 (zp1 x0 x1 x2 x3) (k0_pay23 (ph3 x0 x1 x2)) (k0_pay24 (View.ld x3 rPl3))⟩,
    ⟨rS0, k0_pay21 (zc0 x0 x1 x2 x3)⟩]

end Outputs

end Cert.Val.Ker

end
-- ==== Proof.Val.KerArr.lean ====
import proofs.«125054_g2000703033488327_pallasbulk_1155_2_alg».proof.Proof.KI.Shared
import proofs.«125054_g2000703033488327_pallasbulk_1155_2_alg».proof.Proof.Val.Spec
import proofs.«125054_g2000703033488327_pallasbulk_1155_2_alg».proof.Proof.Val.KerBlock
import Idealize.ShloMosaic.Lib.Pipeline.Value
import Idealize.ShloMosaic.Lib.ValueIdx

set_option maxRecDepth 16384

noncomputable section

namespace Cert.Val.Ker

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

def xs (c : Dev nD) (n : Fin 64) (r s : Fin 9) (k : Fin 1024) : EReal := V c main_v5 (ix4 n r s k)

def wd (c : Dev nD) (t : Fin 4) (k : Fin 1024) (i : Fin 512) : EReal :=
  V c main_v10 (ix2 ⟨t.val * 1024 + k.val, by have := t.isLt; have := k.isLt; omega⟩ i)

def wu (c : Dev nD) (ph t : Fin 4) (o : Fin 256) (i : Fin 512) : EReal :=
  V c main_v68 (ix3 ph o ⟨t.val * 512 + i.val, by have := t.isLt; have := i.isLt; omega⟩)

def pm (c : Dev nD) (ph : Fin 4) (col : Fin 64) (l : Fin 256) : EReal := V c main_v151 (ix3 ph col l)

def arrZ (c : Dev nD) : Vec Ideal S64x256x256 .bf16 :=
  fun i => Cert.Spec.coreZ (xs V c (i 0)) (wd V c) (wu V c) (pm V c) (i 1) (i 2)
def arrSum (c : Dev nD) : Vec Ideal S64x256x1 .f32 :=
  fun i => Cert.Spec.coreSum (xs V c (i 0)) (wd V c) (wu V c) (pm V c) (i 1)
def arrSsq (c : Dev nD) : Vec Ideal S64x256x1 .f32 :=
  fun i => Cert.Spec.coreSsq (xs V c (i 0)) (wd V c) (wu V c) (pm V c) (i 1)

theorem pts : cfg0.N = 8 := N_0

theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0
    ∧ win0_6.index t (0 : Fin 3) = t.val ∧ win0_6.index t (1 : Fin 3) = 0 ∧ win0_6.index t (2 : Fin 3) = 0 :=
  (by decide +kernel : ∀ t : Fin grid0.N, _)

theorem iblk0_0_apply (c : Dev nD) (t : Fin cfg0.N) (n : Fin 8) (r s : Fin 9) (k : Fin 1024) :
    (iblk0 V c 0 t : Vec Ideal S8x9x9x1024 .bf16) (ix4 n r s k)
      = xs V c ⟨8 * t.val + n.val, by have := t.isLt; have := n.isLt; have := pts; omega⟩ r s k := by
  obtain ⟨e0, e1, e2, e3, -⟩ := idx_facts t
  unfold iblk0 xs
  rw [View.read_apply]
  show V c main_v5 _ = V c main_v5 _
  congr 1
  funext a
  apply Fin.ext
  match a with
  | ⟨0, _⟩ => show win0_0.index t (0 : Fin 4) * 8 + 1 * n.val = 8 * t.val + n.val; omega
  | ⟨1, _⟩ => show win0_0.index t (1 : Fin 4) * 9 + 1 * r.val = r.val; omega
  | ⟨2, _⟩ => show win0_0.index t (2 : Fin 4) * 9 + 1 * s.val = s.val; omega
  | ⟨3, _⟩ => show win0_0.index t (3 : Fin 4) * 1024 + 1 * k.val = k.val; omega

theorem iblk0_1_apply (c : Dev nD) (t : Fin cfg0.N) (a : Fin 4096) (i : Fin 512) :
    (iblk0 V c 1 t : Vec Ideal S4096x512 .bf16) (ix2 a i) = V c main_v10 (ix2 a i) := by
  obtain ⟨-, -, -, -, e0, e1, -⟩ := idx_facts t
  unfold iblk0
  rw [View.read_apply]
  show V c main_v10 _ = V c main_v10 _
  congr 1
  funext d
  apply Fin.ext
  match d with
  | ⟨0, _⟩ => show win0_1.index t (0 : Fin 2) * 4096 + 1 * a.val = a.val; omega
  | ⟨1, _⟩ => show win0_1.index t (1 : Fin 2) * 512 + 1 * i.val = i.val; omega

theorem iblk0_2_apply (c : Dev nD) (t : Fin cfg0.N) (ph : Fin 4) (o : Fin 256) (j : Fin 2048) :
    (iblk0 V c 2 t : Vec Ideal S4x256x2048 .bf16) (ix3 ph o j) = V c main_v68 (ix3 ph o j) := by
  obtain ⟨-, -, -, -, -, -, e0, e1, e2, -⟩ := idx_facts t
  unfold iblk0
  rw [View.read_apply]
  show V c main_v68 _ = V c main_v68 _
  congr 1
  funext d
  apply Fin.ext
  match d with
  | ⟨0, _⟩ => show win0_2.index t (0 : Fin 3) * 4 + 1 * ph.val = ph.val; omega
  | ⟨1, _⟩ => show win0_2.index t (1 : Fin 3) * 256 + 1 * o.val = o.val; omega
  | ⟨2, _⟩ => show win0_2.index t (2 : Fin 3) * 2048 + 1 * j.val = j.val; omega

theorem iblk0_3_apply (c : Dev nD) (t : Fin cfg0.N) (ph : Fin 4) (col : Fin 64) (l : Fin 256) :
    (iblk0 V c 3 t : Vec Ideal S4x64x256 .bf16) (ix3 ph col l) = V c main_v151 (ix3 ph col l) := by
  obtain ⟨-, -, -, -, -, -, -, -, -, e0, e1, e2, -⟩ := idx_facts t
  unfold iblk0
  rw [View.read_apply]
  show V c main_v151 _ = V c main_v151 _
  congr 1
  funext d
  apply Fin.ext
  match d with
  | ⟨0, _⟩ => show win0_3.index t (0 : Fin 3) * 4 + 1 * ph.val = ph.val; omega
  | ⟨1, _⟩ => show win0_3.index t (1 : Fin 3) * 64 + 1 * col.val = col.val; omega
  | ⟨2, _⟩ => show win0_3.index t (2 : Fin 3) * 256 + 1 * l.val = l.val; omega

def ZAt : Prop := ∀ (x0 : Vec Ideal S8x9x9x1024 .bf16) (x1 : Vec Ideal S4096x512 .bf16) (x2 : Vec Ideal S4x256x2048 .bf16) (x3 : Vec Ideal S4x64x256 .bf16)
    (n : Fin 8) (o l : Fin 256), blockZ (F := Ideal) x0 x1 x2 x3 (ix3 n o l)
      = Cert.Spec.coreZ (fun r s k => x0 (ix4 n r s k))
          (fun t k i => x1 (ix2 ⟨t.val * 1024 + k.val, by have := t.isLt; have := k.isLt; omega⟩ i))
          (fun ph t o i => x2 (ix3 ph o ⟨t.val * 512 + i.val, by have := t.isLt; have := i.isLt; omega⟩))
          (fun ph col l => x3 (ix3 ph col l)) o l

def SumAt : Prop := ∀ (x0 : Vec Ideal S8x9x9x1024 .bf16) (x1 : Vec Ideal S4096x512 .bf16) (x2 : Vec Ideal S4x256x2048 .bf16) (x3 : Vec Ideal S4x64x256 .bf16)
    (n : Fin 8) (o : Fin 256), blockSum (F := Ideal) x0 x1 x2 x3 (ix3 n o 0)
      = Cert.Spec.coreSum (fun r s k => x0 (ix4 n r s k))
          (fun t k i => x1 (ix2 ⟨t.val * 1024 + k.val, by have := t.isLt; have := k.isLt; omega⟩ i))
          (fun ph t o i => x2 (ix3 ph o ⟨t.val * 512 + i.val, by have := t.isLt; have := i.isLt; omega⟩))
          (fun ph col l => x3 (ix3 ph col l)) o

def SsqAt : Prop := ∀ (x0 : Vec Ideal S8x9x9x1024 .bf16) (x1 : Vec Ideal S4096x512 .bf16) (x2 : Vec Ideal S4x256x2048 .bf16) (x3 : Vec Ideal S4x64x256 .bf16)
    (n : Fin 8) (o : Fin 256), blockSsq (F := Ideal) x0 x1 x2 x3 (ix3 n o 0)
      = Cert.Spec.coreSsq (fun r s k => x0 (ix4 n r s k))
          (fun t k i => x1 (ix2 ⟨t.val * 1024 + k.val, by have := t.isLt; have := k.isLt; omega⟩ i))
          (fun ph t o i => x2 (ix3 ph o ⟨t.val * 512 + i.val, by have := t.isLt; have := i.isLt; omega⟩))
          (fun ph col l => x3 (ix3 ph col l)) o

theorem blockZ_at (hZ : ZAt) (c : Dev nD) (t : Fin cfg0.N) (n : Fin 8) (o l : Fin 256) :
    blockZ (F := Ideal) (iblk0 V c 0 t) (iblk0 V c 1 t) (iblk0 V c 2 t) (iblk0 V c 3 t) (ix3 n o l)
      = Cert.Spec.coreZ (xs V c ⟨8 * t.val + n.val, by have := t.isLt; have := n.isLt; have := pts; omega⟩) (wd V c) (wu V c) (pm V c) o l := by
  rw [hZ]
  congr 1
  · funext r s k; exact iblk0_0_apply V c t n r s k
  · funext tt k i; exact iblk0_1_apply V c t _ i
  · funext ph tt oo i; exact iblk0_2_apply V c t ph oo _
  · funext ph col ll; exact iblk0_3_apply V c t ph col ll

theorem flushed4_eq (hZ : ZAt) {c : Dev nD} (dat : Dat τ (Elt Ideal) Unit ℕ (UR sig nD τ) ℕ cfg0 c)
    (hafter : ∀ t, dat.after 4 t = blockZ (F := Ideal) (iblk0 V c 0 t) (iblk0 V c 1 t) (iblk0 V c 2 t) (iblk0 V c 3 t)) (t : Fin cfg0.N) :
    dat.flushed 4 t = ((cfg0.win 4).blk t).view.read (Elt Ideal) (arrZ V c) := by
  show (cfg0.win 4).cut (grid0.coords t) (dat.after 4 t) = _
  rw [hafter]
  funext j
  obtain ⟨n, o, l, rfl⟩ : ∃ (n : Fin 8) (o l : Fin 256), j = ix3 n o l := ⟨j 0, j 1, j 2, eq_ix3 j⟩
  show blockZ (F := Ideal) (iblk0 V c 0 t) (iblk0 V c 1 t) (iblk0 V c 2 t) (iblk0 V c 3 t) (ix3 n o l) = arrZ V c (((cfg0.win 4).blk t).view.emb (ix3 n o l))
  rw [blockZ_at V hZ c t n o l]
  obtain ⟨-, -, -, -, -, -, -, -, -, -, -, -, e0, e1, e2, -⟩ := idx_facts t
  have he : ((cfg0.win 4).blk t).view.emb (ix3 n o l)
      = (ix3 (⟨8 * t.val + n.val, by have := t.isLt; have := n.isLt; have := pts; omega⟩ : Fin 64) o l : S64x256x256.Idx) := by
    funext a; apply Fin.ext
    match a with
    | ⟨0, _⟩ => show win0_4.index t (0 : Fin 3) * 8 + 1 * n.val = 8 * t.val + n.val; omega
    | ⟨1, _⟩ => show win0_4.index t (1 : Fin 3) * 256 + 1 * o.val = o.val; omega
    | ⟨2, _⟩ => show win0_4.index t (2 : Fin 3) * 256 + 1 * l.val = l.val; omega
  rw [he]
  rfl

theorem mem_blk4 (t : Fin cfg0.N) (i : S64x256x256.Idx) :
    i ∈ ((cfg0.win 4).blk t).view.set ↔ ∀ a : Fin 3, win0_4.index t a * S8x256x256.size a ≤ (i a).val ∧ (i a).val < win0_4.index t a * S8x256x256.size a + S8x256x256.size a := by
  show i ∈ ((View.whole main_v152_0).slice (win0_4.rect t)).set ↔ _
  rw [View.set_slice_whole, Rect.mem_set_unit]
  exact Iff.rfl

theorem cover4 (i : S64x256x256.Idx) : ∃ t : Fin cfg0.N, (cfg0.win 4).flush t = true ∧ i ∈ ((cfg0.win 4).blk t).view.set := by
  have hi0 : (i 0).val < 64 := (i 0).isLt
  have hi1 : (i 1).val < 256 := (i 1).isLt
  have hi2 : (i 2).val < 256 := (i 2).isLt
  have hN := pts
  obtain ⟨t, ht⟩ : ∃ t : Fin cfg0.N, t.val = (i 0).val / 8 := ⟨⟨(i 0).val / 8, by omega⟩, rfl⟩
  refine ⟨t, flush0_4 t, ?_⟩
  rw [mem_blk4]
  obtain ⟨-, -, -, -, -, -, -, -, -, -, -, -, e0, e1, e2, -⟩ := idx_facts t
  intro a
  match a with
  | ⟨0, _⟩ => show win0_4.index t (0 : Fin 3) * 8 ≤ (i 0).val ∧ (i 0).val < win0_4.index t (0 : Fin 3) * 8 + 8; omega
  | ⟨1, _⟩ => show win0_4.index t (1 : Fin 3) * 256 ≤ (i 1).val ∧ (i 1).val < win0_4.index t (1 : Fin 3) * 256 + 256; omega
  | ⟨2, _⟩ => show win0_4.index t (2 : Fin 3) * 256 ≤ (i 2).val ∧ (i 2).val < win0_4.index t (2 : Fin 3) * 256 + 256; omega

theorem final4 (hZ : ZAt) {c : Dev nD} (dat : Dat τ (Elt Ideal) Unit ℕ (UR sig nD τ) ℕ cfg0 c)
    (hafter : ∀ t, dat.after 4 t = blockZ (F := Ideal) (iblk0 V c 0 t) (iblk0 V c 1 t) (iblk0 V c 2 t) (iblk0 V c 3 t)) :
    dat.arrAt 4 cfg0.N = arrZ V c :=
  dat.arrAt_eq_of_cover 4 (arrZ V c) (fun t _ => flushed4_eq V hZ dat hafter t) cover4

theorem blockSum_at (hSum : SumAt) (c : Dev nD) (t : Fin cfg0.N) (n : Fin 8) (o : Fin 256) :
    blockSum (F := Ideal) (iblk0 V c 0 t) (iblk0 V c 1 t) (iblk0 V c 2 t) (iblk0 V c 3 t) (ix3 n o 0)
      = Cert.Spec.coreSum (xs V c ⟨8 * t.val + n.val, by have := t.isLt; have := n.isLt; have := pts; omega⟩) (wd V c) (wu V c) (pm V c) o := by
  rw [hSum]
  congr 1
  · funext r s k; exact iblk0_0_apply V c t n r s k
  · funext tt k i; exact iblk0_1_apply V c t _ i
  · funext ph tt oo i; exact iblk0_2_apply V c t ph oo _
  · funext ph col ll; exact iblk0_3_apply V c t ph col ll

theorem flushed5_eq (hSum : SumAt) {c : Dev nD} (dat : Dat τ (Elt Ideal) Unit ℕ (UR sig nD τ) ℕ cfg0 c)
    (hafter : ∀ t, dat.after 5 t = blockSum (F := Ideal) (iblk0 V c 0 t) (iblk0 V c 1 t) (iblk0 V c 2 t) (iblk0 V c 3 t)) (t : Fin cfg0.N) :
    dat.flushed 5 t = ((cfg0.win 5).blk t).view.read (Elt Ideal) (arrSum V c) := by
  show (cfg0.win 5).cut (grid0.coords t) (dat.after 5 t) = _
  rw [hafter]
  funext j
  obtain ⟨n, o, z, rfl⟩ : ∃ (n : Fin 8) (o : Fin 256) (z : Fin 1), j = ix3 n o z := ⟨j 0, j 1, j 2, eq_ix3 j⟩
  obtain rfl : z = 0 := Subsingleton.elim _ _
  show blockSum (F := Ideal) (iblk0 V c 0 t) (iblk0 V c 1 t) (iblk0 V c 2 t) (iblk0 V c 3 t) (ix3 n o 0) = arrSum V c (((cfg0.win 5).blk t).view.emb (ix3 n o 0))
  rw [blockSum_at V hSum c t n o]
  obtain ⟨-, -, -, -, -, -, -, -, -, -, -, -, -, -, -, e0, e1, e2, -⟩ := idx_facts t
  have he : ((cfg0.win 5).blk t).view.emb (ix3 n o 0)
      = (ix3 (⟨8 * t.val + n.val, by have := t.isLt; have := n.isLt; have := pts; omega⟩ : Fin 64) o (0 : Fin 1) : S64x256x1.Idx) := by
    funext a; apply Fin.ext
    match a with
    | ⟨0, _⟩ => show win0_5.index t (0 : Fin 3) * 8 + 1 * n.val = 8 * t.val + n.val; omega
    | ⟨1, _⟩ => show win0_5.index t (1 : Fin 3) * 256 + 1 * o.val = o.val; omega
    | ⟨2, _⟩ => show win0_5.index t (2 : Fin 3) * 1 + 1 * 0 = 0; omega
  rw [he]
  rfl

theorem mem_blk5 (t : Fin cfg0.N) (i : S64x256x1.Idx) :
    i ∈ ((cfg0.win 5).blk t).view.set ↔ ∀ a : Fin 3, win0_5.index t a * S8x256x1.size a ≤ (i a).val ∧ (i a).val < win0_5.index t a * S8x256x1.size a + S8x256x1.size a := by
  show i ∈ ((View.whole main_v152_1).slice (win0_5.rect t)).set ↔ _
  rw [View.set_slice_whole, Rect.mem_set_unit]
  exact Iff.rfl

theorem cover5 (i : S64x256x1.Idx) : ∃ t : Fin cfg0.N, (cfg0.win 5).flush t = true ∧ i ∈ ((cfg0.win 5).blk t).view.set := by
  have hi0 : (i 0).val < 64 := (i 0).isLt
  have hi1 : (i 1).val < 256 := (i 1).isLt
  have hi2 : (i 2).val < 1 := (i 2).isLt
  have hN := pts
  obtain ⟨t, ht⟩ : ∃ t : Fin cfg0.N, t.val = (i 0).val / 8 := ⟨⟨(i 0).val / 8, by omega⟩, rfl⟩
  refine ⟨t, flush0_5 t, ?_⟩
  rw [mem_blk5]
  obtain ⟨-, -, -, -, -, -, -, -, -, -, -, -, -, -, -, e0, e1, e2, -⟩ := idx_facts t
  intro a
  match a with
  | ⟨0, _⟩ => show win0_5.index t (0 : Fin 3) * 8 ≤ (i 0).val ∧ (i 0).val < win0_5.index t (0 : Fin 3) * 8 + 8; omega
  | ⟨1, _⟩ => show win0_5.index t (1 : Fin 3) * 256 ≤ (i 1).val ∧ (i 1).val < win0_5.index t (1 : Fin 3) * 256 + 256; omega
  | ⟨2, _⟩ => show win0_5.index t (2 : Fin 3) * 1 ≤ (i 2).val ∧ (i 2).val < win0_5.index t (2 : Fin 3) * 1 + 1; omega

theorem final5 (hSum : SumAt) {c : Dev nD} (dat : Dat τ (Elt Ideal) Unit ℕ (UR sig nD τ) ℕ cfg0 c)
    (hafter : ∀ t, dat.after 5 t = blockSum (F := Ideal) (iblk0 V c 0 t) (iblk0 V c 1 t) (iblk0 V c 2 t) (iblk0 V c 3 t)) :
    dat.arrAt 5 cfg0.N = arrSum V c :=
  dat.arrAt_eq_of_cover 5 (arrSum V c) (fun t _ => flushed5_eq V hSum dat hafter t) cover5

theorem blockSsq_at (hSsq : SsqAt) (c : Dev nD) (t : Fin cfg0.N) (n : Fin 8) (o : Fin 256) :
    blockSsq (F := Ideal) (iblk0 V c 0 t) (iblk0 V c 1 t) (iblk0 V c 2 t) (iblk0 V c 3 t) (ix3 n o 0)
      = Cert.Spec.coreSsq (xs V c ⟨8 * t.val + n.val, by have := t.isLt; have := n.isLt; have := pts; omega⟩) (wd V c) (wu V c) (pm V c) o := by
  rw [hSsq]
  congr 1
  · funext r s k; exact iblk0_0_apply V c t n r s k
  · funext tt k i; exact iblk0_1_apply V c t _ i
  · funext ph tt oo i; exact iblk0_2_apply V c t ph oo _
  · funext ph col ll; exact iblk0_3_apply V c t ph col ll

theorem flushed6_eq (hSsq : SsqAt) {c : Dev nD} (dat : Dat τ (Elt Ideal) Unit ℕ (UR sig nD τ) ℕ cfg0 c)
    (hafter : ∀ t, dat.after 6 t = blockSsq (F := Ideal) (iblk0 V c 0 t) (iblk0 V c 1 t) (iblk0 V c 2 t) (iblk0 V c 3 t)) (t : Fin cfg0.N) :
    dat.flushed 6 t = ((cfg0.win 6).blk t).view.read (Elt Ideal) (arrSsq V c) := by
  show (cfg0.win 6).cut (grid0.coords t) (dat.after 6 t) = _
  rw [hafter]
  funext j
  obtain ⟨n, o, z, rfl⟩ : ∃ (n : Fin 8) (o : Fin 256) (z : Fin 1), j = ix3 n o z := ⟨j 0, j 1, j 2, eq_ix3 j⟩
  obtain rfl : z = 0 := Subsingleton.elim _ _
  show blockSsq (F := Ideal) (iblk0 V c 0 t) (iblk0 V c 1 t) (iblk0 V c 2 t) (iblk0 V c 3 t) (ix3 n o 0) = arrSsq V c (((cfg0.win 6).blk t).view.emb (ix3 n o 0))
  rw [blockSsq_at V hSsq c t n o]
  obtain ⟨-, -, -, -, -, -, -, -, -, -, -, -, -, -, -, -, -, -, e0, e1, e2⟩ := idx_facts t
  have he : ((cfg0.win 6).blk t).view.emb (ix3 n o 0)
      = (ix3 (⟨8 * t.val + n.val, by have := t.isLt; have := n.isLt; have := pts; omega⟩ : Fin 64) o (0 : Fin 1) : S64x256x1.Idx) := by
    funext a; apply Fin.ext
    match a with
    | ⟨0, _⟩ => show win0_6.index t (0 : Fin 3) * 8 + 1 * n.val = 8 * t.val + n.val; omega
    | ⟨1, _⟩ => show win0_6.index t (1 : Fin 3) * 256 + 1 * o.val = o.val; omega
    | ⟨2, _⟩ => show win0_6.index t (2 : Fin 3) * 1 + 1 * 0 = 0; omega
  rw [he]
  rfl

theorem mem_blk6 (t : Fin cfg0.N) (i : S64x256x1.Idx) :
    i ∈ ((cfg0.win 6).blk t).view.set ↔ ∀ a : Fin 3, win0_6.index t a * S8x256x1.size a ≤ (i a).val ∧ (i a).val < win0_6.index t a * S8x256x1.size a + S8x256x1.size a := by
  show i ∈ ((View.whole main_v152_2).slice (win0_6.rect t)).set ↔ _
  rw [View.set_slice_whole, Rect.mem_set_unit]
  exact Iff.rfl

theorem cover6 (i : S64x256x1.Idx) : ∃ t : Fin cfg0.N, (cfg0.win 6).flush t = true ∧ i ∈ ((cfg0.win 6).blk t).view.set := by
  have hi0 : (i 0).val < 64 := (i 0).isLt
  have hi1 : (i 1).val < 256 := (i 1).isLt
  have hi2 : (i 2).val < 1 := (i 2).isLt
  have hN := pts
  obtain ⟨t, ht⟩ : ∃ t : Fin cfg0.N, t.val = (i 0).val / 8 := ⟨⟨(i 0).val / 8, by omega⟩, rfl⟩
  refine ⟨t, flush0_6 t, ?_⟩
  rw [mem_blk6]
  obtain ⟨-, -, -, -, -, -, -, -, -, -, -, -, -, -, -, -, -, -, e0, e1, e2⟩ := idx_facts t
  intro a
  match a with
  | ⟨0, _⟩ => show win0_6.index t (0 : Fin 3) * 8 ≤ (i 0).val ∧ (i 0).val < win0_6.index t (0 : Fin 3) * 8 + 8; omega
  | ⟨1, _⟩ => show win0_6.index t (1 : Fin 3) * 256 ≤ (i 1).val ∧ (i 1).val < win0_6.index t (1 : Fin 3) * 256 + 256; omega
  | ⟨2, _⟩ => show win0_6.index t (2 : Fin 3) * 1 ≤ (i 2).val ∧ (i 2).val < win0_6.index t (2 : Fin 3) * 1 + 1; omega

theorem final6 (hSsq : SsqAt) {c : Dev nD} (dat : Dat τ (Elt Ideal) Unit ℕ (UR sig nD τ) ℕ cfg0 c)
    (hafter : ∀ t, dat.after 6 t = blockSsq (F := Ideal) (iblk0 V c 0 t) (iblk0 V c 1 t) (iblk0 V c 2 t) (iblk0 V c 3 t)) :
    dat.arrAt 6 cfg0.N = arrSsq V c :=
  dat.arrAt_eq_of_cover 6 (arrSsq V c) (fun t _ => flushed6_eq V hSsq dat hafter t) cover6

theorem arr4_at (hZ : ZAt) {c : Dev nD} (dat : Dat τ (Elt Ideal) Unit ℕ (UR sig nD τ) ℕ cfg0 c)
    (hafter : ∀ t, dat.after 4 t = blockZ (F := Ideal) (iblk0 V c 0 t) (iblk0 V c 1 t) (iblk0 V c 2 t) (iblk0 V c 3 t))
    (n : Fin 64) (o l : Fin 256) :
    (dat.arrAt 4 cfg0.N : Vec Ideal S64x256x256 .bf16) (ix3 n o l) = Cert.Spec.coreZ (xs V c n) (wd V c) (wu V c) (pm V c) o l := by
  rw [final4 V hZ dat hafter]; rfl

theorem arr5_at (hSum : SumAt) {c : Dev nD} (dat : Dat τ (Elt Ideal) Unit ℕ (UR sig nD τ) ℕ cfg0 c)
    (hafter : ∀ t, dat.after 5 t = blockSum (F := Ideal) (iblk0 V c 0 t) (iblk0 V c 1 t) (iblk0 V c 2 t) (iblk0 V c 3 t))
    (n : Fin 64) (o : Fin 256) :
    (dat.arrAt 5 cfg0.N : Vec Ideal S64x256x1 .f32) (ix3 n o 0) = Cert.Spec.coreSum (xs V c n) (wd V c) (wu V c) (pm V c) o := by
  rw [final5 V hSum dat hafter]; rfl

theorem arr6_at (hSsq : SsqAt) {c : Dev nD} (dat : Dat τ (Elt Ideal) Unit ℕ (UR sig nD τ) ℕ cfg0 c)
    (hafter : ∀ t, dat.after 6 t = blockSsq (F := Ideal) (iblk0 V c 0 t) (iblk0 V c 1 t) (iblk0 V c 2 t) (iblk0 V c 3 t))
    (n : Fin 64) (o : Fin 256) :
    (dat.arrAt 6 cfg0.N : Vec Ideal S64x256x1 .f32) (ix3 n o 0) = Cert.Spec.coreSsq (xs V c n) (wd V c) (wu V c) (pm V c) o := by
  rw [final6 V hSsq dat hafter]; rfl

end Cert.Val.Ker

end
-- ==== Proof.Val.KerArrRun.lean ====
import proofs.«125054_g2000703033488327_pallasbulk_1155_2_alg».proof.Proof.KI.Run0
import proofs.«125054_g2000703033488327_pallasbulk_1155_2_alg».proof.Proof.Val.KerBlock
import Idealize.ShloMosaic.Lib.Pipeline.Value
import Idealize.ShloMosaic.Lib.Tactic

set_option maxRecDepth 16384

noncomputable section

namespace Cert.Val.Ker

open Idealize.ShloMosaic Idealize.ShloMosaic.TcCoe Idealize.ShloMosaic.Tactic
open Idealize.SL Idealize.SL.Sem
open Cert.KernelIdeal Cert.KernelIdeal.Gen Cert.KernelIdeal.Hand

variable {F : FTy → Type} [FloatOps F]

theorem canon4 (c : Dev nD) (i : grid0.Coords) (arg1 : Memref sig .tc .vmem S8x9x9x1024 .bf16) (harg1 : arg1.IsWhole) (arg2 : Memref sig .tc .vmem S4096x512 .bf16) (harg2 : arg2.IsWhole) (arg3 : Memref sig .tc .vmem S4x256x2048 .bf16) (harg3 : arg3.IsWhole) (arg4 : Memref sig .tc .vmem S4x64x256 .bf16) (harg4 : arg4.IsWhole) (arg5 : Memref sig .tc .vmem S8x256x256 .bf16) (harg5 : arg5.IsWhole) (arg6 : Memref sig .tc .vmem S8x256x1 .f32) (harg6 : arg6.IsWhole) (arg7 : Memref sig .tc .vmem S8x256x1 .f32) (harg7 : arg7.IsWhole) (arg8 : Memref sig .tc .vmem S8x10x10x512 .bf16) (harg8 : arg8.IsWhole)
    (x0 : Vec F S8x9x9x1024 .bf16) (x1 : Vec F S4096x512 .bf16) (x2 : Vec F S4x256x2048 .bf16) (x3 : Vec F S4x64x256 .bf16) :
    View.canon (kernelRun0 c i arg1 harg1 arg2 harg2 arg3 harg3 arg4 harg4 arg5 harg5 arg6 harg6 arg7 harg7 arg8 harg8 x0 x1 x2 x3).1 = blockZ x0 x1 x2 x3 := by
  unfold blockZ kernelRun0
  dsimp only
  sl_unfold_words
  simp only [View.readAt_eq_ld, harg1.read_unread, harg2.read_unread, harg3.read_unread, harg4.read_unread, View.readCov_eq_canon']
  rfl

theorem canon5 (c : Dev nD) (i : grid0.Coords) (arg1 : Memref sig .tc .vmem S8x9x9x1024 .bf16) (harg1 : arg1.IsWhole) (arg2 : Memref sig .tc .vmem S4096x512 .bf16) (harg2 : arg2.IsWhole) (arg3 : Memref sig .tc .vmem S4x256x2048 .bf16) (harg3 : arg3.IsWhole) (arg4 : Memref sig .tc .vmem S4x64x256 .bf16) (harg4 : arg4.IsWhole) (arg5 : Memref sig .tc .vmem S8x256x256 .bf16) (harg5 : arg5.IsWhole) (arg6 : Memref sig .tc .vmem S8x256x1 .f32) (harg6 : arg6.IsWhole) (arg7 : Memref sig .tc .vmem S8x256x1 .f32) (harg7 : arg7.IsWhole) (arg8 : Memref sig .tc .vmem S8x10x10x512 .bf16) (harg8 : arg8.IsWhole)
    (x0 : Vec F S8x9x9x1024 .bf16) (x1 : Vec F S4096x512 .bf16) (x2 : Vec F S4x256x2048 .bf16) (x3 : Vec F S4x64x256 .bf16) :
    View.canon (kernelRun0 c i arg1 harg1 arg2 harg2 arg3 harg3 arg4 harg4 arg5 harg5 arg6 harg6 arg7 harg7 arg8 harg8 x0 x1 x2 x3).2.1 = blockSum x0 x1 x2 x3 := by
  unfold blockSum kernelRun0
  dsimp only
  sl_unfold_words
  simp only [View.readAt_eq_ld, harg1.read_unread, harg2.read_unread, harg3.read_unread, harg4.read_unread, View.readCov_eq_canon']
  rfl

theorem canon6 (c : Dev nD) (i : grid0.Coords) (arg1 : Memref sig .tc .vmem S8x9x9x1024 .bf16) (harg1 : arg1.IsWhole) (arg2 : Memref sig .tc .vmem S4096x512 .bf16) (harg2 : arg2.IsWhole) (arg3 : Memref sig .tc .vmem S4x256x2048 .bf16) (harg3 : arg3.IsWhole) (arg4 : Memref sig .tc .vmem S4x64x256 .bf16) (harg4 : arg4.IsWhole) (arg5 : Memref sig .tc .vmem S8x256x256 .bf16) (harg5 : arg5.IsWhole) (arg6 : Memref sig .tc .vmem S8x256x1 .f32) (harg6 : arg6.IsWhole) (arg7 : Memref sig .tc .vmem S8x256x1 .f32) (harg7 : arg7.IsWhole) (arg8 : Memref sig .tc .vmem S8x10x10x512 .bf16) (harg8 : arg8.IsWhole)
    (x0 : Vec F S8x9x9x1024 .bf16) (x1 : Vec F S4096x512 .bf16) (x2 : Vec F S4x256x2048 .bf16) (x3 : Vec F S4x64x256 .bf16) :
    View.canon (kernelRun0 c i arg1 harg1 arg2 harg2 arg3 harg3 arg4 harg4 arg5 harg5 arg6 harg6 arg7 harg7 arg8 harg8 x0 x1 x2 x3).2.2.1 = blockSsq x0 x1 x2 x3 := by
  unfold blockSsq kernelRun0
  dsimp only
  sl_unfold_words
  simp only [View.readAt_eq_ld, harg1.read_unread, harg2.read_unread, harg3.read_unread, harg4.read_unread, View.readCov_eq_canon']
  rfl

end Cert.Val.Ker

end
-- ==== Proof.LibMatmul.lean ====
import Idealize.ShloMosaic.Lib.ValueIdx
import Idealize.ShloMosaic.PureOps.Ideal.Laws

noncomputable section

open scoped BigOperators

namespace Cert.Val

open Idealize.ShloMosaic Idealize.ShloMosaic.ValueIdx

-- over the extended reals a matrix product into a zero accumulator, read at an entry, is the sum over the one contracted axis
theorem mm_nn_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B
        (constant (F := Ideal) ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

theorem mm_nt_apply {m k n : Nat} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B
        (constant (F := Ideal) ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.Val

end
-- ==== Proof.Val.KerBlockMathOps.lean ====
import proofs.«125054_g2000703033488327_pallasbulk_1155_2_alg».proof.Proof.Gen.KernelIdeal.Skeleton
import proofs.«125054_g2000703033488327_pallasbulk_1155_2_alg».proof.Proof.Val.Spec
import proofs.«125054_g2000703033488327_pallasbulk_1155_2_alg».proof.Proof.LibMatmul
import Idealize.ShloMosaic.Lib.ValueIdx
import Idealize.ShloMosaic.Lib.Pipeline.Value
import Idealize.ShloMosaic.PureOps.Ideal.Laws

noncomputable section

open scoped BigOperators

namespace Cert.Val.Ker

open Cert.KernelIdeal Cert.KernelIdeal.Gen Idealize.ShloMosaic Idealize.ShloMosaic.ValueIdx

theorem sum_blocks (N K M : Nat) (h : N * K = M) (f : Fin M → EReal) :
    ∑ c, f c = ∑ t : Fin N, ∑ k : Fin K, f ⟨t.val * K + k.val, h ▸ Nat.lt_of_lt_of_le (Nat.add_lt_add_left k.isLt _)
      (by rw [← Nat.succ_mul]; exact Nat.mul_le_mul_right _ t.isLt)⟩ := by
  subst h
  rw [← Equiv.sum_comp finProdFinEquiv f, Fintype.sum_prod_type]
  refine Finset.sum_congr rfl fun t _ => Finset.sum_congr rfl fun k _ => ?_
  congr 1
  apply Fin.ext
  show k.val + K * t.val = t.val * K + k.val
  rw [Nat.mul_comm, Nat.add_comm]

theorem mm_down_apply (A : FVec Ideal S512x4096 .bf16) (B : FVec Ideal S4096x512 .bf16) (r i : Fin 512) :
    matmul dot_S512x4096_S4096x512_S512x512_1_0_0_1_n_n none A B (constant (F := Ideal) S512x512 .f32 0x00000000#32) (ix2 r i)
      = ∑ c : Fin 4096, A (ix2 r c) * B (ix2 c i) :=
  mm_nn_apply dot_S512x4096_S4096x512_S512x512_1_0_0_1_n_n_wf none A B r i

theorem mm_up_apply (W : FVec Ideal S256x2048 .bf16) (S : FVec Ideal S512x2048 .bf16) (o : Fin 256) (r : Fin 512) :
    matmul dot_S256x2048_S512x2048_S256x512_1_1_0_0_n_n none W S (constant (F := Ideal) S256x512 .f32 0x00000000#32) (ix2 o r)
      = ∑ c : Fin 2048, W (ix2 o c) * S (ix2 r c) :=
  mm_nt_apply dot_S256x2048_S512x2048_S256x512_1_1_0_0_n_n_wf none W S o r

theorem mm_place_apply (Z : FVec Ideal S256x64 .bf16) (P : FVec Ideal S64x256 .bf16) (o l : Fin 256) :
    matmul dot_S256x64_S64x256_S256x256_1_0_0_1_n_n none Z P (constant (F := Ideal) S256x256 .f32 0x00000000#32) (ix2 o l)
      = ∑ c : Fin 64, Z (ix2 o c) * P (ix2 c l) :=
  mm_nn_apply dot_S256x64_S64x256_S256x256_1_0_0_1_n_n_wf none Z P o l

section Layout
variable {α : Type}

theorem flatten_apply {C : Nat} (x : (⟨4, ![8, 8, 8, C]⟩ : Shape).Idx → α)
    (h : (⟨4, ![8, 8, 8, C]⟩ : Shape).ShapeCasts ⟨2, ![512, C]⟩) (r : Fin 512) (k : Fin C) :
    shapeCast ⟨2, ![512, C]⟩ x h (ix2 r k)
      = x (ix4 (⟨r.val / 64, by have := r.isLt; omega⟩ : Fin 8) (⟨r.val / 8 % 8, by omega⟩ : Fin 8) (⟨r.val % 8, by omega⟩ : Fin 8) k) :=
  shapeCast_apply x h _ _ (by
    rw [Shape.rowMajor_val_four, Shape.rowMajor_val_two]
    show ((r.val / 64 * 8 + r.val / 8 % 8) * 8 + r.val % 8) * C + k.val = r.val * C + k.val
    have e : (r.val / 64 * 8 + r.val / 8 % 8) * 8 + r.val % 8 = r.val := by omega
    rw [e])

theorem unflatten_apply {C : Nat} (x : (⟨2, ![512, C]⟩ : Shape).Idx → α)
    (h : (⟨2, ![512, C]⟩ : Shape).ShapeCasts ⟨4, ![8, 8, 8, C]⟩) (n a b : Fin 8) (i : Fin C) :
    shapeCast ⟨4, ![8, 8, 8, C]⟩ x h (ix4 n a b i)
      = x (ix2 (⟨n.val * 64 + a.val * 8 + b.val, by have := n.isLt; have := a.isLt; have := b.isLt; omega⟩ : Fin 512) i) :=
  shapeCast_apply x h _ _ (by
    rw [Shape.rowMajor_val_four, Shape.rowMajor_val_two]
    show (n.val * 64 + a.val * 8 + b.val) * C + i.val = ((n.val * 8 + a.val) * 8 + b.val) * C + i.val
    have e : n.val * 64 + a.val * 8 + b.val = (n.val * 8 + a.val) * 8 + b.val := by omega
    rw [e])

theorem shapeCast_a_a1_apply {a : Nat} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem window9_apply {C : Nat} (dy dx : Nat) (hdy : dy ≤ 1) (hdx : dx ≤ 1) (x : (⟨4, ![8, 9, 9, C]⟩ : Shape).Idx → α)
    (h : (⟨4, ![8, 9, 9, C]⟩ : Shape).Slices ![0, dy, dx, 0] ⟨4, ![8, 8, 8, C]⟩) (n a b : Fin 8) (k : Fin C) :
    extractStridedSlice ⟨4, ![8, 8, 8, C]⟩ ![0, dy, dx, 0] x h (ix4 n a b k)
      = x (ix4 n (⟨a.val + dy, by have := a.isLt; omega⟩ : Fin 9) (⟨b.val + dx, by have := b.isLt; omega⟩ : Fin 9) k) :=
  extractStridedSlice_apply _ x h _ _ fun ax => match ax with
    | ⟨0, _⟩ => by show n.val = 0 + n.val; omega
    | ⟨1, _⟩ => by show a.val + dy = dy + a.val; omega
    | ⟨2, _⟩ => by show b.val + dx = dx + b.val; omega
    | ⟨3, _⟩ => by show k.val = 0 + k.val; omega

theorem cols64_apply {R : Nat} (c0 : Nat) (hc : c0 + 64 ≤ 512) (z : (⟨2, ![R, 512]⟩ : Shape).Idx → α)
    (h : (⟨2, ![R, 512]⟩ : Shape).Slices ![0, c0] ⟨2, ![R, 64]⟩) (o : Fin R) (col : Fin 64) :
    extractStridedSlice ⟨2, ![R, 64]⟩ ![0, c0] z h (ix2 o col)
      = z (ix2 o (⟨c0 + col.val, by have := col.isLt; omega⟩ : Fin 512)) :=
  extractStridedSlice_apply _ z h _ _ fun ax => match ax with
    | ⟨0, _⟩ => by show o.val = 0 + o.val; omega
    | ⟨1, _⟩ => by show c0 + col.val = c0 + col.val; rfl

theorem concat4_apply {R K M : Nat} (y0 y1 y2 y3 : (⟨2, ![R, K]⟩ : Shape).Idx → α)
    (h : Shape.Concatenates ([(⟨⟨2, ![R, K]⟩, y0⟩ : (s : Shape) × (s.Idx → α)), ⟨⟨2, ![R, K]⟩, y1⟩, ⟨⟨2, ![R, K]⟩, y2⟩, ⟨⟨2, ![R, K]⟩, y3⟩].map (·.1)) ⟨2, ![R, M]⟩ 1)
    (r : Fin R) (t : Fin 4) (k : Fin K) (c : Fin M) (hc : c.val = t.val * K + k.val) :
    concatenate ⟨2, ![R, M]⟩ 1 [⟨⟨2, ![R, K]⟩, y0⟩, ⟨⟨2, ![R, K]⟩, y1⟩, ⟨⟨2, ![R, K]⟩, y2⟩, ⟨⟨2, ![R, K]⟩, y3⟩] h (ix2 r c)
      = (match t with | ⟨0, _⟩ => y0 | ⟨1, _⟩ => y1 | ⟨2, _⟩ => y2 | ⟨3, _⟩ => y3) (ix2 r k) := by
  have hi : ∀ b : Fin (⟨2, ![R, K]⟩ : Shape).rank, b.cast (rfl : (⟨2, ![R, K]⟩ : Shape).rank = (⟨2, ![R, M]⟩ : Shape).rank) ≠ 1 →
      ((ix2 r k : (⟨2, ![R, K]⟩ : Shape).Idx) b).val = ((ix2 r c : (⟨2, ![R, M]⟩ : Shape).Idx) (b.cast rfl)).val := fun b hb =>
    match b with
    | ⟨0, _⟩ => rfl
    | ⟨1, _⟩ => absurd rfl hb
  match t with
  | ⟨0, _⟩ =>
    exact concatenate_apply_piece 1 _ h _ 0 (by simp) _ y0 rfl rfl 0 rfl (ix2 r k) hi
      (by show 0 + k.val = c.val; rw [hc]; show 0 + k.val = 0 * K + k.val; omega)
  | ⟨1, _⟩ =>
    exact concatenate_apply_piece 1 _ h _ 1 (by simp) _ y1 rfl rfl (K + 0) rfl (ix2 r k) hi
      (by show K + 0 + k.val = c.val; rw [hc]; show K + 0 + k.val = 1 * K + k.val; omega)
  | ⟨2, _⟩ =>
    exact concatenate_apply_piece 1 _ h _ 2 (by simp) _ y2 rfl rfl (K + (K + 0)) rfl (ix2 r k) hi
      (by show K + (K + 0) + k.val = c.val; rw [hc]; show K + (K + 0) + k.val = 2 * K + k.val; omega)
  | ⟨3, _⟩ =>
    exact concatenate_apply_piece 1 _ h _ 3 (by simp) _ y3 rfl rfl (K + (K + (K + 0))) rfl (ix2 r k) hi
      (by show K + (K + (K + 0)) + k.val = c.val; rw [hc]; show K + (K + (K + 0)) + k.val = 3 * K + k.val; omega)

theorem blend_apply (x : S8x8x10x512.Idx → α) (upd : S8x8x8x512.Idx → α) (h : S8x8x10x512.Slices ![0, 0, 1, 0] S8x8x8x512)
    (n a : Fin 8) (s : Fin 10) (i : Fin 512) :
    updateSlice x upd ![0, 0, 1, 0] h (ix4 n a s i)
      = if hs : 1 ≤ s.val ∧ s.val ≤ 8 then upd (ix4 n a (⟨s.val - 1, by omega⟩ : Fin 8) i) else x (ix4 n a s i) := by
  unfold updateSlice
  by_cases hs : 1 ≤ s.val ∧ s.val ≤ 8
  · rw [dif_pos hs, dif_pos (fun ax => match ax with
      | ⟨0, _⟩ => ⟨Nat.zero_le _, by show n.val < 0 + 8; have := n.isLt; omega⟩
      | ⟨1, _⟩ => ⟨Nat.zero_le _, by show a.val < 0 + 8; have := a.isLt; omega⟩
      | ⟨2, _⟩ => ⟨hs.1, by show s.val < 1 + 8; omega⟩
      | ⟨3, _⟩ => ⟨Nat.zero_le _, by show i.val < 0 + 512; have := i.isLt; omega⟩)]
    congr 1
    funext b
    apply Fin.ext
    match b with
    | ⟨0, _⟩ => rfl
    | ⟨1, _⟩ => rfl
    | ⟨2, _⟩ => rfl
    | ⟨3, _⟩ => rfl
  · rw [dif_neg hs, dif_neg (fun hall => hs (by
      have h2 := hall ⟨2, by decide⟩
      have h2' : 1 ≤ s.val ∧ s.val < 1 + 8 := h2
      omega))]

end Layout

end Cert.Val.Ker

end
-- ==== Proof.Val.KerBlockMathConv.lean ====
import proofs.«125054_g2000703033488327_pallasbulk_1155_2_alg».proof.Proof.Val.KerBlockMathOps

noncomputable section

open scoped BigOperators

namespace Cert.Val.Ker

open Cert.KernelIdeal Cert.KernelIdeal.Gen Idealize.ShloMosaic Idealize.ShloMosaic.ValueIdx

theorem act_apply {s : Shape} (x : FVec Ideal s .bf16) (h1 : FTy.bits .bf16 < FTy.bits .f32) (idx : s.Idx) :
    (truncf .bf16 (select (cmpf .ogt (extf .f32 x h1) (broadcast s (Scalar.ofBits (F := Ideal) .f32 0x00000000#32)))
        (extf .f32 x h1) (mulf (broadcast s (Scalar.ofBits (F := Ideal) .f32 0x3E4CCCCD#32)) (extf .f32 x h1))) h1 : FVec Ideal s .bf16) idx
      = Cert.Spec.lrelu (x idx) := by
  show Scalar.select (FloatOps.cmpf (F := Ideal) (φ := .f32) .ogt (x idx) (Ideal.ofBits .f32 0x00000000#32)) (x idx)
      (Ideal.ofBits .f32 0x3E4CCCCD#32 * x idx) = _
  rw [Ideal.ofBits_zero_f32]
  rfl

theorem tap_apply (dy dx : Nat) (hdy : dy ≤ 1) (hdx : dx ≤ 1) (X : FVec Ideal S8x9x9x1024 .bf16)
    (h : S8x9x9x1024.Slices ![0, dy, dx, 0] S8x8x8x1024) (h' : S8x8x8x1024.ShapeCasts S512x1024)
    (n a b : Fin 8) (k : Fin 1024) :
    shapeCast S512x1024 (extractStridedSlice S8x8x8x1024 ![0, dy, dx, 0] X h) h'
        (ix2 (⟨n.val * 64 + a.val * 8 + b.val, by have := n.isLt; have := a.isLt; have := b.isLt; omega⟩ : Fin 512) k)
      = X (ix4 n (⟨a.val + dy, by have := a.isLt; omega⟩ : Fin 9) (⟨b.val + dx, by have := b.isLt; omega⟩ : Fin 9) k) := by
  rw [flatten_apply, window9_apply dy dx hdy hdx]
  have := n.isLt; have := a.isLt; have := b.isLt
  congr 1
  funext ax
  apply Fin.ext
  match ax with
  | ⟨0, _⟩ => show (n.val * 64 + a.val * 8 + b.val) / 64 = n.val; omega
  | ⟨1, _⟩ => show (n.val * 64 + a.val * 8 + b.val) / 8 % 8 + dy = a.val + dy; omega
  | ⟨2, _⟩ => show (n.val * 64 + a.val * 8 + b.val) % 8 + dx = b.val + dx; omega
  | ⟨3, _⟩ => rfl

theorem pay3_apply (v0 : Vec Ideal S8x9x9x1024 .bf16) (v18 : Vec Ideal S4096x512 .bf16) (n a b : Fin 8) (i : Fin 512) :
    k0_pay3 v0 v18 (ix4 n a b i)
      = Cert.Spec.conv (fun r s k => v0 (ix4 n r s k))
          (fun t k i => v18 (ix2 (⟨t.val * 1024 + k.val, by have := t.isLt; have := k.isLt; omega⟩ : Fin 4096) i)) a b i := by
  unfold k0_pay3
  rw [shapeCast_self, unflatten_apply]
  simp only [truncf_apply, maximumf_apply, broadcast_apply]
  rw [mm_down_apply, sum_blocks 4 1024 4096 rfl]
  unfold Cert.Spec.conv
  refine congrArg₂ max (Finset.sum_congr rfl fun t _ => Finset.sum_congr rfl fun k _ => ?_) Ideal.ofBits_zero_f32
  refine congrArg₂ (· * ·) ?_ (congrFun (shapeCast_self v18 _) _)
  rw [concat4_apply _ _ _ _ _ _ t k _ rfl]
  match t with
  | ⟨0, _⟩ =>
    dsimp only
    rw [tap_apply 0 0 (by omega) (by omega), act_apply, shapeCast_self]
  | ⟨1, _⟩ =>
    dsimp only
    rw [tap_apply 0 1 (by omega) (by omega), act_apply, shapeCast_self]
  | ⟨2, _⟩ =>
    dsimp only
    rw [tap_apply 1 0 (by omega) (by omega), act_apply, shapeCast_self]
  | ⟨3, _⟩ =>
    dsimp only
    rw [tap_apply 1 1 (by omega) (by omega), act_apply, shapeCast_self]

end Cert.Val.Ker

end
-- ==== Proof.Val.KerBlockMathFrame.lean ====
import proofs.«125054_g2000703033488327_pallasbulk_1155_2_alg».proof.Proof.Val.KerBlock
import proofs.«125054_g2000703033488327_pallasbulk_1155_2_alg».proof.Proof.Val.KerBlockMathConv

noncomputable section

open scoped BigOperators

namespace Cert.Val.Ker

open Cert.KernelIdeal Cert.KernelIdeal.Gen Idealize.ShloMosaic Idealize.ShloMosaic.ValueIdx

def xsOf (x0 : Vec Ideal S8x9x9x1024 .bf16) (n : Fin 8) : Fin 9 → Fin 9 → Fin 1024 → EReal :=
  fun r s k => x0 (ix4 n r s k)

def wdOf (x1 : Vec Ideal S4096x512 .bf16) : Fin 4 → Fin 1024 → Fin 512 → EReal :=
  fun t k i => x1 (ix2 (⟨t.val * 1024 + k.val, by have := t.isLt; have := k.isLt; omega⟩ : Fin 4096) i)

def wuOf (x2 : Vec Ideal S4x256x2048 .bf16) : Fin 4 → Fin 4 → Fin 256 → Fin 512 → EReal :=
  fun ph t o i => x2 (ix3 ph o (⟨t.val * 512 + i.val, by have := t.isLt; have := i.isLt; omega⟩ : Fin 2048))

def pmOf (x3 : Vec Ideal S4x64x256 .bf16) : Fin 4 → Fin 64 → Fin 256 → EReal :=
  fun ph col l => x3 (ix3 ph col l)

def pic (x0 : Vec Ideal S8x9x9x1024 .bf16) (x1 : Vec Ideal S4096x512 .bf16) (n : Fin 8) : Fin 10 → Fin 10 → Fin 512 → EReal :=
  Cert.Spec.framed (Cert.Spec.conv (xsOf x0 n) (wdOf x1))

theorem pic_congr (x0 : Vec Ideal S8x9x9x1024 .bf16) (x1 : Vec Ideal S4096x512 .bf16) (n n' : Fin 8) (r r' s s' : Fin 10)
    (i : Fin 512) (hn : n.val = n'.val) (hr : r.val = r'.val) (hs : s.val = s'.val) :
    pic x0 x1 n r s i = pic x0 x1 n' r' s' i := by
  obtain rfl := Fin.ext hn; obtain rfl := Fin.ext hr; obtain rfl := Fin.ext hs; rfl

theorem zero_bf16 : Ideal.ofBits .bf16 0x0000#16 = 0 := by simp [Ideal.ofBits, Ideal.ieee]

theorem pay2_apply (y : S8x10x10x512.Idx) : k0_pay2 (F := Ideal) y = 0 := by
  unfold k0_pay2
  rw [shapeCast_self]
  exact zero_bf16

theorem off4_zero : (![0, 0, 0, 0] : Fin 4 → Nat) = fun _ => 0 := by
  funext a; match a with | ⟨0, _⟩ => rfl | ⟨1, _⟩ => rfl | ⟨2, _⟩ => rfl | ⟨3, _⟩ => rfl

theorem off2_zero : (![0, 0] : Fin 2 → Nat) = fun _ => 0 := by
  funext a; match a with | ⟨0, _⟩ => rfl | ⟨1, _⟩ => rfl

theorem scrZero_apply (y : S8x10x10x512.Idx) : scrZero (F := Ideal) y = 0 := by
  unfold scrZero
  rw [View.canon_unit_zero off4_zero, pay2_apply]

theorem scr_apply (x0 : Vec Ideal S8x9x9x1024 .bf16) (x1 : Vec Ideal S4096x512 .bf16) (n : Fin 8) (r s : Fin 10) (i : Fin 512) :
    scr x0 x1 (ix4 n r s i) = pic x0 x1 n r s i := by
  unfold scr pic Cert.Spec.framed
  rw [View.ld_unit_zero off4_zero _ x0, View.ld_unit_zero off2_zero _ x1]
  by_cases hr : 1 ≤ r.val ∧ r.val ≤ 8
  · have e : (ix4 n r s i : S8x10x10x512.Idx) = rMid.emb (ix4 n (⟨r.val - 1, by omega⟩ : Fin 8) s i) := by
      funext ax; apply Fin.ext
      match ax with
      | ⟨0, _⟩ => show n.val = 0 + 1 * n.val; omega
      | ⟨1, _⟩ => show r.val = 1 + 1 * (r.val - 1); omega
      | ⟨2, _⟩ => show s.val = 0 + 1 * s.val; omega
      | ⟨3, _⟩ => show i.val = 0 + 1 * i.val; omega
    rw [e, View.canon_cons_emb, blend_apply]
    by_cases hs : 1 ≤ s.val ∧ s.val ≤ 8
    · rw [dif_pos hs, dif_pos ⟨hr.1, hr.2, hs.1, hs.2⟩, pay3_apply]
      rfl
    · rw [dif_neg hs, dif_neg (fun h => hs ⟨h.2.2.1, h.2.2.2⟩)]
      exact scrZero_apply _
  · have hm : (ix4 n r s i : S8x10x10x512.Idx) ∉ (rMid : Rect S8x10x10x512).set := fun hm => hr (by
      have h1 := (Rect.mem_set_unit.mp hm) ⟨1, by decide⟩
      have h1' : 1 ≤ r.val ∧ r.val < 1 + 8 := h1
      omega)
    refine (View.canon_cons_of_not_mem ⟨rMid, _⟩ _ hm).trans ?_
    rw [View.canon_unit_zero off4_zero, pay2_apply, dif_neg (fun h => hr ⟨h.1, h.2.1⟩)]

theorem ld_win_apply (X : Vec Ideal S8x10x10x512 .bf16) (R S : Nat) (hR : R ≤ 2) (hS : S ≤ 2)
    (inb : ∀ a, (![0, R, S, 0] : Fin 4 → Nat) a + S8x8x8x512.size a ≤ S8x10x10x512.size a) (n a b : Fin 8) (i : Fin 512) :
    View.ld X (Rect.unit (s := S8x10x10x512) ![0, R, S, 0] S8x8x8x512.size inb) (ix4 n a b i)
      = X (ix4 n (⟨a.val + R, by have := a.isLt; omega⟩ : Fin 10) (⟨b.val + S, by have := b.isLt; omega⟩ : Fin 10) i) := by
  show X _ = X _
  congr 1
  funext ax; apply Fin.ext
  match ax with
  | ⟨0, _⟩ => show 0 + 1 * n.val = n.val; omega
  | ⟨1, _⟩ => show R + 1 * a.val = a.val + R; omega
  | ⟨2, _⟩ => show S + 1 * b.val = b.val + S; omega
  | ⟨3, _⟩ => show 0 + 1 * i.val = i.val; omega

theorem flatwin_apply (x0 : Vec Ideal S8x9x9x1024 .bf16) (x1 : Vec Ideal S4096x512 .bf16) (R S : Nat) (hR : R ≤ 2) (hS : S ≤ 2)
    (inb : ∀ a, (![0, R, S, 0] : Fin 4 → Nat) a + S8x8x8x512.size a ≤ S8x10x10x512.size a)
    (h : S8x8x8x512.ShapeCasts S512x512) (row i : Fin 512) :
    shapeCast S512x512 (View.ld (scr x0 x1) (Rect.unit (s := S8x10x10x512) ![0, R, S, 0] S8x8x8x512.size inb) : Vec Ideal S8x8x8x512 .bf16) h (ix2 row i)
      = pic x0 x1 (⟨row.val / 64, by have := row.isLt; omega⟩ : Fin 8)
          (⟨row.val / 8 % 8 + R, by omega⟩ : Fin 10) (⟨row.val % 8 + S, by omega⟩ : Fin 10) i := by
  rw [flatten_apply, ld_win_apply _ R S hR hS, scr_apply]

end Cert.Val.Ker

end
-- ==== Proof.Val.KerBlockMathPhase.lean ====
import proofs.«125054_g2000703033488327_pallasbulk_1155_2_alg».proof.Proof.Val.KerBlockMathFrame
import Idealize.ShloMosaic.Lib.ValueLayout

noncomputable section

open scoped BigOperators

namespace Cert.Val.Ker

open Cert.KernelIdeal Cert.KernelIdeal.Gen Idealize.ShloMosaic Idealize.ShloMosaic.ValueIdx

theorem ld_up_apply (x2 : Vec Ideal S4x256x2048 .bf16) (p : Nat) (hp : p < 4)
    (inb : ∀ a, (![p, 0, 0] : Fin 3 → Nat) a + S1x256x2048.size a ≤ S4x256x2048.size a) (u : Fin 1) (o : Fin 256) (c : Fin 2048) :
    View.ld x2 (Rect.unit (s := S4x256x2048) ![p, 0, 0] S1x256x2048.size inb) (ix3 u o c) = x2 (ix3 (⟨p, hp⟩ : Fin 4) o c) := by
  show x2 _ = x2 _
  congr 1
  funext ax; apply Fin.ext
  have := u.isLt
  match ax with
  | ⟨0, _⟩ => show p + 1 * u.val = p; omega
  | ⟨1, _⟩ => show 0 + 1 * o.val = o.val; omega
  | ⟨2, _⟩ => show 0 + 1 * c.val = c.val; omega

theorem ld_pl_apply (x3 : Vec Ideal S4x64x256 .bf16) (p : Nat) (hp : p < 4)
    (inb : ∀ a, (![p, 0, 0] : Fin 3 → Nat) a + S1x64x256.size a ≤ S4x64x256.size a) (u : Fin 1) (col : Fin 64) (l : Fin 256) :
    View.ld x3 (Rect.unit (s := S4x64x256) ![p, 0, 0] S1x64x256.size inb) (ix3 u col l) = x3 (ix3 (⟨p, hp⟩ : Fin 4) col l) := by
  show x3 _ = x3 _
  congr 1
  funext ax; apply Fin.ext
  have := u.isLt
  match ax with
  | ⟨0, _⟩ => show p + 1 * u.val = p; omega
  | ⟨1, _⟩ => show 0 + 1 * col.val = col.val; omega
  | ⟨2, _⟩ => show 0 + 1 * l.val = l.val; omega

theorem upphase_apply (p : Nat) (hp : p < 4) (x2 : Vec Ideal S4x256x2048 .bf16)
    (inb : ∀ a, (![p, 0, 0] : Fin 3 → Nat) a + S1x256x2048.size a ≤ S4x256x2048.size a)
    (hc : S1x256x2048.ShapeCasts S256x2048) (y0 y1 y2 y3 : FVec Ideal S512x512 .bf16)
    (hcat : Shape.Concatenates ([(⟨S512x512, y0⟩ : (s : Shape) × (s.Idx → Ideal .bf16)), ⟨S512x512, y1⟩, ⟨S512x512, y2⟩, ⟨S512x512, y3⟩].map (·.1)) S512x2048 1)
    (hb : FTy.bits .bf16 < FTy.bits .f32) (o : Fin 256) (row : Fin 512) :
    (truncf .bf16 (matmul dot_S256x2048_S512x2048_S256x512_1_1_0_0_n_n none
        (shapeCast S256x2048 (View.ld x2 (Rect.unit (s := S4x256x2048) ![p, 0, 0] S1x256x2048.size inb) : Vec Ideal S1x256x2048 .bf16) hc : FVec Ideal S256x2048 .bf16)
        (concatenate S512x2048 1 [⟨S512x512, y0⟩, ⟨S512x512, y1⟩, ⟨S512x512, y2⟩, ⟨S512x512, y3⟩] hcat : FVec Ideal S512x2048 .bf16)
        (constant (F := Ideal) S256x512 .f32 0x00000000#32)) hb : FVec Ideal S256x512 .bf16) (ix2 o row)
      = ∑ t : Fin 4, ∑ i : Fin 512, wuOf x2 (⟨p, hp⟩ : Fin 4) t o i
          * (match t with | ⟨0, _⟩ => y0 | ⟨1, _⟩ => y1 | ⟨2, _⟩ => y2 | ⟨3, _⟩ => y3) (ix2 row i) := by
  rw [truncf_apply, mm_up_apply, sum_blocks 4 512 2048 rfl]
  refine Finset.sum_congr rfl fun t _ => Finset.sum_congr rfl fun i _ => ?_
  rw [shapeCast_1ab_ab_apply, ld_up_apply x2 p hp, concat4_apply _ _ _ _ _ _ t i _ rfl]
  rfl

def phaseAt (x0 : Vec Ideal S8x9x9x1024 .bf16) (x1 : Vec Ideal S4096x512 .bf16) (x2 : Vec Ideal S4x256x2048 .bf16)
    (ph : Fin 4) (o : Fin 256) (row : Fin 512) : EReal :=
  Cert.Spec.phase (wuOf x2) (pic x0 x1 (⟨row.val / 64, by have := row.isLt; omega⟩ : Fin 8)) ph o
    (⟨row.val / 8 % 8, by omega⟩ : Fin 8) (⟨row.val % 8, by omega⟩ : Fin 8)

section Phases
variable (x0 : Vec Ideal S8x9x9x1024 .bf16) (x1 : Vec Ideal S4096x512 .bf16) (x2 : Vec Ideal S4x256x2048 .bf16)

theorem ph0_apply (o : Fin 256) (row : Fin 512) : ph0 x0 x1 x2 (ix2 o row) = phaseAt x0 x1 x2 0 o row := by
  unfold ph0 k0_pay12 w00 l01 l10 l11 k0_pay4 k0_pay5 k0_pay6 k0_pay7
  rw [upphase_apply 0 (by omega)]
  unfold phaseAt Cert.Spec.phase
  refine Finset.sum_congr rfl fun t _ => Finset.sum_congr rfl fun i _ => congrArg₂ (· * ·) rfl ?_
  match t with
  | ⟨0, _⟩ | ⟨1, _⟩ | ⟨2, _⟩ | ⟨3, _⟩ =>
    dsimp only
    exact (flatwin_apply x0 x1 _ _ (by omega) (by omega) _ _ row i).trans (pic_congr x0 x1 _ _ _ _ _ _ i rfl
      (by first | rfl | omega | simp) (by first | rfl | omega | simp))

theorem ph1_apply (o : Fin 256) (row : Fin 512) : ph1 x0 x1 x2 (ix2 o row) = phaseAt x0 x1 x2 1 o row := by
  unfold ph1 k0_pay14 cat1 k0_pay13 l01 l02 l11 l12 k0_pay5 k0_pay7 k0_pay8
  rw [upphase_apply 1 (by omega)]
  unfold phaseAt Cert.Spec.phase
  refine Finset.sum_congr rfl fun t _ => Finset.sum_congr rfl fun i _ => congrArg₂ (· * ·) rfl ?_
  match t with
  | ⟨0, _⟩ | ⟨1, _⟩ | ⟨2, _⟩ | ⟨3, _⟩ =>
    dsimp only
    exact (flatwin_apply x0 x1 _ _ (by omega) (by omega) _ _ row i).trans (pic_congr x0 x1 _ _ _ _ _ _ i rfl
      (by first | rfl | omega | simp) (by first | rfl | omega | simp))

theorem ph2_apply (o : Fin 256) (row : Fin 512) : ph2 x0 x1 x2 (ix2 o row) = phaseAt x0 x1 x2 2 o row := by
  unfold ph2 k0_pay15 w10 w11 w20 w21 l10 l11 k0_pay6 k0_pay7 k0_pay9 k0_pay10
  rw [upphase_apply 2 (by omega)]
  unfold phaseAt Cert.Spec.phase
  refine Finset.sum_congr rfl fun t _ => Finset.sum_congr rfl fun i _ => congrArg₂ (· * ·) rfl ?_
  match t with
  | ⟨0, _⟩ | ⟨1, _⟩ | ⟨2, _⟩ | ⟨3, _⟩ =>
    dsimp only
    exact (flatwin_apply x0 x1 _ _ (by omega) (by omega) _ _ row i).trans (pic_congr x0 x1 _ _ _ _ _ _ i rfl
      (by first | rfl | omega | simp) (by first | rfl | omega | simp))

theorem ph3_apply (o : Fin 256) (row : Fin 512) : ph3 x0 x1 x2 (ix2 o row) = phaseAt x0 x1 x2 3 o row := by
  unfold ph3 k0_pay16 w11 w12 w21 w22 l11 l12 k0_pay7 k0_pay8 k0_pay10 k0_pay11
  rw [upphase_apply 3 (by omega)]
  unfold phaseAt Cert.Spec.phase
  refine Finset.sum_congr rfl fun t _ => Finset.sum_congr rfl fun i _ => congrArg₂ (· * ·) rfl ?_
  match t with
  | ⟨0, _⟩ | ⟨1, _⟩ | ⟨2, _⟩ | ⟨3, _⟩ =>
    dsimp only
    exact (flatwin_apply x0 x1 _ _ (by omega) (by omega) _ _ row i).trans (pic_congr x0 x1 _ _ _ _ _ _ i rfl
      (by first | rfl | omega | simp) (by first | rfl | omega | simp))

end Phases

end Cert.Val.Ker

end
-- ==== Proof.Val.KerBlockMathPlace.lean ====
import proofs.«125054_g2000703033488327_pallasbulk_1155_2_alg».proof.Proof.Val.KerBlockMathPhase
import Idealize.ShloMosaic.Lib.ValueLayout

noncomputable section

open scoped BigOperators

namespace Cert.Val.Ker

open Cert.KernelIdeal Cert.KernelIdeal.Gen Idealize.ShloMosaic Idealize.ShloMosaic.ValueIdx

theorem place_apply (c0 : Nat) (hc0 : c0 + 64 ≤ 512) (p : Nat) (hp : p < 4) (z : FVec Ideal S256x512 .bf16)
    (hs : S256x512.Slices ![0, c0] S256x64) (x3 : Vec Ideal S4x64x256 .bf16)
    (inb : ∀ a, (![p, 0, 0] : Fin 3 → Nat) a + S1x64x256.size a ≤ S4x64x256.size a)
    (hcast : S1x64x256.ShapeCasts S64x256) (o l : Fin 256) :
    matmul dot_S256x64_S64x256_S256x256_1_0_0_1_n_n none (extractStridedSlice S256x64 ![0, c0] z hs : FVec Ideal S256x64 .bf16)
        (shapeCast S64x256 (View.ld x3 (Rect.unit (s := S4x64x256) ![p, 0, 0] S1x64x256.size inb) : Vec Ideal S1x64x256 .bf16) hcast : FVec Ideal S64x256 .bf16)
        (constant (F := Ideal) S256x256 .f32 0x00000000#32) (ix2 o l)
      = ∑ col : Fin 64, z (ix2 o (⟨c0 + col.val, by have := col.isLt; omega⟩ : Fin 512)) * pmOf x3 (⟨p, hp⟩ : Fin 4) col l := by
  rw [mm_place_apply]
  refine Finset.sum_congr rfl fun col _ => ?_
  rw [cols64_apply c0 hc0, shapeCast_1ab_ab_apply, ld_pl_apply x3 p hp]
  rfl

def zcOf (x0 : Vec Ideal S8x9x9x1024 .bf16) (x1 : Vec Ideal S4096x512 .bf16) (x2 : Vec Ideal S4x256x2048 .bf16)
    (x3 : Vec Ideal S4x64x256 .bf16) (n : Fin 8) (o l : Fin 256) : EReal :=
  Cert.Spec.coreZ (xsOf x0 n) (wdOf x1) (wuOf x2) (pmOf x3) o l

theorem placed_phase (x0 : Vec Ideal S8x9x9x1024 .bf16) (x1 : Vec Ideal S4096x512 .bf16) (x2 : Vec Ideal S4x256x2048 .bf16)
    (x3 : Vec Ideal S4x64x256 .bf16) (P : FVec Ideal S256x512 .bf16) (ph : Fin 4)
    (hP : ∀ o row, P (ix2 o row) = phaseAt x0 x1 x2 ph o row) (n : Fin 8) (c0 : Nat) (hc0 : c0 = n.val * 64) (o l : Fin 256) :
    ∑ col : Fin 64, P (ix2 o (⟨c0 + col.val, by have := n.isLt; have := col.isLt; omega⟩ : Fin 512)) * pmOf x3 ph col l
      = ∑ col : Fin 64, Cert.Spec.phase (wuOf x2) (pic x0 x1 n) ph o (⟨col.val / 8, by have := col.isLt; omega⟩ : Fin 8)
          (⟨col.val % 8, Nat.mod_lt _ (by decide)⟩ : Fin 8) * pmOf x3 ph col l := by
  subst hc0
  refine Finset.sum_congr rfl fun col _ => congrArg₂ (· * ·) ?_ rfl
  rw [hP]
  unfold phaseAt
  have key : ∀ (n' : Fin 8) (a' b' a'' b'' : Fin 8), n' = n → a' = a'' → b' = b'' →
      Cert.Spec.phase (wuOf x2) (pic x0 x1 n') ph o a' b' = Cert.Spec.phase (wuOf x2) (pic x0 x1 n) ph o a'' b'' := by
    intro n' a' b' a'' b'' h1 h2 h3; subst h1 h2 h3; rfl
  have := n.isLt; have := col.isLt
  exact key _ _ _ _ _ (Fin.ext (by show (n.val * 64 + col.val) / 64 = n.val; omega))
    (Fin.ext (by show (n.val * 64 + col.val) / 8 % 8 = col.val / 8; omega))
    (Fin.ext (by show (n.val * 64 + col.val) % 8 = col.val % 8; omega))

theorem coreZ_of_phases (x0 : Vec Ideal S8x9x9x1024 .bf16) (x1 : Vec Ideal S4096x512 .bf16) (x2 : Vec Ideal S4x256x2048 .bf16)
    (x3 : Vec Ideal S4x64x256 .bf16) (P0 P1 P2 P3 : FVec Ideal S256x512 .bf16)
    (h0 : ∀ o row, P0 (ix2 o row) = phaseAt x0 x1 x2 0 o row) (h1 : ∀ o row, P1 (ix2 o row) = phaseAt x0 x1 x2 1 o row)
    (h2 : ∀ o row, P2 (ix2 o row) = phaseAt x0 x1 x2 2 o row) (h3 : ∀ o row, P3 (ix2 o row) = phaseAt x0 x1 x2 3 o row)
    (n : Fin 8) (c0 : Nat) (hc0 : c0 = n.val * 64) (o l : Fin 256) :
    (∑ col : Fin 64, P0 (ix2 o (⟨c0 + col.val, by have := n.isLt; have := col.isLt; omega⟩ : Fin 512)) * pmOf x3 (⟨0, by omega⟩ : Fin 4) col l)
      + (∑ col : Fin 64, P1 (ix2 o (⟨c0 + col.val, by have := n.isLt; have := col.isLt; omega⟩ : Fin 512)) * pmOf x3 (⟨1, by omega⟩ : Fin 4) col l)
      + (∑ col : Fin 64, P2 (ix2 o (⟨c0 + col.val, by have := n.isLt; have := col.isLt; omega⟩ : Fin 512)) * pmOf x3 (⟨2, by omega⟩ : Fin 4) col l)
      + (∑ col : Fin 64, P3 (ix2 o (⟨c0 + col.val, by have := n.isLt; have := col.isLt; omega⟩ : Fin 512)) * pmOf x3 (⟨3, by omega⟩ : Fin 4) col l)
      = zcOf x0 x1 x2 x3 n o l := by
  unfold zcOf Cert.Spec.coreZ Cert.Spec.placed
  rw [Fin.sum_univ_four]
  exact congrArg₂ (· + ·) (congrArg₂ (· + ·) (congrArg₂ (· + ·)
    (placed_phase x0 x1 x2 x3 P0 0 h0 n c0 hc0 o l) (placed_phase x0 x1 x2 x3 P1 1 h1 n c0 hc0 o l))
    (placed_phase x0 x1 x2 x3 P2 2 h2 n c0 hc0 o l)) (placed_phase x0 x1 x2 x3 P3 3 h3 n c0 hc0 o l)

section Images
variable (x0 : Vec Ideal S8x9x9x1024 .bf16) (x1 : Vec Ideal S4096x512 .bf16) (x2 : Vec Ideal S4x256x2048 .bf16)
  (x3 : Vec Ideal S4x64x256 .bf16)

theorem img0_apply (o l : Fin 256) :
    (zc0 x0 x1 x2 x3 : FVec Ideal S256x256 .f32) (ix2 o l) = zcOf x0 x1 x2 x3 0 o l := by
  unfold zc0 k0_pay17
  simp only [addf_apply]
  rw [place_apply 0 (by omega) 0 (by omega), place_apply 0 (by omega) 1 (by omega),
    place_apply 0 (by omega) 2 (by omega), place_apply 0 (by omega) 3 (by omega)]
  exact coreZ_of_phases x0 x1 x2 x3 _ _ _ _ (ph0_apply x0 x1 x2) (ph1_apply x0 x1 x2) (ph2_apply x0 x1 x2) (ph3_apply x0 x1 x2)
    0 0 rfl o l

theorem img1_apply (o l : Fin 256) :
    (k0_pay25 (zp1 x0 x1 x2 x3) (k0_pay23 (ph3 x0 x1 x2)) (k0_pay24 (View.ld x3 rPl3)) : FVec Ideal S256x256 .f32) (ix2 o l) = zcOf x0 x1 x2 x3 1 o l := by
  unfold k0_pay25 zp1 k0_pay22 k0_pay23 k0_pay24
  simp only [addf_apply]
  rw [place_apply 64 (by omega) 0 (by omega), place_apply 64 (by omega) 1 (by omega),
    place_apply 64 (by omega) 2 (by omega), place_apply 64 (by omega) 3 (by omega)]
  exact coreZ_of_phases x0 x1 x2 x3 _ _ _ _ (ph0_apply x0 x1 x2) (ph1_apply x0 x1 x2) (ph2_apply x0 x1 x2) (ph3_apply x0 x1 x2)
    1 64 rfl o l

theorem img2_apply (o l : Fin 256) :
    (k0_pay31 (zp2 x0 x1 x2 x3) (k0_pay30 (ph3 x0 x1 x2)) (View.ld x3 rPl3) : FVec Ideal S256x256 .f32) (ix2 o l) = zcOf x0 x1 x2 x3 2 o l := by
  unfold k0_pay31 zp2 k0_pay29 k0_pay30
  simp only [addf_apply]
  rw [place_apply 128 (by omega) 0 (by omega), place_apply 128 (by omega) 1 (by omega),
    place_apply 128 (by omega) 2 (by omega), place_apply 128 (by omega) 3 (by omega)]
  exact coreZ_of_phases x0 x1 x2 x3 _ _ _ _ (ph0_apply x0 x1 x2) (ph1_apply x0 x1 x2) (ph2_apply x0 x1 x2) (ph3_apply x0 x1 x2)
    2 128 rfl o l

theorem img3_apply (o l : Fin 256) :
    (k0_pay38 (ph3 x0 x1 x2) (zp3 x0 x1 x2 x3) (k0_pay36 (ph2 x0 x1 x2)) (k0_pay37 (View.ld x3 rPl2)) (constant S256x256 .f32 0x00000000#32) (View.ld x3 rPl3) : FVec Ideal S256x256 .f32) (ix2 o l) = zcOf x0 x1 x2 x3 3 o l := by
  unfold k0_pay38 zp3 k0_pay35 k0_pay36 k0_pay37
  simp only [addf_apply]
  rw [place_apply 192 (by omega) 0 (by omega), place_apply 192 (by omega) 1 (by omega),
    place_apply 192 (by omega) 2 (by omega), place_apply 192 (by omega) 3 (by omega)]
  exact coreZ_of_phases x0 x1 x2 x3 _ _ _ _ (ph0_apply x0 x1 x2) (ph1_apply x0 x1 x2) (ph2_apply x0 x1 x2) (ph3_apply x0 x1 x2)
    3 192 rfl o l

theorem img4_apply (o l : Fin 256) :
    (k0_pay44 (ph3 x0 x1 x2) (zp4 x0 x1 x2 x3) (k0_pay43 (ph2 x0 x1 x2)) (View.ld x3 rPl2) (View.ld x3 rPl3) : FVec Ideal S256x256 .f32) (ix2 o l) = zcOf x0 x1 x2 x3 4 o l := by
  unfold k0_pay44 zp4 k0_pay42 k0_pay43
  simp only [addf_apply]
  rw [place_apply 256 (by omega) 0 (by omega), place_apply 256 (by omega) 1 (by omega),
    place_apply 256 (by omega) 2 (by omega), place_apply 256 (by omega) 3 (by omega)]
  exact coreZ_of_phases x0 x1 x2 x3 _ _ _ _ (ph0_apply x0 x1 x2) (ph1_apply x0 x1 x2) (ph2_apply x0 x1 x2) (ph3_apply x0 x1 x2)
    4 256 rfl o l

theorem img5_apply (o l : Fin 256) :
    (k0_pay50 (ph2 x0 x1 x2) (ph3 x0 x1 x2) (zp5a x0 x1 x2 x3) (zp5b x0 x1 x2 x3) (View.ld x3 rPl2) (View.ld x3 rPl3) : FVec Ideal S256x256 .f32) (ix2 o l) = zcOf x0 x1 x2 x3 5 o l := by
  unfold k0_pay50 zp5a zp5b k0_pay48 k0_pay49
  simp only [addf_apply]
  rw [place_apply 320 (by omega) 0 (by omega), place_apply 320 (by omega) 1 (by omega),
    place_apply 320 (by omega) 2 (by omega), place_apply 320 (by omega) 3 (by omega)]
  exact coreZ_of_phases x0 x1 x2 x3 _ _ _ _ (ph0_apply x0 x1 x2) (ph1_apply x0 x1 x2) (ph2_apply x0 x1 x2) (ph3_apply x0 x1 x2)
    5 320 rfl o l

theorem img6_apply (o l : Fin 256) :
    (k0_pay56 (ph2 x0 x1 x2) (ph3 x0 x1 x2) (zp6 x0 x1 x2 x3) (k0_pay55 (ph1 x0 x1 x2)) (View.ld x3 rPl1) (View.ld x3 rPl2) (View.ld x3 rPl3) : FVec Ideal S256x256 .f32) (ix2 o l) = zcOf x0 x1 x2 x3 6 o l := by
  unfold k0_pay56 zp6 k0_pay54 k0_pay55
  simp only [addf_apply]
  rw [place_apply 384 (by omega) 0 (by omega), place_apply 384 (by omega) 1 (by omega),
    place_apply 384 (by omega) 2 (by omega), place_apply 384 (by omega) 3 (by omega)]
  exact coreZ_of_phases x0 x1 x2 x3 _ _ _ _ (ph0_apply x0 x1 x2) (ph1_apply x0 x1 x2) (ph2_apply x0 x1 x2) (ph3_apply x0 x1 x2)
    6 384 rfl o l

theorem img7_apply (o l : Fin 256) :
    (k0_pay61 (ph1 x0 x1 x2) (ph2 x0 x1 x2) (ph3 x0 x1 x2) (zp7 x0 x1 x2 x3) (View.ld x3 rPl1) (View.ld x3 rPl2) (View.ld x3 rPl3) : FVec Ideal S256x256 .f32) (ix2 o l) = zcOf x0 x1 x2 x3 7 o l := by
  unfold k0_pay61 zp7 k0_pay60
  simp only [addf_apply]
  rw [place_apply 448 (by omega) 0 (by omega), place_apply 448 (by omega) 1 (by omega),
    place_apply 448 (by omega) 2 (by omega), place_apply 448 (by omega) 3 (by omega)]
  exact coreZ_of_phases x0 x1 x2 x3 _ _ _ _ (ph0_apply x0 x1 x2) (ph1_apply x0 x1 x2) (ph2_apply x0 x1 x2) (ph3_apply x0 x1 x2)
    7 448 rfl o l

end Images

end Cert.Val.Ker

end
-- ==== Proof.Val.KerBlockMath.lean ====
import proofs.«125054_g2000703033488327_pallasbulk_1155_2_alg».proof.Proof.Val.KerBlockMathPlace
import Idealize.ShloMosaic.Lib.ValueLayout

noncomputable section

open scoped BigOperators

namespace Cert.Val.Ker

open Cert.KernelIdeal Cert.KernelIdeal.Gen Idealize.ShloMosaic Idealize.ShloMosaic.ValueIdx

theorem outZ_apply (zc : FVec Ideal S256x256 .f32) (hb : FTy.bits .bf16 < FTy.bits .f32) (hc : S256x256.ShapeCasts S1x256x256)
    (u : Fin 1) (o l : Fin 256) :
    shapeCast S1x256x256 (truncf .bf16 zc hb : FVec Ideal S256x256 .bf16) hc (ix3 u o l) = zc (ix2 o l) := by
  rw [shapeCast_ab_1ab_apply]; rfl

theorem outSum_apply (zc : FVec Ideal S256x256 .f32) (hred : S256x256.Reduces [1] S256) (hφ : FKind.Formats .f32)
    (hacc : (0x00000000#32 : BitVec 32) = FKind.add.neutral .f32 hφ) (h1 : S256.ShapeCasts S256x1) (h2 : S256x1.ShapeCasts S1x256x1)
    (u : Fin 1) (o : Fin 256) (v : Fin 1) :
    shapeCast S1x256x1 (shapeCast S256x1 (multiReduction .add [1] S256 zc 0x00000000#32 hred hφ hacc) h1) h2 (ix3 u o v)
      = ∑ l : Fin 256, zc (ix2 o l) := by
  rw [shapeCast_ab_1ab_apply, shapeCast_a_a1_apply]
  refine (Ideal.multiReduction_add_single zc _ hred hφ hacc (ix1 o)).trans ?_
  refine Finset.sum_congr rfl fun l _ => congrArg zc ?_
  funext ax; apply Fin.ext
  match ax with
  | ⟨0, _⟩ => rfl
  | ⟨1, _⟩ => rfl

theorem slabZ_ok (G : Fin 8 → Fin 256 → Fin 256 → EReal) (k : Nat) (hk : k < 8)
    (inb : ∀ a, (![k, 0, 0] : Fin 3 → Nat) a + S1x256x256.size a ≤ S8x256x256.size a) (w : S1x256x256.Idx → Ideal .bf16)
    (hw : ∀ (u : Fin 1) (o l : Fin 256), w (ix3 u o l) = G ⟨k, hk⟩ o l)
    (x : (Rect.unit (s := S8x256x256) ![k, 0, 0] S1x256x256.size inb).shape.Idx) :
    w x = (fun y : S8x256x256.Idx => G (y 0) (y 1) (y 2)) ((Rect.unit (s := S8x256x256) ![k, 0, 0] S1x256x256.size inb).emb x) := by
  obtain ⟨u, o, l, rfl⟩ : ∃ (u : Fin 1) (o l : Fin 256), x = ix3 u o l := ⟨x 0, x 1, x 2, eq_ix3 x⟩
  have key : ∀ (a a' : Fin 8) (b b' c c' : Fin 256), a = a' → b = b' → c = c' → G a b c = G a' b' c' := by
    intro a a' b b' c c' h1 h2 h3; subst h1 h2 h3; rfl
  have := u.isLt
  exact (hw u o l).trans (key _ _ _ _ _ _ (Fin.ext (by show k = k + 1 * u.val; omega))
    (Fin.ext (by show o.val = 0 + 1 * o.val; omega)) (Fin.ext (by show l.val = 0 + 1 * l.val; omega)))

theorem slabS_ok (G : Fin 8 → Fin 256 → EReal) (k : Nat) (hk : k < 8)
    (inb : ∀ a, (![k, 0, 0] : Fin 3 → Nat) a + S1x256x1.size a ≤ S8x256x1.size a) (w : S1x256x1.Idx → Ideal .f32)
    (hw : ∀ (u : Fin 1) (o : Fin 256) (v : Fin 1), w (ix3 u o v) = G ⟨k, hk⟩ o)
    (x : (Rect.unit (s := S8x256x1) ![k, 0, 0] S1x256x1.size inb).shape.Idx) :
    w x = (fun y : S8x256x1.Idx => G (y 0) (y 1)) ((Rect.unit (s := S8x256x1) ![k, 0, 0] S1x256x1.size inb).emb x) := by
  obtain ⟨u, o, v, rfl⟩ : ∃ (u : Fin 1) (o : Fin 256) (v : Fin 1), x = ix3 u o v := ⟨x 0, x 1, x 2, eq_ix3 x⟩
  have key : ∀ (a a' : Fin 8) (b b' : Fin 256), a = a' → b = b' → G a b = G a' b' := by
    intro a a' b b' h1 h2; subst h1 h2; rfl
  have := u.isLt
  exact (hw u o v).trans (key _ _ _ _ (Fin.ext (by show k = k + 1 * u.val; omega))
    (Fin.ext (by show o.val = 0 + 1 * o.val; omega)))

theorem mem_slabZ (k : Nat) (hk : k < 8) (inb : ∀ a, (![k, 0, 0] : Fin 3 → Nat) a + S1x256x256.size a ≤ S8x256x256.size a)
    (o l : Fin 256) :
    (ix3 (⟨k, hk⟩ : Fin 8) o l : S8x256x256.Idx) ∈ (Rect.unit (s := S8x256x256) ![k, 0, 0] S1x256x256.size inb).set :=
  Rect.mem_set_unit.mpr fun a => match a with
    | ⟨0, _⟩ => ⟨Nat.le_refl k, by show k < k + 1; omega⟩
    | ⟨1, _⟩ => ⟨Nat.zero_le _, by show o.val < 0 + 256; have := o.isLt; omega⟩
    | ⟨2, _⟩ => ⟨Nat.zero_le _, by show l.val < 0 + 256; have := l.isLt; omega⟩

theorem mem_slabS (k : Nat) (hk : k < 8) (inb : ∀ a, (![k, 0, 0] : Fin 3 → Nat) a + S1x256x1.size a ≤ S8x256x1.size a)
    (o : Fin 256) (v : Fin 1) :
    (ix3 (⟨k, hk⟩ : Fin 8) o v : S8x256x1.Idx) ∈ (Rect.unit (s := S8x256x1) ![k, 0, 0] S1x256x1.size inb).set :=
  Rect.mem_set_unit.mpr fun a => match a with
    | ⟨0, _⟩ => ⟨Nat.le_refl k, by show k < k + 1; omega⟩
    | ⟨1, _⟩ => ⟨Nat.zero_le _, by show o.val < 0 + 256; have := o.isLt; omega⟩
    | ⟨2, _⟩ => ⟨Nat.zero_le _, by show v.val < 0 + 1; have := v.isLt; omega⟩

section Outputs
variable (x0 : Vec Ideal S8x9x9x1024 .bf16) (x1 : Vec Ideal S4096x512 .bf16) (x2 : Vec Ideal S4x256x2048 .bf16)
  (x3 : Vec Ideal S4x64x256 .bf16)

theorem blockZ_apply (n : Fin 8) (o l : Fin 256) :
    blockZ x0 x1 x2 x3 (ix3 n o l)
      = Cert.Spec.coreZ (fun r s k => x0 (ix4 n r s k))
          (fun t k i => x1 (ix2 ⟨t.val * 1024 + k.val, by have := t.isLt; have := k.isLt; omega⟩ i))
          (fun ph t o i => x2 (ix3 ph o ⟨t.val * 512 + i.val, by have := t.isLt; have := i.isLt; omega⟩))
          (fun ph col l => x3 (ix3 ph col l)) o l := by
  show _ = zcOf x0 x1 x2 x3 n o l
  unfold blockZ
  refine View.canon_apply_of_pieces (Val := Elt Ideal) (S := S8x256x256) (e := .bf16) (fun y : S8x256x256.Idx => zcOf x0 x1 x2 x3 (y 0) (y 1) (y 2)) _ ?_ (ix3 n o l) ?_
  · intro p hp
    simp only [List.mem_cons, List.not_mem_nil, or_false] at hp
    rcases hp with rfl | rfl | rfl | rfl | rfl | rfl | rfl | rfl <;> try dsimp only
    · refine slabZ_ok (zcOf x0 x1 x2 x3) 7 (by omega) inb_S8x256x256_S1x256x256_7_0_0 _ fun u o l => ?_
      unfold k0_pay62
      exact (outZ_apply _ _ _ u o l).trans (img7_apply x0 x1 x2 x3 o l)
    · refine slabZ_ok (zcOf x0 x1 x2 x3) 6 (by omega) inb_S8x256x256_S1x256x256_6_0_0 _ fun u o l => ?_
      unfold k0_pay57
      exact (outZ_apply _ _ _ u o l).trans (img6_apply x0 x1 x2 x3 o l)
    · refine slabZ_ok (zcOf x0 x1 x2 x3) 5 (by omega) inb_S8x256x256_S1x256x256_5_0_0 _ fun u o l => ?_
      unfold k0_pay51
      exact (outZ_apply _ _ _ u o l).trans (img5_apply x0 x1 x2 x3 o l)
    · refine slabZ_ok (zcOf x0 x1 x2 x3) 4 (by omega) inb_S8x256x256_S1x256x256_4_0_0 _ fun u o l => ?_
      unfold k0_pay45
      exact (outZ_apply _ _ _ u o l).trans (img4_apply x0 x1 x2 x3 o l)
    · refine slabZ_ok (zcOf x0 x1 x2 x3) 3 (by omega) inb_S8x256x256_S1x256x256_3_0_0 _ fun u o l => ?_
      unfold k0_pay39
      exact (outZ_apply _ _ _ u o l).trans (img3_apply x0 x1 x2 x3 o l)
    · refine slabZ_ok (zcOf x0 x1 x2 x3) 2 (by omega) inb_S8x256x256_S1x256x256_2_0_0 _ fun u o l => ?_
      unfold k0_pay32
      exact (outZ_apply _ _ _ u o l).trans (img2_apply x0 x1 x2 x3 o l)
    · refine slabZ_ok (zcOf x0 x1 x2 x3) 1 (by omega) inb_S8x256x256_S1x256x256_1_0_0 _ fun u o l => ?_
      unfold k0_pay26
      exact (outZ_apply _ _ _ u o l).trans (img1_apply x0 x1 x2 x3 o l)
    · refine slabZ_ok (zcOf x0 x1 x2 x3) 0 (by omega) inb_S8x256x256_S1x256x256_0_0_0 _ fun u o l => ?_
      unfold k0_pay19 zb0 k0_pay18
      exact (outZ_apply _ _ _ u o l).trans (img0_apply x0 x1 x2 x3 o l)
  · match n with
    | ⟨0, h⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_slabZ 0 h inb_S8x256x256_S1x256x256_0_0_0 o l⟩
    | ⟨1, h⟩ => exact ⟨_, List.mem_cons_of_mem _ (List.mem_cons_of_mem _ (List.mem_cons_of_mem _ (List.mem_cons_of_mem _ (List.mem_cons_of_mem _ (List.mem_cons_of_mem _ (List.mem_cons_self)))))), mem_slabZ 1 h inb_S8x256x256_S1x256x256_1_0_0 o l⟩
    | ⟨2, h⟩ => exact ⟨_, List.mem_cons_of_mem _ (List.mem_cons_of_mem _ (List.mem_cons_of_mem _ (List.mem_cons_of_mem _ (List.mem_cons_of_mem _ (List.mem_cons_self))))), mem_slabZ 2 h inb_S8x256x256_S1x256x256_2_0_0 o l⟩
    | ⟨3, h⟩ => exact ⟨_, List.mem_cons_of_mem _ (List.mem_cons_of_mem _ (List.mem_cons_of_mem _ (List.mem_cons_of_mem _ (List.mem_cons_self)))), mem_slabZ 3 h inb_S8x256x256_S1x256x256_3_0_0 o l⟩
    | ⟨4, h⟩ => exact ⟨_, List.mem_cons_of_mem _ (List.mem_cons_of_mem _ (List.mem_cons_of_mem _ (List.mem_cons_self))), mem_slabZ 4 h inb_S8x256x256_S1x256x256_4_0_0 o l⟩
    | ⟨5, h⟩ => exact ⟨_, List.mem_cons_of_mem _ (List.mem_cons_of_mem _ (List.mem_cons_self)), mem_slabZ 5 h inb_S8x256x256_S1x256x256_5_0_0 o l⟩
    | ⟨6, h⟩ => exact ⟨_, List.mem_cons_of_mem _ (List.mem_cons_self), mem_slabZ 6 h inb_S8x256x256_S1x256x256_6_0_0 o l⟩
    | ⟨7, h⟩ => exact ⟨_, List.mem_cons_self, mem_slabZ 7 h inb_S8x256x256_S1x256x256_7_0_0 o l⟩

theorem blockSum_apply (n : Fin 8) (o : Fin 256) :
    blockSum x0 x1 x2 x3 (ix3 n o 0)
      = Cert.Spec.coreSum (fun r s k => x0 (ix4 n r s k))
          (fun t k i => x1 (ix2 ⟨t.val * 1024 + k.val, by have := t.isLt; have := k.isLt; omega⟩ i))
          (fun ph t o i => x2 (ix3 ph o ⟨t.val * 512 + i.val, by have := t.isLt; have := i.isLt; omega⟩))
          (fun ph col l => x3 (ix3 ph col l)) o := by
  show _ = ∑ l : Fin 256, zcOf x0 x1 x2 x3 n o l
  unfold blockSum
  refine View.canon_apply_of_pieces (Val := Elt Ideal) (S := S8x256x1) (e := .f32) (fun y : S8x256x1.Idx => ∑ l : Fin 256, zcOf x0 x1 x2 x3 (y 0) (y 1) l) _ ?_ (ix3 n o 0) ?_
  · intro p hp
    simp only [List.mem_cons, List.not_mem_nil, or_false] at hp
    rcases hp with rfl | rfl | rfl | rfl | rfl | rfl | rfl | rfl <;> try dsimp only
    · refine slabS_ok (fun n o => ∑ l : Fin 256, zcOf x0 x1 x2 x3 n o l) 7 (by omega) inb_S8x256x1_S1x256x1_7_0_0 _ fun u o v => ?_
      unfold k0_pay63
      exact (outSum_apply _ _ _ _ _ _ u o v).trans (Finset.sum_congr rfl fun l _ => img7_apply x0 x1 x2 x3 o l)
    · refine slabS_ok (fun n o => ∑ l : Fin 256, zcOf x0 x1 x2 x3 n o l) 6 (by omega) inb_S8x256x1_S1x256x1_6_0_0 _ fun u o v => ?_
      unfold k0_pay58
      exact (outSum_apply _ _ _ _ _ _ u o v).trans (Finset.sum_congr rfl fun l _ => img6_apply x0 x1 x2 x3 o l)
    · refine slabS_ok (fun n o => ∑ l : Fin 256, zcOf x0 x1 x2 x3 n o l) 5 (by omega) inb_S8x256x1_S1x256x1_5_0_0 _ fun u o v => ?_
      unfold k0_pay52
      exact (outSum_apply _ _ _ _ _ _ u o v).trans (Finset.sum_congr rfl fun l _ => img5_apply x0 x1 x2 x3 o l)
    · refine slabS_ok (fun n o => ∑ l : Fin 256, zcOf x0 x1 x2 x3 n o l) 4 (by omega) inb_S8x256x1_S1x256x1_4_0_0 _ fun u o v => ?_
      unfold k0_pay46
      exact (outSum_apply _ _ _ _ _ _ u o v).trans (Finset.sum_congr rfl fun l _ => img4_apply x0 x1 x2 x3 o l)
    · refine slabS_ok (fun n o => ∑ l : Fin 256, zcOf x0 x1 x2 x3 n o l) 3 (by omega) inb_S8x256x1_S1x256x1_3_0_0 _ fun u o v => ?_
      unfold k0_pay40
      exact (outSum_apply _ _ _ _ _ _ u o v).trans (Finset.sum_congr rfl fun l _ => img3_apply x0 x1 x2 x3 o l)
    · refine slabS_ok (fun n o => ∑ l : Fin 256, zcOf x0 x1 x2 x3 n o l) 2 (by omega) inb_S8x256x1_S1x256x1_2_0_0 _ fun u o v => ?_
      unfold k0_pay33
      exact (outSum_apply _ _ _ _ _ _ u o v).trans (Finset.sum_congr rfl fun l _ => img2_apply x0 x1 x2 x3 o l)
    · refine slabS_ok (fun n o => ∑ l : Fin 256, zcOf x0 x1 x2 x3 n o l) 1 (by omega) inb_S8x256x1_S1x256x1_1_0_0 _ fun u o v => ?_
      unfold k0_pay27
      exact (outSum_apply _ _ _ _ _ _ u o v).trans (Finset.sum_congr rfl fun l _ => img1_apply x0 x1 x2 x3 o l)
    · refine slabS_ok (fun n o => ∑ l : Fin 256, zcOf x0 x1 x2 x3 n o l) 0 (by omega) inb_S8x256x1_S1x256x1_0_0_0 _ fun u o v => ?_
      unfold k0_pay20
      exact (outSum_apply _ _ _ _ _ _ u o v).trans (Finset.sum_congr rfl fun l _ => img0_apply x0 x1 x2 x3 o l)
  · match n with
    | ⟨0, h⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_slabS 0 h inb_S8x256x1_S1x256x1_0_0_0 o 0⟩
    | ⟨1, h⟩ => exact ⟨_, List.mem_cons_of_mem _ (List.mem_cons_of_mem _ (List.mem_cons_of_mem _ (List.mem_cons_of_mem _ (List.mem_cons_of_mem _ (List.mem_cons_of_mem _ (List.mem_cons_self)))))), mem_slabS 1 h inb_S8x256x1_S1x256x1_1_0_0 o 0⟩
    | ⟨2, h⟩ => exact ⟨_, List.mem_cons_of_mem _ (List.mem_cons_of_mem _ (List.mem_cons_of_mem _ (List.mem_cons_of_mem _ (List.mem_cons_of_mem _ (List.mem_cons_self))))), mem_slabS 2 h inb_S8x256x1_S1x256x1_2_0_0 o 0⟩
    | ⟨3, h⟩ => exact ⟨_, List.mem_cons_of_mem _ (List.mem_cons_of_mem _ (List.mem_cons_of_mem _ (List.mem_cons_of_mem _ (List.mem_cons_self)))), mem_slabS 3 h inb_S8x256x1_S1x256x1_3_0_0 o 0⟩
    | ⟨4, h⟩ => exact ⟨_, List.mem_cons_of_mem _ (List.mem_cons_of_mem _ (List.mem_cons_of_mem _ (List.mem_cons_self))), mem_slabS 4 h inb_S8x256x1_S1x256x1_4_0_0 o 0⟩
    | ⟨5, h⟩ => exact ⟨_, List.mem_cons_of_mem _ (List.mem_cons_of_mem _ (List.mem_cons_self)), mem_slabS 5 h inb_S8x256x1_S1x256x1_5_0_0 o 0⟩
    | ⟨6, h⟩ => exact ⟨_, List.mem_cons_of_mem _ (List.mem_cons_self), mem_slabS 6 h inb_S8x256x1_S1x256x1_6_0_0 o 0⟩
    | ⟨7, h⟩ => exact ⟨_, List.mem_cons_self, mem_slabS 7 h inb_S8x256x1_S1x256x1_7_0_0 o 0⟩

theorem blockSsq_apply (n : Fin 8) (o : Fin 256) :
    blockSsq x0 x1 x2 x3 (ix3 n o 0)
      = Cert.Spec.coreSsq (fun r s k => x0 (ix4 n r s k))
          (fun t k i => x1 (ix2 ⟨t.val * 1024 + k.val, by have := t.isLt; have := k.isLt; omega⟩ i))
          (fun ph t o i => x2 (ix3 ph o ⟨t.val * 512 + i.val, by have := t.isLt; have := i.isLt; omega⟩))
          (fun ph col l => x3 (ix3 ph col l)) o := by
  show _ = ∑ l : Fin 256, zcOf x0 x1 x2 x3 n o l * zcOf x0 x1 x2 x3 n o l
  unfold blockSsq
  refine View.canon_apply_of_pieces (Val := Elt Ideal) (S := S8x256x1) (e := .f32) (fun y : S8x256x1.Idx => ∑ l : Fin 256, zcOf x0 x1 x2 x3 (y 0) (y 1) l * zcOf x0 x1 x2 x3 (y 0) (y 1) l) _ ?_ (ix3 n o 0) ?_
  · intro p hp
    simp only [List.mem_cons, List.not_mem_nil, or_false] at hp
    rcases hp with rfl | rfl | rfl | rfl | rfl | rfl | rfl | rfl <;> try dsimp only
    · refine slabS_ok (fun n o => ∑ l : Fin 256, zcOf x0 x1 x2 x3 n o l * zcOf x0 x1 x2 x3 n o l) 7 (by omega) inb_S8x256x1_S1x256x1_7_0_0 _ fun u o v => ?_
      unfold k0_pay1 k0_pay64
      refine (outSum_apply _ _ _ _ _ _ u o v).trans (Finset.sum_congr rfl fun l _ => ?_)
      rw [mulf_apply, img7_apply x0 x1 x2 x3 o l]
      rfl
    · refine slabS_ok (fun n o => ∑ l : Fin 256, zcOf x0 x1 x2 x3 n o l * zcOf x0 x1 x2 x3 n o l) 6 (by omega) inb_S8x256x1_S1x256x1_6_0_0 _ fun u o v => ?_
      unfold k0_pay59
      refine (outSum_apply _ _ _ _ _ _ u o v).trans (Finset.sum_congr rfl fun l _ => ?_)
      rw [mulf_apply, img6_apply x0 x1 x2 x3 o l]
      rfl
    · refine slabS_ok (fun n o => ∑ l : Fin 256, zcOf x0 x1 x2 x3 n o l * zcOf x0 x1 x2 x3 n o l) 5 (by omega) inb_S8x256x1_S1x256x1_5_0_0 _ fun u o v => ?_
      unfold k0_pay53
      refine (outSum_apply _ _ _ _ _ _ u o v).trans (Finset.sum_congr rfl fun l _ => ?_)
      rw [mulf_apply, img5_apply x0 x1 x2 x3 o l]
      rfl
    · refine slabS_ok (fun n o => ∑ l : Fin 256, zcOf x0 x1 x2 x3 n o l * zcOf x0 x1 x2 x3 n o l) 4 (by omega) inb_S8x256x1_S1x256x1_4_0_0 _ fun u o v => ?_
      unfold k0_pay47
      refine (outSum_apply _ _ _ _ _ _ u o v).trans (Finset.sum_congr rfl fun l _ => ?_)
      rw [mulf_apply, img4_apply x0 x1 x2 x3 o l]
      rfl
    · refine slabS_ok (fun n o => ∑ l : Fin 256, zcOf x0 x1 x2 x3 n o l * zcOf x0 x1 x2 x3 n o l) 3 (by omega) inb_S8x256x1_S1x256x1_3_0_0 _ fun u o v => ?_
      unfold k0_pay41
      refine (outSum_apply _ _ _ _ _ _ u o v).trans (Finset.sum_congr rfl fun l _ => ?_)
      rw [mulf_apply, img3_apply x0 x1 x2 x3 o l]
      rfl
    · refine slabS_ok (fun n o => ∑ l : Fin 256, zcOf x0 x1 x2 x3 n o l * zcOf x0 x1 x2 x3 n o l) 2 (by omega) inb_S8x256x1_S1x256x1_2_0_0 _ fun u o v => ?_
      unfold k0_pay34
      refine (outSum_apply _ _ _ _ _ _ u o v).trans (Finset.sum_congr rfl fun l _ => ?_)
      rw [mulf_apply, img2_apply x0 x1 x2 x3 o l]
      rfl
    · refine slabS_ok (fun n o => ∑ l : Fin 256, zcOf x0 x1 x2 x3 n o l * zcOf x0 x1 x2 x3 n o l) 1 (by omega) inb_S8x256x1_S1x256x1_1_0_0 _ fun u o v => ?_
      unfold k0_pay28
      refine (outSum_apply _ _ _ _ _ _ u o v).trans (Finset.sum_congr rfl fun l _ => ?_)
      rw [mulf_apply, img1_apply x0 x1 x2 x3 o l]
      rfl
    · refine slabS_ok (fun n o => ∑ l : Fin 256, zcOf x0 x1 x2 x3 n o l * zcOf x0 x1 x2 x3 n o l) 0 (by omega) inb_S8x256x1_S1x256x1_0_0_0 _ fun u o v => ?_
      unfold k0_pay21
      refine (outSum_apply _ _ _ _ _ _ u o v).trans (Finset.sum_congr rfl fun l _ => ?_)
      rw [mulf_apply, img0_apply x0 x1 x2 x3 o l]
      rfl
  · match n with
    | ⟨0, h⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_slabS 0 h inb_S8x256x1_S1x256x1_0_0_0 o 0⟩
    | ⟨1, h⟩ => exact ⟨_, List.mem_cons_of_mem _ (List.mem_cons_of_mem _ (List.mem_cons_of_mem _ (List.mem_cons_of_mem _ (List.mem_cons_of_mem _ (List.mem_cons_of_mem _ (List.mem_cons_self)))))), mem_slabS 1 h inb_S8x256x1_S1x256x1_1_0_0 o 0⟩
    | ⟨2, h⟩ => exact ⟨_, List.mem_cons_of_mem _ (List.mem_cons_of_mem _ (List.mem_cons_of_mem _ (List.mem_cons_of_mem _ (List.mem_cons_of_mem _ (List.mem_cons_self))))), mem_slabS 2 h inb_S8x256x1_S1x256x1_2_0_0 o 0⟩
    | ⟨3, h⟩ => exact ⟨_, List.mem_cons_of_mem _ (List.mem_cons_of_mem _ (List.mem_cons_of_mem _ (List.mem_cons_of_mem _ (List.mem_cons_self)))), mem_slabS 3 h inb_S8x256x1_S1x256x1_3_0_0 o 0⟩
    | ⟨4, h⟩ => exact ⟨_, List.mem_cons_of_mem _ (List.mem_cons_of_mem _ (List.mem_cons_of_mem _ (List.mem_cons_self))), mem_slabS 4 h inb_S8x256x1_S1x256x1_4_0_0 o 0⟩
    | ⟨5, h⟩ => exact ⟨_, List.mem_cons_of_mem _ (List.mem_cons_of_mem _ (List.mem_cons_self)), mem_slabS 5 h inb_S8x256x1_S1x256x1_5_0_0 o 0⟩
    | ⟨6, h⟩ => exact ⟨_, List.mem_cons_of_mem _ (List.mem_cons_self), mem_slabS 6 h inb_S8x256x1_S1x256x1_6_0_0 o 0⟩
    | ⟨7, h⟩ => exact ⟨_, List.mem_cons_self, mem_slabS 7 h inb_S8x256x1_S1x256x1_7_0_0 o 0⟩

end Outputs

end Cert.Val.Ker

end
-- ==== Proof.Val.KerArrPieces.lean ====
import proofs.«125054_g2000703033488327_pallasbulk_1155_2_alg».proof.Proof.KI.Halves
import proofs.«125054_g2000703033488327_pallasbulk_1155_2_alg».proof.Proof.Val.KerArr
import proofs.«125054_g2000703033488327_pallasbulk_1155_2_alg».proof.Proof.Val.KerArrRun
import proofs.«125054_g2000703033488327_pallasbulk_1155_2_alg».proof.Proof.Val.KerBlockMath
import Idealize.ShloMosaic.Lib.Pipeline.Value
import Idealize.ShloMosaic.Lib.Tactic

set_option maxRecDepth 16384

noncomputable section

namespace Cert.Val.Ker

open Idealize.ShloMosaic Idealize.ShloMosaic.TcCoe Idealize.ShloMosaic.Tactic
open Idealize.SL Idealize.SL.Sem Idealize.ShloMosaic.ValueIdx
open Idealize.ShloMosaic.Pipeline (Dat)
open Cert.KernelIdeal Cert.KernelIdeal.Gen Cert.KernelIdeal.Hand

section Buffers
variable {F : FTy → Type} [FloatOps F]

theorem out0_4_eq (c : Dev nD) (t : Fin cfg0.N) (x0 : Vec F S8x9x9x1024 .bf16) (x1 : Vec F S4096x512 .bf16) (x2 : Vec F S4x256x2048 .bf16) (x3 : Vec F S4x64x256 .bf16) :
    out0_4 c t x0 x1 x2 x3 = blockZ x0 x1 x2 x3 := by
  unfold out0_4
  rw [View.read_writes_junk_eq_canon, canon4]

theorem out0_5_eq (c : Dev nD) (t : Fin cfg0.N) (x0 : Vec F S8x9x9x1024 .bf16) (x1 : Vec F S4096x512 .bf16) (x2 : Vec F S4x256x2048 .bf16) (x3 : Vec F S4x64x256 .bf16) :
    out0_5 c t x0 x1 x2 x3 = blockSum x0 x1 x2 x3 := by
  unfold out0_5
  rw [View.read_writes_junk_eq_canon, canon5]

theorem out0_6_eq (c : Dev nD) (t : Fin cfg0.N) (x0 : Vec F S8x9x9x1024 .bf16) (x1 : Vec F S4096x512 .bf16) (x2 : Vec F S4x256x2048 .bf16) (x3 : Vec F S4x64x256 .bf16) :
    out0_6 c t x0 x1 x2 x3 = blockSsq x0 x1 x2 x3 := by
  unfold out0_6
  rw [View.read_writes_junk_eq_canon, canon6]

end Buffers

section Arrays
variable (V : (c : Dev nD) → (b : Ref sig .tc) → Buf (Elt Ideal) ((c : Thread nD τ).loc b))

theorem region0_z (c : Dev nD) (n : Fin 64) (o l : Fin 256) :
    ((dat0 V c).arrAt 4 cfg0.N : Vec Ideal S64x256x256 .bf16) (ix3 n o l) = Cert.Spec.coreZ (xs V c n) (wd V c) (wu V c) (pm V c) o l :=
  arr4_at V blockZ_apply (dat0 V c) (fun t => (after0_4 V c t).trans (out0_4_eq c t _ _ _ _)) n o l

theorem region0_sum (c : Dev nD) (n : Fin 64) (o : Fin 256) :
    ((dat0 V c).arrAt 5 cfg0.N : Vec Ideal S64x256x1 .f32) (ix3 n o 0) = Cert.Spec.coreSum (xs V c n) (wd V c) (wu V c) (pm V c) o :=
  arr5_at V blockSum_apply (dat0 V c) (fun t => (after0_5 V c t).trans (out0_5_eq c t _ _ _ _)) n o

theorem region0_ssq (c : Dev nD) (n : Fin 64) (o : Fin 256) :
    ((dat0 V c).arrAt 6 cfg0.N : Vec Ideal S64x256x1 .f32) (ix3 n o 0) = Cert.Spec.coreSsq (xs V c n) (wd V c) (wu V c) (pm V c) o :=
  arr6_at V blockSsq_apply (dat0 V c) (fun t => (after0_6 V c t).trans (out0_6_eq c t _ _ _ _)) n o

end Arrays

end Cert.Val.Ker

end
-- ==== Proof.Val.RefBlock.lean ====
import proofs.«125054_g2000703033488327_pallasbulk_1155_2_alg».proof.Proof.Gen.ReferenceIdeal.Skeleton
import Idealize.ShloMosaic.Lib.Pipeline.FrameBody

noncomputable section

namespace Cert.Val.Ref

open Cert.ReferenceIdeal Cert.ReferenceIdeal.Gen Idealize.ShloMosaic

variable {F : FTy → Type} [FloatOps F]

abbrev rX00 : Rect S1x9x9x1024 := Rect.unit (s := S1x9x9x1024) ![0, 0, 0, 0] S1x8x8x1024.size inb_S1x9x9x1024_S1x8x8x1024_0_0_0_0

abbrev rX01 : Rect S1x9x9x1024 := Rect.unit (s := S1x9x9x1024) ![0, 0, 1, 0] S1x8x8x1024.size inb_S1x9x9x1024_S1x8x8x1024_0_0_1_0

abbrev rX10 : Rect S1x9x9x1024 := Rect.unit (s := S1x9x9x1024) ![0, 1, 0, 0] S1x8x8x1024.size inb_S1x9x9x1024_S1x8x8x1024_0_1_0_0

abbrev rX11 : Rect S1x9x9x1024 := Rect.unit (s := S1x9x9x1024) ![0, 1, 1, 0] S1x8x8x1024.size inb_S1x9x9x1024_S1x8x8x1024_0_1_1_0

abbrev rD0 : Rect S4x1024x512 := Rect.unit (s := S4x1024x512) ![0, 0, 0] S1x1024x512.size inb_S4x1024x512_S1x1024x512_0_0_0

abbrev rD1 : Rect S4x1024x512 := Rect.unit (s := S4x1024x512) ![1, 0, 0] S1x1024x512.size inb_S4x1024x512_S1x1024x512_1_0_0

abbrev rD2 : Rect S4x1024x512 := Rect.unit (s := S4x1024x512) ![2, 0, 0] S1x1024x512.size inb_S4x1024x512_S1x1024x512_2_0_0

abbrev rD3 : Rect S4x1024x512 := Rect.unit (s := S4x1024x512) ![3, 0, 0] S1x1024x512.size inb_S4x1024x512_S1x1024x512_3_0_0

abbrev rU00 : Rect S4x4x256x512 := Rect.unit (s := S4x4x256x512) ![0, 0, 0, 0] S1x1x256x512.size inb_S4x4x256x512_S1x1x256x512_0_0_0_0

abbrev rU01 : Rect S4x4x256x512 := Rect.unit (s := S4x4x256x512) ![0, 1, 0, 0] S1x1x256x512.size inb_S4x4x256x512_S1x1x256x512_0_1_0_0

abbrev rU02 : Rect S4x4x256x512 := Rect.unit (s := S4x4x256x512) ![0, 2, 0, 0] S1x1x256x512.size inb_S4x4x256x512_S1x1x256x512_0_2_0_0

abbrev rU03 : Rect S4x4x256x512 := Rect.unit (s := S4x4x256x512) ![0, 3, 0, 0] S1x1x256x512.size inb_S4x4x256x512_S1x1x256x512_0_3_0_0

abbrev rU10 : Rect S4x4x256x512 := Rect.unit (s := S4x4x256x512) ![1, 0, 0, 0] S1x1x256x512.size inb_S4x4x256x512_S1x1x256x512_1_0_0_0

abbrev rU11 : Rect S4x4x256x512 := Rect.unit (s := S4x4x256x512) ![1, 1, 0, 0] S1x1x256x512.size inb_S4x4x256x512_S1x1x256x512_1_1_0_0

abbrev rU12 : Rect S4x4x256x512 := Rect.unit (s := S4x4x256x512) ![1, 2, 0, 0] S1x1x256x512.size inb_S4x4x256x512_S1x1x256x512_1_2_0_0

abbrev rU13 : Rect S4x4x256x512 := Rect.unit (s := S4x4x256x512) ![1, 3, 0, 0] S1x1x256x512.size inb_S4x4x256x512_S1x1x256x512_1_3_0_0

abbrev rU20 : Rect S4x4x256x512 := Rect.unit (s := S4x4x256x512) ![2, 0, 0, 0] S1x1x256x512.size inb_S4x4x256x512_S1x1x256x512_2_0_0_0

abbrev rU21 : Rect S4x4x256x512 := Rect.unit (s := S4x4x256x512) ![2, 1, 0, 0] S1x1x256x512.size inb_S4x4x256x512_S1x1x256x512_2_1_0_0

abbrev rU22 : Rect S4x4x256x512 := Rect.unit (s := S4x4x256x512) ![2, 2, 0, 0] S1x1x256x512.size inb_S4x4x256x512_S1x1x256x512_2_2_0_0

abbrev rU23 : Rect S4x4x256x512 := Rect.unit (s := S4x4x256x512) ![2, 3, 0, 0] S1x1x256x512.size inb_S4x4x256x512_S1x1x256x512_2_3_0_0

abbrev rU30 : Rect S4x4x256x512 := Rect.unit (s := S4x4x256x512) ![3, 0, 0, 0] S1x1x256x512.size inb_S4x4x256x512_S1x1x256x512_3_0_0_0

abbrev rU31 : Rect S4x4x256x512 := Rect.unit (s := S4x4x256x512) ![3, 1, 0, 0] S1x1x256x512.size inb_S4x4x256x512_S1x1x256x512_3_1_0_0

abbrev rU32 : Rect S4x4x256x512 := Rect.unit (s := S4x4x256x512) ![3, 2, 0, 0] S1x1x256x512.size inb_S4x4x256x512_S1x1x256x512_3_2_0_0

abbrev rU33 : Rect S4x4x256x512 := Rect.unit (s := S4x4x256x512) ![3, 3, 0, 0] S1x1x256x512.size inb_S4x4x256x512_S1x1x256x512_3_3_0_0

abbrev rP0 : Rect S4x64x256 := Rect.unit (s := S4x64x256) ![0, 0, 0] S1x64x256.size inb_S4x64x256_S1x64x256_0_0_0

abbrev rP1 : Rect S4x64x256 := Rect.unit (s := S4x64x256) ![1, 0, 0] S1x64x256.size inb_S4x64x256_S1x64x256_1_0_0

abbrev rP2 : Rect S4x64x256 := Rect.unit (s := S4x64x256) ![2, 0, 0] S1x64x256.size inb_S4x64x256_S1x64x256_2_0_0

abbrev rP3 : Rect S4x64x256 := Rect.unit (s := S4x64x256) ![3, 0, 0] S1x64x256.size inb_S4x64x256_S1x64x256_3_0_0

abbrev rSall : Rect S10x10x512 := Rect.unit (s := S10x10x512) ![0, 0, 0] S10x10x512.size inb_S10x10x512_S10x10x512_0_0_0

abbrev rS00 : Rect S10x10x512 := Rect.unit (s := S10x10x512) ![0, 0, 0] S8x8x512.size inb_S10x10x512_S8x8x512_0_0_0

abbrev rS01 : Rect S10x10x512 := Rect.unit (s := S10x10x512) ![0, 1, 0] S8x8x512.size inb_S10x10x512_S8x8x512_0_1_0

abbrev rS02 : Rect S10x10x512 := Rect.unit (s := S10x10x512) ![0, 2, 0] S8x8x512.size inb_S10x10x512_S8x8x512_0_2_0

abbrev rS10 : Rect S10x10x512 := Rect.unit (s := S10x10x512) ![1, 0, 0] S8x8x512.size inb_S10x10x512_S8x8x512_1_0_0

abbrev rS11 : Rect S10x10x512 := Rect.unit (s := S10x10x512) ![1, 1, 0] S8x8x512.size inb_S10x10x512_S8x8x512_1_1_0

abbrev rS12 : Rect S10x10x512 := Rect.unit (s := S10x10x512) ![1, 2, 0] S8x8x512.size inb_S10x10x512_S8x8x512_1_2_0

abbrev rS20 : Rect S10x10x512 := Rect.unit (s := S10x10x512) ![2, 0, 0] S8x8x512.size inb_S10x10x512_S8x8x512_2_0_0

abbrev rS21 : Rect S10x10x512 := Rect.unit (s := S10x10x512) ![2, 1, 0] S8x8x512.size inb_S10x10x512_S8x8x512_2_1_0

abbrev rS22 : Rect S10x10x512 := Rect.unit (s := S10x10x512) ![2, 2, 0] S8x8x512.size inb_S10x10x512_S8x8x512_2_2_0

abbrev rOz : Rect S1x256x256 := Rect.unit (s := S1x256x256) ![0, 0, 0] S1x256x256.size inb_S1x256x256_S1x256x256_0_0_0

abbrev rOs : Rect S1x256x1 := Rect.unit (s := S1x256x1) ![0, 0, 0] S1x256x1.size inb_S1x256x1_S1x256x1_0_0_0

section
variable (x0 : Vec F S1x9x9x1024 .f32) (x1 : Vec F S4x1024x512 .f32)

def convStore : FVec F S8x8x512 .f32 :=
  k0_pay8 (k0_pay5 (View.ld x0 rX00) (View.ld x1 rD0) (View.ld x0 rX01) (View.ld x1 rD1)) (k0_pay6 (View.ld x0 rX10))
    (View.ld x1 rD2) (View.ld x0 rX11) (View.ld x1 rD3)

def scratch : Vec F S10x10x512 .f32 :=
  View.canon [⟨rS11, convStore x0 x1⟩, ⟨rSall, k0_pay7 (F := F)⟩]

def win00 : FVec F S64x512 .f32 := k0_pay9 (View.ld (scratch x0 x1) rS00)
def win01 : FVec F S64x512 .f32 := k0_pay10 (View.ld (scratch x0 x1) rS01)
def win02 : FVec F S64x512 .f32 := k0_pay11 (View.ld (scratch x0 x1) rS02)
def win10 : FVec F S64x512 .f32 := k0_pay12 (View.ld (scratch x0 x1) rS10)
def win11 : FVec F S64x512 .f32 := k0_pay13 (View.ld (scratch x0 x1) rS11)
def win12 : FVec F S64x512 .f32 := k0_pay14 (View.ld (scratch x0 x1) rS12)
def win20 : FVec F S64x512 .f32 := k0_pay15 (View.ld (scratch x0 x1) rS20)
def win21 : FVec F S64x512 .f32 := k0_pay16 (View.ld (scratch x0 x1) rS21)
def win22 : FVec F S64x512 .f32 := k0_pay17 (View.ld (scratch x0 x1) rS22)

end

section
variable (x0 : Vec F S1x9x9x1024 .f32) (x1 : Vec F S4x1024x512 .f32) (x2 : Vec F S4x4x256x512 .f32) (x3 : Vec F S4x64x256 .f32)

def acc85 : FVec F S256x64 .f32 :=
  k0_pay18 (win00 x0 x1) (win01 x0 x1) (View.ld (scratch x0 x1) rS10) (View.ld x2 rU00) (View.ld x2 rU01) (View.ld x2 rU02)

def acc111 : FVec F S256x256 .f32 :=
  k0_pay19 (win01 x0 x1) (win02 x0 x1) (win11 x0 x1) (win12 x0 x1) (acc85 x0 x1 x2) (View.ld x2 rU03) (View.ld x3 rP0)
    (View.ld x2 rU10) (View.ld x2 rU11) (View.ld x2 rU12) (View.ld x2 rU13) (View.ld x3 rP1)

def acc130 : FVec F S256x256 .f32 :=
  k0_pay20 (win10 x0 x1) (win11 x0 x1) (win20 x0 x1) (win21 x0 x1) (acc111 x0 x1 x2 x3) (View.ld x2 rU20) (View.ld x2 rU21)
    (View.ld x2 rU22) (View.ld x2 rU23) (View.ld x3 rP2)

def acc137 : FVec F S256x64 .f32 :=
  k0_pay21 (win11 x0 x1) (win12 x0 x1) (View.ld x2 rU30) (View.ld x2 rU31)

def zc : FVec F S256x256 .f32 :=
  k0_pay1 (win21 x0 x1) (win22 x0 x1) (acc130 x0 x1 x2 x3) (acc137 x0 x1 x2) (View.ld x2 rU32) (View.ld x2 rU33) (View.ld x3 rP3)

def blockZ : Vec F S1x256x256 .f32 :=
  View.canon [⟨rOz, k0_pay2 (win21 x0 x1) (win22 x0 x1) (acc130 x0 x1 x2 x3) (acc137 x0 x1 x2) (View.ld x2 rU32) (View.ld x2 rU33) (View.ld x3 rP3)⟩]

def blockSum : Vec F S1x256x1 .f32 :=
  View.canon [⟨rOs, k0_pay3 (win21 x0 x1) (win22 x0 x1) (acc130 x0 x1 x2 x3) (acc137 x0 x1 x2) (View.ld x2 rU32) (View.ld x2 rU33) (View.ld x3 rP3)⟩]

def blockSsq : Vec F S1x256x1 .f32 :=
  View.canon [⟨rOs, k0_pay4 (win21 x0 x1) (win22 x0 x1) (acc130 x0 x1 x2 x3) (acc137 x0 x1 x2) (View.ld x2 rU32) (View.ld x2 rU33) (View.ld x3 rP3)⟩]

end

end Cert.Val.Ref

end
-- ==== Proof.Val.RefArr.lean ====
import proofs.«125054_g2000703033488327_pallasbulk_1155_2_alg».proof.Proof.Gen.ReferenceIdeal.Launch
import proofs.«125054_g2000703033488327_pallasbulk_1155_2_alg».proof.Proof.Gen.ReferenceIdeal.Points
import proofs.«125054_g2000703033488327_pallasbulk_1155_2_alg».proof.Proof.RI.Shared
import proofs.«125054_g2000703033488327_pallasbulk_1155_2_alg».proof.Proof.Val.Spec
import proofs.«125054_g2000703033488327_pallasbulk_1155_2_alg».proof.Proof.Val.RefBlock
import Idealize.ShloMosaic.Lib.Pipeline.Value
import Idealize.ShloMosaic.Lib.ValueIdx

noncomputable section

namespace Cert.Val.Ref

open Idealize.ShloMosaic Idealize.ShloMosaic.TcCoe Idealize.SL.Sem
open Idealize.ShloMosaic.Pipeline (Dat)
open Idealize.ShloMosaic.ValueIdx
open Cert.ReferenceIdeal Cert.ReferenceIdeal.Gen Cert.ReferenceIdeal.Hand

variable (V : (c : Dev nD) → (b : Ref sig .tc) → Buf (Elt Ideal) ((c : Thread nD τ).loc b))

def xs (c : Dev nD) (n : Fin 64) (r s : Fin 9) (k : Fin 1024) : EReal := (V c main_v4 : S64x9x9x1024.Idx → EReal) (ix4 n r s k)

def wd (c : Dev nD) (t : Fin 4) (k : Fin 1024) (i : Fin 512) : EReal := (V c main_v8 : S4x1024x512.Idx → EReal) (ix3 t k i)

def wu (c : Dev nD) (ph t : Fin 4) (o : Fin 256) (i : Fin 512) : EReal := (V c main_v81 : S4x4x256x512.Idx → EReal) (ix4 ph t o i)

def pm (c : Dev nD) (ph : Fin 4) (col : Fin 64) (l : Fin 256) : EReal := (V c main_v164 : S4x64x256.Idx → EReal) (ix3 ph col l)

def img (t : Fin cfg0.N) : Fin 64 := t.cast N_0

def pt (n : Fin 64) : Fin cfg0.N := n.cast N_0.symm

theorem blockAt : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 3) = 0 ∧ win0_1.index t (1 : Fin 3) = 0 ∧ win0_1.index t (2 : Fin 3) = 0)
    ∧ (win0_2.index t (0 : Fin 4) = 0 ∧ win0_2.index t (1 : Fin 4) = 0 ∧ win0_2.index t (2 : Fin 4) = 0 ∧ win0_2.index t (3 : Fin 4) = 0)
    ∧ (win0_3.index t (0 : Fin 3) = 0 ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0) :=
  (by decide +kernel : ∀ t : Fin grid0.N, _)

theorem imageBlock_apply (c : Dev nD) (t : Fin cfg0.N) (r s : Fin 9) (k : Fin 1024) :
    (iblk0 V c 0 t : Vec Ideal S1x9x9x1024 .f32) (ix4 0 r s k) = xs V c (img t) r s k := by
  obtain ⟨⟨e0, e1, e2, e3⟩, -⟩ := blockAt t
  unfold iblk0 xs
  rw [View.read_apply]
  show (V c main_v4 : S64x9x9x1024.Idx → EReal) _ = (V c main_v4 : S64x9x9x1024.Idx → EReal) _
  congr 1
  funext a
  apply Fin.ext
  match a with
  | ⟨0, _⟩ => show win0_0.index t (0 : Fin 4) * 1 + 1 * 0 = t.val; omega
  | ⟨1, _⟩ => show win0_0.index t (1 : Fin 4) * 9 + 1 * r.val = r.val; omega
  | ⟨2, _⟩ => show win0_0.index t (2 : Fin 4) * 9 + 1 * s.val = s.val; omega
  | ⟨3, _⟩ => show win0_0.index t (3 : Fin 4) * 1024 + 1 * k.val = k.val; omega

theorem downBlock_eq (c : Dev nD) (t : Fin cfg0.N) :
    (iblk0 V c 1 t : Vec Ideal S4x1024x512 .f32) = (V c main_v8 : S4x1024x512.Idx → EReal) := by
  obtain ⟨-, ⟨e0, e1, e2⟩, -⟩ := blockAt t
  funext x
  unfold iblk0
  rw [View.read_apply]
  show (V c main_v8 : S4x1024x512.Idx → EReal) _ = (V c main_v8 : S4x1024x512.Idx → EReal) x
  congr 1
  funext a
  apply Fin.ext
  match a with
  | ⟨0, _⟩ => show win0_1.index t (0 : Fin 3) * 4 + 1 * (x 0).val = (x 0).val; omega
  | ⟨1, _⟩ => show win0_1.index t (1 : Fin 3) * 1024 + 1 * (x 1).val = (x 1).val; omega
  | ⟨2, _⟩ => show win0_1.index t (2 : Fin 3) * 512 + 1 * (x 2).val = (x 2).val; omega

theorem upBlock_eq (c : Dev nD) (t : Fin cfg0.N) :
    (iblk0 V c 2 t : Vec Ideal S4x4x256x512 .f32) = (V c main_v81 : S4x4x256x512.Idx → EReal) := by
  obtain ⟨-, -, ⟨e0, e1, e2, e3⟩, -⟩ := blockAt t
  funext x
  unfold iblk0
  rw [View.read_apply]
  show (V c main_v81 : S4x4x256x512.Idx → EReal) _ = (V c main_v81 : S4x4x256x512.Idx → EReal) x
  congr 1
  funext a
  apply Fin.ext
  match a with
  | ⟨0, _⟩ => show win0_2.index t (0 : Fin 4) * 4 + 1 * (x 0).val = (x 0).val; omega
  | ⟨1, _⟩ => show win0_2.index t (1 : Fin 4) * 4 + 1 * (x 1).val = (x 1).val; omega
  | ⟨2, _⟩ => show win0_2.index t (2 : Fin 4) * 256 + 1 * (x 2).val = (x 2).val; omega
  | ⟨3, _⟩ => show win0_2.index t (3 : Fin 4) * 512 + 1 * (x 3).val = (x 3).val; omega

theorem placeBlock_eq (c : Dev nD) (t : Fin cfg0.N) :
    (iblk0 V c 3 t : Vec Ideal S4x64x256 .f32) = (V c main_v164 : S4x64x256.Idx → EReal) := by
  obtain ⟨-, -, -, ⟨e0, e1, e2⟩, -⟩ := blockAt t
  funext x
  unfold iblk0
  rw [View.read_apply]
  show (V c main_v164 : S4x64x256.Idx → EReal) _ = (V c main_v164 : S4x64x256.Idx → EReal) x
  congr 1
  funext a
  apply Fin.ext
  match a with
  | ⟨0, _⟩ => show win0_3.index t (0 : Fin 3) * 4 + 1 * (x 0).val = (x 0).val; omega
  | ⟨1, _⟩ => show win0_3.index t (1 : Fin 3) * 64 + 1 * (x 1).val = (x 1).val; omega
  | ⟨2, _⟩ => show win0_3.index t (2 : Fin 3) * 256 + 1 * (x 2).val = (x 2).val; omega

def arrZ (c : Dev nD) : S64x256x256.Idx → EReal :=
  fun i => Cert.Spec.coreZ (xs V c (i 0)) (wd V c) (wu V c) (pm V c) (i 1) (i 2)

def arrSum (c : Dev nD) : S64x256x1.Idx → EReal :=
  fun i => Cert.Spec.coreSum (xs V c (i 0)) (wd V c) (wu V c) (pm V c) (i 1)

def arrSsq (c : Dev nD) : S64x256x1.Idx → EReal :=
  fun i => Cert.Spec.coreSsq (xs V c (i 0)) (wd V c) (wu V c) (pm V c) (i 1)

theorem arrZ_at (c : Dev nD) (i : S64x256x256.Idx) (n : Fin 64) (o l : Fin 256) (h0 : i 0 = n) (h1 : i 1 = o) (h2 : i 2 = l) :
    arrZ V c i = Cert.Spec.coreZ (xs V c n) (wd V c) (wu V c) (pm V c) o l := by
  subst h0 h1 h2; rfl
theorem arrSum_at (c : Dev nD) (i : S64x256x1.Idx) (n : Fin 64) (o : Fin 256) (h0 : i 0 = n) (h1 : i 1 = o) :
    arrSum V c i = Cert.Spec.coreSum (xs V c n) (wd V c) (wu V c) (pm V c) o := by
  subst h0 h1; rfl
theorem arrSsq_at (c : Dev nD) (i : S64x256x1.Idx) (n : Fin 64) (o : Fin 256) (h0 : i 0 = n) (h1 : i 1 = o) :
    arrSsq V c i = Cert.Spec.coreSsq (xs V c n) (wd V c) (wu V c) (pm V c) o := by
  subst h0 h1; rfl

section AtIndex

variable (x0 : Vec Ideal S1x9x9x1024 .f32) (x1 : Vec Ideal S4x1024x512 .f32) (x2 : Vec Ideal S4x4x256x512 .f32) (x3 : Vec Ideal S4x64x256 .f32)
variable (A0 : Fin 9 → Fin 9 → Fin 1024 → EReal) (A1 : S4x1024x512.Idx → EReal) (A2 : S4x4x256x512.Idx → EReal) (A3 : S4x64x256.Idx → EReal)

theorem blockZ_read
    (hZ : ∀ (x0 : Vec Ideal S1x9x9x1024 .f32) (x1 : Vec Ideal S4x1024x512 .f32) (x2 : Vec Ideal S4x4x256x512 .f32) (x3 : Vec Ideal S4x64x256 .f32) (o l : Fin 256),
      blockZ x0 x1 x2 x3 (ix3 0 o l) = Cert.Spec.coreZ (fun r s k => x0 (ix4 0 r s k)) (fun t k i => x1 (ix3 t k i)) (fun ph t o i => x2 (ix4 ph t o i)) (fun ph col l => x3 (ix3 ph col l)) o l)
    (h0 : ∀ r s k, x0 (ix4 0 r s k) = A0 r s k) (h1 : x1 = A1) (h2 : x2 = A2) (h3 : x3 = A3)
    (j : S1x256x256.Idx) (o l : Fin 256) (ho : j 1 = o) (hl : j 2 = l) :
    blockZ x0 x1 x2 x3 j = Cert.Spec.coreZ A0 (fun t k i => A1 (ix3 t k i)) (fun ph t o i => A2 (ix4 ph t o i)) (fun ph col l => A3 (ix3 ph col l)) o l := by
  subst h1 h2 h3
  have hj : j = ix3 (0 : Fin 1) o l := by
    funext a
    match a with
    | ⟨0, _⟩ => exact Fin.ext (by have h : (j 0).val < 1 := (j 0).isLt; show (j 0).val = 0; omega)
    | ⟨1, _⟩ => exact ho
    | ⟨2, _⟩ => exact hl
  have e : (fun r s k => x0 (ix4 0 r s k)) = A0 := funext fun r => funext fun s => funext fun k => h0 r s k
  rw [hj, hZ, e]

theorem blockSum_read
    (hS : ∀ (x0 : Vec Ideal S1x9x9x1024 .f32) (x1 : Vec Ideal S4x1024x512 .f32) (x2 : Vec Ideal S4x4x256x512 .f32) (x3 : Vec Ideal S4x64x256 .f32) (o : Fin 256),
      blockSum x0 x1 x2 x3 (ix3 0 o 0) = Cert.Spec.coreSum (fun r s k => x0 (ix4 0 r s k)) (fun t k i => x1 (ix3 t k i)) (fun ph t o i => x2 (ix4 ph t o i)) (fun ph col l => x3 (ix3 ph col l)) o)
    (h0 : ∀ r s k, x0 (ix4 0 r s k) = A0 r s k) (h1 : x1 = A1) (h2 : x2 = A2) (h3 : x3 = A3)
    (j : S1x256x1.Idx) (o : Fin 256) (ho : j 1 = o) :
    blockSum x0 x1 x2 x3 j = Cert.Spec.coreSum A0 (fun t k i => A1 (ix3 t k i)) (fun ph t o i => A2 (ix4 ph t o i)) (fun ph col l => A3 (ix3 ph col l)) o := by
  subst h1 h2 h3
  have hj : j = ix3 (0 : Fin 1) o (0 : Fin 1) := by
    funext a
    match a with
    | ⟨0, _⟩ => exact Fin.ext (by have h : (j 0).val < 1 := (j 0).isLt; show (j 0).val = 0; omega)
    | ⟨1, _⟩ => exact ho
    | ⟨2, _⟩ => exact Fin.ext (by have h : (j 2).val < 1 := (j 2).isLt; show (j 2).val = 0; omega)
  have e : (fun r s k => x0 (ix4 0 r s k)) = A0 := funext fun r => funext fun s => funext fun k => h0 r s k
  rw [hj, hS, e]

theorem blockSsq_read
    (hQ : ∀ (x0 : Vec Ideal S1x9x9x1024 .f32) (x1 : Vec Ideal S4x1024x512 .f32) (x2 : Vec Ideal S4x4x256x512 .f32) (x3 : Vec Ideal S4x64x256 .f32) (o : Fin 256),
      blockSsq x0 x1 x2 x3 (ix3 0 o 0) = Cert.Spec.coreSsq (fun r s k => x0 (ix4 0 r s k)) (fun t k i => x1 (ix3 t k i)) (fun ph t o i => x2 (ix4 ph t o i)) (fun ph col l => x3 (ix3 ph col l)) o)
    (h0 : ∀ r s k, x0 (ix4 0 r s k) = A0 r s k) (h1 : x1 = A1) (h2 : x2 = A2) (h3 : x3 = A3)
    (j : S1x256x1.Idx) (o : Fin 256) (ho : j 1 = o) :
    blockSsq x0 x1 x2 x3 j = Cert.Spec.coreSsq A0 (fun t k i => A1 (ix3 t k i)) (fun ph t o i => A2 (ix4 ph t o i)) (fun ph col l => A3 (ix3 ph col l)) o := by
  subst h1 h2 h3
  have hj : j = ix3 (0 : Fin 1) o (0 : Fin 1) := by
    funext a
    match a with
    | ⟨0, _⟩ => exact Fin.ext (by have h : (j 0).val < 1 := (j 0).isLt; show (j 0).val = 0; omega)
    | ⟨1, _⟩ => exact ho
    | ⟨2, _⟩ => exact Fin.ext (by have h : (j 2).val < 1 := (j 2).isLt; show (j 2).val = 0; omega)
  have e : (fun r s k => x0 (ix4 0 r s k)) = A0 := funext fun r => funext fun s => funext fun k => h0 r s k
  rw [hj, hQ, e]

end AtIndex

section Window4

variable (hZ : ∀ (x0 : Vec Ideal S1x9x9x1024 .f32) (x1 : Vec Ideal S4x1024x512 .f32) (x2 : Vec Ideal S4x4x256x512 .f32) (x3 : Vec Ideal S4x64x256 .f32) (o l : Fin 256),
      blockZ x0 x1 x2 x3 (ix3 0 o l) = Cert.Spec.coreZ (fun r s k => x0 (ix4 0 r s k)) (fun t k i => x1 (ix3 t k i)) (fun ph t o i => x2 (ix4 ph t o i)) (fun ph col l => x3 (ix3 ph col l)) o l)
variable (c : Dev nD) (dat : Dat τ (Elt Ideal) Unit ℕ (UR sig nD τ) ℕ cfg0 c)
variable (hafter : ∀ t, dat.after 4 t = blockZ (iblk0 V c 0 t) (iblk0 V c 1 t) (iblk0 V c 2 t) (iblk0 V c 3 t))

include hZ hafter in

theorem flushed4_eq (t : Fin cfg0.N) :
    dat.flushed 4 t = ((cfg0.win 4).blk t).view.read (Elt Ideal) (arrZ V c) := by
  obtain ⟨-, -, -, -, ⟨e0, e1, e2⟩, -, -⟩ := blockAt t
  show (cfg0.win 4).cut (grid0.coords t) (dat.after 4 t) = _
  rw [hafter t]
  funext j
  rw [View.read_apply]
  show blockZ (iblk0 V c 0 t) (iblk0 V c 1 t) (iblk0 V c 2 t) (iblk0 V c 3 t) j = arrZ V c (((cfg0.win 4).blk t).view.emb j)
  have hj0 : (j 0).val < 1 := (j 0).isLt
  have a0 : (((cfg0.win 4).blk t).view.emb j : S64x256x256.Idx) 0 = img t :=
    Fin.ext (by show win0_4.index t (0 : Fin 3) * 1 + 1 * (j 0).val = t.val; omega)
  have a1 : (((cfg0.win 4).blk t).view.emb j : S64x256x256.Idx) 1 = j 1 :=
    Fin.ext (by show win0_4.index t (1 : Fin 3) * 256 + 1 * (j 1).val = (j 1).val; omega)
  have a2 : (((cfg0.win 4).blk t).view.emb j : S64x256x256.Idx) 2 = j 2 :=
    Fin.ext (by show win0_4.index t (2 : Fin 3) * 256 + 1 * (j 2).val = (j 2).val; omega)
  exact (blockZ_read _ _ _ _ (xs V c (img t)) _ _ _ hZ (imageBlock_apply V c t) (downBlock_eq V c t) (upBlock_eq V c t)
    (placeBlock_eq V c t) j (j 1) (j 2) rfl rfl).trans (arrZ_at V c _ _ _ _ a0 a1 a2).symm

theorem mem_blk4 (t : Fin cfg0.N) (i : S64x256x256.Idx) :
    i ∈ ((cfg0.win 4).blk t).view.set ↔ ∀ a : Fin 3, win0_4.index t a * S1x256x256.size a ≤ (i a).val ∧ (i a).val < win0_4.index t a * S1x256x256.size a + S1x256x256.size a := by
  show i ∈ ((View.whole main_v165_0).slice (win0_4.rect t)).set ↔ _
  rw [View.set_slice_whole, Rect.mem_set_unit]
  exact Iff.rfl

theorem cover4 (i : S64x256x256.Idx) : ∃ t : Fin cfg0.N, (cfg0.win 4).flush t = true ∧ i ∈ ((cfg0.win 4).blk t).view.set := by
  have h0 : (i 0).val < 64 := (i 0).isLt
  have h1 : (i 1).val < 256 := (i 1).isLt
  have h2 : (i 2).val < 256 := (i 2).isLt
  refine ⟨pt (i 0), flush0_4 _, ?_⟩
  obtain ⟨-, -, -, -, ⟨e0, e1, e2⟩, -, -⟩ := blockAt (pt (i 0))
  have ev : (pt (i 0)).val = (i 0).val := rfl
  rw [mem_blk4]
  intro a
  match a with
  | ⟨0, _⟩ => show win0_4.index (pt (i 0)) (0 : Fin 3) * 1 ≤ (i 0).val ∧ (i 0).val < win0_4.index (pt (i 0)) (0 : Fin 3) * 1 + 1; omega
  | ⟨1, _⟩ => show win0_4.index (pt (i 0)) (1 : Fin 3) * 256 ≤ (i 1).val ∧ (i 1).val < win0_4.index (pt (i 0)) (1 : Fin 3) * 256 + 256; omega
  | ⟨2, _⟩ => show win0_4.index (pt (i 0)) (2 : Fin 3) * 256 ≤ (i 2).val ∧ (i 2).val < win0_4.index (pt (i 0)) (2 : Fin 3) * 256 + 256; omega

include hZ hafter in

theorem array4_of : (dat.arrAt 4 cfg0.N : S64x256x256.Idx → EReal) = arrZ V c :=
  dat.arrAt_eq_of_cover 4 (arrZ V c) (fun t _ => flushed4_eq V hZ c dat hafter t) cover4

end Window4

section Window5

variable (hS : ∀ (x0 : Vec Ideal S1x9x9x1024 .f32) (x1 : Vec Ideal S4x1024x512 .f32) (x2 : Vec Ideal S4x4x256x512 .f32) (x3 : Vec Ideal S4x64x256 .f32) (o : Fin 256),
      blockSum x0 x1 x2 x3 (ix3 0 o 0) = Cert.Spec.coreSum (fun r s k => x0 (ix4 0 r s k)) (fun t k i => x1 (ix3 t k i)) (fun ph t o i => x2 (ix4 ph t o i)) (fun ph col l => x3 (ix3 ph col l)) o)
variable (c : Dev nD) (dat : Dat τ (Elt Ideal) Unit ℕ (UR sig nD τ) ℕ cfg0 c)
variable (hafter : ∀ t, dat.after 5 t = blockSum (iblk0 V c 0 t) (iblk0 V c 1 t) (iblk0 V c 2 t) (iblk0 V c 3 t))

include hS hafter in

theorem flushed5_eq (t : Fin cfg0.N) :
    dat.flushed 5 t = ((cfg0.win 5).blk t).view.read (Elt Ideal) (arrSum V c) := by
  obtain ⟨-, -, -, -, -, ⟨e0, e1, e2⟩, -⟩ := blockAt t
  show (cfg0.win 5).cut (grid0.coords t) (dat.after 5 t) = _
  rw [hafter t]
  funext j
  rw [View.read_apply]
  show blockSum (iblk0 V c 0 t) (iblk0 V c 1 t) (iblk0 V c 2 t) (iblk0 V c 3 t) j = arrSum V c (((cfg0.win 5).blk t).view.emb j)
  have hj0 : (j 0).val < 1 := (j 0).isLt
  have a0 : (((cfg0.win 5).blk t).view.emb j : S64x256x1.Idx) 0 = img t :=
    Fin.ext (by show win0_5.index t (0 : Fin 3) * 1 + 1 * (j 0).val = t.val; omega)
  have a1 : (((cfg0.win 5).blk t).view.emb j : S64x256x1.Idx) 1 = j 1 :=
    Fin.ext (by show win0_5.index t (1 : Fin 3) * 256 + 1 * (j 1).val = (j 1).val; omega)
  exact (blockSum_read _ _ _ _ (xs V c (img t)) _ _ _ hS (imageBlock_apply V c t) (downBlock_eq V c t) (upBlock_eq V c t)
    (placeBlock_eq V c t) j (j 1) rfl).trans (arrSum_at V c _ _ _ a0 a1).symm

theorem mem_blk5 (t : Fin cfg0.N) (i : S64x256x1.Idx) :
    i ∈ ((cfg0.win 5).blk t).view.set ↔ ∀ a : Fin 3, win0_5.index t a * S1x256x1.size a ≤ (i a).val ∧ (i a).val < win0_5.index t a * S1x256x1.size a + S1x256x1.size a := by
  show i ∈ ((View.whole main_v165_1).slice (win0_5.rect t)).set ↔ _
  rw [View.set_slice_whole, Rect.mem_set_unit]
  exact Iff.rfl

theorem cover5 (i : S64x256x1.Idx) : ∃ t : Fin cfg0.N, (cfg0.win 5).flush t = true ∧ i ∈ ((cfg0.win 5).blk t).view.set := by
  have h0 : (i 0).val < 64 := (i 0).isLt
  have h1 : (i 1).val < 256 := (i 1).isLt
  have h2 : (i 2).val < 1 := (i 2).isLt
  refine ⟨pt (i 0), flush0_5 _, ?_⟩
  obtain ⟨-, -, -, -, -, ⟨e0, e1, e2⟩, -⟩ := blockAt (pt (i 0))
  have ev : (pt (i 0)).val = (i 0).val := rfl
  rw [mem_blk5]
  intro a
  match a with
  | ⟨0, _⟩ => show win0_5.index (pt (i 0)) (0 : Fin 3) * 1 ≤ (i 0).val ∧ (i 0).val < win0_5.index (pt (i 0)) (0 : Fin 3) * 1 + 1; omega
  | ⟨1, _⟩ => show win0_5.index (pt (i 0)) (1 : Fin 3) * 256 ≤ (i 1).val ∧ (i 1).val < win0_5.index (pt (i 0)) (1 : Fin 3) * 256 + 256; omega
  | ⟨2, _⟩ => show win0_5.index (pt (i 0)) (2 : Fin 3) * 1 ≤ (i 2).val ∧ (i 2).val < win0_5.index (pt (i 0)) (2 : Fin 3) * 1 + 1; omega

include hS hafter in

theorem array5_of : (dat.arrAt 5 cfg0.N : S64x256x1.Idx → EReal) = arrSum V c :=
  dat.arrAt_eq_of_cover 5 (arrSum V c) (fun t _ => flushed5_eq V hS c dat hafter t) cover5

end Window5

section Window6

variable (hQ : ∀ (x0 : Vec Ideal S1x9x9x1024 .f32) (x1 : Vec Ideal S4x1024x512 .f32) (x2 : Vec Ideal S4x4x256x512 .f32) (x3 : Vec Ideal S4x64x256 .f32) (o : Fin 256),
      blockSsq x0 x1 x2 x3 (ix3 0 o 0) = Cert.Spec.coreSsq (fun r s k => x0 (ix4 0 r s k)) (fun t k i => x1 (ix3 t k i)) (fun ph t o i => x2 (ix4 ph t o i)) (fun ph col l => x3 (ix3 ph col l)) o)
variable (c : Dev nD) (dat : Dat τ (Elt Ideal) Unit ℕ (UR sig nD τ) ℕ cfg0 c)
variable (hafter : ∀ t, dat.after 6 t = blockSsq (iblk0 V c 0 t) (iblk0 V c 1 t) (iblk0 V c 2 t) (iblk0 V c 3 t))

include hQ hafter in

theorem flushed6_eq (t : Fin cfg0.N) :
    dat.flushed 6 t = ((cfg0.win 6).blk t).view.read (Elt Ideal) (arrSsq V c) := by
  obtain ⟨-, -, -, -, -, -, ⟨e0, e1, e2⟩⟩ := blockAt t
  show (cfg0.win 6).cut (grid0.coords t) (dat.after 6 t) = _
  rw [hafter t]
  funext j
  rw [View.read_apply]
  show blockSsq (iblk0 V c 0 t) (iblk0 V c 1 t) (iblk0 V c 2 t) (iblk0 V c 3 t) j = arrSsq V c (((cfg0.win 6).blk t).view.emb j)
  have hj0 : (j 0).val < 1 := (j 0).isLt
  have a0 : (((cfg0.win 6).blk t).view.emb j : S64x256x1.Idx) 0 = img t :=
    Fin.ext (by show win0_6.index t (0 : Fin 3) * 1 + 1 * (j 0).val = t.val; omega)
  have a1 : (((cfg0.win 6).blk t).view.emb j : S64x256x1.Idx) 1 = j 1 :=
    Fin.ext (by show win0_6.index t (1 : Fin 3) * 256 + 1 * (j 1).val = (j 1).val; omega)
  exact (blockSsq_read _ _ _ _ (xs V c (img t)) _ _ _ hQ (imageBlock_apply V c t) (downBlock_eq V c t) (upBlock_eq V c t)
    (placeBlock_eq V c t) j (j 1) rfl).trans (arrSsq_at V c _ _ _ a0 a1).symm

theorem mem_blk6 (t : Fin cfg0.N) (i : S64x256x1.Idx) :
    i ∈ ((cfg0.win 6).blk t).view.set ↔ ∀ a : Fin 3, win0_6.index t a * S1x256x1.size a ≤ (i a).val ∧ (i a).val < win0_6.index t a * S1x256x1.size a + S1x256x1.size a := by
  show i ∈ ((View.whole main_v165_2).slice (win0_6.rect t)).set ↔ _
  rw [View.set_slice_whole, Rect.mem_set_unit]
  exact Iff.rfl

theorem cover6 (i : S64x256x1.Idx) : ∃ t : Fin cfg0.N, (cfg0.win 6).flush t = true ∧ i ∈ ((cfg0.win 6).blk t).view.set := by
  have h0 : (i 0).val < 64 := (i 0).isLt
  have h1 : (i 1).val < 256 := (i 1).isLt
  have h2 : (i 2).val < 1 := (i 2).isLt
  refine ⟨pt (i 0), flush0_6 _, ?_⟩
  obtain ⟨-, -, -, -, -, -, ⟨e0, e1, e2⟩⟩ := blockAt (pt (i 0))
  have ev : (pt (i 0)).val = (i 0).val := rfl
  rw [mem_blk6]
  intro a
  match a with
  | ⟨0, _⟩ => show win0_6.index (pt (i 0)) (0 : Fin 3) * 1 ≤ (i 0).val ∧ (i 0).val < win0_6.index (pt (i 0)) (0 : Fin 3) * 1 + 1; omega
  | ⟨1, _⟩ => show win0_6.index (pt (i 0)) (1 : Fin 3) * 256 ≤ (i 1).val ∧ (i 1).val < win0_6.index (pt (i 0)) (1 : Fin 3) * 256 + 256; omega
  | ⟨2, _⟩ => show win0_6.index (pt (i 0)) (2 : Fin 3) * 1 ≤ (i 2).val ∧ (i 2).val < win0_6.index (pt (i 0)) (2 : Fin 3) * 1 + 1; omega

include hQ hafter in

theorem array6_of : (dat.arrAt 6 cfg0.N : S64x256x1.Idx → EReal) = arrSsq V c :=
  dat.arrAt_eq_of_cover 6 (arrSsq V c) (fun t _ => flushed6_eq V hQ c dat hafter t) cover6

end Window6

section AtImage

variable (c : Dev nD) (dat : Dat τ (Elt Ideal) Unit ℕ (UR sig nD τ) ℕ cfg0 c)

theorem region0_z_of (hZ : ∀ (x0 : Vec Ideal S1x9x9x1024 .f32) (x1 : Vec Ideal S4x1024x512 .f32) (x2 : Vec Ideal S4x4x256x512 .f32) (x3 : Vec Ideal S4x64x256 .f32) (o l : Fin 256),
      blockZ x0 x1 x2 x3 (ix3 0 o l) = Cert.Spec.coreZ (fun r s k => x0 (ix4 0 r s k)) (fun t k i => x1 (ix3 t k i)) (fun ph t o i => x2 (ix4 ph t o i)) (fun ph col l => x3 (ix3 ph col l)) o l)
    (hafter : ∀ t, dat.after 4 t = blockZ (iblk0 V c 0 t) (iblk0 V c 1 t) (iblk0 V c 2 t) (iblk0 V c 3 t)) (n : Fin 64) (o l : Fin 256) :
    (dat.arrAt 4 cfg0.N : S64x256x256.Idx → EReal) (ix3 n o l) = Cert.Spec.coreZ (xs V c n) (wd V c) (wu V c) (pm V c) o l := by
  rw [array4_of V hZ c dat hafter]; rfl

theorem region0_sum_of (hS : ∀ (x0 : Vec Ideal S1x9x9x1024 .f32) (x1 : Vec Ideal S4x1024x512 .f32) (x2 : Vec Ideal S4x4x256x512 .f32) (x3 : Vec Ideal S4x64x256 .f32) (o : Fin 256),
      blockSum x0 x1 x2 x3 (ix3 0 o 0) = Cert.Spec.coreSum (fun r s k => x0 (ix4 0 r s k)) (fun t k i => x1 (ix3 t k i)) (fun ph t o i => x2 (ix4 ph t o i)) (fun ph col l => x3 (ix3 ph col l)) o)
    (hafter : ∀ t, dat.after 5 t = blockSum (iblk0 V c 0 t) (iblk0 V c 1 t) (iblk0 V c 2 t) (iblk0 V c 3 t)) (n : Fin 64) (o : Fin 256) :
    (dat.arrAt 5 cfg0.N : S64x256x1.Idx → EReal) (ix3 n o 0) = Cert.Spec.coreSum (xs V c n) (wd V c) (wu V c) (pm V c) o := by
  rw [array5_of V hS c dat hafter]; rfl

theorem region0_ssq_of (hQ : ∀ (x0 : Vec Ideal S1x9x9x1024 .f32) (x1 : Vec Ideal S4x1024x512 .f32) (x2 : Vec Ideal S4x4x256x512 .f32) (x3 : Vec Ideal S4x64x256 .f32) (o : Fin 256),
      blockSsq x0 x1 x2 x3 (ix3 0 o 0) = Cert.Spec.coreSsq (fun r s k => x0 (ix4 0 r s k)) (fun t k i => x1 (ix3 t k i)) (fun ph t o i => x2 (ix4 ph t o i)) (fun ph col l => x3 (ix3 ph col l)) o)
    (hafter : ∀ t, dat.after 6 t = blockSsq (iblk0 V c 0 t) (iblk0 V c 1 t) (iblk0 V c 2 t) (iblk0 V c 3 t)) (n : Fin 64) (o : Fin 256) :
    (dat.arrAt 6 cfg0.N : S64x256x1.Idx → EReal) (ix3 n o 0) = Cert.Spec.coreSsq (xs V c n) (wd V c) (wu V c) (pm V c) o := by
  rw [array6_of V hQ c dat hafter]; rfl

end AtImage

end Cert.Val.Ref

end
-- ==== Proof.Val.RefArrRun.lean ====
import proofs.«125054_g2000703033488327_pallasbulk_1155_2_alg».proof.Proof.RI.Run0
import proofs.«125054_g2000703033488327_pallasbulk_1155_2_alg».proof.Proof.Val.RefBlock
import Idealize.ShloMosaic.Lib.Pipeline.Value
import Idealize.ShloMosaic.Lib.Tactic

set_option maxRecDepth 16384

noncomputable section

namespace Cert.Val.Ref

open Idealize.ShloMosaic Idealize.ShloMosaic.TcCoe Idealize.ShloMosaic.Tactic
open Idealize.SL Idealize.SL.Sem
open Cert.ReferenceIdeal Cert.ReferenceIdeal.Gen Cert.ReferenceIdeal.Hand

variable {F : FTy → Type} [FloatOps F]

theorem pieces4 (c : Dev nD) (i : grid0.Coords) (arg1 : Memref sig .tc .vmem S1x9x9x1024 .f32) (harg1 : arg1.IsWhole) (arg2 : Memref sig .tc .vmem S4x1024x512 .f32) (harg2 : arg2.IsWhole) (arg3 : Memref sig .tc .vmem S4x4x256x512 .f32) (harg3 : arg3.IsWhole) (arg4 : Memref sig .tc .vmem S4x64x256 .f32) (harg4 : arg4.IsWhole) (arg5 : Memref sig .tc .vmem S1x256x256 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S10x10x512 .f32) (harg8 : arg8.IsWhole)
    (x0 : Vec F S1x9x9x1024 .f32) (x1 : Vec F S4x1024x512 .f32) (x2 : Vec F S4x4x256x512 .f32) (x3 : Vec F S4x64x256 .f32) :
    (kernelRun0 c i arg1 harg1 arg2 harg2 arg3 harg3 arg4 harg4 arg5 harg5 arg6 harg6 arg7 harg7 arg8 harg8 x0 x1 x2 x3).1 = [⟨rOz, k0_pay2 (win21 x0 x1) (win22 x0 x1) (acc130 x0 x1 x2 x3) (acc137 x0 x1 x2) (View.ld x2 rU32) (View.ld x2 rU33) (View.ld x3 rP3)⟩] := by
  unfold kernelRun0
  dsimp only
  sl_unfold_words
  simp only [View.readAt_eq_ld, harg1.read_unread, harg2.read_unread, harg3.read_unread, harg4.read_unread, View.readCov_eq_canon']
  rfl

theorem pieces5 (c : Dev nD) (i : grid0.Coords) (arg1 : Memref sig .tc .vmem S1x9x9x1024 .f32) (harg1 : arg1.IsWhole) (arg2 : Memref sig .tc .vmem S4x1024x512 .f32) (harg2 : arg2.IsWhole) (arg3 : Memref sig .tc .vmem S4x4x256x512 .f32) (harg3 : arg3.IsWhole) (arg4 : Memref sig .tc .vmem S4x64x256 .f32) (harg4 : arg4.IsWhole) (arg5 : Memref sig .tc .vmem S1x256x256 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S10x10x512 .f32) (harg8 : arg8.IsWhole)
    (x0 : Vec F S1x9x9x1024 .f32) (x1 : Vec F S4x1024x512 .f32) (x2 : Vec F S4x4x256x512 .f32) (x3 : Vec F S4x64x256 .f32) :
    (kernelRun0 c i arg1 harg1 arg2 harg2 arg3 harg3 arg4 harg4 arg5 harg5 arg6 harg6 arg7 harg7 arg8 harg8 x0 x1 x2 x3).2.1 = [⟨rOs, k0_pay3 (win21 x0 x1) (win22 x0 x1) (acc130 x0 x1 x2 x3) (acc137 x0 x1 x2) (View.ld x2 rU32) (View.ld x2 rU33) (View.ld x3 rP3)⟩] := by
  unfold kernelRun0
  dsimp only
  sl_unfold_words
  simp only [View.readAt_eq_ld, harg1.read_unread, harg2.read_unread, harg3.read_unread, harg4.read_unread, View.readCov_eq_canon']
  rfl

theorem pieces6 (c : Dev nD) (i : grid0.Coords) (arg1 : Memref sig .tc .vmem S1x9x9x1024 .f32) (harg1 : arg1.IsWhole) (arg2 : Memref sig .tc .vmem S4x1024x512 .f32) (harg2 : arg2.IsWhole) (arg3 : Memref sig .tc .vmem S4x4x256x512 .f32) (harg3 : arg3.IsWhole) (arg4 : Memref sig .tc .vmem S4x64x256 .f32) (harg4 : arg4.IsWhole) (arg5 : Memref sig .tc .vmem S1x256x256 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S10x10x512 .f32) (harg8 : arg8.IsWhole)
    (x0 : Vec F S1x9x9x1024 .f32) (x1 : Vec F S4x1024x512 .f32) (x2 : Vec F S4x4x256x512 .f32) (x3 : Vec F S4x64x256 .f32) :
    (kernelRun0 c i arg1 harg1 arg2 harg2 arg3 harg3 arg4 harg4 arg5 harg5 arg6 harg6 arg7 harg7 arg8 harg8 x0 x1 x2 x3).2.2.1 = [⟨rOs, k0_pay4 (win21 x0 x1) (win22 x0 x1) (acc130 x0 x1 x2 x3) (acc137 x0 x1 x2) (View.ld x2 rU32) (View.ld x2 rU33) (View.ld x3 rP3)⟩] := by
  unfold kernelRun0
  dsimp only
  sl_unfold_words
  simp only [View.readAt_eq_ld, harg1.read_unread, harg2.read_unread, harg3.read_unread, harg4.read_unread, View.readCov_eq_canon']
  rfl

end Cert.Val.Ref

end
-- ==== Proof.Val.RefBlockMathA.lean ====
import proofs.«125054_g2000703033488327_pallasbulk_1155_2_alg».proof.Proof.Val.RefBlock
import proofs.«125054_g2000703033488327_pallasbulk_1155_2_alg».proof.Proof.Val.Spec
import proofs.«125054_g2000703033488327_pallasbulk_1155_2_alg».proof.Proof.LibMatmul
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Val.Ref

open Cert.ReferenceIdeal Cert.ReferenceIdeal.Gen Idealize.ShloMosaic Idealize.ShloMosaic.ValueIdx

theorem ld_unit_apply {S : Shape} {Val : EltTy → Type} {e : EltTy} (X : S.Idx → Val e) (off size : Fin S.rank → Nat)
    (inb : ∀ a, off a + size a ≤ S.size a) (j : (Rect.unit off size inb).shape.Idx) (k : S.Idx)
    (hk : ∀ a, (k a).val = off a + (j a).val) : View.ld X (Rect.unit off size inb) j = X k := by
  show X ((Rect.unit off size inb).idx j) = X k
  refine congrArg X (funext fun a => Fin.ext ?_)
  rw [hk a]
  show off a + 1 * (j a).val = off a + (j a).val
  rw [Nat.one_mul]

theorem act_apply (v : Vec Ideal S1x8x8x1024 .f32) (p : Fin 64) (k : Fin 1024) :
    k0_pay6 v (ix2 p k)
      = Cert.Spec.lrelu (v (ix4 0 ⟨p.val / 8, by have := p.isLt; omega⟩ ⟨p.val % 8, Nat.mod_lt _ (by decide)⟩ k)) := by
  unfold k0_pay6
  refine (shapeCast_apply _ _ (ix2 p k) (ix3 ⟨p.val / 8, by have := p.isLt; omega⟩ ⟨p.val % 8, Nat.mod_lt _ (by decide)⟩ k) ?_).trans ?_
  · rw [Shape.rowMajor_val_three, Shape.rowMajor_val_two]
    show (p.val / 8 * 8 + p.val % 8) * 1024 + k.val = p.val * 1024 + k.val
    have := Nat.div_add_mod p.val 8
    omega
  · rw [select_apply, cmpf_apply, mulf_apply, broadcast_apply, broadcast_apply, shapeCast_1abc_abc_apply]
    unfold Cert.Spec.lrelu Cert.Spec.slope
    have hz : (FloatOps.ofBits (F := Ideal) .f32 0x00000000#32 : EReal) = 0 := Ideal.ofBits_zero_f32
    rw [← hz]

theorem wdown_apply (w : Vec Ideal S1x1024x512 .f32) (k : Fin 1024) (i : Fin 512) :
    shapeCast S1024x512 w shapeCasts_S1x1024x512_S1024x512 (ix2 k i) = w (ix3 0 k i) :=
  shapeCast_1ab_ab_apply w _ k i

theorem wplace_apply (w : Vec Ideal S1x64x256 .f32) (col : Fin 64) (l : Fin 256) :
    shapeCast S64x256 w shapeCasts_S1x64x256_S64x256 (ix2 col l) = w (ix3 0 col l) :=
  shapeCast_1ab_ab_apply w _ col l

theorem wup_apply (w : Vec Ideal S1x1x256x512 .f32) (o : Fin 256) (i : Fin 512) :
    shapeCast S256x512 w shapeCasts_S1x1x256x512_S256x512 (ix2 o i) = w (ix4 0 0 o i) := by
  refine shapeCast_apply _ _ (ix2 o i) (ix4 0 0 o i) ?_
  rw [Shape.rowMajor_val_four, Shape.rowMajor_val_two]
  show ((0 * 1 + 0) * 256 + o.val) * 512 + i.val = o.val * 512 + i.val
  omega

theorem flat_apply (v : Vec Ideal S8x8x512 .f32) (col : Fin 64) (i : Fin 512) :
    shapeCast S64x512 v shapeCasts_S8x8x512_S64x512 (ix2 col i)
      = v (ix3 ⟨col.val / 8, by have := col.isLt; omega⟩ ⟨col.val % 8, Nat.mod_lt _ (by decide)⟩ i) := by
  refine shapeCast_apply _ _ (ix2 col i) (ix3 ⟨col.val / 8, by have := col.isLt; omega⟩ ⟨col.val % 8, Nat.mod_lt _ (by decide)⟩ i) ?_
  rw [Shape.rowMajor_val_three, Shape.rowMajor_val_two]
  show (col.val / 8 * 8 + col.val % 8) * 512 + i.val = col.val * 512 + i.val
  have := Nat.div_add_mod col.val 8
  omega

theorem unflat_apply (v : FVec Ideal S64x512 .f32) (a b : Fin 8) (i : Fin 512) :
    shapeCast S8x8x512 v shapeCasts_S64x512_S8x8x512 (ix3 a b i)
      = v (ix2 ⟨a.val * 8 + b.val, by have := a.isLt; have := b.isLt; omega⟩ i) := by
  refine shapeCast_apply _ _ (ix3 a b i) (ix2 ⟨a.val * 8 + b.val, by have := a.isLt; have := b.isLt; omega⟩ i) ?_
  rw [Shape.rowMajor_val_three, Shape.rowMajor_val_two]
  rfl

theorem mmDown_apply (A : FVec Ideal S64x1024 .f32) (B : FVec Ideal S1024x512 .f32) (p : Fin 64) (i : Fin 512) :
    matmul dot_S64x1024_S1024x512_S64x512_1_0_0_1_n_n none A B (constant (F := Ideal) S64x512 .f32 0x00000000#32) (ix2 p i)
      = ∑ k : Fin 1024, A (ix2 p k) * B (ix2 k i) :=
  mm_nn_apply dot_S64x1024_S1024x512_S64x512_1_0_0_1_n_n_wf none A B p i

theorem mmUp_apply (A : FVec Ideal S256x512 .f32) (B : FVec Ideal S64x512 .f32) (o : Fin 256) (col : Fin 64) :
    matmul dot_S256x512_S64x512_S256x64_1_1_0_0_n_n none A B (constant (F := Ideal) S256x64 .f32 0x00000000#32) (ix2 o col)
      = ∑ i : Fin 512, A (ix2 o i) * B (ix2 col i) :=
  mm_nt_apply dot_S256x512_S64x512_S256x64_1_1_0_0_n_n_wf none A B o col

theorem mmPlace_apply (A : FVec Ideal S256x64 .f32) (B : FVec Ideal S64x256 .f32) (o l : Fin 256) :
    matmul dot_S256x64_S64x256_S256x256_1_0_0_1_n_n none A B (constant (F := Ideal) S256x256 .f32 0x00000000#32) (ix2 o l)
      = ∑ col : Fin 64, A (ix2 o col) * B (ix2 col l) :=
  mm_nn_apply dot_S256x64_S64x256_S256x256_1_0_0_1_n_n_wf none A B o l

end Cert.Val.Ref

end
-- ==== Proof.Val.RefBlockMathB.lean ====
import proofs.«125054_g2000703033488327_pallasbulk_1155_2_alg».proof.Proof.Val.RefBlockMathA

noncomputable section

open scoped BigOperators

namespace Cert.Val.Ref

open Cert.ReferenceIdeal Cert.ReferenceIdeal.Gen Idealize.ShloMosaic Idealize.ShloMosaic.ValueIdx

abbrev xsOf (x0 : Vec Ideal S1x9x9x1024 .f32) : Fin 9 → Fin 9 → Fin 1024 → EReal := fun r s k => x0 (ix4 0 r s k)
abbrev wdOf (x1 : Vec Ideal S4x1024x512 .f32) : Fin 4 → Fin 1024 → Fin 512 → EReal := fun t k i => x1 (ix3 t k i)

def tap (X : FVec Ideal S1x8x8x1024 .f32) (W : FVec Ideal S1x1024x512 .f32) : FVec Ideal S64x512 .f32 :=
  matmul dot_S64x1024_S1024x512_S64x512_1_0_0_1_n_n none (k0_pay6 X) (shapeCast S1024x512 W shapeCasts_S1x1024x512_S1024x512)
    (constant (F := Ideal) S64x512 .f32 0x00000000#32)

theorem tap_apply (X : FVec Ideal S1x8x8x1024 .f32) (W : FVec Ideal S1x1024x512 .f32) (p : Fin 64) (i : Fin 512) :
    tap X W (ix2 p i)
      = ∑ k : Fin 1024, Cert.Spec.lrelu (X (ix4 0 ⟨p.val / 8, by have := p.isLt; omega⟩ ⟨p.val % 8, Nat.mod_lt _ (by decide)⟩ k))
          * W (ix3 0 k i) := by
  unfold tap
  rw [mmDown_apply]
  exact Finset.sum_congr rfl fun k _ => by rw [act_apply, wdown_apply]

theorem tapSum_eq (x0 : Vec Ideal S1x9x9x1024 .f32) (x1 : Vec Ideal S4x1024x512 .f32) (dy dx : Nat) (t : Fin 4)
    (inbX : ∀ a, (![0, dy, dx, 0] : Fin 4 → Nat) a + S1x8x8x1024.size a ≤ S1x9x9x1024.size a)
    (inbW : ∀ a, (![t.val, 0, 0] : Fin 3 → Nat) a + S1x1024x512.size a ≤ S4x1024x512.size a)
    (hdy : dy = t.val / 2) (hdx : dx = t.val % 2) (a b : Fin 8) (i : Fin 512) :
    tap (View.ld x0 (Rect.unit (s := S1x9x9x1024) ![0, dy, dx, 0] S1x8x8x1024.size inbX))
        (View.ld x1 (Rect.unit (s := S4x1024x512) ![t.val, 0, 0] S1x1024x512.size inbW))
        (ix2 ⟨a.val * 8 + b.val, by have := a.isLt; have := b.isLt; omega⟩ i)
      = ∑ k : Fin 1024, Cert.Spec.lrelu (xsOf x0 ⟨a.val + t.val / 2, by have := a.isLt; have := t.isLt; omega⟩
            ⟨b.val + t.val % 2, by have := b.isLt; have := t.isLt; omega⟩ k) * wdOf x1 t k i := by
  rw [tap_apply]
  refine Finset.sum_congr rfl fun k _ => ?_
  have hX := ld_unit_apply x0 (![0, dy, dx, 0] : Fin 4 → Nat) S1x8x8x1024.size inbX
    (ix4 0 ⟨(a.val * 8 + b.val) / 8, by have := a.isLt; have := b.isLt; omega⟩ ⟨(a.val * 8 + b.val) % 8, Nat.mod_lt _ (by decide)⟩ k)
    (ix4 0 ⟨a.val + t.val / 2, by have := a.isLt; have := t.isLt; omega⟩ ⟨b.val + t.val % 2, by have := b.isLt; have := t.isLt; omega⟩ k)
    (fun ax => match ax with
      | ⟨0, _⟩ => rfl
      | ⟨1, _⟩ => by
        show a.val + t.val / 2 = dy + (a.val * 8 + b.val) / 8
        have := b.isLt; omega
      | ⟨2, _⟩ => by
        show b.val + t.val % 2 = dx + (a.val * 8 + b.val) % 8
        have := b.isLt; omega
      | ⟨3, _⟩ => by
        show k.val = 0 + k.val
        omega)
  have hW := ld_unit_apply x1 (![t.val, 0, 0] : Fin 3 → Nat) S1x1024x512.size inbW (ix3 0 k i) (ix3 t k i)
    (fun ax => match ax with
      | ⟨0, _⟩ => rfl
      | ⟨1, _⟩ => by
        show k.val = 0 + k.val
        omega
      | ⟨2, _⟩ => by
        show i.val = 0 + i.val
        omega)
  rw [hX, hW]

theorem convStore_eq (x0 : Vec Ideal S1x9x9x1024 .f32) (x1 : Vec Ideal S4x1024x512 .f32) :
    convStore x0 x1
      = shapeCast S8x8x512 (shapeCast S8x8x512
          (maximumf (addf (addf (addf (tap (View.ld x0 rX00) (View.ld x1 rD0)) (tap (View.ld x0 rX01) (View.ld x1 rD1)))
              (tap (View.ld x0 rX10) (View.ld x1 rD2))) (tap (View.ld x0 rX11) (View.ld x1 rD3)))
            (broadcast S64x512 (Scalar.ofBits (F := Ideal) .f32 0x00000000#32)))
          shapeCasts_S64x512_S8x8x512) shapeCasts_S8x8x512_S8x8x512 := rfl

theorem convStore_apply (x0 : Vec Ideal S1x9x9x1024 .f32) (x1 : Vec Ideal S4x1024x512 .f32) (a b : Fin 8) (i : Fin 512) :
    convStore x0 x1 (ix3 a b i) = Cert.Spec.conv (xsOf x0) (wdOf x1) a b i := by
  rw [convStore_eq, shapeCast_self, unflat_apply, maximumf_apply, addf_apply, addf_apply, addf_apply, broadcast_apply]
  have h0 := tapSum_eq x0 x1 0 0 0 inb_S1x9x9x1024_S1x8x8x1024_0_0_0_0 inb_S4x1024x512_S1x1024x512_0_0_0 rfl rfl a b i
  have h1 := tapSum_eq x0 x1 0 1 1 inb_S1x9x9x1024_S1x8x8x1024_0_0_1_0 inb_S4x1024x512_S1x1024x512_1_0_0 rfl rfl a b i
  have h2 := tapSum_eq x0 x1 1 0 2 inb_S1x9x9x1024_S1x8x8x1024_0_1_0_0 inb_S4x1024x512_S1x1024x512_2_0_0 rfl rfl a b i
  have h3 := tapSum_eq x0 x1 1 1 3 inb_S1x9x9x1024_S1x8x8x1024_0_1_1_0 inb_S4x1024x512_S1x1024x512_3_0_0 rfl rfl a b i
  unfold Cert.Spec.conv
  rw [Fin.sum_univ_four]
  have hz : (Scalar.ofBits (F := Ideal) .f32 0x00000000#32 : EReal) = 0 := Ideal.ofBits_zero_f32
  rw [hz]
  exact congrArg (fun z => max z (0 : EReal)) (congrArg₂ (· + ·) (congrArg₂ (· + ·) (congrArg₂ (· + ·) h0 h1) h2) h3)

theorem zeroFill_apply (y : S10x10x512.Idx) : k0_pay7 (F := Ideal) y = 0 := by
  show shapeCast S10x10x512 (broadcast S10x10x512 (Scalar.ofBits (F := Ideal) .f32 0x00000000#32)) shapeCasts_S10x10x512_S10x10x512 y = 0
  rw [shapeCast_self, broadcast_apply]
  exact Ideal.ofBits_zero_f32

theorem scratch_apply (x0 : Vec Ideal S1x9x9x1024 .f32) (x1 : Vec Ideal S4x1024x512 .f32) (r s : Fin 10) (i : Fin 512) :
    scratch x0 x1 (ix3 r s i) = Cert.Spec.framed (Cert.Spec.conv (xsOf x0) (wdOf x1)) r s i := by
  unfold scratch Cert.Spec.framed
  by_cases h : 1 ≤ r.val ∧ r.val ≤ 8 ∧ 1 ≤ s.val ∧ s.val ≤ 8
  · rw [dif_pos h]
    have he : ix3 r s i = rS11.emb (ix3 (⟨r.val - 1, by omega⟩ : Fin 8) (⟨s.val - 1, by omega⟩ : Fin 8) i) := by
      funext ax; apply Fin.ext
      match ax with
      | ⟨0, _⟩ =>
        show r.val = 1 + 1 * (r.val - 1)
        omega
      | ⟨1, _⟩ =>
        show s.val = 1 + 1 * (s.val - 1)
        omega
      | ⟨2, _⟩ =>
        show i.val = 0 + 1 * i.val
        omega
    rw [he, View.canon_cons_emb (Val := Elt Ideal) (e := .f32) rS11 (convStore x0 x1) [⟨rSall, k0_pay7 (F := Ideal)⟩], convStore_apply]
  · rw [dif_neg h]
    have hm : ix3 r s i ∉ (rS11 : Rect S10x10x512).set := by
      intro hm
      rw [Rect.mem_set_unit] at hm
      have g0 := hm (⟨0, by decide⟩ : Fin 3)
      have g1 := hm (⟨1, by decide⟩ : Fin 3)
      have h0 : 1 ≤ r.val ∧ r.val < 1 + 8 := g0
      have h1 : 1 ≤ s.val ∧ s.val < 1 + 8 := g1
      exact h ⟨h0.1, by omega, h1.1, by omega⟩
    rw [View.canon_cons_of_not_mem (⟨rS11, convStore x0 x1⟩ : View.Piece (Elt Ideal) S10x10x512 .f32) [⟨rSall, k0_pay7 (F := Ideal)⟩] hm]
    have hc : View.canon [(⟨rSall, k0_pay7 (F := Ideal)⟩ : View.Piece (Elt Ideal) S10x10x512 .f32)] = k0_pay7 (F := Ideal) :=
      View.canon_unit_zero (Val := Elt Ideal) (S := S10x10x512) (e := .f32) (off := ![0, 0, 0])
        (funext fun a => match a with | ⟨0, _⟩ => rfl | ⟨1, _⟩ => rfl | ⟨2, _⟩ => rfl) inb_S10x10x512_S10x10x512_0_0_0 (k0_pay7 (F := Ideal))
    exact (congrFun hc (ix3 r s i)).trans (zeroFill_apply _)

theorem window_apply (x0 : Vec Ideal S1x9x9x1024 .f32) (x1 : Vec Ideal S4x1024x512 .f32) (r s : Nat)
    (inb : ∀ a, (![r, s, 0] : Fin 3 → Nat) a + S8x8x512.size a ≤ S10x10x512.size a)
    (col : Fin 64) (i : Fin 512) (R S : Fin 10) (hR : R.val = col.val / 8 + r) (hS : S.val = col.val % 8 + s) :
    shapeCast S64x512 (View.ld (scratch x0 x1) (Rect.unit (s := S10x10x512) ![r, s, 0] S8x8x512.size inb)) shapeCasts_S8x8x512_S64x512 (ix2 col i)
      = Cert.Spec.framed (Cert.Spec.conv (xsOf x0) (wdOf x1)) R S i := by
  rw [flat_apply]
  have hL := ld_unit_apply (scratch x0 x1) (![r, s, 0] : Fin 3 → Nat) S8x8x512.size inb
    (ix3 ⟨col.val / 8, by have := col.isLt; omega⟩ ⟨col.val % 8, Nat.mod_lt _ (by decide)⟩ i) (ix3 R S i)
    (fun ax => match ax with
      | ⟨0, _⟩ => by
        show R.val = r + col.val / 8
        omega
      | ⟨1, _⟩ => by
        show S.val = s + col.val % 8
        omega
      | ⟨2, _⟩ => by
        show i.val = 0 + i.val
        omega)
  rw [hL, scratch_apply]

end Cert.Val.Ref

end
-- ==== Proof.Val.RefBlockMathC.lean ====
import proofs.«125054_g2000703033488327_pallasbulk_1155_2_alg».proof.Proof.Val.RefBlockMathB

noncomputable section

open scoped BigOperators

namespace Cert.Val.Ref

open Cert.ReferenceIdeal Cert.ReferenceIdeal.Gen Idealize.ShloMosaic Idealize.ShloMosaic.ValueIdx

abbrev wuOf (x2 : Vec Ideal S4x4x256x512 .f32) : Fin 4 → Fin 4 → Fin 256 → Fin 512 → EReal := fun ph t o i => x2 (ix4 ph t o i)

abbrev ypOf (x0 : Vec Ideal S1x9x9x1024 .f32) (x1 : Vec Ideal S4x1024x512 .f32) : Fin 10 → Fin 10 → Fin 512 → EReal :=
  Cert.Spec.framed (Cert.Spec.conv (xsOf x0) (wdOf x1))

def upMM (W : FVec Ideal S1x1x256x512 .f32) (S : FVec Ideal S64x512 .f32) : FVec Ideal S256x64 .f32 :=
  matmul dot_S256x512_S64x512_S256x64_1_1_0_0_n_n none (shapeCast S256x512 W shapeCasts_S1x1x256x512_S256x512) S
    (constant (F := Ideal) S256x64 .f32 0x00000000#32)

theorem upMM_apply (W : FVec Ideal S1x1x256x512 .f32) (S : FVec Ideal S64x512 .f32) (o : Fin 256) (col : Fin 64) :
    upMM W S (ix2 o col) = ∑ i : Fin 512, W (ix4 0 0 o i) * S (ix2 col i) := by
  unfold upMM
  rw [mmUp_apply]
  exact Finset.sum_congr rfl fun i _ => by rw [wup_apply]

def tapTerm (x0 : Vec Ideal S1x9x9x1024 .f32) (x1 : Vec Ideal S4x1024x512 .f32) (x2 : Vec Ideal S4x4x256x512 .f32)
    (ph : Fin 4) (o : Fin 256) (col : Fin 64) (t : Fin 4) : EReal :=
  ∑ i : Fin 512, wuOf x2 ph t o i
    * ypOf x0 x1 ⟨col.val / 8 + ph.val / 2 + t.val / 2, by have := col.isLt; have := ph.isLt; have := t.isLt; omega⟩
        ⟨col.val % 8 + ph.val % 2 + t.val % 2, by have := Nat.mod_lt col.val (show 0 < 8 by decide); have := ph.isLt; have := t.isLt; omega⟩ i

theorem upTap_apply (x0 : Vec Ideal S1x9x9x1024 .f32) (x1 : Vec Ideal S4x1024x512 .f32) (x2 : Vec Ideal S4x4x256x512 .f32)
    (ph t : Fin 4) (r s : Nat) (hr : r = ph.val / 2 + t.val / 2) (hs : s = ph.val % 2 + t.val % 2)
    (inbU : ∀ a, (![ph.val, t.val, 0, 0] : Fin 4 → Nat) a + S1x1x256x512.size a ≤ S4x4x256x512.size a)
    (inbS : ∀ a, (![r, s, 0] : Fin 3 → Nat) a + S8x8x512.size a ≤ S10x10x512.size a)
    (o : Fin 256) (col : Fin 64) :
    upMM (View.ld x2 (Rect.unit (s := S4x4x256x512) ![ph.val, t.val, 0, 0] S1x1x256x512.size inbU))
        (shapeCast S64x512 (View.ld (scratch x0 x1) (Rect.unit (s := S10x10x512) ![r, s, 0] S8x8x512.size inbS)) shapeCasts_S8x8x512_S64x512)
        (ix2 o col)
      = tapTerm x0 x1 x2 ph o col t := by
  rw [upMM_apply]
  unfold tapTerm
  refine Finset.sum_congr rfl fun i _ => ?_
  have hU := ld_unit_apply x2 (![ph.val, t.val, 0, 0] : Fin 4 → Nat) S1x1x256x512.size inbU (ix4 0 0 o i) (ix4 ph t o i)
    (fun ax => match ax with
      | ⟨0, _⟩ => rfl
      | ⟨1, _⟩ => rfl
      | ⟨2, _⟩ => by
        show o.val = 0 + o.val
        omega
      | ⟨3, _⟩ => by
        show i.val = 0 + i.val
        omega)
  rw [hU, window_apply x0 x1 r s inbS col i
    ⟨col.val / 8 + ph.val / 2 + t.val / 2, by have := col.isLt; have := ph.isLt; have := t.isLt; omega⟩
    ⟨col.val % 8 + ph.val % 2 + t.val % 2, by have := Nat.mod_lt col.val (show 0 < 8 by decide); have := ph.isLt; have := t.isLt; omega⟩
    (by show col.val / 8 + ph.val / 2 + t.val / 2 = col.val / 8 + r; omega)
    (by show col.val % 8 + ph.val % 2 + t.val % 2 = col.val % 8 + s; omega)]

theorem phase_of_taps (x0 : Vec Ideal S1x9x9x1024 .f32) (x1 : Vec Ideal S4x1024x512 .f32) (x2 : Vec Ideal S4x4x256x512 .f32)
    (ph : Fin 4) (o : Fin 256) (col : Fin 64) :
    tapTerm x0 x1 x2 ph o col 0 + tapTerm x0 x1 x2 ph o col 1 + tapTerm x0 x1 x2 ph o col 2 + tapTerm x0 x1 x2 ph o col 3
      = Cert.Spec.phase (wuOf x2) (ypOf x0 x1) ph o ⟨col.val / 8, by have := col.isLt; omega⟩ ⟨col.val % 8, Nat.mod_lt _ (by decide)⟩ := by
  have e : Cert.Spec.phase (wuOf x2) (ypOf x0 x1) ph o ⟨col.val / 8, by have := col.isLt; omega⟩ ⟨col.val % 8, Nat.mod_lt _ (by decide)⟩
      = ∑ t : Fin 4, tapTerm x0 x1 x2 ph o col t := rfl
  rw [e, Fin.sum_univ_four]

def zph0 (x0 : Vec Ideal S1x9x9x1024 .f32) (x1 : Vec Ideal S4x1024x512 .f32) (x2 : Vec Ideal S4x4x256x512 .f32) : FVec Ideal S256x64 .f32 :=
  addf (addf (addf (upMM (View.ld x2 rU00) (win00 x0 x1)) (upMM (View.ld x2 rU01) (win01 x0 x1)))
    (upMM (View.ld x2 rU02) (k0_pay12 (View.ld (scratch x0 x1) rS10)))) (upMM (View.ld x2 rU03) (win11 x0 x1))
def zph1 (x0 : Vec Ideal S1x9x9x1024 .f32) (x1 : Vec Ideal S4x1024x512 .f32) (x2 : Vec Ideal S4x4x256x512 .f32) : FVec Ideal S256x64 .f32 :=
  addf (addf (addf (upMM (View.ld x2 rU10) (win01 x0 x1)) (upMM (View.ld x2 rU11) (win02 x0 x1)))
    (upMM (View.ld x2 rU12) (win11 x0 x1))) (upMM (View.ld x2 rU13) (win12 x0 x1))
def zph2 (x0 : Vec Ideal S1x9x9x1024 .f32) (x1 : Vec Ideal S4x1024x512 .f32) (x2 : Vec Ideal S4x4x256x512 .f32) : FVec Ideal S256x64 .f32 :=
  addf (addf (addf (upMM (View.ld x2 rU20) (win10 x0 x1)) (upMM (View.ld x2 rU21) (win11 x0 x1)))
    (upMM (View.ld x2 rU22) (win20 x0 x1))) (upMM (View.ld x2 rU23) (win21 x0 x1))
def zph3 (x0 : Vec Ideal S1x9x9x1024 .f32) (x1 : Vec Ideal S4x1024x512 .f32) (x2 : Vec Ideal S4x4x256x512 .f32) : FVec Ideal S256x64 .f32 :=
  addf (addf (addf (upMM (View.ld x2 rU30) (win11 x0 x1)) (upMM (View.ld x2 rU31) (win12 x0 x1)))
    (upMM (View.ld x2 rU32) (win21 x0 x1))) (upMM (View.ld x2 rU33) (win22 x0 x1))

theorem zph0_apply (x0 : Vec Ideal S1x9x9x1024 .f32) (x1 : Vec Ideal S4x1024x512 .f32) (x2 : Vec Ideal S4x4x256x512 .f32)
    (o : Fin 256) (col : Fin 64) :
    zph0 x0 x1 x2 (ix2 o col)
      = Cert.Spec.phase (wuOf x2) (ypOf x0 x1) 0 o ⟨col.val / 8, by have := col.isLt; omega⟩ ⟨col.val % 8, Nat.mod_lt _ (by decide)⟩ := by
  have h0 : upMM (View.ld x2 rU00) (win00 x0 x1) (ix2 o col) = tapTerm x0 x1 x2 0 o col 0 :=
    upTap_apply x0 x1 x2 0 0 0 0 (by decide) (by decide) inb_S4x4x256x512_S1x1x256x512_0_0_0_0 inb_S10x10x512_S8x8x512_0_0_0 o col
  have h1 : upMM (View.ld x2 rU01) (win01 x0 x1) (ix2 o col) = tapTerm x0 x1 x2 0 o col 1 :=
    upTap_apply x0 x1 x2 0 1 0 1 (by decide) (by decide) inb_S4x4x256x512_S1x1x256x512_0_1_0_0 inb_S10x10x512_S8x8x512_0_1_0 o col
  have h2 : upMM (View.ld x2 rU02) (k0_pay12 (View.ld (scratch x0 x1) rS10)) (ix2 o col) = tapTerm x0 x1 x2 0 o col 2 :=
    upTap_apply x0 x1 x2 0 2 1 0 (by decide) (by decide) inb_S4x4x256x512_S1x1x256x512_0_2_0_0 inb_S10x10x512_S8x8x512_1_0_0 o col
  have h3 : upMM (View.ld x2 rU03) (win11 x0 x1) (ix2 o col) = tapTerm x0 x1 x2 0 o col 3 :=
    upTap_apply x0 x1 x2 0 3 1 1 (by decide) (by decide) inb_S4x4x256x512_S1x1x256x512_0_3_0_0 inb_S10x10x512_S8x8x512_1_1_0 o col
  unfold zph0
  rw [addf_apply, addf_apply, addf_apply, h0, h1, h2, h3]
  exact phase_of_taps x0 x1 x2 0 o col

theorem zph1_apply (x0 : Vec Ideal S1x9x9x1024 .f32) (x1 : Vec Ideal S4x1024x512 .f32) (x2 : Vec Ideal S4x4x256x512 .f32)
    (o : Fin 256) (col : Fin 64) :
    zph1 x0 x1 x2 (ix2 o col)
      = Cert.Spec.phase (wuOf x2) (ypOf x0 x1) 1 o ⟨col.val / 8, by have := col.isLt; omega⟩ ⟨col.val % 8, Nat.mod_lt _ (by decide)⟩ := by
  have h0 : upMM (View.ld x2 rU10) (win01 x0 x1) (ix2 o col) = tapTerm x0 x1 x2 1 o col 0 :=
    upTap_apply x0 x1 x2 1 0 0 1 (by decide) (by decide) inb_S4x4x256x512_S1x1x256x512_1_0_0_0 inb_S10x10x512_S8x8x512_0_1_0 o col
  have h1 : upMM (View.ld x2 rU11) (win02 x0 x1) (ix2 o col) = tapTerm x0 x1 x2 1 o col 1 :=
    upTap_apply x0 x1 x2 1 1 0 2 (by decide) (by decide) inb_S4x4x256x512_S1x1x256x512_1_1_0_0 inb_S10x10x512_S8x8x512_0_2_0 o col
  have h2 : upMM (View.ld x2 rU12) (win11 x0 x1) (ix2 o col) = tapTerm x0 x1 x2 1 o col 2 :=
    upTap_apply x0 x1 x2 1 2 1 1 (by decide) (by decide) inb_S4x4x256x512_S1x1x256x512_1_2_0_0 inb_S10x10x512_S8x8x512_1_1_0 o col
  have h3 : upMM (View.ld x2 rU13) (win12 x0 x1) (ix2 o col) = tapTerm x0 x1 x2 1 o col 3 :=
    upTap_apply x0 x1 x2 1 3 1 2 (by decide) (by decide) inb_S4x4x256x512_S1x1x256x512_1_3_0_0 inb_S10x10x512_S8x8x512_1_2_0 o col
  unfold zph1
  rw [addf_apply, addf_apply, addf_apply, h0, h1, h2, h3]
  exact phase_of_taps x0 x1 x2 1 o col

theorem zph2_apply (x0 : Vec Ideal S1x9x9x1024 .f32) (x1 : Vec Ideal S4x1024x512 .f32) (x2 : Vec Ideal S4x4x256x512 .f32)
    (o : Fin 256) (col : Fin 64) :
    zph2 x0 x1 x2 (ix2 o col)
      = Cert.Spec.phase (wuOf x2) (ypOf x0 x1) 2 o ⟨col.val / 8, by have := col.isLt; omega⟩ ⟨col.val % 8, Nat.mod_lt _ (by decide)⟩ := by
  have h0 : upMM (View.ld x2 rU20) (win10 x0 x1) (ix2 o col) = tapTerm x0 x1 x2 2 o col 0 :=
    upTap_apply x0 x1 x2 2 0 1 0 (by decide) (by decide) inb_S4x4x256x512_S1x1x256x512_2_0_0_0 inb_S10x10x512_S8x8x512_1_0_0 o col
  have h1 : upMM (View.ld x2 rU21) (win11 x0 x1) (ix2 o col) = tapTerm x0 x1 x2 2 o col 1 :=
    upTap_apply x0 x1 x2 2 1 1 1 (by decide) (by decide) inb_S4x4x256x512_S1x1x256x512_2_1_0_0 inb_S10x10x512_S8x8x512_1_1_0 o col
  have h2 : upMM (View.ld x2 rU22) (win20 x0 x1) (ix2 o col) = tapTerm x0 x1 x2 2 o col 2 :=
    upTap_apply x0 x1 x2 2 2 2 0 (by decide) (by decide) inb_S4x4x256x512_S1x1x256x512_2_2_0_0 inb_S10x10x512_S8x8x512_2_0_0 o col
  have h3 : upMM (View.ld x2 rU23) (win21 x0 x1) (ix2 o col) = tapTerm x0 x1 x2 2 o col 3 :=
    upTap_apply x0 x1 x2 2 3 2 1 (by decide) (by decide) inb_S4x4x256x512_S1x1x256x512_2_3_0_0 inb_S10x10x512_S8x8x512_2_1_0 o col
  unfold zph2
  rw [addf_apply, addf_apply, addf_apply, h0, h1, h2, h3]
  exact phase_of_taps x0 x1 x2 2 o col

theorem zph3_apply (x0 : Vec Ideal S1x9x9x1024 .f32) (x1 : Vec Ideal S4x1024x512 .f32) (x2 : Vec Ideal S4x4x256x512 .f32)
    (o : Fin 256) (col : Fin 64) :
    zph3 x0 x1 x2 (ix2 o col)
      = Cert.Spec.phase (wuOf x2) (ypOf x0 x1) 3 o ⟨col.val / 8, by have := col.isLt; omega⟩ ⟨col.val % 8, Nat.mod_lt _ (by decide)⟩ := by
  have h0 : upMM (View.ld x2 rU30) (win11 x0 x1) (ix2 o col) = tapTerm x0 x1 x2 3 o col 0 :=
    upTap_apply x0 x1 x2 3 0 1 1 (by decide) (by decide) inb_S4x4x256x512_S1x1x256x512_3_0_0_0 inb_S10x10x512_S8x8x512_1_1_0 o col
  have h1 : upMM (View.ld x2 rU31) (win12 x0 x1) (ix2 o col) = tapTerm x0 x1 x2 3 o col 1 :=
    upTap_apply x0 x1 x2 3 1 1 2 (by decide) (by decide) inb_S4x4x256x512_S1x1x256x512_3_1_0_0 inb_S10x10x512_S8x8x512_1_2_0 o col
  have h2 : upMM (View.ld x2 rU32) (win21 x0 x1) (ix2 o col) = tapTerm x0 x1 x2 3 o col 2 :=
    upTap_apply x0 x1 x2 3 2 2 1 (by decide) (by decide) inb_S4x4x256x512_S1x1x256x512_3_2_0_0 inb_S10x10x512_S8x8x512_2_1_0 o col
  have h3 : upMM (View.ld x2 rU33) (win22 x0 x1) (ix2 o col) = tapTerm x0 x1 x2 3 o col 3 :=
    upTap_apply x0 x1 x2 3 3 2 2 (by decide) (by decide) inb_S4x4x256x512_S1x1x256x512_3_3_0_0 inb_S10x10x512_S8x8x512_2_2_0 o col
  unfold zph3
  rw [addf_apply, addf_apply, addf_apply, h0, h1, h2, h3]
  exact phase_of_taps x0 x1 x2 3 o col

end Cert.Val.Ref

end
-- ==== Proof.Val.RefBlockMathD.lean ====
import proofs.«125054_g2000703033488327_pallasbulk_1155_2_alg».proof.Proof.Val.RefBlockMathC

noncomputable section

open scoped BigOperators

namespace Cert.Val.Ref

open Cert.ReferenceIdeal Cert.ReferenceIdeal.Gen Idealize.ShloMosaic Idealize.ShloMosaic.ValueIdx

abbrev pmOf (x3 : Vec Ideal S4x64x256 .f32) : Fin 4 → Fin 64 → Fin 256 → EReal := fun ph col l => x3 (ix3 ph col l)

def placeMM (Z : FVec Ideal S256x64 .f32) (P : FVec Ideal S1x64x256 .f32) : FVec Ideal S256x256 .f32 :=
  matmul dot_S256x64_S64x256_S256x256_1_0_0_1_n_n none Z (shapeCast S64x256 P shapeCasts_S1x64x256_S64x256)
    (constant (F := Ideal) S256x256 .f32 0x00000000#32)

theorem placeMM_apply (Z : FVec Ideal S256x64 .f32) (P : FVec Ideal S1x64x256 .f32) (o l : Fin 256) :
    placeMM Z P (ix2 o l) = ∑ col : Fin 64, Z (ix2 o col) * P (ix3 0 col l) := by
  unfold placeMM
  rw [mmPlace_apply]
  exact Finset.sum_congr rfl fun col _ => by rw [wplace_apply]

def placedTerm (x0 : Vec Ideal S1x9x9x1024 .f32) (x1 : Vec Ideal S4x1024x512 .f32) (x2 : Vec Ideal S4x4x256x512 .f32)
    (x3 : Vec Ideal S4x64x256 .f32) (o l : Fin 256) (ph : Fin 4) : EReal :=
  ∑ col : Fin 64, Cert.Spec.phase (wuOf x2) (ypOf x0 x1) ph o ⟨col.val / 8, by have := col.isLt; omega⟩ ⟨col.val % 8, Nat.mod_lt _ (by decide)⟩
    * pmOf x3 ph col l

theorem placed_apply (x0 : Vec Ideal S1x9x9x1024 .f32) (x1 : Vec Ideal S4x1024x512 .f32) (x2 : Vec Ideal S4x4x256x512 .f32)
    (x3 : Vec Ideal S4x64x256 .f32) (ph : Fin 4)
    (inbP : ∀ a, (![ph.val, 0, 0] : Fin 3 → Nat) a + S1x64x256.size a ≤ S4x64x256.size a)
    (Z : FVec Ideal S256x64 .f32)
    (hZ : ∀ (o : Fin 256) (col : Fin 64), Z (ix2 o col)
      = Cert.Spec.phase (wuOf x2) (ypOf x0 x1) ph o ⟨col.val / 8, by have := col.isLt; omega⟩ ⟨col.val % 8, Nat.mod_lt _ (by decide)⟩)
    (o l : Fin 256) :
    placeMM Z (View.ld x3 (Rect.unit (s := S4x64x256) ![ph.val, 0, 0] S1x64x256.size inbP)) (ix2 o l)
      = placedTerm x0 x1 x2 x3 o l ph := by
  rw [placeMM_apply]
  unfold placedTerm
  refine Finset.sum_congr rfl fun col _ => ?_
  have hP := ld_unit_apply x3 (![ph.val, 0, 0] : Fin 3 → Nat) S1x64x256.size inbP (ix3 0 col l) (ix3 ph col l)
    (fun ax => match ax with
      | ⟨0, _⟩ => rfl
      | ⟨1, _⟩ => by
        show col.val = 0 + col.val
        omega
      | ⟨2, _⟩ => by
        show l.val = 0 + l.val
        omega)
  rw [hZ, hP]

theorem zc_eq (x0 : Vec Ideal S1x9x9x1024 .f32) (x1 : Vec Ideal S4x1024x512 .f32) (x2 : Vec Ideal S4x4x256x512 .f32)
    (x3 : Vec Ideal S4x64x256 .f32) :
    zc x0 x1 x2 x3
      = addf (addf (addf (placeMM (zph0 x0 x1 x2) (View.ld x3 rP0)) (placeMM (zph1 x0 x1 x2) (View.ld x3 rP1)))
          (placeMM (zph2 x0 x1 x2) (View.ld x3 rP2))) (placeMM (zph3 x0 x1 x2) (View.ld x3 rP3)) := rfl

theorem zc_apply (x0 : Vec Ideal S1x9x9x1024 .f32) (x1 : Vec Ideal S4x1024x512 .f32) (x2 : Vec Ideal S4x4x256x512 .f32)
    (x3 : Vec Ideal S4x64x256 .f32) (o l : Fin 256) :
    zc x0 x1 x2 x3 (ix2 o l) = Cert.Spec.coreZ (xsOf x0) (wdOf x1) (wuOf x2) (pmOf x3) o l := by
  have h0 : placeMM (zph0 x0 x1 x2) (View.ld x3 rP0) (ix2 o l) = placedTerm x0 x1 x2 x3 o l 0 :=
    placed_apply x0 x1 x2 x3 0 inb_S4x64x256_S1x64x256_0_0_0 _ (zph0_apply x0 x1 x2) o l
  have h1 : placeMM (zph1 x0 x1 x2) (View.ld x3 rP1) (ix2 o l) = placedTerm x0 x1 x2 x3 o l 1 :=
    placed_apply x0 x1 x2 x3 1 inb_S4x64x256_S1x64x256_1_0_0 _ (zph1_apply x0 x1 x2) o l
  have h2 : placeMM (zph2 x0 x1 x2) (View.ld x3 rP2) (ix2 o l) = placedTerm x0 x1 x2 x3 o l 2 :=
    placed_apply x0 x1 x2 x3 2 inb_S4x64x256_S1x64x256_2_0_0 _ (zph2_apply x0 x1 x2) o l
  have h3 : placeMM (zph3 x0 x1 x2) (View.ld x3 rP3) (ix2 o l) = placedTerm x0 x1 x2 x3 o l 3 :=
    placed_apply x0 x1 x2 x3 3 inb_S4x64x256_S1x64x256_3_0_0 _ (zph3_apply x0 x1 x2) o l
  have e : Cert.Spec.coreZ (xsOf x0) (wdOf x1) (wuOf x2) (pmOf x3) o l = ∑ ph : Fin 4, placedTerm x0 x1 x2 x3 o l ph := rfl
  rw [zc_eq, addf_apply, addf_apply, addf_apply, h0, h1, h2, h3, e, Fin.sum_univ_four]

theorem rowSum_apply (Z : FVec Ideal S256x256 .f32) (h : S256x256.Reduces [1] S256) (hφ : FKind.Formats .f32)
    (hacc : (0x00000000#32 : BitVec 32) = 0x00000000#32) (o : Fin 256) :
    multiReduction .add [1] S256 Z 0x00000000#32 h hφ hacc (ix1 o) = ∑ l : Fin 256, Z (ix2 o l) :=
  (Ideal.multiReduction_add_single Z 0x00000000#32 h hφ hacc (ix1 o)).trans
    (Finset.sum_congr rfl fun l _ => congrArg Z (funext fun a => Fin.ext (match a with
      | ⟨0, _⟩ => rfl
      | ⟨1, _⟩ => rfl)))

theorem column_apply (R : FVec Ideal S256 .f32) (o : Fin 256) :
    shapeCast S1x256x1 (shapeCast S256x1 R shapeCasts_S256_S256x1) shapeCasts_S256x1_S1x256x1 (ix3 0 o 0) = R (ix1 o) := by
  rw [shapeCast_ab_1ab_apply]
  refine shapeCast_apply _ _ (ix2 o 0) (ix1 o) ?_
  rw [Shape.rowMajor_val_one, Shape.rowMajor_val_two]
  show o.val = o.val * 1 + 0
  omega

theorem blockZ_apply (x0 : Vec Ideal S1x9x9x1024 .f32) (x1 : Vec Ideal S4x1024x512 .f32) (x2 : Vec Ideal S4x4x256x512 .f32)
    (x3 : Vec Ideal S4x64x256 .f32) (o l : Fin 256) :
    blockZ x0 x1 x2 x3 (ix3 0 o l)
      = Cert.Spec.coreZ (fun r s k => x0 (ix4 0 r s k)) (fun t k i => x1 (ix3 t k i)) (fun ph t o i => x2 (ix4 ph t o i))
          (fun ph col l => x3 (ix3 ph col l)) o l := by
  have e : blockZ x0 x1 x2 x3 = shapeCast S1x256x256 (zc x0 x1 x2 x3) shapeCasts_S256x256_S1x256x256 := by
    unfold blockZ
    exact (View.canon_unit_zero (Val := Elt Ideal) (S := S1x256x256) (e := .f32) (off := ![0, 0, 0])
      (funext fun a => match a with | ⟨0, _⟩ => rfl | ⟨1, _⟩ => rfl | ⟨2, _⟩ => rfl) inb_S1x256x256_S1x256x256_0_0_0 _).trans rfl
  rw [e, shapeCast_ab_1ab_apply]
  exact zc_apply x0 x1 x2 x3 o l

theorem blockSum_apply (x0 : Vec Ideal S1x9x9x1024 .f32) (x1 : Vec Ideal S4x1024x512 .f32) (x2 : Vec Ideal S4x4x256x512 .f32)
    (x3 : Vec Ideal S4x64x256 .f32) (o : Fin 256) :
    blockSum x0 x1 x2 x3 (ix3 0 o 0)
      = Cert.Spec.coreSum (fun r s k => x0 (ix4 0 r s k)) (fun t k i => x1 (ix3 t k i)) (fun ph t o i => x2 (ix4 ph t o i))
          (fun ph col l => x3 (ix3 ph col l)) o := by
  have e : blockSum x0 x1 x2 x3
      = shapeCast S1x256x1 (shapeCast S256x1 (multiReduction .add [1] S256 (zc x0 x1 x2 x3) 0x00000000#32 reduces_S256x256_S256 (.inl rfl) rfl)
          shapeCasts_S256_S256x1) shapeCasts_S256x1_S1x256x1 := by
    unfold blockSum
    exact (View.canon_unit_zero (Val := Elt Ideal) (S := S1x256x1) (e := .f32) (off := ![0, 0, 0])
      (funext fun a => match a with | ⟨0, _⟩ => rfl | ⟨1, _⟩ => rfl | ⟨2, _⟩ => rfl) inb_S1x256x1_S1x256x1_0_0_0 _).trans rfl
  rw [e, column_apply]
  refine (rowSum_apply _ _ _ _ o).trans ?_
  unfold Cert.Spec.coreSum
  exact Finset.sum_congr rfl fun l _ => zc_apply x0 x1 x2 x3 o l

theorem blockSsq_apply (x0 : Vec Ideal S1x9x9x1024 .f32) (x1 : Vec Ideal S4x1024x512 .f32) (x2 : Vec Ideal S4x4x256x512 .f32)
    (x3 : Vec Ideal S4x64x256 .f32) (o : Fin 256) :
    blockSsq x0 x1 x2 x3 (ix3 0 o 0)
      = Cert.Spec.coreSsq (fun r s k => x0 (ix4 0 r s k)) (fun t k i => x1 (ix3 t k i)) (fun ph t o i => x2 (ix4 ph t o i))
          (fun ph col l => x3 (ix3 ph col l)) o := by
  have e : blockSsq x0 x1 x2 x3
      = shapeCast S1x256x1 (shapeCast S256x1 (multiReduction .add [1] S256 (mulf (zc x0 x1 x2 x3) (zc x0 x1 x2 x3)) 0x00000000#32
          reduces_S256x256_S256 (.inl rfl) rfl) shapeCasts_S256_S256x1) shapeCasts_S256x1_S1x256x1 := by
    unfold blockSsq
    exact (View.canon_unit_zero (Val := Elt Ideal) (S := S1x256x1) (e := .f32) (off := ![0, 0, 0])
      (funext fun a => match a with | ⟨0, _⟩ => rfl | ⟨1, _⟩ => rfl | ⟨2, _⟩ => rfl) inb_S1x256x1_S1x256x1_0_0_0 _).trans rfl
  rw [e, column_apply]
  refine (rowSum_apply _ _ _ _ o).trans ?_
  unfold Cert.Spec.coreSsq
  exact Finset.sum_congr rfl fun l _ => by rw [mulf_apply, zc_apply]

end Cert.Val.Ref

end
-- ==== Proof.Val.RefArrPieces.lean ====
import proofs.«125054_g2000703033488327_pallasbulk_1155_2_alg».proof.Proof.RI.Halves
import proofs.«125054_g2000703033488327_pallasbulk_1155_2_alg».proof.Proof.Val.RefArr
import proofs.«125054_g2000703033488327_pallasbulk_1155_2_alg».proof.Proof.Val.RefArrRun
import proofs.«125054_g2000703033488327_pallasbulk_1155_2_alg».proof.Proof.Val.RefBlockMathD

set_option maxRecDepth 16384

noncomputable section

namespace Cert.Val.Ref

open Idealize.ShloMosaic Idealize.ShloMosaic.TcCoe Idealize.SL.Sem
open Idealize.ShloMosaic.Pipeline (Dat)
open Idealize.ShloMosaic.ValueIdx
open Cert.ReferenceIdeal Cert.ReferenceIdeal.Gen Cert.ReferenceIdeal.Hand

section Buffers

variable {F : FTy → Type} [FloatOps F]
variable (c : Dev nD) (t : Fin cfg0.N)
variable (x0 : Vec F S1x9x9x1024 .f32) (x1 : Vec F S4x1024x512 .f32) (x2 : Vec F S4x4x256x512 .f32) (x3 : Vec F S4x64x256 .f32)

theorem out0_4_eq : out0_4 c t x0 x1 x2 x3 = blockZ x0 x1 x2 x3 := by
  unfold out0_4 blockZ
  rw [View.read_writes_junk_eq_canon, pieces4]

theorem out0_5_eq : out0_5 c t x0 x1 x2 x3 = blockSum x0 x1 x2 x3 := by
  unfold out0_5 blockSum
  rw [View.read_writes_junk_eq_canon, pieces5]

theorem out0_6_eq : out0_6 c t x0 x1 x2 x3 = blockSsq x0 x1 x2 x3 := by
  unfold out0_6 blockSsq
  rw [View.read_writes_junk_eq_canon, pieces6]

end Buffers

section Arrays

variable (V : (c : Dev nD) → (b : Ref sig .tc) → Buf (Elt Ideal) ((c : Thread nD τ).loc b))

theorem region0_z (c : Dev nD) (n : Fin 64) (o l : Fin 256) :
    ((dat0 V c).arrAt 4 cfg0.N : S64x256x256.Idx → EReal) (ix3 n o l) = Cert.Spec.coreZ (xs V c n) (wd V c) (wu V c) (pm V c) o l :=
  region0_z_of V c (dat0 V c) blockZ_apply (fun t => (after0_4 V c t).trans (out0_4_eq c t _ _ _ _)) n o l

theorem region0_sum (c : Dev nD) (n : Fin 64) (o : Fin 256) :
    ((dat0 V c).arrAt 5 cfg0.N : S64x256x1.Idx → EReal) (ix3 n o 0) = Cert.Spec.coreSum (xs V c n) (wd V c) (wu V c) (pm V c) o :=
  region0_sum_of V c (dat0 V c) blockSum_apply (fun t => (after0_5 V c t).trans (out0_5_eq c t _ _ _ _)) n o

theorem region0_ssq (c : Dev nD) (n : Fin 64) (o : Fin 256) :
    ((dat0 V c).arrAt 6 cfg0.N : S64x256x1.Idx → EReal) (ix3 n o 0) = Cert.Spec.coreSsq (xs V c n) (wd V c) (wu V c) (pm V c) o :=
  region0_ssq_of V c (dat0 V c) blockSsq_apply (fun t => (after0_6 V c t).trans (out0_6_eq c t _ _ _ _)) n o

end Arrays

end Cert.Val.Ref

end
-- ==== Proof.Val.PrefixDefs.lean ====
import proofs.«125054_g2000703033488327_pallasbulk_1155_2_alg».proof.Proof.Gen.KernelIdeal.Launch
import proofs.«125054_g2000703033488327_pallasbulk_1155_2_alg».proof.Proof.Gen.ReferenceIdeal.Launch
import Idealize.ShloMosaic.Lib.StableHlo.Run
import Idealize.ShloMosaic.Lib.ValueIdx
import Idealize.ShloMosaic.Lib.Pipeline.Value
import Idealize.ShloMosaic.PureOps.Ideal

set_option maxRecDepth 16384

noncomputable section

namespace Cert.Val.Prefix

open Idealize.ShloMosaic Idealize.ShloMosaic.TcCoe
open Idealize.ShloMosaic.ValueIdx

abbrev preK (m : (ℓ : Loc Cert.KernelIdeal.nD Cert.KernelIdeal.τ Cert.KernelIdeal.sig) → Buf (Elt Ideal) ℓ)
    (c : Dev Cert.KernelIdeal.nD) : Valuation Cert.KernelIdeal.τ Cert.KernelIdeal.sig (Elt Ideal) :=
  StableHlo.after Cert.KernelIdeal.Gen.main_part2_ops0 (StableHlo.after Cert.KernelIdeal.Gen.main_part1_ops0
    (StableHlo.after Cert.KernelIdeal.Gen.main_part0_ops2 (StableHlo.after Cert.KernelIdeal.Gen.main_part0_ops1
      (StableHlo.after Cert.KernelIdeal.Gen.main_part0_ops0 (fun b => m (c, b))))))

abbrev preR (m' : (ℓ : Loc Cert.ReferenceIdeal.nD Cert.ReferenceIdeal.τ Cert.ReferenceIdeal.sig) → Buf (Elt Ideal) ℓ)
    (c : Dev Cert.ReferenceIdeal.nD) : Valuation Cert.ReferenceIdeal.τ Cert.ReferenceIdeal.sig (Elt Ideal) :=
  StableHlo.after Cert.ReferenceIdeal.Gen.main_part3_ops0 (StableHlo.after Cert.ReferenceIdeal.Gen.main_part2_ops0
    (StableHlo.after Cert.ReferenceIdeal.Gen.main_part1_ops0 (StableHlo.after Cert.ReferenceIdeal.Gen.main_part0_ops2
      (StableHlo.after Cert.ReferenceIdeal.Gen.main_part0_ops1 (StableHlo.after Cert.ReferenceIdeal.Gen.main_part0_ops0
        (fun b => m' (c, b)))))))

macro "no_write" : tactic =>
  `(tactic| (refine List.forall_iff_forall_mem.mp ?_
             simp only [List.Forall, StableHlo.nullary_writes, StableHlo.unary_writes, StableHlo.binary_writes,
               StableHlo.reshape_writes, StableHlo.nary_writes, Finset.mem_singleton]
             repeat' apply And.intro
             all_goals exact StableHlo.devRef_ne_of_ne (by decide)))

section Generic
variable {α : Type}

theorem shapeCast_eq_shapeCast {s t t' : Shape} (x : s.Idx → α) (h : s.ShapeCasts t) (h' : s.ShapeCasts t')
    (j : t.Idx) (j' : t'.Idx) (e : (t.rowMajor j).val = (t'.rowMajor j').val) :
    shapeCast t x h j = shapeCast t' x h' j' :=
  shapeCast_apply x h j (Shape.reshapeEquiv h' j') ((Shape.rowMajor_reshapeEquiv h' j').trans e.symm)

def rowCat (R : Fin 4 → (⟨2, ![256, 512]⟩ : Shape).Idx → α) : (⟨3, ![1, 256, 2048]⟩ : Shape).Idx → α :=
  broadcastInDim (⟨3, ![1, 256, 2048]⟩ : Shape) (![1, 2] : Fin 2 → Fin 3) (by decide)
    (concatenate (⟨2, ![256, 2048]⟩ : Shape) 1 (List.ofFn fun q : Fin 4 => (⟨(⟨2, ![256, 512]⟩ : Shape), R q⟩ : (s : Shape) × (s.Idx → α)))
      (show Shape.Concatenates [(⟨2, ![256, 512]⟩ : Shape), ⟨2, ![256, 512]⟩, ⟨2, ![256, 512]⟩, ⟨2, ![256, 512]⟩] ⟨2, ![256, 2048]⟩ 1 by decide))

def layCat (T : Fin 4 → Fin 4 → (⟨2, ![256, 512]⟩ : Shape).Idx → α) : (⟨3, ![4, 256, 2048]⟩ : Shape).Idx → α :=
  concatenate (⟨3, ![4, 256, 2048]⟩ : Shape) 0 (List.ofFn fun p : Fin 4 => (⟨(⟨3, ![1, 256, 2048]⟩ : Shape), rowCat (T p)⟩ : (s : Shape) × (s.Idx → α)))
    (show Shape.Concatenates [(⟨3, ![1, 256, 2048]⟩ : Shape), ⟨3, ![1, 256, 2048]⟩, ⟨3, ![1, 256, 2048]⟩, ⟨3, ![1, 256, 2048]⟩] ⟨3, ![4, 256, 2048]⟩ 0 by decide)

def unit1 (x : (⟨2, ![256, 512]⟩ : Shape).Idx → α) : (⟨3, ![1, 256, 512]⟩ : Shape).Idx → α :=
  broadcastInDim (⟨3, ![1, 256, 512]⟩ : Shape) (![1, 2] : Fin 2 → Fin 3) (by decide) x

def rowStack (R : Fin 4 → (⟨2, ![256, 512]⟩ : Shape).Idx → α) : (⟨4, ![1, 4, 256, 512]⟩ : Shape).Idx → α :=
  broadcastInDim (⟨4, ![1, 4, 256, 512]⟩ : Shape) (![1, 2, 3] : Fin 3 → Fin 4) (by decide)
    (concatenate (⟨3, ![4, 256, 512]⟩ : Shape) 0 (List.ofFn fun q : Fin 4 => (⟨(⟨3, ![1, 256, 512]⟩ : Shape), unit1 (R q)⟩ : (s : Shape) × (s.Idx → α)))
      (show Shape.Concatenates [(⟨3, ![1, 256, 512]⟩ : Shape), ⟨3, ![1, 256, 512]⟩, ⟨3, ![1, 256, 512]⟩, ⟨3, ![1, 256, 512]⟩] ⟨3, ![4, 256, 512]⟩ 0 by decide))

def layStack (T : Fin 4 → Fin 4 → (⟨2, ![256, 512]⟩ : Shape).Idx → α) : (⟨4, ![4, 4, 256, 512]⟩ : Shape).Idx → α :=
  concatenate (⟨4, ![4, 4, 256, 512]⟩ : Shape) 0 (List.ofFn fun p : Fin 4 => (⟨(⟨4, ![1, 4, 256, 512]⟩ : Shape), rowStack (T p)⟩ : (s : Shape) × (s.Idx → α)))
    (show Shape.Concatenates [(⟨4, ![1, 4, 256, 512]⟩ : Shape), ⟨4, ![1, 4, 256, 512]⟩, ⟨4, ![1, 4, 256, 512]⟩, ⟨4, ![1, 4, 256, 512]⟩] ⟨4, ![4, 4, 256, 512]⟩ 0 by decide)

theorem layCat_apply (T : Fin 4 → Fin 4 → (⟨2, ![256, 512]⟩ : Shape).Idx → α) (p q : Fin 4) (o : Fin 256) (i : Fin 512) :
    layCat T (ix3 p o ⟨q.val * 512 + i.val, by have := q.isLt; have := i.isLt; omega⟩) = T p q (ix2 o i) := by
  have hq : (q.val * 512 + i.val) / 512 = q.val := by have := i.isLt; omega
  have hi : (q.val * 512 + i.val) % 512 = i.val := by have := i.isLt; omega
  have hlt : q.val * 512 + i.val < 2048 := by have := q.isLt; have := i.isLt; omega
  have e1 := concatenate_ofFn_unit_apply (α := α) (t := (⟨3, ![4, 256, 2048]⟩ : Shape)) (s₁ := (⟨3, ![1, 256, 2048]⟩ : Shape))
    (0 : Fin 3) (N := 4) (fun p => rowCat (T p))
    (show Shape.Concatenates [(⟨3, ![1, 256, 2048]⟩ : Shape), ⟨3, ![1, 256, 2048]⟩, ⟨3, ![1, 256, 2048]⟩, ⟨3, ![1, 256, 2048]⟩] ⟨3, ![4, 256, 2048]⟩ 0 by decide)
    rfl rfl (ix3 p o ⟨q.val * 512 + i.val, hlt⟩) p rfl (ix3 (0 : Fin 1) o ⟨q.val * 512 + i.val, hlt⟩)
    (by intro b hb; match b with | ⟨0, _⟩ => exact absurd rfl hb | ⟨1, _⟩ => rfl | ⟨2, _⟩ => rfl)
  refine e1.trans ?_
  unfold rowCat
  refine (broadcastInDim_apply _ _ _ _ (ix2 o ⟨q.val * 512 + i.val, hlt⟩) ?_).trans ?_
  · intro a; match a with | ⟨0, _⟩ => rfl | ⟨1, _⟩ => rfl
  exact concatenate_ofFn_apply (α := α) (t := (⟨2, ![256, 2048]⟩ : Shape)) (s₁ := (⟨2, ![256, 512]⟩ : Shape)) (1 : Fin 2) (N := 4) (T p)
    (show Shape.Concatenates [(⟨2, ![256, 512]⟩ : Shape), ⟨2, ![256, 512]⟩, ⟨2, ![256, 512]⟩, ⟨2, ![256, 512]⟩] ⟨2, ![256, 2048]⟩ 1 by decide)
    rfl 512 rfl (ix2 o ⟨q.val * 512 + i.val, hlt⟩) q hq (ix2 o i) hi.symm
    (by intro b hb; match b with | ⟨0, _⟩ => rfl | ⟨1, _⟩ => exact absurd rfl hb)

theorem layStack_apply (T : Fin 4 → Fin 4 → (⟨2, ![256, 512]⟩ : Shape).Idx → α) (p q : Fin 4) (o : Fin 256) (i : Fin 512) :
    layStack T (ix4 p q o i) = T p q (ix2 o i) := by
  have e1 := concatenate_ofFn_unit_apply (α := α) (t := (⟨4, ![4, 4, 256, 512]⟩ : Shape)) (s₁ := (⟨4, ![1, 4, 256, 512]⟩ : Shape))
    (0 : Fin 4) (N := 4) (fun p => rowStack (T p))
    (show Shape.Concatenates [(⟨4, ![1, 4, 256, 512]⟩ : Shape), ⟨4, ![1, 4, 256, 512]⟩, ⟨4, ![1, 4, 256, 512]⟩, ⟨4, ![1, 4, 256, 512]⟩] ⟨4, ![4, 4, 256, 512]⟩ 0 by decide)
    rfl rfl (ix4 p q o i) p rfl (ix4 (0 : Fin 1) q o i)
    (by intro b hb; match b with | ⟨0, _⟩ => exact absurd rfl hb | ⟨1, _⟩ => rfl | ⟨2, _⟩ => rfl | ⟨3, _⟩ => rfl)
  refine e1.trans ?_
  unfold rowStack
  refine (broadcastInDim_apply _ _ _ _ (ix3 q o i) ?_).trans ?_
  · intro a; match a with | ⟨0, _⟩ => rfl | ⟨1, _⟩ => rfl | ⟨2, _⟩ => rfl
  have e2 := concatenate_ofFn_unit_apply (α := α) (t := (⟨3, ![4, 256, 512]⟩ : Shape)) (s₁ := (⟨3, ![1, 256, 512]⟩ : Shape))
    (0 : Fin 3) (N := 4) (fun q => unit1 (T p q))
    (show Shape.Concatenates [(⟨3, ![1, 256, 512]⟩ : Shape), ⟨3, ![1, 256, 512]⟩, ⟨3, ![1, 256, 512]⟩, ⟨3, ![1, 256, 512]⟩] ⟨3, ![4, 256, 512]⟩ 0 by decide)
    rfl rfl (ix3 q o i) q rfl (ix3 (0 : Fin 1) o i)
    (by intro b hb; match b with | ⟨0, _⟩ => exact absurd rfl hb | ⟨1, _⟩ => rfl | ⟨2, _⟩ => rfl)
  refine e2.trans ?_
  unfold unit1
  refine broadcastInDim_apply _ _ _ _ (ix2 o i) ?_
  intro a; match a with | ⟨0, _⟩ => rfl | ⟨1, _⟩ => rfl

def stack64 (M : Fin 4 → (⟨2, ![64, 256]⟩ : Shape).Idx → α) : (⟨3, ![4, 64, 256]⟩ : Shape).Idx → α :=
  concatenate (⟨3, ![4, 64, 256]⟩ : Shape) 0 (List.ofFn fun p : Fin 4 => (⟨(⟨3, ![1, 64, 256]⟩ : Shape),
      broadcastInDim (⟨3, ![1, 64, 256]⟩ : Shape) (![1, 2] : Fin 2 → Fin 3) (by decide) (M p)⟩ : (s : Shape) × (s.Idx → α)))
    (show Shape.Concatenates [(⟨3, ![1, 64, 256]⟩ : Shape), ⟨3, ![1, 64, 256]⟩, ⟨3, ![1, 64, 256]⟩, ⟨3, ![1, 64, 256]⟩] ⟨3, ![4, 64, 256]⟩ 0 by decide)

theorem stack64_apply (M : Fin 4 → (⟨2, ![64, 256]⟩ : Shape).Idx → α) (p : Fin 4) (col : Fin 64) (l : Fin 256) :
    stack64 M (ix3 p col l) = M p (ix2 col l) := by
  have e1 := concatenate_ofFn_unit_apply (α := α) (t := (⟨3, ![4, 64, 256]⟩ : Shape)) (s₁ := (⟨3, ![1, 64, 256]⟩ : Shape))
    (0 : Fin 3) (N := 4) (fun p => broadcastInDim (⟨3, ![1, 64, 256]⟩ : Shape) (![1, 2] : Fin 2 → Fin 3) (by decide) (M p))
    (show Shape.Concatenates [(⟨3, ![1, 64, 256]⟩ : Shape), ⟨3, ![1, 64, 256]⟩, ⟨3, ![1, 64, 256]⟩, ⟨3, ![1, 64, 256]⟩] ⟨3, ![4, 64, 256]⟩ 0 by decide)
    rfl rfl (ix3 p col l) p rfl (ix3 (0 : Fin 1) col l)
    (by intro b hb; match b with | ⟨0, _⟩ => exact absurd rfl hb | ⟨1, _⟩ => rfl | ⟨2, _⟩ => rfl)
  refine e1.trans ?_
  refine broadcastInDim_apply _ _ _ _ (ix2 col l) ?_
  intro a; match a with | ⟨0, _⟩ => rfl | ⟨1, _⟩ => rfl

end Generic

end Cert.Val.Prefix

end
-- ==== Proof.Val.PrefixXs.lean ====
import proofs.«125054_g2000703033488327_pallasbulk_1155_2_alg».proof.Proof.Val.PrefixDefs

set_option maxRecDepth 16384

noncomputable section

namespace Cert.Val.Prefix

open Idealize.ShloMosaic Idealize.ShloMosaic.TcCoe
open Idealize.ShloMosaic.ValueIdx

def xsCore (a : FVec Ideal (⟨4, ![64, 256, 16, 16]⟩ : Shape) .f32) : FVec Ideal (⟨4, ![64, 9, 9, 1024]⟩ : Shape) .f32 :=
  shapeCast (⟨4, ![64, 9, 9, 1024]⟩ : Shape)
    (transpose (⟨6, ![64, 9, 9, 2, 2, 256]⟩ : Shape) [0, 1, 3, 2, 4, 5]
      (shapeCast (⟨6, ![64, 9, 2, 9, 2, 256]⟩ : Shape)
        (pad (⟨4, ![64, 18, 18, 256]⟩ : Shape) ![0, 1, 1, 0] ![0, 1, 1, 0] ![0, 0, 0, 0]
          (transpose (⟨4, ![64, 16, 16, 256]⟩ : Shape) [0, 2, 3, 1] a (by decide))
          (sitofp (F := Ideal) .f32 (constantI (⟨0, ![]⟩ : Shape) 32 0#32)) (by decide) (by decide))
        (by decide)) (by decide)) (by decide)

section
variable (m : (ℓ : Loc Cert.KernelIdeal.nD Cert.KernelIdeal.τ Cert.KernelIdeal.sig) → Buf (Elt Ideal) ℓ) (c : Dev Cert.KernelIdeal.nD)

theorem xsK : (preK m c (Proc.devRef .tc Cert.KernelIdeal.main_v5) : FVec Ideal (⟨4, ![64, 9, 9, 1024]⟩ : Shape) .bf16)
    = truncf .bf16 (xsCore (m (c, Proc.devRef .tc Cert.KernelIdeal.main_arg0))) (by decide) := by
  refine (StableHlo.after_of_forall_not_mem _ _ (by no_write)).trans ?_
  refine (StableHlo.after_of_forall_not_mem _ _ (by no_write)).trans ?_
  dsimp only [Cert.KernelIdeal.Gen.main_part0_ops2, Cert.KernelIdeal.Gen.main_part0_ops1, Cert.KernelIdeal.Gen.main_part0_ops0]
  after_results
  rfl
end

section
variable (m' : (ℓ : Loc Cert.ReferenceIdeal.nD Cert.ReferenceIdeal.τ Cert.ReferenceIdeal.sig) → Buf (Elt Ideal) ℓ) (c : Dev Cert.ReferenceIdeal.nD)

theorem xsR : (preR m' c (Proc.devRef .tc Cert.ReferenceIdeal.main_v4) : FVec Ideal (⟨4, ![64, 9, 9, 1024]⟩ : Shape) .f32)
    = xsCore (m' (c, Proc.devRef .tc Cert.ReferenceIdeal.main_arg0)) := by
  refine (StableHlo.after_of_forall_not_mem _ _ (by no_write)).trans ?_
  refine (StableHlo.after_of_forall_not_mem _ _ (by no_write)).trans ?_
  refine (StableHlo.after_of_forall_not_mem _ _ (by no_write)).trans ?_
  dsimp only [Cert.ReferenceIdeal.Gen.main_part0_ops2, Cert.ReferenceIdeal.Gen.main_part0_ops1, Cert.ReferenceIdeal.Gen.main_part0_ops0]
  after_results
  rfl
end

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

theorem xs_eq
    (hagree : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (n : Fin 64) (r s : Fin 9) (k : Fin 1024) :
    preK m c (Proc.devRef .tc Cert.KernelIdeal.main_v5) (ix4 n r s k)
      = preR m' c (Proc.devRef .tc Cert.ReferenceIdeal.main_v4) (ix4 n r s k) := by
  have hK := congrFun (xsK m c) (ix4 n r s k)
  have hR := congrFun (xsR m' c) (ix4 n r s k)
  refine hK.trans (Eq.trans ?_ hR.symm)
  rw [truncf_apply]
  have ha : m (c, Proc.devRef .tc Cert.KernelIdeal.main_arg0) = m' (c, Proc.devRef .tc Cert.ReferenceIdeal.main_arg0) := hagree.symm
  rw [ha]
end

end Cert.Val.Prefix

end
-- ==== Proof.Val.PrefixWd.lean ====
import proofs.«125054_g2000703033488327_pallasbulk_1155_2_alg».proof.Proof.Val.PrefixDefs

set_option maxRecDepth 16384

noncomputable section

namespace Cert.Val.Prefix

open Idealize.ShloMosaic Idealize.ShloMosaic.TcCoe
open Idealize.ShloMosaic.ValueIdx

def wdCore (a : FVec Ideal (⟨4, ![512, 256, 4, 4]⟩ : Shape) .f32) : FVec Ideal (⟨6, ![2, 2, 2, 2, 256, 512]⟩ : Shape) .f32 :=
  transpose (⟨6, ![2, 2, 2, 2, 256, 512]⟩ : Shape) [0, 2, 1, 3, 4, 5]
    (shapeCast (⟨6, ![2, 2, 2, 2, 256, 512]⟩ : Shape)
      (transpose (⟨4, ![4, 4, 256, 512]⟩ : Shape) [2, 3, 1, 0] a (by decide)) (by decide)) (by decide)

section
variable (m : (ℓ : Loc Cert.KernelIdeal.nD Cert.KernelIdeal.τ Cert.KernelIdeal.sig) → Buf (Elt Ideal) ℓ) (c : Dev Cert.KernelIdeal.nD)

theorem wdK : (preK m c (Proc.devRef .tc Cert.KernelIdeal.main_v10) : FVec Ideal (⟨2, ![4096, 512]⟩ : Shape) .bf16)
    = truncf .bf16 (shapeCast (⟨2, ![4096, 512]⟩ : Shape) (wdCore (m (c, Proc.devRef .tc Cert.KernelIdeal.main_arg1))) (by decide)) (by decide) := by
  refine (StableHlo.after_of_forall_not_mem _ _ (by no_write)).trans ?_
  refine (StableHlo.after_of_forall_not_mem _ _ (by no_write)).trans ?_
  dsimp only [Cert.KernelIdeal.Gen.main_part0_ops2, Cert.KernelIdeal.Gen.main_part0_ops1, Cert.KernelIdeal.Gen.main_part0_ops0]
  after_results
  rfl
end

section
variable (m' : (ℓ : Loc Cert.ReferenceIdeal.nD Cert.ReferenceIdeal.τ Cert.ReferenceIdeal.sig) → Buf (Elt Ideal) ℓ) (c : Dev Cert.ReferenceIdeal.nD)

theorem wdR : (preR m' c (Proc.devRef .tc Cert.ReferenceIdeal.main_v8) : FVec Ideal (⟨3, ![4, 1024, 512]⟩ : Shape) .f32)
    = shapeCast (⟨3, ![4, 1024, 512]⟩ : Shape) (wdCore (m' (c, Proc.devRef .tc Cert.ReferenceIdeal.main_arg1))) (by decide) := by
  refine (StableHlo.after_of_forall_not_mem _ _ (by no_write)).trans ?_
  refine (StableHlo.after_of_forall_not_mem _ _ (by no_write)).trans ?_
  refine (StableHlo.after_of_forall_not_mem _ _ (by no_write)).trans ?_
  dsimp only [Cert.ReferenceIdeal.Gen.main_part0_ops2, Cert.ReferenceIdeal.Gen.main_part0_ops1, Cert.ReferenceIdeal.Gen.main_part0_ops0]
  after_results
  rfl
end

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

theorem wd_eq
    (hagree : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (t : Fin 4) (k : Fin 1024) (i : Fin 512) :
    preK m c (Proc.devRef .tc Cert.KernelIdeal.main_v10) (ix2 ⟨t.val * 1024 + k.val, by have := t.isLt; have := k.isLt; omega⟩ i)
      = preR m' c (Proc.devRef .tc Cert.ReferenceIdeal.main_v8) (ix3 t k i) := by
  have hK := congrFun (wdK m c) (ix2 ⟨t.val * 1024 + k.val, by have := t.isLt; have := k.isLt; omega⟩ i)
  have hR := congrFun (wdR m' c) (ix3 t k i)
  refine hK.trans (Eq.trans ?_ hR.symm)
  rw [truncf_apply]
  have ha : m (c, Proc.devRef .tc Cert.KernelIdeal.main_arg1) = m' (c, Proc.devRef .tc Cert.ReferenceIdeal.main_arg1) := hagree.symm
  rw [ha]
  refine shapeCast_eq_shapeCast _ _ _ _ _ ?_
  rw [Shape.rowMajor_val_two, Shape.rowMajor_val_three]
  rfl
end

end Cert.Val.Prefix

end
-- ==== Proof.Val.PrefixWu.lean ====
import proofs.«125054_g2000703033488327_pallasbulk_1155_2_alg».proof.Proof.Val.PrefixDefs

set_option maxRecDepth 16384

noncomputable section

namespace Cert.Val.Prefix

open Idealize.ShloMosaic Idealize.ShloMosaic.TcCoe
open Idealize.ShloMosaic.ValueIdx

def tap (ky kx : Nat) (a : FVec Ideal (⟨4, ![512, 256, 4, 4]⟩ : Shape) .f32)
    (h : (⟨4, ![512, 256, 4, 4]⟩ : Shape).Slices (![0, 0, ky, kx] : Fin 4 → Nat) (⟨4, ![512, 256, 1, 1]⟩ : Shape)) :
    FVec Ideal (⟨2, ![256, 512]⟩ : Shape) .f32 :=
  transpose (⟨2, ![256, 512]⟩ : Shape) [1, 0]
    (shapeCast (⟨2, ![512, 256]⟩ : Shape)
      (extractStridedSlice (⟨4, ![512, 256, 1, 1]⟩ : Shape) (![0, 0, ky, kx] : Fin 4 → Nat) a h) (by decide)) (by decide)

def taps (a : FVec Ideal (⟨4, ![512, 256, 4, 4]⟩ : Shape) .f32) (p q : Fin 4) : FVec Ideal (⟨2, ![256, 512]⟩ : Shape) .f32 :=
  (![(![tap 3 3 a (by decide), tap 3 1 a (by decide), tap 1 3 a (by decide), tap 1 1 a (by decide)] : Fin 4 → FVec Ideal (⟨2, ![256, 512]⟩ : Shape) .f32),
     ![tap 3 2 a (by decide), tap 3 0 a (by decide), tap 1 2 a (by decide), tap 1 0 a (by decide)],
     ![tap 2 3 a (by decide), tap 2 1 a (by decide), tap 0 3 a (by decide), tap 0 1 a (by decide)],
     ![tap 2 2 a (by decide), tap 2 0 a (by decide), tap 0 2 a (by decide), tap 0 0 a (by decide)]]
    : Fin 4 → Fin 4 → FVec Ideal (⟨2, ![256, 512]⟩ : Shape) .f32) p q

theorem wuK_of (V : Valuation Cert.KernelIdeal.τ Cert.KernelIdeal.sig (Elt Ideal)) :
    (StableHlo.after Cert.KernelIdeal.Gen.main_part1_ops0 (StableHlo.after Cert.KernelIdeal.Gen.main_part0_ops2 V)
        (Proc.devRef .tc Cert.KernelIdeal.main_v68) : FVec Ideal (⟨3, ![4, 256, 2048]⟩ : Shape) .bf16)
      = truncf .bf16 (layCat (taps (V (Proc.devRef .tc Cert.KernelIdeal.main_arg2)))) (by decide) := by
  dsimp only [Cert.KernelIdeal.Gen.main_part1_ops0, Cert.KernelIdeal.Gen.main_part0_ops2]
  after_results_simp
  rfl

theorem wuR_of (V : Valuation Cert.ReferenceIdeal.τ Cert.ReferenceIdeal.sig (Elt Ideal)) :
    (StableHlo.after Cert.ReferenceIdeal.Gen.main_part1_ops0 (StableHlo.after Cert.ReferenceIdeal.Gen.main_part0_ops2 V)
        (Proc.devRef .tc Cert.ReferenceIdeal.main_v81) : FVec Ideal (⟨4, ![4, 4, 256, 512]⟩ : Shape) .f32)
      = layStack (taps (V (Proc.devRef .tc Cert.ReferenceIdeal.main_arg2))) := by
  dsimp only [Cert.ReferenceIdeal.Gen.main_part1_ops0, Cert.ReferenceIdeal.Gen.main_part0_ops2]
  after_results_simp
  rfl

section
variable (m : (ℓ : Loc Cert.KernelIdeal.nD Cert.KernelIdeal.τ Cert.KernelIdeal.sig) → Buf (Elt Ideal) ℓ) (c : Dev Cert.KernelIdeal.nD)

theorem wuK : (preK m c (Proc.devRef .tc Cert.KernelIdeal.main_v68) : FVec Ideal (⟨3, ![4, 256, 2048]⟩ : Shape) .bf16)
    = truncf .bf16 (layCat (taps (m (c, Proc.devRef .tc Cert.KernelIdeal.main_arg2)))) (by decide) := by
  refine (StableHlo.after_of_forall_not_mem _ _ (by no_write)).trans ?_
  refine (wuK_of _).trans ?_
  have e : StableHlo.after Cert.KernelIdeal.Gen.main_part0_ops1 (StableHlo.after Cert.KernelIdeal.Gen.main_part0_ops0 (fun b => m (c, b)))
      (Proc.devRef .tc Cert.KernelIdeal.main_arg2) = m (c, Proc.devRef .tc Cert.KernelIdeal.main_arg2) :=
    (StableHlo.after_of_forall_not_mem _ _ (by no_write)).trans (StableHlo.after_of_forall_not_mem _ _ (by no_write))
  exact congrArg (fun x : FVec Ideal (⟨4, ![512, 256, 4, 4]⟩ : Shape) .f32 => truncf .bf16 (layCat (taps x)) (by decide)) e
end

section
variable (m' : (ℓ : Loc Cert.ReferenceIdeal.nD Cert.ReferenceIdeal.τ Cert.ReferenceIdeal.sig) → Buf (Elt Ideal) ℓ) (c : Dev Cert.ReferenceIdeal.nD)

theorem wuR : (preR m' c (Proc.devRef .tc Cert.ReferenceIdeal.main_v81) : FVec Ideal (⟨4, ![4, 4, 256, 512]⟩ : Shape) .f32)
    = layStack (taps (m' (c, Proc.devRef .tc Cert.ReferenceIdeal.main_arg2))) := by
  refine (StableHlo.after_of_forall_not_mem _ _ (by no_write)).trans ?_
  refine (StableHlo.after_of_forall_not_mem _ _ (by no_write)).trans ?_
  refine (wuR_of _).trans ?_
  have e : StableHlo.after Cert.ReferenceIdeal.Gen.main_part0_ops1 (StableHlo.after Cert.ReferenceIdeal.Gen.main_part0_ops0 (fun b => m' (c, b)))
      (Proc.devRef .tc Cert.ReferenceIdeal.main_arg2) = m' (c, Proc.devRef .tc Cert.ReferenceIdeal.main_arg2) :=
    (StableHlo.after_of_forall_not_mem _ _ (by no_write)).trans (StableHlo.after_of_forall_not_mem _ _ (by no_write))
  exact congrArg (fun x : FVec Ideal (⟨4, ![512, 256, 4, 4]⟩ : Shape) .f32 => layStack (taps x)) e
end

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

theorem wu_eq
    (hagree : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (ph t : Fin 4) (o : Fin 256) (i : Fin 512) :
    preK m c (Proc.devRef .tc Cert.KernelIdeal.main_v68) (ix3 ph o ⟨t.val * 512 + i.val, by have := t.isLt; have := i.isLt; omega⟩)
      = preR m' c (Proc.devRef .tc Cert.ReferenceIdeal.main_v81) (ix4 ph t o i) := by
  have hK := congrFun (wuK m c) (ix3 ph o ⟨t.val * 512 + i.val, by have := t.isLt; have := i.isLt; omega⟩)
  have hR := congrFun (wuR m' c) (ix4 ph t o i)
  refine hK.trans (Eq.trans ?_ hR.symm)
  have ha : m (c, Proc.devRef .tc Cert.KernelIdeal.main_arg2) = m' (c, Proc.devRef .tc Cert.ReferenceIdeal.main_arg2) := hagree.symm
  rw [truncf_apply, layCat_apply, layStack_apply, ha]
end

end Cert.Val.Prefix

end
-- ==== Proof.Val.PrefixPm.lean ====
import proofs.«125054_g2000703033488327_pallasbulk_1155_2_alg».proof.Proof.Val.PrefixDefs

set_option maxRecDepth 16384

noncomputable section

namespace Cert.Val.Prefix

open Idealize.ShloMosaic Idealize.ShloMosaic.TcCoe
open Idealize.ShloMosaic.ValueIdx

def mask (py px : BitVec 32) : IVec (⟨2, ![64, 256]⟩ : Shape) 1 :=
  cmpi .eq
    (broadcastInDim (⟨2, ![64, 256]⟩ : Shape) (![0, 1] : Fin 2 → Fin 2) (by decide)
      (shapeCast (⟨2, ![64, 1]⟩ : Shape)
        (addi
          (broadcastInDim (⟨2, ![8, 8]⟩ : Shape) (![0, 1] : Fin 2 → Fin 2) (by decide)
            (muli
              (addi
                (muli (broadcastInDim (⟨2, ![8, 1]⟩ : Shape) (![] : Fin 0 → Fin 2) (by decide) (constantI (⟨0, ![]⟩ : Shape) 32 2#32))
                  (broadcastInDim (⟨2, ![8, 1]⟩ : Shape) (![0] : Fin 1 → Fin 2) (by decide) (iotaInDim (⟨1, ![8]⟩ : Shape) 32 0)))
                (broadcastInDim (⟨2, ![8, 1]⟩ : Shape) (![] : Fin 0 → Fin 2) (by decide) (constantI (⟨0, ![]⟩ : Shape) 32 py)))
              (broadcastInDim (⟨2, ![8, 1]⟩ : Shape) (![] : Fin 0 → Fin 2) (by decide) (constantI (⟨0, ![]⟩ : Shape) 32 16#32))))
          (broadcastInDim (⟨2, ![8, 8]⟩ : Shape) (![0, 1] : Fin 2 → Fin 2) (by decide)
            (addi
              (muli (broadcastInDim (⟨2, ![1, 8]⟩ : Shape) (![] : Fin 0 → Fin 2) (by decide) (constantI (⟨0, ![]⟩ : Shape) 32 2#32))
                (broadcastInDim (⟨2, ![1, 8]⟩ : Shape) (![1] : Fin 1 → Fin 2) (by decide) (iotaInDim (⟨1, ![8]⟩ : Shape) 32 0)))
              (broadcastInDim (⟨2, ![1, 8]⟩ : Shape) (![] : Fin 0 → Fin 2) (by decide) (constantI (⟨0, ![]⟩ : Shape) 32 px)))))
        (by decide)))
    (broadcastInDim (⟨2, ![64, 256]⟩ : Shape) (![0, 1] : Fin 2 → Fin 2) (by decide)
      (broadcastInDim (⟨2, ![1, 256]⟩ : Shape) (![1] : Fin 1 → Fin 2) (by decide) (iotaInDim (⟨1, ![256]⟩ : Shape) 32 0)))

def masks (ph : Fin 4) : IVec (⟨2, ![64, 256]⟩ : Shape) 1 :=
  (![mask 0#32 0#32, mask 0#32 1#32, mask 1#32 0#32, mask 1#32 1#32] : Fin 4 → IVec (⟨2, ![64, 256]⟩ : Shape) 1) ph

theorem pmK_of (V : Valuation Cert.KernelIdeal.τ Cert.KernelIdeal.sig (Elt Ideal)) :
    (StableHlo.after Cert.KernelIdeal.Gen.main_part2_ops0 (StableHlo.after Cert.KernelIdeal.Gen.main_part1_ops0 V)
        (Proc.devRef .tc Cert.KernelIdeal.main_v151) : FVec Ideal (⟨3, ![4, 64, 256]⟩ : Shape) .bf16)
      = stack64 (fun p => uitofp (F := Ideal) .bf16 (masks p)) := by
  dsimp only [Cert.KernelIdeal.Gen.main_part2_ops0, Cert.KernelIdeal.Gen.main_part1_ops0]
  after_results_simp
  rfl

theorem pmR_of (V : Valuation Cert.ReferenceIdeal.τ Cert.ReferenceIdeal.sig (Elt Ideal)) :
    (StableHlo.after Cert.ReferenceIdeal.Gen.main_part3_ops0 (StableHlo.after Cert.ReferenceIdeal.Gen.main_part2_ops0
        (StableHlo.after Cert.ReferenceIdeal.Gen.main_part1_ops0 V))
        (Proc.devRef .tc Cert.ReferenceIdeal.main_v164) : FVec Ideal (⟨3, ![4, 64, 256]⟩ : Shape) .f32)
      = stack64 (fun p => uitofp (F := Ideal) .f32 (masks p)) := by
  dsimp only [Cert.ReferenceIdeal.Gen.main_part3_ops0, Cert.ReferenceIdeal.Gen.main_part2_ops0, Cert.ReferenceIdeal.Gen.main_part1_ops0]
  after_results_simp
  rfl

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

theorem pm_eq (ph : Fin 4) (col : Fin 64) (l : Fin 256) :
    preK m c (Proc.devRef .tc Cert.KernelIdeal.main_v151) (ix3 ph col l)
      = preR m' c (Proc.devRef .tc Cert.ReferenceIdeal.main_v164) (ix3 ph col l) := by
  have hK := congrFun (pmK_of (StableHlo.after Cert.KernelIdeal.Gen.main_part0_ops2 (StableHlo.after Cert.KernelIdeal.Gen.main_part0_ops1
      (StableHlo.after Cert.KernelIdeal.Gen.main_part0_ops0 (fun b => m (c, b)))))) (ix3 ph col l)
  have hR := congrFun (pmR_of (StableHlo.after Cert.ReferenceIdeal.Gen.main_part0_ops2 (StableHlo.after Cert.ReferenceIdeal.Gen.main_part0_ops1
      (StableHlo.after Cert.ReferenceIdeal.Gen.main_part0_ops0 (fun b => m' (c, b)))))) (ix3 ph col l)
  refine hK.trans (Eq.trans ?_ hR.symm)
  rw [stack64_apply, stack64_apply]
  rfl
end

end Cert.Val.Prefix

end
-- ==== Proof.Val.Glue.lean ====
import proofs.«125054_g2000703033488327_pallasbulk_1155_2_alg».proof.Proof.KI.Run
import proofs.«125054_g2000703033488327_pallasbulk_1155_2_alg».proof.Proof.RI.Run
import proofs.«125054_g2000703033488327_pallasbulk_1155_2_alg».proof.Proof.Val.KerArrPieces
import proofs.«125054_g2000703033488327_pallasbulk_1155_2_alg».proof.Proof.Val.RefArrPieces
import proofs.«125054_g2000703033488327_pallasbulk_1155_2_alg».proof.Proof.Val.PrefixXs
import proofs.«125054_g2000703033488327_pallasbulk_1155_2_alg».proof.Proof.Val.PrefixWd
import proofs.«125054_g2000703033488327_pallasbulk_1155_2_alg».proof.Proof.Val.PrefixWu
import proofs.«125054_g2000703033488327_pallasbulk_1155_2_alg».proof.Proof.Val.PrefixPm

set_option maxRecDepth 16384

noncomputable section

namespace Cert.Val.Glue

open Idealize.ShloMosaic Idealize.ShloMosaic.TcCoe Idealize.ShloMosaic.ValueIdx
open Idealize.SL Idealize.SL.Sem

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (ρ' : Dev Cert.ReferenceIdeal.nD → PrngReg)
variable (c : Dev Cert.KernelIdeal.nD)

abbrev Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)

variable (hagree : Agree m m' c)

include hagree in
theorem xs_same (n : Fin 64) :
    Cert.Val.Ker.xs (Cert.KernelIdeal.Hand.Ventry0 m ρ) c n = Cert.Val.Ref.xs (Cert.ReferenceIdeal.Hand.Ventry0 m' ρ') c n := by
  funext r s k
  exact Cert.Val.Prefix.xs_eq m m' c hagree.1 n r s k

include hagree in
theorem wd_same :
    Cert.Val.Ker.wd (Cert.KernelIdeal.Hand.Ventry0 m ρ) c = Cert.Val.Ref.wd (Cert.ReferenceIdeal.Hand.Ventry0 m' ρ') c := by
  funext t k i
  exact Cert.Val.Prefix.wd_eq m m' c hagree.2.1 t k i

include hagree in
theorem wu_same :
    Cert.Val.Ker.wu (Cert.KernelIdeal.Hand.Ventry0 m ρ) c = Cert.Val.Ref.wu (Cert.ReferenceIdeal.Hand.Ventry0 m' ρ') c := by
  funext ph t o i
  exact Cert.Val.Prefix.wu_eq m m' c hagree.2.2.1 ph t o i

theorem pm_same :
    Cert.Val.Ker.pm (Cert.KernelIdeal.Hand.Ventry0 m ρ) c = Cert.Val.Ref.pm (Cert.ReferenceIdeal.Hand.Ventry0 m' ρ') c := by
  funext ph col l
  exact Cert.Val.Prefix.pm_eq m m' c ph col l

include hagree in
theorem hz (n : Fin 64) (o l : Fin 256) :
    (Cert.KernelIdeal.Hand.W6 m ρ c (Proc.devRef .tc Cert.KernelIdeal.main_v152_0) : Vec Ideal Cert.KernelIdeal.S64x256x256 .bf16) (ix3 n o l)
      = (Cert.ReferenceIdeal.Hand.W7 m' ρ' c (Proc.devRef .tc Cert.ReferenceIdeal.main_v165_0) : Vec Ideal Cert.ReferenceIdeal.S64x256x256 .f32) (ix3 n o l) := by
  refine ((congrFun (Cert.KernelIdeal.Hand.Wexit0_arr m ρ c 4) _).trans (Cert.Val.Ker.region0_z _ c n o l)).trans
    (Eq.trans ?_ ((congrFun (Cert.ReferenceIdeal.Hand.Wexit0_arr m' ρ' c 4) _).trans (Cert.Val.Ref.region0_z _ c n o l)).symm)
  rw [xs_same m ρ m' ρ' c hagree n, wd_same m ρ m' ρ' c hagree, wu_same m ρ m' ρ' c hagree, pm_same m ρ m' ρ' c]

include hagree in
theorem hsum (n : Fin 64) (o : Fin 256) :
    (Cert.KernelIdeal.Hand.W6 m ρ c (Proc.devRef .tc Cert.KernelIdeal.main_v152_1) : Vec Ideal Cert.KernelIdeal.S64x256x1 .f32) (ix3 n o 0)
      = (Cert.ReferenceIdeal.Hand.W7 m' ρ' c (Proc.devRef .tc Cert.ReferenceIdeal.main_v165_1) : Vec Ideal Cert.ReferenceIdeal.S64x256x1 .f32) (ix3 n o 0) := by
  refine ((congrFun (Cert.KernelIdeal.Hand.Wexit0_arr m ρ c 5) _).trans (Cert.Val.Ker.region0_sum _ c n o)).trans
    (Eq.trans ?_ ((congrFun (Cert.ReferenceIdeal.Hand.Wexit0_arr m' ρ' c 5) _).trans (Cert.Val.Ref.region0_sum _ c n o)).symm)
  rw [xs_same m ρ m' ρ' c hagree n, wd_same m ρ m' ρ' c hagree, wu_same m ρ m' ρ' c hagree, pm_same m ρ m' ρ' c]

include hagree in
theorem hssq (n : Fin 64) (o : Fin 256) :
    (Cert.KernelIdeal.Hand.W6 m ρ c (Proc.devRef .tc Cert.KernelIdeal.main_v152_2) : Vec Ideal Cert.KernelIdeal.S64x256x1 .f32) (ix3 n o 0)
      = (Cert.ReferenceIdeal.Hand.W7 m' ρ' c (Proc.devRef .tc Cert.ReferenceIdeal.main_v165_2) : Vec Ideal Cert.ReferenceIdeal.S64x256x1 .f32) (ix3 n o 0) := by
  refine ((congrFun (Cert.KernelIdeal.Hand.Wexit0_arr m ρ c 6) _).trans (Cert.Val.Ker.region0_ssq _ c n o)).trans
    (Eq.trans ?_ ((congrFun (Cert.ReferenceIdeal.Hand.Wexit0_arr m' ρ' c 6) _).trans (Cert.Val.Ref.region0_ssq _ c n o)).symm)
  rw [xs_same m ρ m' ρ' c hagree n, wd_same m ρ m' ρ' c hagree, wu_same m ρ m' ρ' c hagree, pm_same m ρ m' ρ' c]

end Cert.Val.Glue

end
-- ==== Proof.Val.TailChain.lean ====
import proofs.«125054_g2000703033488327_pallasbulk_1155_2_alg».proof.Proof.Gen.KernelIdeal.Launch
import proofs.«125054_g2000703033488327_pallasbulk_1155_2_alg».proof.Proof.Gen.ReferenceIdeal.Launch
import Idealize.ShloMosaic.Lib.StableHlo.Run
import Idealize.ShloMosaic.Lib.ValueIdx

set_option maxRecDepth 16384

noncomputable section

namespace Cert.Val.Tail

open Idealize.ShloMosaic Idealize.ShloMosaic.TcCoe

section Chain
open Cert.KernelIdeal Cert.KernelIdeal.Facts₀ Cert.KernelIdeal.Facts

def bnChain (zsum zssq : FVec Ideal S64x256x1 .f32) (gamma beta : FVec Ideal S256 .f32) :
    FVec Ideal S256x1 .f32 × FVec Ideal S256x1 .f32 :=
  have s1 : FVec Ideal S64x256 .f32 := shapeCast S64x256 zsum shapeCasts_S64x256x1_S64x256
  have t1 : FVec Ideal S256 .f32 := Host.reduceAdd (F := Ideal) s1 (constant (F := Ideal) S_ .f32 0x00000000#32) reducesTo_S64x256_S256_d0 h_S_
  have s2 : FVec Ideal S64x256 .f32 := shapeCast S64x256 zssq shapeCasts_S64x256x1_S64x256
  have t2 : FVec Ideal S256 .f32 := Host.reduceAdd (F := Ideal) s2 (constant (F := Ideal) S_ .f32 0x00000000#32) reducesTo_S64x256_S256_d0 h_S_
  have cnt : FVec Ideal S256 .f32 := broadcastInDim S256 ![] bcast_S_S256 (constant (F := Ideal) S_ .f32 0x46800000#32)
  have mean : FVec Ideal S256 .f32 := Host.divf (F := Ideal) t1 cnt
  have msq : FVec Ideal S256 .f32 := Host.divf (F := Ideal) t2 cnt
  have var : FVec Ideal S256 .f32 := subf (F := Ideal) msq (mulf (F := Ideal) mean mean)
  have zero : FVec Ideal S256 .f32 := broadcastInDim S256 ![] bcast_S_S256 (constant (F := Ideal) S_ .f32 0x00000000#32)
  have eps : FVec Ideal S256 .f32 := broadcastInDim S256 ![] bcast_S_S256 (constant (F := Ideal) S_ .f32 0x3727C5AC#32)
  have inv : FVec Ideal S256 .f32 := Host.rsqrt (F := Ideal) (addf (F := Ideal) (maximumf (F := Ideal) var zero) eps)
  have scale : FVec Ideal S256 .f32 := mulf (F := Ideal) gamma inv
  have shift : FVec Ideal S256 .f32 := subf (F := Ideal) beta (mulf (F := Ideal) (mulf (F := Ideal) mean gamma) inv)
  (shapeCast S256x1 scale shapeCasts_S256_S256x1, shapeCast S256x1 shift shapeCasts_S256_S256x1)

def flatX (x : Vec Ideal S64x256x16x16 .f32) : Vec Ideal S64x256x256 .f32 :=
  shapeCast S64x256x256 x shapeCasts_S64x256x16x16_S64x256x256

def unflat (y : Vec Ideal S64x512x256 .f32) : Vec Ideal S64x512x16x16 .f32 :=
  shapeCast S64x512x16x16 y shapeCasts_S64x512x256_S64x512x16x16

end Chain

section K
open Cert.KernelIdeal Cert.KernelIdeal.Gen Cert.KernelIdeal.Facts₀ Cert.KernelIdeal.Facts

variable (Wx : Valuation τ sig (Elt Ideal))

abbrev entryK : Valuation τ sig (Elt Ideal) :=
  StableHlo.after (main_part3_ops0 (F := Ideal)) (StableHlo.after (main_part2_ops1 (F := Ideal)) Wx)

set_option maxHeartbeats 4000000 in
theorem entryK_scale : entryK Wx (Proc.devRef .tc main_v169)
    = (bnChain (Wx (Proc.devRef .tc main_v152_1)) (Wx (Proc.devRef .tc main_v152_2)) (Wx (Proc.devRef .tc main_arg3)) (Wx (Proc.devRef .tc main_arg4))).1 := by
  unfold entryK
  after_results_simp
  rfl

set_option maxHeartbeats 4000000 in
theorem entryK_shift : entryK Wx (Proc.devRef .tc main_v173)
    = (bnChain (Wx (Proc.devRef .tc main_v152_1)) (Wx (Proc.devRef .tc main_v152_2)) (Wx (Proc.devRef .tc main_arg3)) (Wx (Proc.devRef .tc main_arg4))).2 := by
  unfold entryK
  after_results_simp
  rfl

set_option maxHeartbeats 4000000 in
theorem entryK_x : entryK Wx (Proc.devRef .tc main_v174) = flatX (Wx (Proc.devRef .tc main_arg0)) := by
  unfold entryK
  after_results_simp
  rfl

set_option maxHeartbeats 4000000 in
theorem entryK_z : entryK Wx (Proc.devRef .tc main_v152_0) = Wx (Proc.devRef .tc main_v152_0) := by
  unfold entryK
  after_results

end K

section R
open Cert.ReferenceIdeal Cert.ReferenceIdeal.Gen Cert.ReferenceIdeal.Facts₀ Cert.ReferenceIdeal.Facts

variable (Wx : Valuation τ sig (Elt Ideal))

abbrev entryR : Valuation τ sig (Elt Ideal) :=
  StableHlo.after (main_part3_ops1 (F := Ideal)) Wx

set_option maxHeartbeats 4000000 in
theorem entryR_scale : entryR Wx (Proc.devRef .tc main_v182)
    = (bnChain (Wx (Proc.devRef .tc main_v165_1)) (Wx (Proc.devRef .tc main_v165_2)) (Wx (Proc.devRef .tc main_arg3)) (Wx (Proc.devRef .tc main_arg4))).1 := by
  unfold entryR
  after_results_simp
  rfl

set_option maxHeartbeats 4000000 in
theorem entryR_shift : entryR Wx (Proc.devRef .tc main_v186)
    = (bnChain (Wx (Proc.devRef .tc main_v165_1)) (Wx (Proc.devRef .tc main_v165_2)) (Wx (Proc.devRef .tc main_arg3)) (Wx (Proc.devRef .tc main_arg4))).2 := by
  unfold entryR
  after_results_simp
  rfl

set_option maxHeartbeats 4000000 in
theorem entryR_x : entryR Wx (Proc.devRef .tc main_v187) = flatX (Wx (Proc.devRef .tc main_arg0)) := by
  unfold entryR
  after_results_simp
  rfl

set_option maxHeartbeats 4000000 in
theorem entryR_z : entryR Wx (Proc.devRef .tc main_v165_0) = Wx (Proc.devRef .tc main_v165_0) := by
  unfold entryR
  after_results

end R

end Cert.Val.Tail

end
-- ==== Proof.Val.TailSpec.lean ====
import proofs.«125054_g2000703033488327_pallasbulk_1155_2_alg».proof.Proof.Val.Spec
import Idealize.ShloMosaic.Lib.ValueIdx

noncomputable section

namespace Cert.Val.Tail

open Idealize.ShloMosaic Idealize.ShloMosaic.ValueIdx

def joinArr (x z : (⟨3, ![64, 256, 256]⟩ : Shape).Idx → EReal) (sc sh : (⟨2, ![256, 1]⟩ : Shape).Idx → EReal) :
    (⟨3, ![64, 512, 256]⟩ : Shape).Idx → EReal :=
  fun j => Cert.Spec.joined (fun o l => x (ix3 (j 0) o l)) (fun o l => z (ix3 (j 0) o l))
    (fun o => sc (ix2 o 0)) (fun o => sh (ix2 o 0)) (j 1) (j 2)

theorem joined_congr {x x' z z' : Fin 256 → Fin 256 → EReal} {sc sc' sh sh' : Fin 256 → EReal} {c c' : Fin 512} {l l' : Fin 256}
    (hx : ∀ o l, x o l = x' o l) (hz : ∀ o l, z o l = z' o l) (hsc : ∀ o, sc o = sc' o) (hsh : ∀ o, sh o = sh' o)
    (hc : c = c') (hl : l = l') : Cert.Spec.joined x z sc sh c l = Cert.Spec.joined x' z' sc' sh' c' l' := by
  subst hc hl
  have e1 : x = x' := funext fun o => funext fun l => hx o l
  have e2 : z = z' := funext fun o => funext fun l => hz o l
  have e3 : sc = sc' := funext hsc
  have e4 : sh = sh' := funext hsh
  rw [e1, e2, e3, e4]

theorem joined_upper (x z : Fin 256 → Fin 256 → EReal) (sc sh : Fin 256 → EReal) (c : Fin 512) (l o : Fin 256)
    (h : c.val = 256 + o.val) : Cert.Spec.joined x z sc sh c l = z o l * sc o + sh o := by
  unfold Cert.Spec.joined
  have hc : ¬ c.val < 256 := by omega
  rw [dif_neg hc]
  have e : ∀ pf, (⟨c.val - 256, pf⟩ : Fin 256) = o := fun pf => Fin.ext (by show c.val - 256 = o.val; omega)
  rw [e]

theorem joined_lower (x z : Fin 256 → Fin 256 → EReal) (sc sh : Fin 256 → EReal) (c : Fin 512) (l o : Fin 256)
    (h : c.val = o.val) : Cert.Spec.joined x z sc sh c l = x o l := by
  unfold Cert.Spec.joined
  have hc : c.val < 256 := by have := o.isLt; omega
  rw [dif_pos hc]
  have e : (⟨c.val, hc⟩ : Fin 256) = o := Fin.ext h
  rw [e]

end Cert.Val.Tail

end
-- ==== Proof.Val.TailJoinK.lean ====
import proofs.«125054_g2000703033488327_pallasbulk_1155_2_alg».proof.Proof.Gen.KernelIdeal.Launch
import proofs.«125054_g2000703033488327_pallasbulk_1155_2_alg».proof.Proof.Gen.KernelIdeal.Skeleton
import proofs.«125054_g2000703033488327_pallasbulk_1155_2_alg».proof.Proof.Gen.KernelIdeal.Points
import proofs.«125054_g2000703033488327_pallasbulk_1155_2_alg».proof.Proof.Val.TailSpec
import Idealize.ShloMosaic.Lib.ValueIdx
import Idealize.ShloMosaic.Lib.Pipeline.Value

set_option maxRecDepth 16384

noncomputable section

namespace Cert.Val.Tail.K

open Idealize.ShloMosaic Idealize.ShloMosaic.TcCoe Idealize.ShloMosaic.ValueIdx
open Idealize.SL Idealize.SL.RA
open Idealize.ShloMosaic.Pipeline (Dat)
open Cert.KernelIdeal Cert.KernelIdeal.Gen

theorem col_at (v : Vec Ideal S256x1 .f32) (b : Fin 8) (o l : Fin 256) :
    broadcastTo S8x256x256 (shapeCast S1x256x1 (shapeCast S256x1 v shapeCasts_S256x1_S256x1) shapeCasts_S256x1_S1x256x1)
      broadcasts_S1x256x1_S8x256x256 (ix3 b o l) = v (ix2 o 0) := by
  refine (broadcastTo_apply _ _ (ix3 b o l) (ix3 0 o 0) ?_).trans ?_
  · intro a
    match a with
    | ⟨0, _⟩ => rfl
    | ⟨1, _⟩ => rfl
    | ⟨2, _⟩ => rfl
  · refine (shapeCast_apply _ _ (ix3 0 o 0) (ix2 o 0) ?_).trans ?_
    · rw [Shape.rowMajor_val_two, Shape.rowMajor_val_three]
      show o.val * 1 + 0 = (0 * 256 + o.val) * 1 + 0
      omega
    · exact congrFun (shapeCast_self v _) _

theorem pay1_at (x0 : Vec Ideal S8x256x256 .f32) (b : Fin 8) (o l : Fin 256) :
    k1_pay1 (F := Ideal) x0 (ix3 b o l) = x0 (ix3 b o l) := by
  unfold k1_pay1
  exact congrFun (shapeCast_self x0 _) _

theorem pay2_at (z0 : Vec Ideal S8x256x256 .bf16) (sc sh : Vec Ideal S256x1 .f32) (b : Fin 8) (o l : Fin 256) :
    k1_pay2 (F := Ideal) z0 sc sh (ix3 b o l) = z0 (ix3 b o l) * sc (ix2 o 0) + sh (ix2 o 0) := by
  unfold k1_pay2
  show shapeCast S8x256x256 z0 shapeCasts_S8x256x256_S8x256x256 (ix3 b o l)
        * broadcastTo S8x256x256 (shapeCast S1x256x1 (shapeCast S256x1 sc shapeCasts_S256x1_S256x1) shapeCasts_S256x1_S1x256x1) broadcasts_S1x256x1_S8x256x256 (ix3 b o l)
      + broadcastTo S8x256x256 (shapeCast S1x256x1 (shapeCast S256x1 sh shapeCasts_S256x1_S256x1) shapeCasts_S256x1_S1x256x1) broadcasts_S1x256x1_S8x256x256 (ix3 b o l) = _
  rw [col_at sc b o l, col_at sh b o l]
  exact congrArg (fun t => t * sc (ix2 o 0) + sh (ix2 o 0)) (congrFun (shapeCast_self z0 _) _)

def blockFn (x0 : Vec Ideal S8x256x256 .f32) (z0 : Vec Ideal S8x256x256 .bf16) (sc sh : Vec Ideal S256x1 .f32) :
    Vec Ideal S8x512x256 .f32 :=
  fun j => Cert.Spec.joined (fun o l => x0 (ix3 (j 0) o l)) (fun o l => z0 (ix3 (j 0) o l))
    (fun o => sc (ix2 o 0)) (fun o => sh (ix2 o 0)) (j 1) (j 2)

theorem blockFn_upper (x0 : Vec Ideal S8x256x256 .f32) (z0 : Vec Ideal S8x256x256 .bf16) (sc sh : Vec Ideal S256x1 .f32)
    (j : S8x512x256.Idx) (b : Fin 8) (o l : Fin 256)
    (h0 : (j 0).val = b.val) (h1 : (j 1).val = 256 + o.val) (h2 : (j 2).val = l.val) :
    blockFn x0 z0 sc sh j = z0 (ix3 b o l) * sc (ix2 o 0) + sh (ix2 o 0) := by
  unfold blockFn
  have e0 : j 0 = b := Fin.ext h0
  have e2 : j 2 = l := Fin.ext h2
  rw [joined_upper _ _ _ _ (j 1) (j 2) o h1]
  show z0 (ix3 (j 0) o (j 2)) * sc (ix2 o 0) + sh (ix2 o 0) = _
  rw [e0, e2]

theorem blockFn_lower (x0 : Vec Ideal S8x256x256 .f32) (z0 : Vec Ideal S8x256x256 .bf16) (sc sh : Vec Ideal S256x1 .f32)
    (j : S8x512x256.Idx) (b : Fin 8) (o l : Fin 256)
    (h0 : (j 0).val = b.val) (h1 : (j 1).val = o.val) (h2 : (j 2).val = l.val) :
    blockFn x0 z0 sc sh j = x0 (ix3 b o l) := by
  unfold blockFn
  have e0 : j 0 = b := Fin.ext h0
  have e2 : j 2 = l := Fin.ext h2
  rw [joined_lower _ _ _ _ (j 1) (j 2) o h1]
  show x0 (ix3 (j 0) o (j 2)) = _
  rw [e0, e2]

abbrev pieces (x0 : Vec Ideal S8x256x256 .f32) (z0 : Vec Ideal S8x256x256 .bf16) (sc sh : Vec Ideal S256x1 .f32)
    (inb2 : ∀ a, (![0, 256, 0] : Fin 3 → Nat) a + S8x256x256.size a ≤ S8x512x256.size a)
    (inb1 : ∀ a, (![0, 0, 0] : Fin 3 → Nat) a + S8x256x256.size a ≤ S8x512x256.size a) :
    List (View.Piece (Elt Ideal) S8x512x256 .f32) :=
  [⟨Rect.unit (s := S8x512x256) ![0, 256, 0] S8x256x256.size inb2, k1_pay2 (F := Ideal) z0 sc sh⟩,
   ⟨Rect.unit (s := S8x512x256) ![0, 0, 0] S8x256x256.size inb1, k1_pay1 (F := Ideal) x0⟩]

theorem block_eq (x0 : Vec Ideal S8x256x256 .f32) (z0 : Vec Ideal S8x256x256 .bf16) (sc sh : Vec Ideal S256x1 .f32)
    (inb2 : ∀ a, (![0, 256, 0] : Fin 3 → Nat) a + S8x256x256.size a ≤ S8x512x256.size a)
    (inb1 : ∀ a, (![0, 0, 0] : Fin 3 → Nat) a + S8x256x256.size a ≤ S8x512x256.size a) :
    View.canon (pieces x0 z0 sc sh inb2 inb1) = blockFn x0 z0 sc sh := by
  funext y
  refine View.canon_apply_of_pieces (blockFn x0 z0 sc sh) _ ?_ y ?_
  · intro p hp xx
    rcases List.mem_cons.mp hp with rfl | hp
    · obtain ⟨b, o, l, rfl⟩ : ∃ (b : Fin 8) (o l : Fin 256), xx = ix3 b o l := ⟨xx 0, xx 1, xx 2, eq_ix3 xx⟩
      refine (pay2_at z0 sc sh b o l).trans (blockFn_upper x0 z0 sc sh _ b o l ?_ ?_ ?_).symm
      · show 0 + 1 * b.val = b.val; omega
      · show 256 + 1 * o.val = 256 + o.val; omega
      · show 0 + 1 * l.val = l.val; omega
    · rcases List.mem_singleton.mp hp with rfl
      obtain ⟨b, o, l, rfl⟩ : ∃ (b : Fin 8) (o l : Fin 256), xx = ix3 b o l := ⟨xx 0, xx 1, xx 2, eq_ix3 xx⟩
      refine (pay1_at x0 b o l).trans (blockFn_lower x0 z0 sc sh _ b o l ?_ ?_ ?_).symm
      · show 0 + 1 * b.val = b.val; omega
      · show 0 + 1 * o.val = o.val; omega
      · show 0 + 1 * l.val = l.val; omega
  · have h0 : (y 0).val < 8 := (y 0).isLt
    have h1 : (y 1).val < 512 := (y 1).isLt
    have h2 : (y 2).val < 256 := (y 2).isLt
    by_cases hc : (y 1).val < 256
    · refine ⟨_, List.mem_cons_of_mem _ List.mem_cons_self, ?_⟩
      rw [Rect.mem_set_unit]
      intro a
      match a with
      | ⟨0, _⟩ => show 0 ≤ (y 0).val ∧ (y 0).val < 0 + 8; omega
      | ⟨1, _⟩ => show 0 ≤ (y 1).val ∧ (y 1).val < 0 + 256; omega
      | ⟨2, _⟩ => show 0 ≤ (y 2).val ∧ (y 2).val < 0 + 256; omega
    · refine ⟨_, List.mem_cons_self, ?_⟩
      rw [Rect.mem_set_unit]
      intro a
      match a with
      | ⟨0, _⟩ => show 0 ≤ (y 0).val ∧ (y 0).val < 0 + 8; omega
      | ⟨1, _⟩ => show 256 ≤ (y 1).val ∧ (y 1).val < 256 + 256; omega
      | ⟨2, _⟩ => show 0 ≤ (y 2).val ∧ (y 2).val < 0 + 256; omega

theorem idx_facts : ∀ t : Fin cfg1.N,
    win1_0.index t (0 : Fin 3) = win1_4.index t (0 : Fin 3) ∧ win1_0.index t (1 : Fin 3) = 0 ∧ win1_0.index t (2 : Fin 3) = 0
    ∧ win1_1.index t (0 : Fin 3) = win1_4.index t (0 : Fin 3) ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 3) = 0 ∧ win1_4.index t (2 : Fin 3) = 0 :=
  (by decide +kernel : ∀ t : Fin grid1.N, _)

theorem idx_onto : ∀ q : Fin 8, ∃ t : Fin cfg1.N, win1_4.index t = ![q.val, 0, 0] :=
  (by decide +kernel : ∀ q : Fin 8, ∃ t : Fin grid1.N, win1_4.index t = ![q.val, 0, 0])

section Array

variable {Ix : Type} [DecidableEq Ix] {Name : Type} [DecidableEq Name] {U : Type} [URA U] {Lvl : Type}
variable {c : Dev nD} (dat : Dat τ (Elt Ideal) Ix Name U Lvl cfg1 c)
variable (x : Vec Ideal S64x256x256 .f32) (z : Vec Ideal S64x256x256 .bf16) (sc sh : Vec Ideal S256x1 .f32)

abbrev xblk (t : Fin cfg1.N) : Vec Ideal S8x256x256 .f32 := ((cfg1.win 0).blk t).view.read (Elt Ideal) x
abbrev zblk (t : Fin cfg1.N) : Vec Ideal S8x256x256 .bf16 := ((cfg1.win 1).blk t).view.read (Elt Ideal) z
abbrev scblk (t : Fin cfg1.N) : Vec Ideal S256x1 .f32 := ((cfg1.win 2).blk t).view.read (Elt Ideal) sc
abbrev shblk (t : Fin cfg1.N) : Vec Ideal S256x1 .f32 := ((cfg1.win 3).blk t).view.read (Elt Ideal) sh

theorem flushed_eq
    (hafter : ∀ t : Fin cfg1.N, ∃ inb2 inb1, dat.after 4 t = View.canon (pieces (xblk x t) (zblk z t) (scblk sc t) (shblk sh t) inb2 inb1))
    (t : Fin cfg1.N) :
    dat.flushed 4 t = ((cfg1.win 4).blk t).view.read (Elt Ideal) (joinArr x z sc sh) := by
  show (cfg1.win 4).cut (grid1.coords t) (dat.after 4 t) = _
  obtain ⟨inb2, inb1, ha⟩ := hafter t
  rw [ha, block_eq]
  obtain ⟨a0, a1, a2, b0, b1, b2, c0, c1, d0, d1, e1, e2⟩ := idx_facts t
  funext j
  show blockFn (xblk x t) (zblk z t) (scblk sc t) (shblk sh t) j = joinArr x z sc sh (((cfg1.win 4).blk t).view.emb j)
  unfold blockFn joinArr
  refine joined_congr (fun o l => ?_) (fun o l => ?_) (fun o => ?_) (fun o => ?_) ?_ ?_
  · show x (((cfg1.win 0).blk t).view.emb (ix3 (j 0) o l)) = x (ix3 ((((cfg1.win 4).blk t).view.emb j) 0) o l)
    refine congrArg x (funext fun a => Fin.ext ?_)
    match a with
    | ⟨0, _⟩ => show win1_0.index t (0 : Fin 3) * 8 + 1 * (j 0).val = win1_4.index t (0 : Fin 3) * 8 + 1 * (j 0).val; omega
    | ⟨1, _⟩ => show win1_0.index t (1 : Fin 3) * 256 + 1 * o.val = o.val; omega
    | ⟨2, _⟩ => show win1_0.index t (2 : Fin 3) * 256 + 1 * l.val = l.val; omega
  · show z (((cfg1.win 1).blk t).view.emb (ix3 (j 0) o l)) = z (ix3 ((((cfg1.win 4).blk t).view.emb j) 0) o l)
    refine congrArg z (funext fun a => Fin.ext ?_)
    match a with
    | ⟨0, _⟩ => show win1_1.index t (0 : Fin 3) * 8 + 1 * (j 0).val = win1_4.index t (0 : Fin 3) * 8 + 1 * (j 0).val; omega
    | ⟨1, _⟩ => show win1_1.index t (1 : Fin 3) * 256 + 1 * o.val = o.val; omega
    | ⟨2, _⟩ => show win1_1.index t (2 : Fin 3) * 256 + 1 * l.val = l.val; omega
  · show sc (((cfg1.win 2).blk t).view.emb (ix2 o 0)) = sc (ix2 o 0)
    refine congrArg sc (funext fun a => Fin.ext ?_)
    match a with
    | ⟨0, _⟩ => show win1_2.index t (0 : Fin 2) * 256 + 1 * o.val = o.val; omega
    | ⟨1, _⟩ => show win1_2.index t (1 : Fin 2) * 1 + 1 * 0 = 0; omega
  · show sh (((cfg1.win 3).blk t).view.emb (ix2 o 0)) = sh (ix2 o 0)
    refine congrArg sh (funext fun a => Fin.ext ?_)
    match a with
    | ⟨0, _⟩ => show win1_3.index t (0 : Fin 2) * 256 + 1 * o.val = o.val; omega
    | ⟨1, _⟩ => show win1_3.index t (1 : Fin 2) * 1 + 1 * 0 = 0; omega
  · exact Fin.ext (show (j 1).val = win1_4.index t (1 : Fin 3) * 512 + 1 * (j 1).val by omega)
  · exact Fin.ext (show (j 2).val = win1_4.index t (2 : Fin 3) * 256 + 1 * (j 2).val by omega)

theorem mem_blk (t : Fin cfg1.N) (i : S64x512x256.Idx) :
    i ∈ ((cfg1.win 4).blk t).view.set ↔ ∀ a : Fin 3, win1_4.index t a * S8x512x256.size a ≤ (i a).val ∧ (i a).val < win1_4.index t a * S8x512x256.size a + S8x512x256.size a := by
  show i ∈ ((View.whole main_v175).slice (win1_4.rect t)).set ↔ _
  rw [View.set_slice_whole, Rect.mem_set_unit]
  exact Iff.rfl

theorem cover (i : S64x512x256.Idx) : ∃ t : Fin cfg1.N, (cfg1.win 4).flush t = true ∧ i ∈ ((cfg1.win 4).blk t).view.set := by
  have hi0 : (i 0).val < 64 := (i 0).isLt
  have hi1 : (i 1).val < 512 := (i 1).isLt
  have hi2 : (i 2).val < 256 := (i 2).isLt
  obtain ⟨t, ht⟩ := idx_onto ⟨(i 0).val / 8, by omega⟩
  have q0 : win1_4.index t (0 : Fin 3) = (i 0).val / 8 := congrFun ht 0
  have q1 : win1_4.index t (1 : Fin 3) = 0 := congrFun ht 1
  have q2 : win1_4.index t (2 : Fin 3) = 0 := congrFun ht 2
  refine ⟨t, flush1_4 t, ?_⟩
  rw [mem_blk]
  intro a
  match a with
  | ⟨0, _⟩ => show win1_4.index t (0 : Fin 3) * 8 ≤ (i 0).val ∧ (i 0).val < win1_4.index t (0 : Fin 3) * 8 + 8; omega
  | ⟨1, _⟩ => show win1_4.index t (1 : Fin 3) * 512 ≤ (i 1).val ∧ (i 1).val < win1_4.index t (1 : Fin 3) * 512 + 512; omega
  | ⟨2, _⟩ => show win1_4.index t (2 : Fin 3) * 256 ≤ (i 2).val ∧ (i 2).val < win1_4.index t (2 : Fin 3) * 256 + 256; omega

theorem arr_eq
    (hafter : ∀ t : Fin cfg1.N, ∃ inb2 inb1, dat.after 4 t = View.canon (pieces (xblk x t) (zblk z t) (scblk sc t) (shblk sh t) inb2 inb1)) :
    dat.arrAt 4 cfg1.N = joinArr x z sc sh :=
  dat.arrAt_eq_of_cover 4 (joinArr x z sc sh) (fun t _ => flushed_eq dat x z sc sh hafter t) cover

end Array

end Cert.Val.Tail.K

end
-- ==== Proof.Val.TailOutK.lean ====
import proofs.«125054_g2000703033488327_pallasbulk_1155_2_alg».proof.Proof.KI.Run
import proofs.«125054_g2000703033488327_pallasbulk_1155_2_alg».proof.Proof.Val.TailChain
import proofs.«125054_g2000703033488327_pallasbulk_1155_2_alg».proof.Proof.Val.TailJoinK

set_option maxRecDepth 16384

noncomputable section

namespace Cert.Val.Tail

open Idealize.ShloMosaic Idealize.ShloMosaic.TcCoe Idealize.ShloMosaic.ValueIdx Idealize.ShloMosaic.Tactic
open Idealize.SL Idealize.SL.Sem

namespace KSide

open Cert.KernelIdeal Cert.KernelIdeal.Gen Cert.KernelIdeal.Hand

variable (m : (ℓ : Loc nD τ sig) → Buf (Elt Ideal) ℓ) (ρ : Dev nD → PrngReg)

theorem W6_arg0 (c : Dev nD) : W6 m ρ c (Proc.devRef .tc main_arg0) = m ((c : Thread nD τ).loc main_arg0) :=
  calc W6 m ρ c (Proc.devRef .tc main_arg0)
    _ = W5 m ρ c (Proc.devRef .tc main_arg0) := Wexit0_of_ne m ρ c main_arg0 (by decide)
    _ = W4 m ρ c (Proc.devRef .tc main_arg0) := W5_of m ρ c main_arg0 (by decide)
    _ = W3 m ρ c (Proc.devRef .tc main_arg0) := W4_of m ρ c main_arg0 (by decide)
    _ = W2 m ρ c (Proc.devRef .tc main_arg0) := W3_of m ρ c main_arg0 (by decide)
    _ = W1 m ρ c (Proc.devRef .tc main_arg0) := W2_of m ρ c main_arg0 (by decide)
    _ = W0 m ρ c (Proc.devRef .tc main_arg0) := W1_of m ρ c main_arg0 (by decide)
    _ = m ((c : Thread nD τ).loc main_arg0) := rfl

theorem W6_arg3 (c : Dev nD) : W6 m ρ c (Proc.devRef .tc main_arg3) = m ((c : Thread nD τ).loc main_arg3) :=
  calc W6 m ρ c (Proc.devRef .tc main_arg3)
    _ = W5 m ρ c (Proc.devRef .tc main_arg3) := Wexit0_of_ne m ρ c main_arg3 (by decide)
    _ = W4 m ρ c (Proc.devRef .tc main_arg3) := W5_of m ρ c main_arg3 (by decide)
    _ = W3 m ρ c (Proc.devRef .tc main_arg3) := W4_of m ρ c main_arg3 (by decide)
    _ = W2 m ρ c (Proc.devRef .tc main_arg3) := W3_of m ρ c main_arg3 (by decide)
    _ = W1 m ρ c (Proc.devRef .tc main_arg3) := W2_of m ρ c main_arg3 (by decide)
    _ = W0 m ρ c (Proc.devRef .tc main_arg3) := W1_of m ρ c main_arg3 (by decide)
    _ = m ((c : Thread nD τ).loc main_arg3) := rfl

theorem W6_arg4 (c : Dev nD) : W6 m ρ c (Proc.devRef .tc main_arg4) = m ((c : Thread nD τ).loc main_arg4) :=
  calc W6 m ρ c (Proc.devRef .tc main_arg4)
    _ = W5 m ρ c (Proc.devRef .tc main_arg4) := Wexit0_of_ne m ρ c main_arg4 (by decide)
    _ = W4 m ρ c (Proc.devRef .tc main_arg4) := W5_of m ρ c main_arg4 (by decide)
    _ = W3 m ρ c (Proc.devRef .tc main_arg4) := W4_of m ρ c main_arg4 (by decide)
    _ = W2 m ρ c (Proc.devRef .tc main_arg4) := W3_of m ρ c main_arg4 (by decide)
    _ = W1 m ρ c (Proc.devRef .tc main_arg4) := W2_of m ρ c main_arg4 (by decide)
    _ = W0 m ρ c (Proc.devRef .tc main_arg4) := W1_of m ρ c main_arg4 (by decide)
    _ = m ((c : Thread nD τ).loc main_arg4) := rfl

theorem hz3 : (![0, 0, 0] : Fin 3 → Nat) = fun _ => 0 := funext fun a => by fin_cases a <;> rfl
theorem hz2 : (![0, 0] : Fin 2 → Nat) = fun _ => 0 := funext fun a => by fin_cases a <;> rfl

theorem run1_pieces (c : Dev nD) (i : grid1.Coords) (arg1 : Memref sig .tc .vmem S8x256x256 .f32) (harg1 : arg1.IsWhole) (arg2 : Memref sig .tc .vmem S8x256x256 .bf16) (harg2 : arg2.IsWhole) (arg3 : Memref sig .tc .vmem S256x1 .f32) (harg3 : arg3.IsWhole) (arg4 : Memref sig .tc .vmem S256x1 .f32) (harg4 : arg4.IsWhole) (arg5 : Memref sig .tc .vmem S8x512x256 .f32) (harg5 : arg5.IsWhole)
    (x0 : Vec Ideal S8x256x256 .f32) (x1 : Vec Ideal S8x256x256 .bf16) (x2 : Vec Ideal S256x1 .f32) (x3 : Vec Ideal S256x1 .f32) :
    (kernelRun1 (F := Ideal) c i arg1 harg1 arg2 harg2 arg3 harg3 arg4 harg4 arg5 harg5 x0 x1 x2 x3).1
      = K.pieces x0 x1 x2 x3 inb_S8x512x256_S8x256x256_0_256_0 inb_S8x512x256_S8x256x256_0_0_0 := by
  unfold kernelRun1
  dsimp only
  sl_unfold_words
  simp only [View.readAt_eq_ld, harg1.read_unread, harg2.read_unread, harg3.read_unread, harg4.read_unread,
    View.ld_unit_zero (S := S8x256x256) hz3, View.ld_unit_zero (S := S256x1) hz2]
  try rfl

theorem hafter (V : (c : Dev nD) → (b : Ref sig .tc) → Buf (Elt Ideal) ((c : Thread nD τ).loc b)) (c : Dev nD) (t : Fin cfg1.N) :
    ∃ inb2 inb1, (dat1 (F := Ideal) V c).after 4 t
      = View.canon (K.pieces (K.xblk (V c main_v174) t) (K.zblk (V c main_v152_0) t) (K.scblk (V c main_v169) t) (K.shblk (V c main_v173) t) inb2 inb1) := by
  refine ⟨inb_S8x512x256_S8x256x256_0_256_0, inb_S8x512x256_S8x256x256_0_0_0, ?_⟩
  rw [after1_4]
  unfold out1_4
  rw [View.read_writes_eq_canon _ _ _ (cover1_4 c t _ _ _ _)]
  exact congrArg View.canon (run1_pieces c (grid1.coords t) (ms1_0 t) (hs1_0 t) (ms1_1 t) (hs1_1 t) (ms1_2 t) (hs1_2 t) (ms1_3 t) (hs1_3 t) (ms1_4 t) (hs1_4 t)
    (iblk1 V c 0 t) (iblk1 V c 1 t) (iblk1 V c 2 t) (iblk1 V c 3 t))

theorem W9_out (c : Dev nD) :
    W9 m ρ c (Proc.devRef .tc main_v175)
      = joinArr (flatX (m ((c : Thread nD τ).loc main_arg0))) (W6 m ρ c (Proc.devRef .tc main_v152_0))
          (bnChain (W6 m ρ c (Proc.devRef .tc main_v152_1)) (W6 m ρ c (Proc.devRef .tc main_v152_2)) (m ((c : Thread nD τ).loc main_arg3)) (m ((c : Thread nD τ).loc main_arg4))).1
          (bnChain (W6 m ρ c (Proc.devRef .tc main_v152_1)) (W6 m ρ c (Proc.devRef .tc main_v152_2)) (m ((c : Thread nD τ).loc main_arg3)) (m ((c : Thread nD τ).loc main_arg4))).2 := by
  refine (Wexit1_arr m ρ c 4).trans ?_
  refine (K.arr_eq (dat1 (F := Ideal) (Ventry1 m ρ) c) (Ventry1 m ρ c main_v174) (Ventry1 m ρ c main_v152_0) (Ventry1 m ρ c main_v169) (Ventry1 m ρ c main_v173)
    (hafter (Ventry1 m ρ) c)).trans ?_
  have ex : Ventry1 m ρ c main_v174 = flatX (m ((c : Thread nD τ).loc main_arg0)) :=
    (entryK_x (W6 m ρ c)).trans (congrArg flatX (W6_arg0 m ρ c))
  have ez : Ventry1 m ρ c main_v152_0 = W6 m ρ c (Proc.devRef .tc main_v152_0) := entryK_z (W6 m ρ c)
  have esc : Ventry1 m ρ c main_v169 = (bnChain (W6 m ρ c (Proc.devRef .tc main_v152_1)) (W6 m ρ c (Proc.devRef .tc main_v152_2)) (m ((c : Thread nD τ).loc main_arg3)) (m ((c : Thread nD τ).loc main_arg4))).1 := by
    refine (entryK_scale (W6 m ρ c)).trans ?_
    rw [W6_arg3 m ρ c, W6_arg4 m ρ c]
  have esh : Ventry1 m ρ c main_v173 = (bnChain (W6 m ρ c (Proc.devRef .tc main_v152_1)) (W6 m ρ c (Proc.devRef .tc main_v152_2)) (m ((c : Thread nD τ).loc main_arg3)) (m ((c : Thread nD τ).loc main_arg4))).2 := by
    refine (entryK_shift (W6 m ρ c)).trans ?_
    rw [W6_arg3 m ρ c, W6_arg4 m ρ c]
  rw [ex, ez, esc, esh]

theorem W10_out (c : Dev nD) :
    W10 m ρ c (Proc.devRef .tc main_v176)
      = unflat (joinArr (flatX (m ((c : Thread nD τ).loc main_arg0))) (W6 m ρ c (Proc.devRef .tc main_v152_0))
          (bnChain (W6 m ρ c (Proc.devRef .tc main_v152_1)) (W6 m ρ c (Proc.devRef .tc main_v152_2)) (m ((c : Thread nD τ).loc main_arg3)) (m ((c : Thread nD τ).loc main_arg4))).1
          (bnChain (W6 m ρ c (Proc.devRef .tc main_v152_1)) (W6 m ρ c (Proc.devRef .tc main_v152_2)) (m ((c : Thread nD τ).loc main_arg3)) (m ((c : Thread nD τ).loc main_arg4))).2) := by
  have h : W10 m ρ c (Proc.devRef .tc main_v176) = unflat (W9 m ρ c (Proc.devRef .tc main_v175)) := by
    show StableHlo.after (main_part3_ops1 (F := Ideal)) (W9 m ρ c) (Proc.devRef .tc main_v176) = _
    after_results
    rfl
  rw [h, W9_out m ρ c]

end KSide

end Cert.Val.Tail

end
-- ==== Proof.Val.TailJoinR.lean ====
import proofs.«125054_g2000703033488327_pallasbulk_1155_2_alg».proof.Proof.Gen.ReferenceIdeal.Launch
import proofs.«125054_g2000703033488327_pallasbulk_1155_2_alg».proof.Proof.Gen.ReferenceIdeal.Skeleton
import proofs.«125054_g2000703033488327_pallasbulk_1155_2_alg».proof.Proof.Gen.ReferenceIdeal.Points
import proofs.«125054_g2000703033488327_pallasbulk_1155_2_alg».proof.Proof.Val.TailSpec
import Idealize.ShloMosaic.Lib.ValueIdx
import Idealize.ShloMosaic.Lib.Pipeline.Value

set_option maxRecDepth 16384

noncomputable section

namespace Cert.Val.Tail.R

open Idealize.ShloMosaic Idealize.ShloMosaic.TcCoe Idealize.ShloMosaic.ValueIdx
open Idealize.SL Idealize.SL.RA
open Idealize.ShloMosaic.Pipeline (Dat)
open Cert.ReferenceIdeal Cert.ReferenceIdeal.Gen

theorem col_at (v : Vec Ideal S256x1 .f32) (o l : Fin 256) :
    broadcastTo S256x256 (shapeCast S256x1 v shapeCasts_S256x1_S256x1) broadcasts_S256x1_S256x256 (ix2 o l) = v (ix2 o 0) := by
  refine (broadcastTo_apply _ _ (ix2 o l) (ix2 o 0) ?_).trans ?_
  · intro a
    match a with
    | ⟨0, _⟩ => rfl
    | ⟨1, _⟩ => rfl
  · exact congrFun (shapeCast_self v _) _

theorem pay1_at (x0 : Vec Ideal S1x256x256 .f32) (b : Fin 1) (o l : Fin 256) :
    k1_pay1 (F := Ideal) x0 (ix3 b o l) = x0 (ix3 b o l) := by
  unfold k1_pay1
  exact congrFun (shapeCast_shapeCast x0 _ _) _

theorem pay2_at (z0 : Vec Ideal S1x256x256 .f32) (sc sh : Vec Ideal S256x1 .f32) (b : Fin 1) (o l : Fin 256) :
    k1_pay2 (F := Ideal) z0 sc sh (ix3 b o l) = z0 (ix3 b o l) * sc (ix2 o 0) + sh (ix2 o 0) := by
  unfold k1_pay2
  have hb : b.val = 0 := by have := b.isLt; omega
  show shapeCast S1x256x256
      (addf (F := Ideal) (s := S256x256) (φ := .f32)
        (mulf (F := Ideal) (s := S256x256) (φ := .f32) (shapeCast S256x256 z0 shapeCasts_S1x256x256_S256x256)
          (broadcastTo S256x256 (shapeCast S256x1 sc shapeCasts_S256x1_S256x1) broadcasts_S256x1_S256x256))
        (broadcastTo S256x256 (shapeCast S256x1 sh shapeCasts_S256x1_S256x1) broadcasts_S256x1_S256x256))
      shapeCasts_S256x256_S1x256x256 (ix3 b o l) = _
  refine (shapeCast_apply _ _ (ix3 b o l) (ix2 o l) ?_).trans ?_
  · rw [Shape.rowMajor_val_two, Shape.rowMajor_val_three]
    show o.val * 256 + l.val = (b.val * 256 + o.val) * 256 + l.val
    rw [hb]; omega
  · show shapeCast S256x256 z0 shapeCasts_S1x256x256_S256x256 (ix2 o l)
        * broadcastTo S256x256 (shapeCast S256x1 sc shapeCasts_S256x1_S256x1) broadcasts_S256x1_S256x256 (ix2 o l)
      + broadcastTo S256x256 (shapeCast S256x1 sh shapeCasts_S256x1_S256x1) broadcasts_S256x1_S256x256 (ix2 o l) = _
    rw [col_at sc o l, col_at sh o l]
    refine congrArg (fun t => t * sc (ix2 o 0) + sh (ix2 o 0)) ?_
    refine shapeCast_apply _ _ (ix2 o l) (ix3 b o l) ?_
    rw [Shape.rowMajor_val_two, Shape.rowMajor_val_three]
    show (b.val * 256 + o.val) * 256 + l.val = o.val * 256 + l.val
    rw [hb]; omega

def blockFn (x0 : Vec Ideal S1x256x256 .f32) (z0 : Vec Ideal S1x256x256 .f32) (sc sh : Vec Ideal S256x1 .f32) :
    Vec Ideal S1x512x256 .f32 :=
  fun j => Cert.Spec.joined (fun o l => x0 (ix3 (j 0) o l)) (fun o l => z0 (ix3 (j 0) o l))
    (fun o => sc (ix2 o 0)) (fun o => sh (ix2 o 0)) (j 1) (j 2)

theorem blockFn_upper (x0 : Vec Ideal S1x256x256 .f32) (z0 : Vec Ideal S1x256x256 .f32) (sc sh : Vec Ideal S256x1 .f32)
    (j : S1x512x256.Idx) (b : Fin 1) (o l : Fin 256)
    (h0 : (j 0).val = b.val) (h1 : (j 1).val = 256 + o.val) (h2 : (j 2).val = l.val) :
    blockFn x0 z0 sc sh j = z0 (ix3 b o l) * sc (ix2 o 0) + sh (ix2 o 0) := by
  unfold blockFn
  have e0 : j 0 = b := Fin.ext h0
  have e2 : j 2 = l := Fin.ext h2
  rw [joined_upper _ _ _ _ (j 1) (j 2) o h1]
  show z0 (ix3 (j 0) o (j 2)) * sc (ix2 o 0) + sh (ix2 o 0) = _
  rw [e0, e2]

theorem blockFn_lower (x0 : Vec Ideal S1x256x256 .f32) (z0 : Vec Ideal S1x256x256 .f32) (sc sh : Vec Ideal S256x1 .f32)
    (j : S1x512x256.Idx) (b : Fin 1) (o l : Fin 256)
    (h0 : (j 0).val = b.val) (h1 : (j 1).val = o.val) (h2 : (j 2).val = l.val) :
    blockFn x0 z0 sc sh j = x0 (ix3 b o l) := by
  unfold blockFn
  have e0 : j 0 = b := Fin.ext h0
  have e2 : j 2 = l := Fin.ext h2
  rw [joined_lower _ _ _ _ (j 1) (j 2) o h1]
  show x0 (ix3 (j 0) o (j 2)) = _
  rw [e0, e2]

abbrev pieces (x0 : Vec Ideal S1x256x256 .f32) (z0 : Vec Ideal S1x256x256 .f32) (sc sh : Vec Ideal S256x1 .f32)
    (inb2 : ∀ a, (![0, 256, 0] : Fin 3 → Nat) a + S1x256x256.size a ≤ S1x512x256.size a)
    (inb1 : ∀ a, (![0, 0, 0] : Fin 3 → Nat) a + S1x256x256.size a ≤ S1x512x256.size a) :
    List (View.Piece (Elt Ideal) S1x512x256 .f32) :=
  [⟨Rect.unit (s := S1x512x256) ![0, 256, 0] S1x256x256.size inb2, k1_pay2 (F := Ideal) z0 sc sh⟩,
   ⟨Rect.unit (s := S1x512x256) ![0, 0, 0] S1x256x256.size inb1, k1_pay1 (F := Ideal) x0⟩]

theorem block_eq (x0 : Vec Ideal S1x256x256 .f32) (z0 : Vec Ideal S1x256x256 .f32) (sc sh : Vec Ideal S256x1 .f32)
    (inb2 : ∀ a, (![0, 256, 0] : Fin 3 → Nat) a + S1x256x256.size a ≤ S1x512x256.size a)
    (inb1 : ∀ a, (![0, 0, 0] : Fin 3 → Nat) a + S1x256x256.size a ≤ S1x512x256.size a) :
    View.canon (pieces x0 z0 sc sh inb2 inb1) = blockFn x0 z0 sc sh := by
  funext y
  refine View.canon_apply_of_pieces (blockFn x0 z0 sc sh) _ ?_ y ?_
  · intro p hp xx
    rcases List.mem_cons.mp hp with rfl | hp
    · obtain ⟨b, o, l, rfl⟩ : ∃ (b : Fin 1) (o l : Fin 256), xx = ix3 b o l := ⟨xx 0, xx 1, xx 2, eq_ix3 xx⟩
      refine (pay2_at z0 sc sh b o l).trans (blockFn_upper x0 z0 sc sh _ b o l ?_ ?_ ?_).symm
      · show 0 + 1 * b.val = b.val; omega
      · show 256 + 1 * o.val = 256 + o.val; omega
      · show 0 + 1 * l.val = l.val; omega
    · rcases List.mem_singleton.mp hp with rfl
      obtain ⟨b, o, l, rfl⟩ : ∃ (b : Fin 1) (o l : Fin 256), xx = ix3 b o l := ⟨xx 0, xx 1, xx 2, eq_ix3 xx⟩
      refine (pay1_at x0 b o l).trans (blockFn_lower x0 z0 sc sh _ b o l ?_ ?_ ?_).symm
      · show 0 + 1 * b.val = b.val; omega
      · show 0 + 1 * o.val = o.val; omega
      · show 0 + 1 * l.val = l.val; omega
  · have h0 : (y 0).val < 1 := (y 0).isLt
    have h1 : (y 1).val < 512 := (y 1).isLt
    have h2 : (y 2).val < 256 := (y 2).isLt
    by_cases hc : (y 1).val < 256
    · refine ⟨_, List.mem_cons_of_mem _ List.mem_cons_self, ?_⟩
      rw [Rect.mem_set_unit]
      intro a
      match a with
      | ⟨0, _⟩ => show 0 ≤ (y 0).val ∧ (y 0).val < 0 + 1; omega
      | ⟨1, _⟩ => show 0 ≤ (y 1).val ∧ (y 1).val < 0 + 256; omega
      | ⟨2, _⟩ => show 0 ≤ (y 2).val ∧ (y 2).val < 0 + 256; omega
    · refine ⟨_, List.mem_cons_self, ?_⟩
      rw [Rect.mem_set_unit]
      intro a
      match a with
      | ⟨0, _⟩ => show 0 ≤ (y 0).val ∧ (y 0).val < 0 + 1; omega
      | ⟨1, _⟩ => show 256 ≤ (y 1).val ∧ (y 1).val < 256 + 256; omega
      | ⟨2, _⟩ => show 0 ≤ (y 2).val ∧ (y 2).val < 0 + 256; omega

theorem idx_facts : ∀ t : Fin cfg1.N,
    win1_0.index t (0 : Fin 3) = win1_4.index t (0 : Fin 3) ∧ win1_0.index t (1 : Fin 3) = 0 ∧ win1_0.index t (2 : Fin 3) = 0
    ∧ win1_1.index t (0 : Fin 3) = win1_4.index t (0 : Fin 3) ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 3) = 0 ∧ win1_4.index t (2 : Fin 3) = 0 :=
  (by decide +kernel : ∀ t : Fin grid1.N, _)

theorem idx_onto : ∀ q : Fin 64, ∃ t : Fin cfg1.N, win1_4.index t = ![q.val, 0, 0] :=
  (by decide +kernel : ∀ q : Fin 64, ∃ t : Fin grid1.N, win1_4.index t = ![q.val, 0, 0])

section Array

variable {Ix : Type} [DecidableEq Ix] {Name : Type} [DecidableEq Name] {U : Type} [URA U] {Lvl : Type}
variable {c : Dev nD} (dat : Dat τ (Elt Ideal) Ix Name U Lvl cfg1 c)
variable (x : Vec Ideal S64x256x256 .f32) (z : Vec Ideal S64x256x256 .f32) (sc sh : Vec Ideal S256x1 .f32)

abbrev xblk (t : Fin cfg1.N) : Vec Ideal S1x256x256 .f32 := ((cfg1.win 0).blk t).view.read (Elt Ideal) x
abbrev zblk (t : Fin cfg1.N) : Vec Ideal S1x256x256 .f32 := ((cfg1.win 1).blk t).view.read (Elt Ideal) z
abbrev scblk (t : Fin cfg1.N) : Vec Ideal S256x1 .f32 := ((cfg1.win 2).blk t).view.read (Elt Ideal) sc
abbrev shblk (t : Fin cfg1.N) : Vec Ideal S256x1 .f32 := ((cfg1.win 3).blk t).view.read (Elt Ideal) sh

theorem flushed_eq
    (hafter : ∀ t : Fin cfg1.N, ∃ inb2 inb1, dat.after 4 t = View.canon (pieces (xblk x t) (zblk z t) (scblk sc t) (shblk sh t) inb2 inb1))
    (t : Fin cfg1.N) :
    dat.flushed 4 t = ((cfg1.win 4).blk t).view.read (Elt Ideal) (joinArr x z sc sh) := by
  show (cfg1.win 4).cut (grid1.coords t) (dat.after 4 t) = _
  obtain ⟨inb2, inb1, ha⟩ := hafter t
  rw [ha, block_eq]
  obtain ⟨a0, a1, a2, b0, b1, b2, c0, c1, d0, d1, e1, e2⟩ := idx_facts t
  funext j
  show blockFn (xblk x t) (zblk z t) (scblk sc t) (shblk sh t) j = joinArr x z sc sh (((cfg1.win 4).blk t).view.emb j)
  unfold blockFn joinArr
  refine joined_congr (fun o l => ?_) (fun o l => ?_) (fun o => ?_) (fun o => ?_) ?_ ?_
  · show x (((cfg1.win 0).blk t).view.emb (ix3 (j 0) o l)) = x (ix3 ((((cfg1.win 4).blk t).view.emb j) 0) o l)
    refine congrArg x (funext fun a => Fin.ext ?_)
    match a with
    | ⟨0, _⟩ => show win1_0.index t (0 : Fin 3) * 1 + 1 * (j 0).val = win1_4.index t (0 : Fin 3) * 1 + 1 * (j 0).val; omega
    | ⟨1, _⟩ => show win1_0.index t (1 : Fin 3) * 256 + 1 * o.val = o.val; omega
    | ⟨2, _⟩ => show win1_0.index t (2 : Fin 3) * 256 + 1 * l.val = l.val; omega
  · show z (((cfg1.win 1).blk t).view.emb (ix3 (j 0) o l)) = z (ix3 ((((cfg1.win 4).blk t).view.emb j) 0) o l)
    refine congrArg z (funext fun a => Fin.ext ?_)
    match a with
    | ⟨0, _⟩ => show win1_1.index t (0 : Fin 3) * 1 + 1 * (j 0).val = win1_4.index t (0 : Fin 3) * 1 + 1 * (j 0).val; omega
    | ⟨1, _⟩ => show win1_1.index t (1 : Fin 3) * 256 + 1 * o.val = o.val; omega
    | ⟨2, _⟩ => show win1_1.index t (2 : Fin 3) * 256 + 1 * l.val = l.val; omega
  · show sc (((cfg1.win 2).blk t).view.emb (ix2 o 0)) = sc (ix2 o 0)
    refine congrArg sc (funext fun a => Fin.ext ?_)
    match a with
    | ⟨0, _⟩ => show win1_2.index t (0 : Fin 2) * 256 + 1 * o.val = o.val; omega
    | ⟨1, _⟩ => show win1_2.index t (1 : Fin 2) * 1 + 1 * 0 = 0; omega
  · show sh (((cfg1.win 3).blk t).view.emb (ix2 o 0)) = sh (ix2 o 0)
    refine congrArg sh (funext fun a => Fin.ext ?_)
    match a with
    | ⟨0, _⟩ => show win1_3.index t (0 : Fin 2) * 256 + 1 * o.val = o.val; omega
    | ⟨1, _⟩ => show win1_3.index t (1 : Fin 2) * 1 + 1 * 0 = 0; omega
  · exact Fin.ext (show (j 1).val = win1_4.index t (1 : Fin 3) * 512 + 1 * (j 1).val by omega)
  · exact Fin.ext (show (j 2).val = win1_4.index t (2 : Fin 3) * 256 + 1 * (j 2).val by omega)

theorem mem_blk (t : Fin cfg1.N) (i : S64x512x256.Idx) :
    i ∈ ((cfg1.win 4).blk t).view.set ↔ ∀ a : Fin 3, win1_4.index t a * S1x512x256.size a ≤ (i a).val ∧ (i a).val < win1_4.index t a * S1x512x256.size a + S1x512x256.size a := by
  show i ∈ ((View.whole main_v188).slice (win1_4.rect t)).set ↔ _
  rw [View.set_slice_whole, Rect.mem_set_unit]
  exact Iff.rfl

theorem cover (i : S64x512x256.Idx) : ∃ t : Fin cfg1.N, (cfg1.win 4).flush t = true ∧ i ∈ ((cfg1.win 4).blk t).view.set := by
  have hi0 : (i 0).val < 64 := (i 0).isLt
  have hi1 : (i 1).val < 512 := (i 1).isLt
  have hi2 : (i 2).val < 256 := (i 2).isLt
  obtain ⟨t, ht⟩ := idx_onto ⟨(i 0).val / 1, by omega⟩
  have q0 : win1_4.index t (0 : Fin 3) = (i 0).val / 1 := congrFun ht 0
  have q1 : win1_4.index t (1 : Fin 3) = 0 := congrFun ht 1
  have q2 : win1_4.index t (2 : Fin 3) = 0 := congrFun ht 2
  refine ⟨t, flush1_4 t, ?_⟩
  rw [mem_blk]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 512 ≤ (i 1).val ∧ (i 1).val < win1_4.index t (1 : Fin 3) * 512 + 512; omega
  | ⟨2, _⟩ => show win1_4.index t (2 : Fin 3) * 256 ≤ (i 2).val ∧ (i 2).val < win1_4.index t (2 : Fin 3) * 256 + 256; omega

theorem arr_eq
    (hafter : ∀ t : Fin cfg1.N, ∃ inb2 inb1, dat.after 4 t = View.canon (pieces (xblk x t) (zblk z t) (scblk sc t) (shblk sh t) inb2 inb1)) :
    dat.arrAt 4 cfg1.N = joinArr x z sc sh :=
  dat.arrAt_eq_of_cover 4 (joinArr x z sc sh) (fun t _ => flushed_eq dat x z sc sh hafter t) cover

end Array

end Cert.Val.Tail.R

end
-- ==== Proof.Val.TailOutR.lean ====
import proofs.«125054_g2000703033488327_pallasbulk_1155_2_alg».proof.Proof.RI.Run
import proofs.«125054_g2000703033488327_pallasbulk_1155_2_alg».proof.Proof.Val.TailChain
import proofs.«125054_g2000703033488327_pallasbulk_1155_2_alg».proof.Proof.Val.TailJoinR

set_option maxRecDepth 16384

noncomputable section

namespace Cert.Val.Tail

open Idealize.ShloMosaic Idealize.ShloMosaic.TcCoe Idealize.ShloMosaic.ValueIdx Idealize.ShloMosaic.Tactic
open Idealize.SL Idealize.SL.Sem

namespace RSide

open Cert.ReferenceIdeal Cert.ReferenceIdeal.Gen Cert.ReferenceIdeal.Hand

variable (m : (ℓ : Loc nD τ sig) → Buf (Elt Ideal) ℓ) (ρ : Dev nD → PrngReg)

theorem W7_keeps (c : Dev nD) (r : Ref sig .tc) (hr : r ∈ argRefs) (h0 : ∀ w, Pipeline.arrRef spec0 w ≠ r) :
    W7 m ρ c (Proc.devRef .tc r) = m ((c : Thread nD τ).loc r) :=
  calc W7 m ρ c (Proc.devRef .tc r)
    _ = W6 m ρ c (Proc.devRef .tc r) := Wexit0_of_ne m ρ c r h0
    _ = W5 m ρ c (Proc.devRef .tc r) := (keeps_all (F := Ideal)).2.2.2.2.2.1 r hr _
    _ = W4 m ρ c (Proc.devRef .tc r) := (keeps_all (F := Ideal)).2.2.2.2.1 r hr _
    _ = W3 m ρ c (Proc.devRef .tc r) := (keeps_all (F := Ideal)).2.2.2.1 r hr _
    _ = W2 m ρ c (Proc.devRef .tc r) := (keeps_all (F := Ideal)).2.2.1 r hr _
    _ = W1 m ρ c (Proc.devRef .tc r) := (keeps_all (F := Ideal)).2.1 r hr _
    _ = W0 m ρ c (Proc.devRef .tc r) := (keeps_all (F := Ideal)).1 r hr _
    _ = m ((c : Thread nD τ).loc r) := rfl

theorem W7_arg0 (c : Dev nD) : W7 m ρ c (Proc.devRef .tc main_arg0) = m ((c : Thread nD τ).loc main_arg0) :=
  W7_keeps m ρ c main_arg0 (by decide) (by decide)
theorem W7_arg3 (c : Dev nD) : W7 m ρ c (Proc.devRef .tc main_arg3) = m ((c : Thread nD τ).loc main_arg3) :=
  W7_keeps m ρ c main_arg3 (by decide) (by decide)
theorem W7_arg4 (c : Dev nD) : W7 m ρ c (Proc.devRef .tc main_arg4) = m ((c : Thread nD τ).loc main_arg4) :=
  W7_keeps m ρ c main_arg4 (by decide) (by decide)

theorem hz3 : (![0, 0, 0] : Fin 3 → Nat) = fun _ => 0 := funext fun a => by fin_cases a <;> rfl
theorem hz2 : (![0, 0] : Fin 2 → Nat) = fun _ => 0 := funext fun a => by fin_cases a <;> rfl

theorem run1_pieces (c : Dev nD) (i : grid1.Coords) (arg1 : Memref sig .tc .vmem S1x256x256 .f32) (harg1 : arg1.IsWhole) (arg2 : Memref sig .tc .vmem S1x256x256 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x512x256 .f32) (harg5 : arg5.IsWhole)
    (x0 : Vec Ideal S1x256x256 .f32) (x1 : Vec Ideal S1x256x256 .f32) (x2 : Vec Ideal S256x1 .f32) (x3 : Vec Ideal S256x1 .f32) :
    (kernelRun1 (F := Ideal) c i arg1 harg1 arg2 harg2 arg3 harg3 arg4 harg4 arg5 harg5 x0 x1 x2 x3).1
      = R.pieces x0 x1 x2 x3 inb_S1x512x256_S1x256x256_0_256_0 inb_S1x512x256_S1x256x256_0_0_0 := by
  unfold kernelRun1
  dsimp only
  sl_unfold_words
  simp only [View.readAt_eq_ld, harg1.read_unread, harg2.read_unread, harg3.read_unread, harg4.read_unread,
    View.ld_unit_zero (S := S1x256x256) hz3, View.ld_unit_zero (S := S256x1) hz2]
  try rfl

theorem hafter (V : (c : Dev nD) → (b : Ref sig .tc) → Buf (Elt Ideal) ((c : Thread nD τ).loc b)) (c : Dev nD) (t : Fin cfg1.N) :
    ∃ inb2 inb1, (dat1 (F := Ideal) V c).after 4 t
      = View.canon (R.pieces (R.xblk (V c main_v187) t) (R.zblk (V c main_v165_0) t) (R.scblk (V c main_v182) t) (R.shblk (V c main_v186) t) inb2 inb1) := by
  refine ⟨inb_S1x512x256_S1x256x256_0_256_0, inb_S1x512x256_S1x256x256_0_0_0, ?_⟩
  rw [after1_4]
  unfold out1_4
  rw [View.read_writes_eq_canon _ _ _ (cover1_4 c t _ _ _ _)]
  exact congrArg View.canon (run1_pieces c (grid1.coords t) (ms1_0 t) (hs1_0 t) (ms1_1 t) (hs1_1 t) (ms1_2 t) (hs1_2 t) (ms1_3 t) (hs1_3 t) (ms1_4 t) (hs1_4 t)
    (iblk1 V c 0 t) (iblk1 V c 1 t) (iblk1 V c 2 t) (iblk1 V c 3 t))

theorem W9_out (c : Dev nD) :
    W9 m ρ c (Proc.devRef .tc main_v188)
      = joinArr (flatX (m ((c : Thread nD τ).loc main_arg0))) (W7 m ρ c (Proc.devRef .tc main_v165_0))
          (bnChain (W7 m ρ c (Proc.devRef .tc main_v165_1)) (W7 m ρ c (Proc.devRef .tc main_v165_2)) (m ((c : Thread nD τ).loc main_arg3)) (m ((c : Thread nD τ).loc main_arg4))).1
          (bnChain (W7 m ρ c (Proc.devRef .tc main_v165_1)) (W7 m ρ c (Proc.devRef .tc main_v165_2)) (m ((c : Thread nD τ).loc main_arg3)) (m ((c : Thread nD τ).loc main_arg4))).2 := by
  refine (Wexit1_arr m ρ c 4).trans ?_
  refine (R.arr_eq (dat1 (F := Ideal) (Ventry1 m ρ) c) (Ventry1 m ρ c main_v187) (Ventry1 m ρ c main_v165_0) (Ventry1 m ρ c main_v182) (Ventry1 m ρ c main_v186)
    (hafter (Ventry1 m ρ) c)).trans ?_
  have ex : Ventry1 m ρ c main_v187 = flatX (m ((c : Thread nD τ).loc main_arg0)) :=
    (entryR_x (W7 m ρ c)).trans (congrArg flatX (W7_arg0 m ρ c))
  have ez : Ventry1 m ρ c main_v165_0 = W7 m ρ c (Proc.devRef .tc main_v165_0) := entryR_z (W7 m ρ c)
  have esc : Ventry1 m ρ c main_v182 = (bnChain (W7 m ρ c (Proc.devRef .tc main_v165_1)) (W7 m ρ c (Proc.devRef .tc main_v165_2)) (m ((c : Thread nD τ).loc main_arg3)) (m ((c : Thread nD τ).loc main_arg4))).1 := by
    refine (entryR_scale (W7 m ρ c)).trans ?_
    rw [W7_arg3 m ρ c, W7_arg4 m ρ c]
  have esh : Ventry1 m ρ c main_v186 = (bnChain (W7 m ρ c (Proc.devRef .tc main_v165_1)) (W7 m ρ c (Proc.devRef .tc main_v165_2)) (m ((c : Thread nD τ).loc main_arg3)) (m ((c : Thread nD τ).loc main_arg4))).2 := by
    refine (entryR_shift (W7 m ρ c)).trans ?_
    rw [W7_arg3 m ρ c, W7_arg4 m ρ c]
  rw [ex, ez, esc, esh]

theorem W10_out (c : Dev nD) :
    W10 m ρ c (Proc.devRef .tc main_v189)
      = unflat (joinArr (flatX (m ((c : Thread nD τ).loc main_arg0))) (W7 m ρ c (Proc.devRef .tc main_v165_0))
          (bnChain (W7 m ρ c (Proc.devRef .tc main_v165_1)) (W7 m ρ c (Proc.devRef .tc main_v165_2)) (m ((c : Thread nD τ).loc main_arg3)) (m ((c : Thread nD τ).loc main_arg4))).1
          (bnChain (W7 m ρ c (Proc.devRef .tc main_v165_1)) (W7 m ρ c (Proc.devRef .tc main_v165_2)) (m ((c : Thread nD τ).loc main_arg3)) (m ((c : Thread nD τ).loc main_arg4))).2) := by
  have h : W10 m ρ c (Proc.devRef .tc main_v189) = unflat (W9 m ρ c (Proc.devRef .tc main_v188)) := by
    show StableHlo.after (main_part3_ops2 (F := Ideal)) (W9 m ρ c) (Proc.devRef .tc main_v189) = _
    after_results
    rfl
  rw [h, W9_out m ρ c]

end RSide

end Cert.Val.Tail

end
-- ==== Proof.Val.TailResult.lean ====
import proofs.«125054_g2000703033488327_pallasbulk_1155_2_alg».proof.Proof.Val.TailOutK
import proofs.«125054_g2000703033488327_pallasbulk_1155_2_alg».proof.Proof.Val.TailOutR

set_option maxRecDepth 16384

noncomputable section

namespace Cert.Val.Tail

open Idealize.ShloMosaic Idealize.ShloMosaic.TcCoe Idealize.ShloMosaic.ValueIdx
open Idealize.SL Idealize.SL.Sem

section Result

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (ρ' : Dev Cert.ReferenceIdeal.nD → PrngReg)

theorem result_eq (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (hz : ∀ (n : Fin 64) (o l : Fin 256),
      (Cert.KernelIdeal.Hand.W6 m ρ c (Proc.devRef .tc Cert.KernelIdeal.main_v152_0) : Vec Ideal Cert.KernelIdeal.S64x256x256 .bf16) (ix3 n o l)
        = (Cert.ReferenceIdeal.Hand.W7 m' ρ' c (Proc.devRef .tc Cert.ReferenceIdeal.main_v165_0) : Vec Ideal Cert.ReferenceIdeal.S64x256x256 .f32) (ix3 n o l))
    (hsum : ∀ (n : Fin 64) (o : Fin 256),
      (Cert.KernelIdeal.Hand.W6 m ρ c (Proc.devRef .tc Cert.KernelIdeal.main_v152_1) : Vec Ideal Cert.KernelIdeal.S64x256x1 .f32) (ix3 n o 0)
        = (Cert.ReferenceIdeal.Hand.W7 m' ρ' c (Proc.devRef .tc Cert.ReferenceIdeal.main_v165_1) : Vec Ideal Cert.ReferenceIdeal.S64x256x1 .f32) (ix3 n o 0))
    (hssq : ∀ (n : Fin 64) (o : Fin 256),
      (Cert.KernelIdeal.Hand.W6 m ρ c (Proc.devRef .tc Cert.KernelIdeal.main_v152_2) : Vec Ideal Cert.KernelIdeal.S64x256x1 .f32) (ix3 n o 0)
        = (Cert.ReferenceIdeal.Hand.W7 m' ρ' c (Proc.devRef .tc Cert.ReferenceIdeal.main_v165_2) : Vec Ideal Cert.ReferenceIdeal.S64x256x1 .f32) (ix3 n o 0)) :
    Cert.KernelIdeal.Hand.W10 m ρ c (Proc.devRef .tc Cert.KernelIdeal.main_v176)
      = Cert.ReferenceIdeal.Hand.W10 m' ρ' c (Proc.devRef .tc Cert.ReferenceIdeal.main_v189) := by
  obtain ⟨a0, -, -, a3, a4⟩ := hagree
  have ez : (Cert.KernelIdeal.Hand.W6 m ρ c (Proc.devRef .tc Cert.KernelIdeal.main_v152_0) : (⟨3, ![64, 256, 256]⟩ : Shape).Idx → EReal)
      = Cert.ReferenceIdeal.Hand.W7 m' ρ' c (Proc.devRef .tc Cert.ReferenceIdeal.main_v165_0) := by
    funext j
    obtain ⟨a, b, d, rfl⟩ : ∃ (a : Fin 64) (b d : Fin 256), j = ix3 a b d := ⟨j 0, j 1, j 2, eq_ix3 j⟩
    exact hz a b d
  have e1 : (Cert.KernelIdeal.Hand.W6 m ρ c (Proc.devRef .tc Cert.KernelIdeal.main_v152_1) : FVec Ideal Cert.KernelIdeal.S64x256x1 .f32)
      = Cert.ReferenceIdeal.Hand.W7 m' ρ' c (Proc.devRef .tc Cert.ReferenceIdeal.main_v165_1) := by
    funext j
    obtain ⟨a, b, d, rfl⟩ : ∃ (a : Fin 64) (b : Fin 256) (d : Fin 1), j = ix3 a b d := ⟨j 0, j 1, j 2, eq_ix3 j⟩
    have hd : d = 0 := Fin.ext (by have := d.isLt; omega)
    subst hd
    exact hsum a b
  have e2 : (Cert.KernelIdeal.Hand.W6 m ρ c (Proc.devRef .tc Cert.KernelIdeal.main_v152_2) : FVec Ideal Cert.KernelIdeal.S64x256x1 .f32)
      = Cert.ReferenceIdeal.Hand.W7 m' ρ' c (Proc.devRef .tc Cert.ReferenceIdeal.main_v165_2) := by
    funext j
    obtain ⟨a, b, d, rfl⟩ : ∃ (a : Fin 64) (b : Fin 256) (d : Fin 1), j = ix3 a b d := ⟨j 0, j 1, j 2, eq_ix3 j⟩
    have hd : d = 0 := Fin.ext (by have := d.isLt; omega)
    subst hd
    exact hssq a b
  have key : ∀ (x x' : Vec Ideal Cert.KernelIdeal.S64x256x16x16 .f32) (z z' : (⟨3, ![64, 256, 256]⟩ : Shape).Idx → EReal)
      (s1 s1' s2 s2' : FVec Ideal Cert.KernelIdeal.S64x256x1 .f32) (g g' b b' : FVec Ideal Cert.KernelIdeal.S256 .f32),
      x = x' → z = z' → s1 = s1' → s2 = s2' → g = g' → b = b' →
      unflat (joinArr (flatX x) z (bnChain s1 s2 g b).1 (bnChain s1 s2 g b).2)
        = unflat (joinArr (flatX x') z' (bnChain s1' s2' g' b').1 (bnChain s1' s2' g' b').2) := by
    intro x x' z z' s1 s1' s2 s2' g g' b b' hx hz' h1 h2 hg hb
    subst hx hz' h1 h2 hg hb
    rfl
  refine (KSide.W10_out m ρ c).trans ?_
  refine Eq.trans ?_ (RSide.W10_out m' ρ' c).symm
  exact key _ _ _ _ _ _ _ _ _ _ _ _ a0.symm ez e1 e2 a3.symm a4.symm

end Result

end Cert.Val.Tail

end
-- ==== Proof.Val.Algebraic.lean ====
import proofs.«125054_g2000703033488327_pallasbulk_1155_2_alg».proof.Defs
import proofs.«125054_g2000703033488327_pallasbulk_1155_2_alg».proof.Proof.Gen.Pre_finite_inputs
import proofs.«125054_g2000703033488327_pallasbulk_1155_2_alg».proof.Proof.KI.Run
import proofs.«125054_g2000703033488327_pallasbulk_1155_2_alg».proof.Proof.RI.Run
import proofs.«125054_g2000703033488327_pallasbulk_1155_2_alg».proof.Proof.Val.Glue
import proofs.«125054_g2000703033488327_pallasbulk_1155_2_alg».proof.Proof.Val.TailResult

noncomputable section

namespace Cert.Val

open Idealize.ShloMosaic Idealize.ShloMosaic.TcCoe Idealize.SL.Sem

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  unfold Cert.algebraic_KernelIdeal_ReferenceIdeal
  intro m ρ m' ρ' _ hagree
  refine ⟨fun c => Cert.KernelIdeal.Hand.W10 (F := Ideal) m ρ c (Proc.devRef .tc Cert.KernelIdeal.main_v176), ?_, ?_⟩
  · refine (θ_run (Cert.KernelIdeal.defs (F := Ideal)) _ _).mono (fun r h c => ?_) (Cert.KernelIdeal.Hand.run_all (F := Ideal) m ρ)
    exact ⟨h c _ (Cert.KernelIdeal.Hand.mem_uc Cert.KernelIdeal.main_v176 (by decide)),
      (h c _ (Cert.KernelIdeal.Hand.mem_uc Cert.KernelIdeal.main_arg0 (by decide))).trans (Cert.KernelIdeal.Hand.W10_arg m ρ c (by decide)),
      (h c _ (Cert.KernelIdeal.Hand.mem_uc Cert.KernelIdeal.main_arg1 (by decide))).trans (Cert.KernelIdeal.Hand.W10_arg m ρ c (by decide)),
      (h c _ (Cert.KernelIdeal.Hand.mem_uc Cert.KernelIdeal.main_arg2 (by decide))).trans (Cert.KernelIdeal.Hand.W10_arg m ρ c (by decide)),
      (h c _ (Cert.KernelIdeal.Hand.mem_uc Cert.KernelIdeal.main_arg3 (by decide))).trans (Cert.KernelIdeal.Hand.W10_arg m ρ c (by decide)),
      (h c _ (Cert.KernelIdeal.Hand.mem_uc Cert.KernelIdeal.main_arg4 (by decide))).trans (Cert.KernelIdeal.Hand.W10_arg m ρ c (by decide))⟩
  · refine (θ_run (Cert.ReferenceIdeal.defs (F := Ideal)) _ _).mono (fun r h c => ?_) (Cert.ReferenceIdeal.Hand.run_all (F := Ideal) m' ρ')
    exact ⟨(h c _ (Cert.ReferenceIdeal.Hand.mem_uc Cert.ReferenceIdeal.main_v189 (by decide))).trans
        (Cert.Val.Tail.result_eq m ρ m' ρ' c (hagree c) (Cert.Val.Glue.hz m ρ m' ρ' c (hagree c)) (Cert.Val.Glue.hsum m ρ m' ρ' c (hagree c)) (Cert.Val.Glue.hssq m ρ m' ρ' c (hagree c))).symm,
      (h c _ (Cert.ReferenceIdeal.Hand.mem_uc Cert.ReferenceIdeal.main_arg0 (by decide))).trans (Cert.ReferenceIdeal.Hand.W10_arg m' ρ' c (by decide)),
      (h c _ (Cert.ReferenceIdeal.Hand.mem_uc Cert.ReferenceIdeal.main_arg1 (by decide))).trans (Cert.ReferenceIdeal.Hand.W10_arg m' ρ' c (by decide)),
      (h c _ (Cert.ReferenceIdeal.Hand.mem_uc Cert.ReferenceIdeal.main_arg2 (by decide))).trans (Cert.ReferenceIdeal.Hand.W10_arg m' ρ' c (by decide)),
      (h c _ (Cert.ReferenceIdeal.Hand.mem_uc Cert.ReferenceIdeal.main_arg3 (by decide))).trans (Cert.ReferenceIdeal.Hand.W10_arg m' ρ' c (by decide)),
      (h c _ (Cert.ReferenceIdeal.Hand.mem_uc Cert.ReferenceIdeal.main_arg4 (by decide))).trans (Cert.ReferenceIdeal.Hand.W10_arg m' ρ' c (by decide))⟩

end Cert.Val

end
-- ==== Proof.lean ====
import proofs.«125054_g2000703033488327_pallasbulk_1155_2_alg».proof.Defs
import proofs.«125054_g2000703033488327_pallasbulk_1155_2_alg».proof.Proof.Gen.Kernel
import proofs.«125054_g2000703033488327_pallasbulk_1155_2_alg».proof.Proof.Gen.KernelIdeal
import proofs.«125054_g2000703033488327_pallasbulk_1155_2_alg».proof.Proof.Gen.ReferenceIdeal
import proofs.«125054_g2000703033488327_pallasbulk_1155_2_alg».proof.Proof.Gen.Pre_finite_inputs
import proofs.«125054_g2000703033488327_pallasbulk_1155_2_alg».proof.Proof.KI.Bits
import proofs.«125054_g2000703033488327_pallasbulk_1155_2_alg».proof.Proof.RI.Run
import proofs.«125054_g2000703033488327_pallasbulk_1155_2_alg».proof.Proof.Val.Algebraic

noncomputable section

namespace Cert.Proof

open Idealize.ShloMosaic Idealize.SL.Sem

-- the word-level program and its idealization are one text, so one frame serves both; the values agree over the extended reals
theorem claim : Cert.Claim :=
  ⟨Cert.Kernel.Gen.facts, Cert.KernelIdeal.Gen.facts, Cert.ReferenceIdeal.Gen.facts, Cert.Pre_finite_inputs.Gen.facts,
    Cert.Kernel.Hand.frame,
    fun m ρ _ => Cert.KernelIdeal.Hand.frame (F := Ideal) m ρ,
    fun m ρ _ => Cert.ReferenceIdeal.Hand.frame (F := Ideal) m ρ,
    trivial,
    Cert.Val.algebraic⟩

end Cert.Proof

end
